-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S4096x512 : Shape := ⟨2, ![4096, 512]⟩
abbrev S16 : Shape := ⟨1, ![16]⟩
abbrev S_ : Shape := ⟨0, ![]⟩
abbrev S1 : Shape := ⟨1, ![1]⟩
abbrev S48x512 : Shape := ⟨2, ![48, 512]⟩
abbrev S40x512 : Shape := ⟨2, ![40, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .local _ .vmem, ⟨0, _⟩ => ⟨S2048x512, .f32⟩
  | .local _ .vmem, ⟨1, _⟩ => ⟨S4096x512, .f32⟩
  | _, _ => ⟨S2048x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_12 : BitVec 32 := 8#32
  let v25 : BitVec 32 := Scalar.muli v19 c8_i32_12
  let v26 : BitVec 32 := Scalar.addi c0_i32_13 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v27 : BitVec 32 := Scalar.muli v5 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v31 : BitVec 32 := Scalar.muli v2 c8_i32_17
  let v32 : BitVec 32 := Scalar.addi c0_i32_18 v31
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_19 : BitVec 32 := 4#32
  let v33 : BitVec 32 := Scalar.muli v20 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v37 : BitVec 32 := Scalar.muli v2 c8_i32_22
  let v38 : BitVec 32 := Scalar.addi c0_i32_23 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v39 : BitVec 32 := Scalar.muli v5 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_25 : BitVec 32 := 1#32
  let v41 : BitVec 32 := Scalar.muli v23 c1_i32_25
  let v42 : BitVec 32 := Scalar.addi v40 v41
  v42.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c0_i32_28 : BitVec 32 := 0#32
  ![v43.toNat, 0]
def k0_cond1 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_29 : BitVec 32 := 0#32
  let v47 : BitVec 1 := Scalar.cmpi .eq v5 c0_i32_29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_30 : BitVec 32 := 0#32
  let v48 : BitVec 1 := Scalar.cmpi .eq v18 c0_i32_30
  let v49 : BitVec 1 := Scalar.andi v47 v48
  let v50 : BitVec 32 := Scalar.extui v49
  let c0_i32_31 : BitVec 32 := 0#32
  let v51 : BitVec 1 := Scalar.cmpi .ne v50 c0_i32_31
  v51

def k0_off2 (d0 : Dev nD) (c0_i32_43 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c0_i32_42 : BitVec 32 := 0#32
  let v68 : BitVec 32 := Scalar.addi v43 c0_i32_42
  let v69 : BitVec 32 := Scalar.addi v68 c0_i32_43
  let c0_i32_50 : BitVec 32 := 0#32
  ![v69.toNat, 0]
def k0_dev4 (d0 : Dev nD) : Nat :=
  let c0_i32_47 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_46 : BitVec 32 := 8#32
  let v70 : BitVec 32 := Scalar.muli v19 c8_i32_46
  let v71 : BitVec 32 := Scalar.addi c0_i32_47 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v72 : BitVec 32 := Scalar.muli v5 c4_i32_48
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v74 : BitVec 32 := Scalar.muli v8 c1_i32_49
  let v75 : BitVec 32 := Scalar.addi v73 v74
  v75.toNat
def k0_dev5 (d0 : Dev nD) : Nat :=
  let c0_i32_57 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_56 : BitVec 32 := 8#32
  let v84 : BitVec 32 := Scalar.muli v19 c8_i32_56
  let v85 : BitVec 32 := Scalar.addi c0_i32_57 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_58 : BitVec 32 := 4#32
  let v86 : BitVec 32 := Scalar.muli v5 c4_i32_58
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v88 : BitVec 32 := Scalar.muli v8 c1_i32_59
  let v89 : BitVec 32 := Scalar.addi v87 v88
  v89.toNat
def k0_dev6 (d0 : Dev nD) : Nat :=
  let c0_i32_67 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_66 : BitVec 32 := 8#32
  let v98 : BitVec 32 := Scalar.muli v19 c8_i32_66
  let v99 : BitVec 32 := Scalar.addi c0_i32_67 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v100 : BitVec 32 := Scalar.muli v5 c4_i32_68
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v102 : BitVec 32 := Scalar.muli v8 c1_i32_69
  let v103 : BitVec 32 := Scalar.addi v101 v102
  v103.toNat
def k0_dev7 (d0 : Dev nD) : Nat :=
  let c0_i32_77 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_76 : BitVec 32 := 8#32
  let v112 : BitVec 32 := Scalar.muli v19 c8_i32_76
  let v113 : BitVec 32 := Scalar.addi c0_i32_77 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v114 : BitVec 32 := Scalar.muli v5 c4_i32_78
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v116 : BitVec 32 := Scalar.muli v8 c1_i32_79
  let v117 : BitVec 32 := Scalar.addi v115 v116
  v117.toNat
def k0_dev8 (d0 : Dev nD) : Nat :=
  let c0_i32_87 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_86 : BitVec 32 := 8#32
  let v126 : BitVec 32 := Scalar.muli v19 c8_i32_86
  let v127 : BitVec 32 := Scalar.addi c0_i32_87 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v128 : BitVec 32 := Scalar.muli v5 c4_i32_88
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v130 : BitVec 32 := Scalar.muli v8 c1_i32_89
  let v131 : BitVec 32 := Scalar.addi v129 v130
  v131.toNat
def k0_off3 (d0 : Dev nD) (c240_i32 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c0_i32_93 : BitVec 32 := 0#32
  let v138 : BitVec 32 := Scalar.addi v43 c0_i32_93
  let v139 : BitVec 32 := Scalar.addi v138 c240_i32
  let c0_i32_99 : BitVec 32 := 0#32
  ![v139.toNat, 0]
def k0_dev9 (d0 : Dev nD) : Nat :=
  let c0_i32_96 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_95 : BitVec 32 := 8#32
  let v140 : BitVec 32 := Scalar.muli v19 c8_i32_95
  let v141 : BitVec 32 := Scalar.addi c0_i32_96 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_97 : BitVec 32 := 4#32
  let v142 : BitVec 32 := Scalar.muli v5 c4_i32_97
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v144 : BitVec 32 := Scalar.muli v8 c1_i32_98
  let v145 : BitVec 32 := Scalar.addi v143 v144
  v145.toNat
def k0_dev10 (d0 : Dev nD) : Nat :=
  let c0_i32_105 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_104 : BitVec 32 := 8#32
  let v154 : BitVec 32 := Scalar.muli v19 c8_i32_104
  let v155 : BitVec 32 := Scalar.addi c0_i32_105 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v156 : BitVec 32 := Scalar.muli v5 c4_i32_106
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v158 : BitVec 32 := Scalar.muli v8 c1_i32_107
  let v159 : BitVec 32 := Scalar.addi v157 v158
  v159.toNat
def k0_dev11 (d0 : Dev nD) : Nat :=
  let c0_i32_114 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_113 : BitVec 32 := 8#32
  let v168 : BitVec 32 := Scalar.muli v19 c8_i32_113
  let v169 : BitVec 32 := Scalar.addi c0_i32_114 v168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v170 : BitVec 32 := Scalar.muli v5 c4_i32_115
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v172 : BitVec 32 := Scalar.muli v8 c1_i32_116
  let v173 : BitVec 32 := Scalar.addi v171 v172
  v173.toNat
def k0_dev12 (d0 : Dev nD) : Nat :=
  let c0_i32_124 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_123 : BitVec 32 := 8#32
  let v182 : BitVec 32 := Scalar.muli v19 c8_i32_123
  let v183 : BitVec 32 := Scalar.addi c0_i32_124 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v184 : BitVec 32 := Scalar.muli v5 c4_i32_125
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v186 : BitVec 32 := Scalar.muli v8 c1_i32_126
  let v187 : BitVec 32 := Scalar.addi v185 v186
  v187.toNat
def k0_dev13 (d0 : Dev nD) : Nat :=
  let c0_i32_133 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_132 : BitVec 32 := 8#32
  let v196 : BitVec 32 := Scalar.muli v19 c8_i32_132
  let v197 : BitVec 32 := Scalar.addi c0_i32_133 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_134 : BitVec 32 := 4#32
  let v198 : BitVec 32 := Scalar.muli v5 c4_i32_134
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v200 : BitVec 32 := Scalar.muli v8 c1_i32_135
  let v201 : BitVec 32 := Scalar.addi v199 v200
  v201.toNat
def k0_dev14 (d0 : Dev nD) : Nat :=
  let c0_i32_142 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_141 : BitVec 32 := 8#32
  let v210 : BitVec 32 := Scalar.muli v19 c8_i32_141
  let v211 : BitVec 32 := Scalar.addi c0_i32_142 v210
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_143 : BitVec 32 := 4#32
  let v212 : BitVec 32 := Scalar.muli v5 c4_i32_143
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v214 : BitVec 32 := Scalar.muli v8 c1_i32_144
  let v215 : BitVec 32 := Scalar.addi v213 v214
  v215.toNat
def k0_dev15 (d0 : Dev nD) : Nat :=
  let c0_i32_151 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_150 : BitVec 32 := 8#32
  let v224 : BitVec 32 := Scalar.muli v19 c8_i32_150
  let v225 : BitVec 32 := Scalar.addi c0_i32_151 v224
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_152 : BitVec 32 := 4#32
  let v226 : BitVec 32 := Scalar.muli v5 c4_i32_152
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v228 : BitVec 32 := Scalar.muli v8 c1_i32_153
  let v229 : BitVec 32 := Scalar.addi v227 v228
  v229.toNat
def k0_dev16 (d0 : Dev nD) : Nat :=
  let c0_i32_160 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_159 : BitVec 32 := 8#32
  let v238 : BitVec 32 := Scalar.muli v19 c8_i32_159
  let v239 : BitVec 32 := Scalar.addi c0_i32_160 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_161 : BitVec 32 := 4#32
  let v240 : BitVec 32 := Scalar.muli v5 c4_i32_161
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v242 : BitVec 32 := Scalar.muli v8 c1_i32_162
  let v243 : BitVec 32 := Scalar.addi v241 v242
  v243.toNat
def k0_dev17 (d0 : Dev nD) : Nat :=
  let c0_i32_169 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_168 : BitVec 32 := 8#32
  let v252 : BitVec 32 := Scalar.muli v19 c8_i32_168
  let v253 : BitVec 32 := Scalar.addi c0_i32_169 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_170 : BitVec 32 := 4#32
  let v254 : BitVec 32 := Scalar.muli v5 c4_i32_170
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v256 : BitVec 32 := Scalar.muli v8 c1_i32_171
  let v257 : BitVec 32 := Scalar.addi v255 v256
  v257.toNat
def k0_dev18 (d0 : Dev nD) : Nat :=
  let c0_i32_178 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_177 : BitVec 32 := 8#32
  let v266 : BitVec 32 := Scalar.muli v19 c8_i32_177
  let v267 : BitVec 32 := Scalar.addi c0_i32_178 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_179 : BitVec 32 := 4#32
  let v268 : BitVec 32 := Scalar.muli v5 c4_i32_179
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v270 : BitVec 32 := Scalar.muli v8 c1_i32_180
  let v271 : BitVec 32 := Scalar.addi v269 v270
  v271.toNat
def k0_dev19 (d0 : Dev nD) : Nat :=
  let c0_i32_187 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_186 : BitVec 32 := 8#32
  let v280 : BitVec 32 := Scalar.muli v19 c8_i32_186
  let v281 : BitVec 32 := Scalar.addi c0_i32_187 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v282 : BitVec 32 := Scalar.muli v5 c4_i32_188
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v284 : BitVec 32 := Scalar.muli v8 c1_i32_189
  let v285 : BitVec 32 := Scalar.addi v283 v284
  v285.toNat
def k0_off4 (d0 : Dev nD) (c0_i32_257 : BitVec 32) (c0_i32_258 : BitVec 32) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c2048_i32_27 : BitVec 32 := 2048#32
  let v45 : BitVec 32 := Scalar.muli v44 c2048_i32_27
  let v368 : BitVec 32 := Scalar.addi v45 c0_i32_257
  let v369 : BitVec 32 := Scalar.addi v368 c0_i32_258
  let c0_i32_265 : BitVec 32 := 0#32
  ![v369.toNat, 0]
def k0_off4_at (r : Fin 11) : BitVec 32 × BitVec 32 :=
  if r.val < 5 then
    if r.val < 2 then
      if r.val < 1 then
        (0#32, 0#32)
      else
        (0#32, 48#32)
    else
      if r.val < 3 then
        (0#32, 96#32)
      else
        if r.val < 4 then
          (0#32, 144#32)
        else
          (0#32, 192#32)
  else
    if r.val < 8 then
      if r.val < 6 then
        (680#32, 0#32)
      else
        if r.val < 7 then
          (680#32, 48#32)
        else
          (680#32, 96#32)
    else
      if r.val < 9 then
        (680#32, 144#32)
      else
        if r.val < 10 then
          (680#32, 192#32)
        else
          (680#32, 240#32)
def k0_dev20 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v370 : BitVec 32 := Scalar.muli v2 c8_i32_261
  let v371 : BitVec 32 := Scalar.addi c0_i32_262 v370
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_263 : BitVec 32 := 4#32
  let v372 : BitVec 32 := Scalar.muli v20 c4_i32_263
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v374 : BitVec 32 := Scalar.muli v8 c1_i32_264
  let v375 : BitVec 32 := Scalar.addi v373 v374
  v375.toNat
def k0_dev21 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_273 : BitVec 32 := 8#32
  let v386 : BitVec 32 := Scalar.muli v2 c8_i32_273
  let v387 : BitVec 32 := Scalar.addi c0_i32_274 v386
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_275 : BitVec 32 := 4#32
  let v388 : BitVec 32 := Scalar.muli v5 c4_i32_275
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_276 : BitVec 32 := 1#32
  let v390 : BitVec 32 := Scalar.muli v23 c1_i32_276
  let v391 : BitVec 32 := Scalar.addi v389 v390
  v391.toNat
def k0_dev22 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v412 : BitVec 32 := Scalar.muli v2 c8_i32_294
  let v413 : BitVec 32 := Scalar.addi c0_i32_295 v412
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_296 : BitVec 32 := 4#32
  let v414 : BitVec 32 := Scalar.muli v20 c4_i32_296
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v416 : BitVec 32 := Scalar.muli v8 c1_i32_297
  let v417 : BitVec 32 := Scalar.addi v415 v416
  v417.toNat
def k0_dev23 (d0 : Dev nD) : Nat :=
  let c0_i32_307 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_306 : BitVec 32 := 8#32
  let v428 : BitVec 32 := Scalar.muli v2 c8_i32_306
  let v429 : BitVec 32 := Scalar.addi c0_i32_307 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_308 : BitVec 32 := 4#32
  let v430 : BitVec 32 := Scalar.muli v5 c4_i32_308
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_309 : BitVec 32 := 1#32
  let v432 : BitVec 32 := Scalar.muli v23 c1_i32_309
  let v433 : BitVec 32 := Scalar.addi v431 v432
  v433.toNat
def k0_dev24 (d0 : Dev nD) : Nat :=
  let c0_i32_328 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_327 : BitVec 32 := 8#32
  let v454 : BitVec 32 := Scalar.muli v2 c8_i32_327
  let v455 : BitVec 32 := Scalar.addi c0_i32_328 v454
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_329 : BitVec 32 := 4#32
  let v456 : BitVec 32 := Scalar.muli v20 c4_i32_329
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v458 : BitVec 32 := Scalar.muli v8 c1_i32_330
  let v459 : BitVec 32 := Scalar.addi v457 v458
  v459.toNat
def k0_dev25 (d0 : Dev nD) : Nat :=
  let c0_i32_340 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_339 : BitVec 32 := 8#32
  let v470 : BitVec 32 := Scalar.muli v2 c8_i32_339
  let v471 : BitVec 32 := Scalar.addi c0_i32_340 v470
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_341 : BitVec 32 := 4#32
  let v472 : BitVec 32 := Scalar.muli v5 c4_i32_341
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_342 : BitVec 32 := 1#32
  let v474 : BitVec 32 := Scalar.muli v23 c1_i32_342
  let v475 : BitVec 32 := Scalar.addi v473 v474
  v475.toNat
def k0_dev26 (d0 : Dev nD) : Nat :=
  let c0_i32_361 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_360 : BitVec 32 := 8#32
  let v496 : BitVec 32 := Scalar.muli v2 c8_i32_360
  let v497 : BitVec 32 := Scalar.addi c0_i32_361 v496
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_362 : BitVec 32 := 4#32
  let v498 : BitVec 32 := Scalar.muli v20 c4_i32_362
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v500 : BitVec 32 := Scalar.muli v8 c1_i32_363
  let v501 : BitVec 32 := Scalar.addi v499 v500
  v501.toNat
def k0_dev27 (d0 : Dev nD) : Nat :=
  let c0_i32_373 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_372 : BitVec 32 := 8#32
  let v512 : BitVec 32 := Scalar.muli v2 c8_i32_372
  let v513 : BitVec 32 := Scalar.addi c0_i32_373 v512
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_374 : BitVec 32 := 4#32
  let v514 : BitVec 32 := Scalar.muli v5 c4_i32_374
  let v515 : BitVec 32 := Scalar.addi v513 v514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_375 : BitVec 32 := 1#32
  let v516 : BitVec 32 := Scalar.muli v23 c1_i32_375
  let v517 : BitVec 32 := Scalar.addi v515 v516
  v517.toNat
def k0_dev28 (d0 : Dev nD) : Nat :=
  let c0_i32_394 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_393 : BitVec 32 := 8#32
  let v538 : BitVec 32 := Scalar.muli v2 c8_i32_393
  let v539 : BitVec 32 := Scalar.addi c0_i32_394 v538
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_395 : BitVec 32 := 4#32
  let v540 : BitVec 32 := Scalar.muli v20 c4_i32_395
  let v541 : BitVec 32 := Scalar.addi v539 v540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_396 : BitVec 32 := 1#32
  let v542 : BitVec 32 := Scalar.muli v8 c1_i32_396
  let v543 : BitVec 32 := Scalar.addi v541 v542
  v543.toNat
def k0_dev29 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v554 : BitVec 32 := Scalar.muli v2 c8_i32_405
  let v555 : BitVec 32 := Scalar.addi c0_i32_406 v554
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_407 : BitVec 32 := 4#32
  let v556 : BitVec 32 := Scalar.muli v5 c4_i32_407
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_408 : BitVec 32 := 1#32
  let v558 : BitVec 32 := Scalar.muli v23 c1_i32_408
  let v559 : BitVec 32 := Scalar.addi v557 v558
  v559.toNat
def k0_off5 (d0 : Dev nD) (c0_i32_422 : BitVec 32) (c240_i32_423 : BitVec 32) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c2048_i32_27 : BitVec 32 := 2048#32
  let v45 : BitVec 32 := Scalar.muli v44 c2048_i32_27
  let v578 : BitVec 32 := Scalar.addi v45 c0_i32_422
  let v579 : BitVec 32 := Scalar.addi v578 c240_i32_423
  let c0_i32_430 : BitVec 32 := 0#32
  ![v579.toNat, 0]
def k0_off5_at (r : Fin 21) : BitVec 32 × BitVec 32 :=
  if r.val < 10 then
    if r.val < 5 then
      if r.val < 2 then
        if r.val < 1 then
          (0#32, 240#32)
        else
          (0#32, 280#32)
      else
        if r.val < 3 then
          (0#32, 320#32)
        else
          if r.val < 4 then
            (0#32, 360#32)
          else
            (0#32, 400#32)
    else
      if r.val < 7 then
        if r.val < 6 then
          (0#32, 440#32)
        else
          (0#32, 480#32)
      else
        if r.val < 8 then
          (0#32, 520#32)
        else
          if r.val < 9 then
            (0#32, 560#32)
          else
            (0#32, 600#32)
  else
    if r.val < 15 then
      if r.val < 12 then
        if r.val < 11 then
          (0#32, 640#32)
        else
          (680#32, 288#32)
      else
        if r.val < 13 then
          (680#32, 328#32)
        else
          if r.val < 14 then
            (680#32, 368#32)
          else
            (680#32, 408#32)
    else
      if r.val < 18 then
        if r.val < 16 then
          (680#32, 448#32)
        else
          if r.val < 17 then
            (680#32, 488#32)
          else
            (680#32, 528#32)
      else
        if r.val < 19 then
          (680#32, 568#32)
        else
          if r.val < 20 then
            (680#32, 608#32)
          else
            (680#32, 648#32)
def k0_dev30 (d0 : Dev nD) : Nat :=
  let c0_i32_427 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_426 : BitVec 32 := 8#32
  let v580 : BitVec 32 := Scalar.muli v2 c8_i32_426
  let v581 : BitVec 32 := Scalar.addi c0_i32_427 v580
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_428 : BitVec 32 := 4#32
  let v582 : BitVec 32 := Scalar.muli v20 c4_i32_428
  let v583 : BitVec 32 := Scalar.addi v581 v582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v584 : BitVec 32 := Scalar.muli v8 c1_i32_429
  let v585 : BitVec 32 := Scalar.addi v583 v584
  v585.toNat
def k0_dev31 (d0 : Dev nD) : Nat :=
  let c0_i32_439 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_438 : BitVec 32 := 8#32
  let v596 : BitVec 32 := Scalar.muli v2 c8_i32_438
  let v597 : BitVec 32 := Scalar.addi c0_i32_439 v596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_440 : BitVec 32 := 4#32
  let v598 : BitVec 32 := Scalar.muli v5 c4_i32_440
  let v599 : BitVec 32 := Scalar.addi v597 v598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_441 : BitVec 32 := 1#32
  let v600 : BitVec 32 := Scalar.muli v23 c1_i32_441
  let v601 : BitVec 32 := Scalar.addi v599 v600
  v601.toNat
def k0_dev32 (d0 : Dev nD) : Nat :=
  let c0_i32_460 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_459 : BitVec 32 := 8#32
  let v622 : BitVec 32 := Scalar.muli v2 c8_i32_459
  let v623 : BitVec 32 := Scalar.addi c0_i32_460 v622
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_461 : BitVec 32 := 4#32
  let v624 : BitVec 32 := Scalar.muli v20 c4_i32_461
  let v625 : BitVec 32 := Scalar.addi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v626 : BitVec 32 := Scalar.muli v8 c1_i32_462
  let v627 : BitVec 32 := Scalar.addi v625 v626
  v627.toNat
def k0_dev33 (d0 : Dev nD) : Nat :=
  let c0_i32_472 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_471 : BitVec 32 := 8#32
  let v638 : BitVec 32 := Scalar.muli v2 c8_i32_471
  let v639 : BitVec 32 := Scalar.addi c0_i32_472 v638
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v640 : BitVec 32 := Scalar.muli v5 c4_i32_473
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_474 : BitVec 32 := 1#32
  let v642 : BitVec 32 := Scalar.muli v23 c1_i32_474
  let v643 : BitVec 32 := Scalar.addi v641 v642
  v643.toNat
def k0_dev34 (d0 : Dev nD) : Nat :=
  let c0_i32_493 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_492 : BitVec 32 := 8#32
  let v664 : BitVec 32 := Scalar.muli v2 c8_i32_492
  let v665 : BitVec 32 := Scalar.addi c0_i32_493 v664
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_494 : BitVec 32 := 4#32
  let v666 : BitVec 32 := Scalar.muli v20 c4_i32_494
  let v667 : BitVec 32 := Scalar.addi v665 v666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495 : BitVec 32 := 1#32
  let v668 : BitVec 32 := Scalar.muli v8 c1_i32_495
  let v669 : BitVec 32 := Scalar.addi v667 v668
  v669.toNat
def k0_dev35 (d0 : Dev nD) : Nat :=
  let c0_i32_505 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_504 : BitVec 32 := 8#32
  let v680 : BitVec 32 := Scalar.muli v2 c8_i32_504
  let v681 : BitVec 32 := Scalar.addi c0_i32_505 v680
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_506 : BitVec 32 := 4#32
  let v682 : BitVec 32 := Scalar.muli v5 c4_i32_506
  let v683 : BitVec 32 := Scalar.addi v681 v682
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_507 : BitVec 32 := 1#32
  let v684 : BitVec 32 := Scalar.muli v23 c1_i32_507
  let v685 : BitVec 32 := Scalar.addi v683 v684
  v685.toNat
def k0_dev36 (d0 : Dev nD) : Nat :=
  let c0_i32_526 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_525 : BitVec 32 := 8#32
  let v706 : BitVec 32 := Scalar.muli v2 c8_i32_525
  let v707 : BitVec 32 := Scalar.addi c0_i32_526 v706
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_527 : BitVec 32 := 4#32
  let v708 : BitVec 32 := Scalar.muli v20 c4_i32_527
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_528 : BitVec 32 := 1#32
  let v710 : BitVec 32 := Scalar.muli v8 c1_i32_528
  let v711 : BitVec 32 := Scalar.addi v709 v710
  v711.toNat
def k0_dev37 (d0 : Dev nD) : Nat :=
  let c0_i32_538 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_537 : BitVec 32 := 8#32
  let v722 : BitVec 32 := Scalar.muli v2 c8_i32_537
  let v723 : BitVec 32 := Scalar.addi c0_i32_538 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_539 : BitVec 32 := 4#32
  let v724 : BitVec 32 := Scalar.muli v5 c4_i32_539
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_540 : BitVec 32 := 1#32
  let v726 : BitVec 32 := Scalar.muli v23 c1_i32_540
  let v727 : BitVec 32 := Scalar.addi v725 v726
  v727.toNat
def k0_dev38 (d0 : Dev nD) : Nat :=
  let c0_i32_559 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_558 : BitVec 32 := 8#32
  let v748 : BitVec 32 := Scalar.muli v2 c8_i32_558
  let v749 : BitVec 32 := Scalar.addi c0_i32_559 v748
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_560 : BitVec 32 := 4#32
  let v750 : BitVec 32 := Scalar.muli v20 c4_i32_560
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_561 : BitVec 32 := 1#32
  let v752 : BitVec 32 := Scalar.muli v8 c1_i32_561
  let v753 : BitVec 32 := Scalar.addi v751 v752
  v753.toNat
def k0_dev39 (d0 : Dev nD) : Nat :=
  let c0_i32_571 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_570 : BitVec 32 := 8#32
  let v764 : BitVec 32 := Scalar.muli v2 c8_i32_570
  let v765 : BitVec 32 := Scalar.addi c0_i32_571 v764
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_572 : BitVec 32 := 4#32
  let v766 : BitVec 32 := Scalar.muli v5 c4_i32_572
  let v767 : BitVec 32 := Scalar.addi v765 v766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_573 : BitVec 32 := 1#32
  let v768 : BitVec 32 := Scalar.muli v23 c1_i32_573
  let v769 : BitVec 32 := Scalar.addi v767 v768
  v769.toNat
def k0_dev40 (d0 : Dev nD) : Nat :=
  let c0_i32_592 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_591 : BitVec 32 := 8#32
  let v790 : BitVec 32 := Scalar.muli v2 c8_i32_591
  let v791 : BitVec 32 := Scalar.addi c0_i32_592 v790
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_593 : BitVec 32 := 4#32
  let v792 : BitVec 32 := Scalar.muli v20 c4_i32_593
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v794 : BitVec 32 := Scalar.muli v8 c1_i32_594
  let v795 : BitVec 32 := Scalar.addi v793 v794
  v795.toNat
def k0_dev41 (d0 : Dev nD) : Nat :=
  let c0_i32_604 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_603 : BitVec 32 := 8#32
  let v806 : BitVec 32 := Scalar.muli v2 c8_i32_603
  let v807 : BitVec 32 := Scalar.addi c0_i32_604 v806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_605 : BitVec 32 := 4#32
  let v808 : BitVec 32 := Scalar.muli v5 c4_i32_605
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_606 : BitVec 32 := 1#32
  let v810 : BitVec 32 := Scalar.muli v23 c1_i32_606
  let v811 : BitVec 32 := Scalar.addi v809 v810
  v811.toNat
def k0_dev42 (d0 : Dev nD) : Nat :=
  let c0_i32_625 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_624 : BitVec 32 := 8#32
  let v832 : BitVec 32 := Scalar.muli v2 c8_i32_624
  let v833 : BitVec 32 := Scalar.addi c0_i32_625 v832
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_626 : BitVec 32 := 4#32
  let v834 : BitVec 32 := Scalar.muli v20 c4_i32_626
  let v835 : BitVec 32 := Scalar.addi v833 v834
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_627 : BitVec 32 := 1#32
  let v836 : BitVec 32 := Scalar.muli v8 c1_i32_627
  let v837 : BitVec 32 := Scalar.addi v835 v836
  v837.toNat
def k0_dev43 (d0 : Dev nD) : Nat :=
  let c0_i32_637 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_636 : BitVec 32 := 8#32
  let v848 : BitVec 32 := Scalar.muli v2 c8_i32_636
  let v849 : BitVec 32 := Scalar.addi c0_i32_637 v848
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_638 : BitVec 32 := 4#32
  let v850 : BitVec 32 := Scalar.muli v5 c4_i32_638
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_639 : BitVec 32 := 1#32
  let v852 : BitVec 32 := Scalar.muli v23 c1_i32_639
  let v853 : BitVec 32 := Scalar.addi v851 v852
  v853.toNat
def k0_dev44 (d0 : Dev nD) : Nat :=
  let c0_i32_658 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_657 : BitVec 32 := 8#32
  let v874 : BitVec 32 := Scalar.muli v2 c8_i32_657
  let v875 : BitVec 32 := Scalar.addi c0_i32_658 v874
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_659 : BitVec 32 := 4#32
  let v876 : BitVec 32 := Scalar.muli v20 c4_i32_659
  let v877 : BitVec 32 := Scalar.addi v875 v876
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_660 : BitVec 32 := 1#32
  let v878 : BitVec 32 := Scalar.muli v8 c1_i32_660
  let v879 : BitVec 32 := Scalar.addi v877 v878
  v879.toNat
def k0_dev45 (d0 : Dev nD) : Nat :=
  let c0_i32_670 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_669 : BitVec 32 := 8#32
  let v890 : BitVec 32 := Scalar.muli v2 c8_i32_669
  let v891 : BitVec 32 := Scalar.addi c0_i32_670 v890
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_671 : BitVec 32 := 4#32
  let v892 : BitVec 32 := Scalar.muli v5 c4_i32_671
  let v893 : BitVec 32 := Scalar.addi v891 v892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_672 : BitVec 32 := 1#32
  let v894 : BitVec 32 := Scalar.muli v23 c1_i32_672
  let v895 : BitVec 32 := Scalar.addi v893 v894
  v895.toNat
def k0_dev46 (d0 : Dev nD) : Nat :=
  let c0_i32_691 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_690 : BitVec 32 := 8#32
  let v916 : BitVec 32 := Scalar.muli v2 c8_i32_690
  let v917 : BitVec 32 := Scalar.addi c0_i32_691 v916
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_692 : BitVec 32 := 4#32
  let v918 : BitVec 32 := Scalar.muli v20 c4_i32_692
  let v919 : BitVec 32 := Scalar.addi v917 v918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_693 : BitVec 32 := 1#32
  let v920 : BitVec 32 := Scalar.muli v8 c1_i32_693
  let v921 : BitVec 32 := Scalar.addi v919 v920
  v921.toNat
def k0_dev47 (d0 : Dev nD) : Nat :=
  let c0_i32_703 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_702 : BitVec 32 := 8#32
  let v932 : BitVec 32 := Scalar.muli v2 c8_i32_702
  let v933 : BitVec 32 := Scalar.addi c0_i32_703 v932
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_704 : BitVec 32 := 4#32
  let v934 : BitVec 32 := Scalar.muli v5 c4_i32_704
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_705 : BitVec 32 := 1#32
  let v936 : BitVec 32 := Scalar.muli v23 c1_i32_705
  let v937 : BitVec 32 := Scalar.addi v935 v936
  v937.toNat
def k0_dev48 (d0 : Dev nD) : Nat :=
  let c0_i32_724 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_723 : BitVec 32 := 8#32
  let v958 : BitVec 32 := Scalar.muli v2 c8_i32_723
  let v959 : BitVec 32 := Scalar.addi c0_i32_724 v958
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_725 : BitVec 32 := 4#32
  let v960 : BitVec 32 := Scalar.muli v20 c4_i32_725
  let v961 : BitVec 32 := Scalar.addi v959 v960
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_726 : BitVec 32 := 1#32
  let v962 : BitVec 32 := Scalar.muli v8 c1_i32_726
  let v963 : BitVec 32 := Scalar.addi v961 v962
  v963.toNat
def k0_dev49 (d0 : Dev nD) : Nat :=
  let c0_i32_736 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_735 : BitVec 32 := 8#32
  let v974 : BitVec 32 := Scalar.muli v2 c8_i32_735
  let v975 : BitVec 32 := Scalar.addi c0_i32_736 v974
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_737 : BitVec 32 := 4#32
  let v976 : BitVec 32 := Scalar.muli v5 c4_i32_737
  let v977 : BitVec 32 := Scalar.addi v975 v976
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_738 : BitVec 32 := 1#32
  let v978 : BitVec 32 := Scalar.muli v23 c1_i32_738
  let v979 : BitVec 32 := Scalar.addi v977 v978
  v979.toNat
def k0_dev50 (d0 : Dev nD) : Nat :=
  let c0_i32_757 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_756 : BitVec 32 := 8#32
  let v1000 : BitVec 32 := Scalar.muli v2 c8_i32_756
  let v1001 : BitVec 32 := Scalar.addi c0_i32_757 v1000
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_758 : BitVec 32 := 4#32
  let v1002 : BitVec 32 := Scalar.muli v20 c4_i32_758
  let v1003 : BitVec 32 := Scalar.addi v1001 v1002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v1004 : BitVec 32 := Scalar.muli v8 c1_i32_759
  let v1005 : BitVec 32 := Scalar.addi v1003 v1004
  v1005.toNat
def k0_dev51 (d0 : Dev nD) : Nat :=
  let c0_i32_769 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_768 : BitVec 32 := 8#32
  let v1016 : BitVec 32 := Scalar.muli v2 c8_i32_768
  let v1017 : BitVec 32 := Scalar.addi c0_i32_769 v1016
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_770 : BitVec 32 := 4#32
  let v1018 : BitVec 32 := Scalar.muli v5 c4_i32_770
  let v1019 : BitVec 32 := Scalar.addi v1017 v1018
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_771 : BitVec 32 := 1#32
  let v1020 : BitVec 32 := Scalar.muli v23 c1_i32_771
  let v1021 : BitVec 32 := Scalar.addi v1019 v1020
  v1021.toNat
def k0_cond2 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_32 : BitVec 32 := 0#32
  let v52 : BitVec 1 := Scalar.cmpi .eq v5 c0_i32_32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_33 : BitVec 32 := 1#32
  let v53 : BitVec 1 := Scalar.cmpi .eq v18 c1_i32_33
  let v54 : BitVec 1 := Scalar.andi v52 v53
  let v55 : BitVec 32 := Scalar.extui v54
  let c0_i32_34 : BitVec 32 := 0#32
  let v56 : BitVec 1 := Scalar.cmpi .ne v55 c0_i32_34
  v56

def k0_off6 (d0 : Dev nD) (c0_i32_42 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c1368_i32 : BitVec 32 := 1368#32
  let v68 : BitVec 32 := Scalar.addi v43 c1368_i32
  let v69 : BitVec 32 := Scalar.addi v68 c0_i32_42
  let c0_i32_49 : BitVec 32 := 0#32
  ![v69.toNat, 0]
def k0_dev52 (d0 : Dev nD) : Nat :=
  let c0_i32_46 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_45 : BitVec 32 := 8#32
  let v70 : BitVec 32 := Scalar.muli v19 c8_i32_45
  let v71 : BitVec 32 := Scalar.addi c0_i32_46 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v72 : BitVec 32 := Scalar.muli v5 c4_i32_47
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v74 : BitVec 32 := Scalar.muli v8 c1_i32_48
  let v75 : BitVec 32 := Scalar.addi v73 v74
  v75.toNat
def k0_dev53 (d0 : Dev nD) : Nat :=
  let c0_i32_56 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_55 : BitVec 32 := 8#32
  let v84 : BitVec 32 := Scalar.muli v19 c8_i32_55
  let v85 : BitVec 32 := Scalar.addi c0_i32_56 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v86 : BitVec 32 := Scalar.muli v5 c4_i32_57
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v88 : BitVec 32 := Scalar.muli v8 c1_i32_58
  let v89 : BitVec 32 := Scalar.addi v87 v88
  v89.toNat
def k0_dev54 (d0 : Dev nD) : Nat :=
  let c0_i32_65 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_64 : BitVec 32 := 8#32
  let v98 : BitVec 32 := Scalar.muli v19 c8_i32_64
  let v99 : BitVec 32 := Scalar.addi c0_i32_65 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v100 : BitVec 32 := Scalar.muli v5 c4_i32_66
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v102 : BitVec 32 := Scalar.muli v8 c1_i32_67
  let v103 : BitVec 32 := Scalar.addi v101 v102
  v103.toNat
def k0_dev55 (d0 : Dev nD) : Nat :=
  let c0_i32_74 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_73 : BitVec 32 := 8#32
  let v112 : BitVec 32 := Scalar.muli v19 c8_i32_73
  let v113 : BitVec 32 := Scalar.addi c0_i32_74 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v114 : BitVec 32 := Scalar.muli v5 c4_i32_75
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v116 : BitVec 32 := Scalar.muli v8 c1_i32_76
  let v117 : BitVec 32 := Scalar.addi v115 v116
  v117.toNat
def k0_dev56 (d0 : Dev nD) : Nat :=
  let c0_i32_83 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_82 : BitVec 32 := 8#32
  let v126 : BitVec 32 := Scalar.muli v19 c8_i32_82
  let v127 : BitVec 32 := Scalar.addi c0_i32_83 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v128 : BitVec 32 := Scalar.muli v5 c4_i32_84
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v130 : BitVec 32 := Scalar.muli v8 c1_i32_85
  let v131 : BitVec 32 := Scalar.addi v129 v130
  v131.toNat
def k0_off7 (d0 : Dev nD) (c240_i32 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c1368_i32_88 : BitVec 32 := 1368#32
  let v138 : BitVec 32 := Scalar.addi v43 c1368_i32_88
  let v139 : BitVec 32 := Scalar.addi v138 c240_i32
  let c0_i32_94 : BitVec 32 := 0#32
  ![v139.toNat, 0]
def k0_dev57 (d0 : Dev nD) : Nat :=
  let c0_i32_91 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_90 : BitVec 32 := 8#32
  let v140 : BitVec 32 := Scalar.muli v19 c8_i32_90
  let v141 : BitVec 32 := Scalar.addi c0_i32_91 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v142 : BitVec 32 := Scalar.muli v5 c4_i32_92
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v144 : BitVec 32 := Scalar.muli v8 c1_i32_93
  let v145 : BitVec 32 := Scalar.addi v143 v144
  v145.toNat
def k0_dev58 (d0 : Dev nD) : Nat :=
  let c0_i32_99 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_98 : BitVec 32 := 8#32
  let v154 : BitVec 32 := Scalar.muli v19 c8_i32_98
  let v155 : BitVec 32 := Scalar.addi c0_i32_99 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v156 : BitVec 32 := Scalar.muli v5 c4_i32_100
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v158 : BitVec 32 := Scalar.muli v8 c1_i32_101
  let v159 : BitVec 32 := Scalar.addi v157 v158
  v159.toNat
def k0_dev59 (d0 : Dev nD) : Nat :=
  let c0_i32_107 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_106 : BitVec 32 := 8#32
  let v168 : BitVec 32 := Scalar.muli v19 c8_i32_106
  let v169 : BitVec 32 := Scalar.addi c0_i32_107 v168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_108 : BitVec 32 := 4#32
  let v170 : BitVec 32 := Scalar.muli v5 c4_i32_108
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v172 : BitVec 32 := Scalar.muli v8 c1_i32_109
  let v173 : BitVec 32 := Scalar.addi v171 v172
  v173.toNat
def k0_dev60 (d0 : Dev nD) : Nat :=
  let c0_i32_116 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_115 : BitVec 32 := 8#32
  let v182 : BitVec 32 := Scalar.muli v19 c8_i32_115
  let v183 : BitVec 32 := Scalar.addi c0_i32_116 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v184 : BitVec 32 := Scalar.muli v5 c4_i32_117
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v186 : BitVec 32 := Scalar.muli v8 c1_i32_118
  let v187 : BitVec 32 := Scalar.addi v185 v186
  v187.toNat
def k0_dev61 (d0 : Dev nD) : Nat :=
  let c0_i32_124 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_123 : BitVec 32 := 8#32
  let v196 : BitVec 32 := Scalar.muli v19 c8_i32_123
  let v197 : BitVec 32 := Scalar.addi c0_i32_124 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v198 : BitVec 32 := Scalar.muli v5 c4_i32_125
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v200 : BitVec 32 := Scalar.muli v8 c1_i32_126
  let v201 : BitVec 32 := Scalar.addi v199 v200
  v201.toNat
def k0_dev62 (d0 : Dev nD) : Nat :=
  let c0_i32_132 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_131 : BitVec 32 := 8#32
  let v210 : BitVec 32 := Scalar.muli v19 c8_i32_131
  let v211 : BitVec 32 := Scalar.addi c0_i32_132 v210
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v212 : BitVec 32 := Scalar.muli v5 c4_i32_133
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v214 : BitVec 32 := Scalar.muli v8 c1_i32_134
  let v215 : BitVec 32 := Scalar.addi v213 v214
  v215.toNat
def k0_dev63 (d0 : Dev nD) : Nat :=
  let c0_i32_140 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_139 : BitVec 32 := 8#32
  let v224 : BitVec 32 := Scalar.muli v19 c8_i32_139
  let v225 : BitVec 32 := Scalar.addi c0_i32_140 v224
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v226 : BitVec 32 := Scalar.muli v5 c4_i32_141
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v228 : BitVec 32 := Scalar.muli v8 c1_i32_142
  let v229 : BitVec 32 := Scalar.addi v227 v228
  v229.toNat
def k0_dev64 (d0 : Dev nD) : Nat :=
  let c0_i32_148 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_147 : BitVec 32 := 8#32
  let v238 : BitVec 32 := Scalar.muli v19 c8_i32_147
  let v239 : BitVec 32 := Scalar.addi c0_i32_148 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_149 : BitVec 32 := 4#32
  let v240 : BitVec 32 := Scalar.muli v5 c4_i32_149
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v242 : BitVec 32 := Scalar.muli v8 c1_i32_150
  let v243 : BitVec 32 := Scalar.addi v241 v242
  v243.toNat
def k0_dev65 (d0 : Dev nD) : Nat :=
  let c0_i32_156 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_155 : BitVec 32 := 8#32
  let v252 : BitVec 32 := Scalar.muli v19 c8_i32_155
  let v253 : BitVec 32 := Scalar.addi c0_i32_156 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_157 : BitVec 32 := 4#32
  let v254 : BitVec 32 := Scalar.muli v5 c4_i32_157
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v256 : BitVec 32 := Scalar.muli v8 c1_i32_158
  let v257 : BitVec 32 := Scalar.addi v255 v256
  v257.toNat
def k0_dev66 (d0 : Dev nD) : Nat :=
  let c0_i32_164 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_163 : BitVec 32 := 8#32
  let v266 : BitVec 32 := Scalar.muli v19 c8_i32_163
  let v267 : BitVec 32 := Scalar.addi c0_i32_164 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_165 : BitVec 32 := 4#32
  let v268 : BitVec 32 := Scalar.muli v5 c4_i32_165
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v270 : BitVec 32 := Scalar.muli v8 c1_i32_166
  let v271 : BitVec 32 := Scalar.addi v269 v270
  v271.toNat
def k0_dev67 (d0 : Dev nD) : Nat :=
  let c0_i32_172 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_171 : BitVec 32 := 8#32
  let v280 : BitVec 32 := Scalar.muli v19 c8_i32_171
  let v281 : BitVec 32 := Scalar.addi c0_i32_172 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v282 : BitVec 32 := Scalar.muli v5 c4_i32_173
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v284 : BitVec 32 := Scalar.muli v8 c1_i32_174
  let v285 : BitVec 32 := Scalar.addi v283 v284
  v285.toNat
def k0_off8 (d0 : Dev nD) (c1368_i32_241 : BitVec 32) (c0_i32_242 : BitVec 32) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c2048_i32_27 : BitVec 32 := 2048#32
  let v45 : BitVec 32 := Scalar.muli v44 c2048_i32_27
  let v368 : BitVec 32 := Scalar.addi v45 c1368_i32_241
  let v369 : BitVec 32 := Scalar.addi v368 c0_i32_242
  let c0_i32_249 : BitVec 32 := 0#32
  ![v369.toNat, 0]
def k0_off8_at (r : Fin 11) : BitVec 32 × BitVec 32 :=
  if r.val < 5 then
    if r.val < 2 then
      if r.val < 1 then
        (1368#32, 0#32)
      else
        (1368#32, 48#32)
    else
      if r.val < 3 then
        (1368#32, 96#32)
      else
        if r.val < 4 then
          (1368#32, 144#32)
        else
          (1368#32, 192#32)
  else
    if r.val < 8 then
      if r.val < 6 then
        (680#32, 0#32)
      else
        if r.val < 7 then
          (680#32, 48#32)
        else
          (680#32, 96#32)
    else
      if r.val < 9 then
        (680#32, 144#32)
      else
        if r.val < 10 then
          (680#32, 192#32)
        else
          (680#32, 240#32)
def k0_dev68 (d0 : Dev nD) : Nat :=
  let c0_i32_246 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_245 : BitVec 32 := 8#32
  let v370 : BitVec 32 := Scalar.muli v2 c8_i32_245
  let v371 : BitVec 32 := Scalar.addi c0_i32_246 v370
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_247 : BitVec 32 := 4#32
  let v372 : BitVec 32 := Scalar.muli v20 c4_i32_247
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v374 : BitVec 32 := Scalar.muli v8 c1_i32_248
  let v375 : BitVec 32 := Scalar.addi v373 v374
  v375.toNat
def k0_dev69 (d0 : Dev nD) : Nat :=
  let c0_i32_258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_257 : BitVec 32 := 8#32
  let v386 : BitVec 32 := Scalar.muli v2 c8_i32_257
  let v387 : BitVec 32 := Scalar.addi c0_i32_258 v386
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_259 : BitVec 32 := 4#32
  let v388 : BitVec 32 := Scalar.muli v5 c4_i32_259
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_260 : BitVec 32 := 1#32
  let v390 : BitVec 32 := Scalar.muli v23 c1_i32_260
  let v391 : BitVec 32 := Scalar.addi v389 v390
  v391.toNat
def k0_dev70 (d0 : Dev nD) : Nat :=
  let c0_i32_279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_278 : BitVec 32 := 8#32
  let v412 : BitVec 32 := Scalar.muli v2 c8_i32_278
  let v413 : BitVec 32 := Scalar.addi c0_i32_279 v412
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_280 : BitVec 32 := 4#32
  let v414 : BitVec 32 := Scalar.muli v20 c4_i32_280
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v416 : BitVec 32 := Scalar.muli v8 c1_i32_281
  let v417 : BitVec 32 := Scalar.addi v415 v416
  v417.toNat
def k0_dev71 (d0 : Dev nD) : Nat :=
  let c0_i32_291 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_290 : BitVec 32 := 8#32
  let v428 : BitVec 32 := Scalar.muli v2 c8_i32_290
  let v429 : BitVec 32 := Scalar.addi c0_i32_291 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_292 : BitVec 32 := 4#32
  let v430 : BitVec 32 := Scalar.muli v5 c4_i32_292
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_293 : BitVec 32 := 1#32
  let v432 : BitVec 32 := Scalar.muli v23 c1_i32_293
  let v433 : BitVec 32 := Scalar.addi v431 v432
  v433.toNat
def k0_dev72 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v454 : BitVec 32 := Scalar.muli v2 c8_i32_311
  let v455 : BitVec 32 := Scalar.addi c0_i32_312 v454
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_313 : BitVec 32 := 4#32
  let v456 : BitVec 32 := Scalar.muli v20 c4_i32_313
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v458 : BitVec 32 := Scalar.muli v8 c1_i32_314
  let v459 : BitVec 32 := Scalar.addi v457 v458
  v459.toNat
def k0_dev73 (d0 : Dev nD) : Nat :=
  let c0_i32_324 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_323 : BitVec 32 := 8#32
  let v470 : BitVec 32 := Scalar.muli v2 c8_i32_323
  let v471 : BitVec 32 := Scalar.addi c0_i32_324 v470
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_325 : BitVec 32 := 4#32
  let v472 : BitVec 32 := Scalar.muli v5 c4_i32_325
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_326 : BitVec 32 := 1#32
  let v474 : BitVec 32 := Scalar.muli v23 c1_i32_326
  let v475 : BitVec 32 := Scalar.addi v473 v474
  v475.toNat
def k0_dev74 (d0 : Dev nD) : Nat :=
  let c0_i32_345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_344 : BitVec 32 := 8#32
  let v496 : BitVec 32 := Scalar.muli v2 c8_i32_344
  let v497 : BitVec 32 := Scalar.addi c0_i32_345 v496
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_346 : BitVec 32 := 4#32
  let v498 : BitVec 32 := Scalar.muli v20 c4_i32_346
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v500 : BitVec 32 := Scalar.muli v8 c1_i32_347
  let v501 : BitVec 32 := Scalar.addi v499 v500
  v501.toNat
def k0_dev75 (d0 : Dev nD) : Nat :=
  let c0_i32_357 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_356 : BitVec 32 := 8#32
  let v512 : BitVec 32 := Scalar.muli v2 c8_i32_356
  let v513 : BitVec 32 := Scalar.addi c0_i32_357 v512
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_358 : BitVec 32 := 4#32
  let v514 : BitVec 32 := Scalar.muli v5 c4_i32_358
  let v515 : BitVec 32 := Scalar.addi v513 v514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_359 : BitVec 32 := 1#32
  let v516 : BitVec 32 := Scalar.muli v23 c1_i32_359
  let v517 : BitVec 32 := Scalar.addi v515 v516
  v517.toNat
def k0_dev76 (d0 : Dev nD) : Nat :=
  let c0_i32_378 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_377 : BitVec 32 := 8#32
  let v538 : BitVec 32 := Scalar.muli v2 c8_i32_377
  let v539 : BitVec 32 := Scalar.addi c0_i32_378 v538
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_379 : BitVec 32 := 4#32
  let v540 : BitVec 32 := Scalar.muli v20 c4_i32_379
  let v541 : BitVec 32 := Scalar.addi v539 v540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v542 : BitVec 32 := Scalar.muli v8 c1_i32_380
  let v543 : BitVec 32 := Scalar.addi v541 v542
  v543.toNat
def k0_dev77 (d0 : Dev nD) : Nat :=
  let c0_i32_390 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_389 : BitVec 32 := 8#32
  let v554 : BitVec 32 := Scalar.muli v2 c8_i32_389
  let v555 : BitVec 32 := Scalar.addi c0_i32_390 v554
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_391 : BitVec 32 := 4#32
  let v556 : BitVec 32 := Scalar.muli v5 c4_i32_391
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_392 : BitVec 32 := 1#32
  let v558 : BitVec 32 := Scalar.muli v23 c1_i32_392
  let v559 : BitVec 32 := Scalar.addi v557 v558
  v559.toNat
def k0_off9 (d0 : Dev nD) (c1368_i32_406 : BitVec 32) (c240_i32_407 : BitVec 32) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c2048_i32_27 : BitVec 32 := 2048#32
  let v45 : BitVec 32 := Scalar.muli v44 c2048_i32_27
  let v578 : BitVec 32 := Scalar.addi v45 c1368_i32_406
  let v579 : BitVec 32 := Scalar.addi v578 c240_i32_407
  let c0_i32_414 : BitVec 32 := 0#32
  ![v579.toNat, 0]
def k0_off9_at (r : Fin 21) : BitVec 32 × BitVec 32 :=
  if r.val < 10 then
    if r.val < 5 then
      if r.val < 2 then
        if r.val < 1 then
          (1368#32, 240#32)
        else
          (1368#32, 280#32)
      else
        if r.val < 3 then
          (1368#32, 320#32)
        else
          if r.val < 4 then
            (1368#32, 360#32)
          else
            (1368#32, 400#32)
    else
      if r.val < 7 then
        if r.val < 6 then
          (1368#32, 440#32)
        else
          (1368#32, 480#32)
      else
        if r.val < 8 then
          (1368#32, 520#32)
        else
          if r.val < 9 then
            (1368#32, 560#32)
          else
            (1368#32, 600#32)
  else
    if r.val < 15 then
      if r.val < 12 then
        if r.val < 11 then
          (1368#32, 640#32)
        else
          (680#32, 288#32)
      else
        if r.val < 13 then
          (680#32, 328#32)
        else
          if r.val < 14 then
            (680#32, 368#32)
          else
            (680#32, 408#32)
    else
      if r.val < 18 then
        if r.val < 16 then
          (680#32, 448#32)
        else
          if r.val < 17 then
            (680#32, 488#32)
          else
            (680#32, 528#32)
      else
        if r.val < 19 then
          (680#32, 568#32)
        else
          if r.val < 20 then
            (680#32, 608#32)
          else
            (680#32, 648#32)
def k0_dev78 (d0 : Dev nD) : Nat :=
  let c0_i32_411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_410 : BitVec 32 := 8#32
  let v580 : BitVec 32 := Scalar.muli v2 c8_i32_410
  let v581 : BitVec 32 := Scalar.addi c0_i32_411 v580
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_412 : BitVec 32 := 4#32
  let v582 : BitVec 32 := Scalar.muli v20 c4_i32_412
  let v583 : BitVec 32 := Scalar.addi v581 v582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v584 : BitVec 32 := Scalar.muli v8 c1_i32_413
  let v585 : BitVec 32 := Scalar.addi v583 v584
  v585.toNat
def k0_dev79 (d0 : Dev nD) : Nat :=
  let c0_i32_423 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_422 : BitVec 32 := 8#32
  let v596 : BitVec 32 := Scalar.muli v2 c8_i32_422
  let v597 : BitVec 32 := Scalar.addi c0_i32_423 v596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_424 : BitVec 32 := 4#32
  let v598 : BitVec 32 := Scalar.muli v5 c4_i32_424
  let v599 : BitVec 32 := Scalar.addi v597 v598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_425 : BitVec 32 := 1#32
  let v600 : BitVec 32 := Scalar.muli v23 c1_i32_425
  let v601 : BitVec 32 := Scalar.addi v599 v600
  v601.toNat
def k0_dev80 (d0 : Dev nD) : Nat :=
  let c0_i32_444 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_443 : BitVec 32 := 8#32
  let v622 : BitVec 32 := Scalar.muli v2 c8_i32_443
  let v623 : BitVec 32 := Scalar.addi c0_i32_444 v622
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_445 : BitVec 32 := 4#32
  let v624 : BitVec 32 := Scalar.muli v20 c4_i32_445
  let v625 : BitVec 32 := Scalar.addi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_446 : BitVec 32 := 1#32
  let v626 : BitVec 32 := Scalar.muli v8 c1_i32_446
  let v627 : BitVec 32 := Scalar.addi v625 v626
  v627.toNat
def k0_dev81 (d0 : Dev nD) : Nat :=
  let c0_i32_456 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_455 : BitVec 32 := 8#32
  let v638 : BitVec 32 := Scalar.muli v2 c8_i32_455
  let v639 : BitVec 32 := Scalar.addi c0_i32_456 v638
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_457 : BitVec 32 := 4#32
  let v640 : BitVec 32 := Scalar.muli v5 c4_i32_457
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_458 : BitVec 32 := 1#32
  let v642 : BitVec 32 := Scalar.muli v23 c1_i32_458
  let v643 : BitVec 32 := Scalar.addi v641 v642
  v643.toNat
def k0_dev82 (d0 : Dev nD) : Nat :=
  let c0_i32_477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_476 : BitVec 32 := 8#32
  let v664 : BitVec 32 := Scalar.muli v2 c8_i32_476
  let v665 : BitVec 32 := Scalar.addi c0_i32_477 v664
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_478 : BitVec 32 := 4#32
  let v666 : BitVec 32 := Scalar.muli v20 c4_i32_478
  let v667 : BitVec 32 := Scalar.addi v665 v666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v668 : BitVec 32 := Scalar.muli v8 c1_i32_479
  let v669 : BitVec 32 := Scalar.addi v667 v668
  v669.toNat
def k0_dev83 (d0 : Dev nD) : Nat :=
  let c0_i32_489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_488 : BitVec 32 := 8#32
  let v680 : BitVec 32 := Scalar.muli v2 c8_i32_488
  let v681 : BitVec 32 := Scalar.addi c0_i32_489 v680
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_490 : BitVec 32 := 4#32
  let v682 : BitVec 32 := Scalar.muli v5 c4_i32_490
  let v683 : BitVec 32 := Scalar.addi v681 v682
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_491 : BitVec 32 := 1#32
  let v684 : BitVec 32 := Scalar.muli v23 c1_i32_491
  let v685 : BitVec 32 := Scalar.addi v683 v684
  v685.toNat
def k0_dev84 (d0 : Dev nD) : Nat :=
  let c0_i32_510 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_509 : BitVec 32 := 8#32
  let v706 : BitVec 32 := Scalar.muli v2 c8_i32_509
  let v707 : BitVec 32 := Scalar.addi c0_i32_510 v706
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_511 : BitVec 32 := 4#32
  let v708 : BitVec 32 := Scalar.muli v20 c4_i32_511
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_512 : BitVec 32 := 1#32
  let v710 : BitVec 32 := Scalar.muli v8 c1_i32_512
  let v711 : BitVec 32 := Scalar.addi v709 v710
  v711.toNat
def k0_dev85 (d0 : Dev nD) : Nat :=
  let c0_i32_522 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_521 : BitVec 32 := 8#32
  let v722 : BitVec 32 := Scalar.muli v2 c8_i32_521
  let v723 : BitVec 32 := Scalar.addi c0_i32_522 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_523 : BitVec 32 := 4#32
  let v724 : BitVec 32 := Scalar.muli v5 c4_i32_523
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_524 : BitVec 32 := 1#32
  let v726 : BitVec 32 := Scalar.muli v23 c1_i32_524
  let v727 : BitVec 32 := Scalar.addi v725 v726
  v727.toNat
def k0_dev86 (d0 : Dev nD) : Nat :=
  let c0_i32_543 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_542 : BitVec 32 := 8#32
  let v748 : BitVec 32 := Scalar.muli v2 c8_i32_542
  let v749 : BitVec 32 := Scalar.addi c0_i32_543 v748
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_544 : BitVec 32 := 4#32
  let v750 : BitVec 32 := Scalar.muli v20 c4_i32_544
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_545 : BitVec 32 := 1#32
  let v752 : BitVec 32 := Scalar.muli v8 c1_i32_545
  let v753 : BitVec 32 := Scalar.addi v751 v752
  v753.toNat
def k0_dev87 (d0 : Dev nD) : Nat :=
  let c0_i32_555 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_554 : BitVec 32 := 8#32
  let v764 : BitVec 32 := Scalar.muli v2 c8_i32_554
  let v765 : BitVec 32 := Scalar.addi c0_i32_555 v764
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_556 : BitVec 32 := 4#32
  let v766 : BitVec 32 := Scalar.muli v5 c4_i32_556
  let v767 : BitVec 32 := Scalar.addi v765 v766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_557 : BitVec 32 := 1#32
  let v768 : BitVec 32 := Scalar.muli v23 c1_i32_557
  let v769 : BitVec 32 := Scalar.addi v767 v768
  v769.toNat
def k0_dev88 (d0 : Dev nD) : Nat :=
  let c0_i32_576 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_575 : BitVec 32 := 8#32
  let v790 : BitVec 32 := Scalar.muli v2 c8_i32_575
  let v791 : BitVec 32 := Scalar.addi c0_i32_576 v790
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_577 : BitVec 32 := 4#32
  let v792 : BitVec 32 := Scalar.muli v20 c4_i32_577
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v794 : BitVec 32 := Scalar.muli v8 c1_i32_578
  let v795 : BitVec 32 := Scalar.addi v793 v794
  v795.toNat
def k0_dev89 (d0 : Dev nD) : Nat :=
  let c0_i32_588 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_587 : BitVec 32 := 8#32
  let v806 : BitVec 32 := Scalar.muli v2 c8_i32_587
  let v807 : BitVec 32 := Scalar.addi c0_i32_588 v806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_589 : BitVec 32 := 4#32
  let v808 : BitVec 32 := Scalar.muli v5 c4_i32_589
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_590 : BitVec 32 := 1#32
  let v810 : BitVec 32 := Scalar.muli v23 c1_i32_590
  let v811 : BitVec 32 := Scalar.addi v809 v810
  v811.toNat
def k0_dev90 (d0 : Dev nD) : Nat :=
  let c0_i32_609 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_608 : BitVec 32 := 8#32
  let v832 : BitVec 32 := Scalar.muli v2 c8_i32_608
  let v833 : BitVec 32 := Scalar.addi c0_i32_609 v832
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_610 : BitVec 32 := 4#32
  let v834 : BitVec 32 := Scalar.muli v20 c4_i32_610
  let v835 : BitVec 32 := Scalar.addi v833 v834
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_611 : BitVec 32 := 1#32
  let v836 : BitVec 32 := Scalar.muli v8 c1_i32_611
  let v837 : BitVec 32 := Scalar.addi v835 v836
  v837.toNat
def k0_dev91 (d0 : Dev nD) : Nat :=
  let c0_i32_621 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_620 : BitVec 32 := 8#32
  let v848 : BitVec 32 := Scalar.muli v2 c8_i32_620
  let v849 : BitVec 32 := Scalar.addi c0_i32_621 v848
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_622 : BitVec 32 := 4#32
  let v850 : BitVec 32 := Scalar.muli v5 c4_i32_622
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_623 : BitVec 32 := 1#32
  let v852 : BitVec 32 := Scalar.muli v23 c1_i32_623
  let v853 : BitVec 32 := Scalar.addi v851 v852
  v853.toNat
def k0_dev92 (d0 : Dev nD) : Nat :=
  let c0_i32_642 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_641 : BitVec 32 := 8#32
  let v874 : BitVec 32 := Scalar.muli v2 c8_i32_641
  let v875 : BitVec 32 := Scalar.addi c0_i32_642 v874
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_643 : BitVec 32 := 4#32
  let v876 : BitVec 32 := Scalar.muli v20 c4_i32_643
  let v877 : BitVec 32 := Scalar.addi v875 v876
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_644 : BitVec 32 := 1#32
  let v878 : BitVec 32 := Scalar.muli v8 c1_i32_644
  let v879 : BitVec 32 := Scalar.addi v877 v878
  v879.toNat
def k0_dev93 (d0 : Dev nD) : Nat :=
  let c0_i32_654 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_653 : BitVec 32 := 8#32
  let v890 : BitVec 32 := Scalar.muli v2 c8_i32_653
  let v891 : BitVec 32 := Scalar.addi c0_i32_654 v890
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_655 : BitVec 32 := 4#32
  let v892 : BitVec 32 := Scalar.muli v5 c4_i32_655
  let v893 : BitVec 32 := Scalar.addi v891 v892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_656 : BitVec 32 := 1#32
  let v894 : BitVec 32 := Scalar.muli v23 c1_i32_656
  let v895 : BitVec 32 := Scalar.addi v893 v894
  v895.toNat
def k0_dev94 (d0 : Dev nD) : Nat :=
  let c0_i32_675 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_674 : BitVec 32 := 8#32
  let v916 : BitVec 32 := Scalar.muli v2 c8_i32_674
  let v917 : BitVec 32 := Scalar.addi c0_i32_675 v916
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_676 : BitVec 32 := 4#32
  let v918 : BitVec 32 := Scalar.muli v20 c4_i32_676
  let v919 : BitVec 32 := Scalar.addi v917 v918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_677 : BitVec 32 := 1#32
  let v920 : BitVec 32 := Scalar.muli v8 c1_i32_677
  let v921 : BitVec 32 := Scalar.addi v919 v920
  v921.toNat
def k0_dev95 (d0 : Dev nD) : Nat :=
  let c0_i32_687 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_686 : BitVec 32 := 8#32
  let v932 : BitVec 32 := Scalar.muli v2 c8_i32_686
  let v933 : BitVec 32 := Scalar.addi c0_i32_687 v932
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_688 : BitVec 32 := 4#32
  let v934 : BitVec 32 := Scalar.muli v5 c4_i32_688
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_689 : BitVec 32 := 1#32
  let v936 : BitVec 32 := Scalar.muli v23 c1_i32_689
  let v937 : BitVec 32 := Scalar.addi v935 v936
  v937.toNat
def k0_dev96 (d0 : Dev nD) : Nat :=
  let c0_i32_708 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_707 : BitVec 32 := 8#32
  let v958 : BitVec 32 := Scalar.muli v2 c8_i32_707
  let v959 : BitVec 32 := Scalar.addi c0_i32_708 v958
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_709 : BitVec 32 := 4#32
  let v960 : BitVec 32 := Scalar.muli v20 c4_i32_709
  let v961 : BitVec 32 := Scalar.addi v959 v960
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_710 : BitVec 32 := 1#32
  let v962 : BitVec 32 := Scalar.muli v8 c1_i32_710
  let v963 : BitVec 32 := Scalar.addi v961 v962
  v963.toNat
def k0_dev97 (d0 : Dev nD) : Nat :=
  let c0_i32_720 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_719 : BitVec 32 := 8#32
  let v974 : BitVec 32 := Scalar.muli v2 c8_i32_719
  let v975 : BitVec 32 := Scalar.addi c0_i32_720 v974
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_721 : BitVec 32 := 4#32
  let v976 : BitVec 32 := Scalar.muli v5 c4_i32_721
  let v977 : BitVec 32 := Scalar.addi v975 v976
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_722 : BitVec 32 := 1#32
  let v978 : BitVec 32 := Scalar.muli v23 c1_i32_722
  let v979 : BitVec 32 := Scalar.addi v977 v978
  v979.toNat
def k0_dev98 (d0 : Dev nD) : Nat :=
  let c0_i32_741 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_740 : BitVec 32 := 8#32
  let v1000 : BitVec 32 := Scalar.muli v2 c8_i32_740
  let v1001 : BitVec 32 := Scalar.addi c0_i32_741 v1000
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_742 : BitVec 32 := 4#32
  let v1002 : BitVec 32 := Scalar.muli v20 c4_i32_742
  let v1003 : BitVec 32 := Scalar.addi v1001 v1002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v1004 : BitVec 32 := Scalar.muli v8 c1_i32_743
  let v1005 : BitVec 32 := Scalar.addi v1003 v1004
  v1005.toNat
def k0_dev99 (d0 : Dev nD) : Nat :=
  let c0_i32_753 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_752 : BitVec 32 := 8#32
  let v1016 : BitVec 32 := Scalar.muli v2 c8_i32_752
  let v1017 : BitVec 32 := Scalar.addi c0_i32_753 v1016
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_754 : BitVec 32 := 4#32
  let v1018 : BitVec 32 := Scalar.muli v5 c4_i32_754
  let v1019 : BitVec 32 := Scalar.addi v1017 v1018
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_755 : BitVec 32 := 1#32
  let v1020 : BitVec 32 := Scalar.muli v23 c1_i32_755
  let v1021 : BitVec 32 := Scalar.addi v1019 v1020
  v1021.toNat
def k0_cond3 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_35 : BitVec 32 := 1#32
  let v57 : BitVec 1 := Scalar.cmpi .eq v5 c1_i32_35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_36 : BitVec 32 := 0#32
  let v58 : BitVec 1 := Scalar.cmpi .eq v18 c0_i32_36
  let v59 : BitVec 1 := Scalar.andi v57 v58
  let v60 : BitVec 32 := Scalar.extui v59
  let c0_i32_37 : BitVec 32 := 0#32
  let v61 : BitVec 1 := Scalar.cmpi .ne v60 c0_i32_37
  v61

def k0_off10 (d0 : Dev nD) (c0_i32_42 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c680_i32 : BitVec 32 := 680#32
  let v68 : BitVec 32 := Scalar.addi v43 c680_i32
  let v69 : BitVec 32 := Scalar.addi v68 c0_i32_42
  let c0_i32_49 : BitVec 32 := 0#32
  ![v69.toNat, 0]
def k0_dev100 (d0 : Dev nD) : Nat :=
  let c0_i32_46 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_45 : BitVec 32 := 8#32
  let v70 : BitVec 32 := Scalar.muli v19 c8_i32_45
  let v71 : BitVec 32 := Scalar.addi c0_i32_46 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v72 : BitVec 32 := Scalar.muli v5 c4_i32_47
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v74 : BitVec 32 := Scalar.muli v8 c1_i32_48
  let v75 : BitVec 32 := Scalar.addi v73 v74
  v75.toNat
def k0_dev101 (d0 : Dev nD) : Nat :=
  let c0_i32_56 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_55 : BitVec 32 := 8#32
  let v84 : BitVec 32 := Scalar.muli v19 c8_i32_55
  let v85 : BitVec 32 := Scalar.addi c0_i32_56 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v86 : BitVec 32 := Scalar.muli v5 c4_i32_57
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v88 : BitVec 32 := Scalar.muli v8 c1_i32_58
  let v89 : BitVec 32 := Scalar.addi v87 v88
  v89.toNat
def k0_dev102 (d0 : Dev nD) : Nat :=
  let c0_i32_65 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_64 : BitVec 32 := 8#32
  let v98 : BitVec 32 := Scalar.muli v19 c8_i32_64
  let v99 : BitVec 32 := Scalar.addi c0_i32_65 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v100 : BitVec 32 := Scalar.muli v5 c4_i32_66
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v102 : BitVec 32 := Scalar.muli v8 c1_i32_67
  let v103 : BitVec 32 := Scalar.addi v101 v102
  v103.toNat
def k0_dev103 (d0 : Dev nD) : Nat :=
  let c0_i32_74 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_73 : BitVec 32 := 8#32
  let v112 : BitVec 32 := Scalar.muli v19 c8_i32_73
  let v113 : BitVec 32 := Scalar.addi c0_i32_74 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v114 : BitVec 32 := Scalar.muli v5 c4_i32_75
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v116 : BitVec 32 := Scalar.muli v8 c1_i32_76
  let v117 : BitVec 32 := Scalar.addi v115 v116
  v117.toNat
def k0_dev104 (d0 : Dev nD) : Nat :=
  let c0_i32_83 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_82 : BitVec 32 := 8#32
  let v126 : BitVec 32 := Scalar.muli v19 c8_i32_82
  let v127 : BitVec 32 := Scalar.addi c0_i32_83 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v128 : BitVec 32 := Scalar.muli v5 c4_i32_84
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v130 : BitVec 32 := Scalar.muli v8 c1_i32_85
  let v131 : BitVec 32 := Scalar.addi v129 v130
  v131.toNat
def k0_dev105 (d0 : Dev nD) : Nat :=
  let c0_i32_91 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_90 : BitVec 32 := 8#32
  let v140 : BitVec 32 := Scalar.muli v19 c8_i32_90
  let v141 : BitVec 32 := Scalar.addi c0_i32_91 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v142 : BitVec 32 := Scalar.muli v5 c4_i32_92
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v144 : BitVec 32 := Scalar.muli v8 c1_i32_93
  let v145 : BitVec 32 := Scalar.addi v143 v144
  v145.toNat
def k0_off11 (d0 : Dev nD) (c288_i32 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c680_i32_96 : BitVec 32 := 680#32
  let v152 : BitVec 32 := Scalar.addi v43 c680_i32_96
  let v153 : BitVec 32 := Scalar.addi v152 c288_i32
  let c0_i32_102 : BitVec 32 := 0#32
  ![v153.toNat, 0]
def k0_dev106 (d0 : Dev nD) : Nat :=
  let c0_i32_99 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_98 : BitVec 32 := 8#32
  let v154 : BitVec 32 := Scalar.muli v19 c8_i32_98
  let v155 : BitVec 32 := Scalar.addi c0_i32_99 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v156 : BitVec 32 := Scalar.muli v5 c4_i32_100
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v158 : BitVec 32 := Scalar.muli v8 c1_i32_101
  let v159 : BitVec 32 := Scalar.addi v157 v158
  v159.toNat
def k0_dev107 (d0 : Dev nD) : Nat :=
  let c0_i32_107 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_106 : BitVec 32 := 8#32
  let v168 : BitVec 32 := Scalar.muli v19 c8_i32_106
  let v169 : BitVec 32 := Scalar.addi c0_i32_107 v168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_108 : BitVec 32 := 4#32
  let v170 : BitVec 32 := Scalar.muli v5 c4_i32_108
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v172 : BitVec 32 := Scalar.muli v8 c1_i32_109
  let v173 : BitVec 32 := Scalar.addi v171 v172
  v173.toNat
def k0_dev108 (d0 : Dev nD) : Nat :=
  let c0_i32_116 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_115 : BitVec 32 := 8#32
  let v182 : BitVec 32 := Scalar.muli v19 c8_i32_115
  let v183 : BitVec 32 := Scalar.addi c0_i32_116 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v184 : BitVec 32 := Scalar.muli v5 c4_i32_117
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v186 : BitVec 32 := Scalar.muli v8 c1_i32_118
  let v187 : BitVec 32 := Scalar.addi v185 v186
  v187.toNat
def k0_dev109 (d0 : Dev nD) : Nat :=
  let c0_i32_124 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_123 : BitVec 32 := 8#32
  let v196 : BitVec 32 := Scalar.muli v19 c8_i32_123
  let v197 : BitVec 32 := Scalar.addi c0_i32_124 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v198 : BitVec 32 := Scalar.muli v5 c4_i32_125
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v200 : BitVec 32 := Scalar.muli v8 c1_i32_126
  let v201 : BitVec 32 := Scalar.addi v199 v200
  v201.toNat
def k0_dev110 (d0 : Dev nD) : Nat :=
  let c0_i32_132 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_131 : BitVec 32 := 8#32
  let v210 : BitVec 32 := Scalar.muli v19 c8_i32_131
  let v211 : BitVec 32 := Scalar.addi c0_i32_132 v210
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v212 : BitVec 32 := Scalar.muli v5 c4_i32_133
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v214 : BitVec 32 := Scalar.muli v8 c1_i32_134
  let v215 : BitVec 32 := Scalar.addi v213 v214
  v215.toNat
def k0_dev111 (d0 : Dev nD) : Nat :=
  let c0_i32_140 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_139 : BitVec 32 := 8#32
  let v224 : BitVec 32 := Scalar.muli v19 c8_i32_139
  let v225 : BitVec 32 := Scalar.addi c0_i32_140 v224
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v226 : BitVec 32 := Scalar.muli v5 c4_i32_141
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v228 : BitVec 32 := Scalar.muli v8 c1_i32_142
  let v229 : BitVec 32 := Scalar.addi v227 v228
  v229.toNat
def k0_dev112 (d0 : Dev nD) : Nat :=
  let c0_i32_148 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_147 : BitVec 32 := 8#32
  let v238 : BitVec 32 := Scalar.muli v19 c8_i32_147
  let v239 : BitVec 32 := Scalar.addi c0_i32_148 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_149 : BitVec 32 := 4#32
  let v240 : BitVec 32 := Scalar.muli v5 c4_i32_149
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v242 : BitVec 32 := Scalar.muli v8 c1_i32_150
  let v243 : BitVec 32 := Scalar.addi v241 v242
  v243.toNat
def k0_dev113 (d0 : Dev nD) : Nat :=
  let c0_i32_156 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_155 : BitVec 32 := 8#32
  let v252 : BitVec 32 := Scalar.muli v19 c8_i32_155
  let v253 : BitVec 32 := Scalar.addi c0_i32_156 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_157 : BitVec 32 := 4#32
  let v254 : BitVec 32 := Scalar.muli v5 c4_i32_157
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v256 : BitVec 32 := Scalar.muli v8 c1_i32_158
  let v257 : BitVec 32 := Scalar.addi v255 v256
  v257.toNat
def k0_dev114 (d0 : Dev nD) : Nat :=
  let c0_i32_164 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_163 : BitVec 32 := 8#32
  let v266 : BitVec 32 := Scalar.muli v19 c8_i32_163
  let v267 : BitVec 32 := Scalar.addi c0_i32_164 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_165 : BitVec 32 := 4#32
  let v268 : BitVec 32 := Scalar.muli v5 c4_i32_165
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v270 : BitVec 32 := Scalar.muli v8 c1_i32_166
  let v271 : BitVec 32 := Scalar.addi v269 v270
  v271.toNat
def k0_dev115 (d0 : Dev nD) : Nat :=
  let c0_i32_172 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_171 : BitVec 32 := 8#32
  let v280 : BitVec 32 := Scalar.muli v19 c8_i32_171
  let v281 : BitVec 32 := Scalar.addi c0_i32_172 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v282 : BitVec 32 := Scalar.muli v5 c4_i32_173
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v284 : BitVec 32 := Scalar.muli v8 c1_i32_174
  let v285 : BitVec 32 := Scalar.addi v283 v284
  v285.toNat
def k0_off12 (d0 : Dev nD) (c680_i32_242 : BitVec 32) (c0_i32_243 : BitVec 32) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c2048_i32_27 : BitVec 32 := 2048#32
  let v45 : BitVec 32 := Scalar.muli v44 c2048_i32_27
  let v368 : BitVec 32 := Scalar.addi v45 c680_i32_242
  let v369 : BitVec 32 := Scalar.addi v368 c0_i32_243
  let c0_i32_250 : BitVec 32 := 0#32
  ![v369.toNat, 0]
def k0_off12_at (r : Fin 11) : BitVec 32 × BitVec 32 :=
  if r.val < 5 then
    if r.val < 2 then
      if r.val < 1 then
        (680#32, 0#32)
      else
        (0#32, 0#32)
    else
      if r.val < 3 then
        (680#32, 48#32)
      else
        if r.val < 4 then
          (0#32, 48#32)
        else
          (680#32, 96#32)
  else
    if r.val < 8 then
      if r.val < 6 then
        (0#32, 96#32)
      else
        if r.val < 7 then
          (680#32, 144#32)
        else
          (0#32, 144#32)
    else
      if r.val < 9 then
        (680#32, 192#32)
      else
        if r.val < 10 then
          (0#32, 192#32)
        else
          (680#32, 240#32)
def k0_dev116 (d0 : Dev nD) : Nat :=
  let c0_i32_247 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_246 : BitVec 32 := 8#32
  let v370 : BitVec 32 := Scalar.muli v2 c8_i32_246
  let v371 : BitVec 32 := Scalar.addi c0_i32_247 v370
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_248 : BitVec 32 := 4#32
  let v372 : BitVec 32 := Scalar.muli v20 c4_i32_248
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v374 : BitVec 32 := Scalar.muli v8 c1_i32_249
  let v375 : BitVec 32 := Scalar.addi v373 v374
  v375.toNat
def k0_dev117 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v396 : BitVec 32 := Scalar.muli v2 c8_i32_266
  let v397 : BitVec 32 := Scalar.addi c0_i32_267 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_268 : BitVec 32 := 4#32
  let v398 : BitVec 32 := Scalar.muli v5 c4_i32_268
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_269 : BitVec 32 := 1#32
  let v400 : BitVec 32 := Scalar.muli v23 c1_i32_269
  let v401 : BitVec 32 := Scalar.addi v399 v400
  v401.toNat
def k0_dev118 (d0 : Dev nD) : Nat :=
  let c0_i32_288 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_287 : BitVec 32 := 8#32
  let v422 : BitVec 32 := Scalar.muli v2 c8_i32_287
  let v423 : BitVec 32 := Scalar.addi c0_i32_288 v422
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_289 : BitVec 32 := 4#32
  let v424 : BitVec 32 := Scalar.muli v20 c4_i32_289
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v426 : BitVec 32 := Scalar.muli v8 c1_i32_290
  let v427 : BitVec 32 := Scalar.addi v425 v426
  v427.toNat
def k0_dev119 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_307 : BitVec 32 := 8#32
  let v448 : BitVec 32 := Scalar.muli v2 c8_i32_307
  let v449 : BitVec 32 := Scalar.addi c0_i32_308 v448
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_309 : BitVec 32 := 4#32
  let v450 : BitVec 32 := Scalar.muli v5 c4_i32_309
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_310 : BitVec 32 := 1#32
  let v452 : BitVec 32 := Scalar.muli v23 c1_i32_310
  let v453 : BitVec 32 := Scalar.addi v451 v452
  v453.toNat
def k0_dev120 (d0 : Dev nD) : Nat :=
  let c0_i32_329 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_328 : BitVec 32 := 8#32
  let v474 : BitVec 32 := Scalar.muli v2 c8_i32_328
  let v475 : BitVec 32 := Scalar.addi c0_i32_329 v474
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_330 : BitVec 32 := 4#32
  let v476 : BitVec 32 := Scalar.muli v20 c4_i32_330
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v478 : BitVec 32 := Scalar.muli v8 c1_i32_331
  let v479 : BitVec 32 := Scalar.addi v477 v478
  v479.toNat
def k0_dev121 (d0 : Dev nD) : Nat :=
  let c0_i32_349 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_348 : BitVec 32 := 8#32
  let v500 : BitVec 32 := Scalar.muli v2 c8_i32_348
  let v501 : BitVec 32 := Scalar.addi c0_i32_349 v500
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_350 : BitVec 32 := 4#32
  let v502 : BitVec 32 := Scalar.muli v5 c4_i32_350
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_351 : BitVec 32 := 1#32
  let v504 : BitVec 32 := Scalar.muli v23 c1_i32_351
  let v505 : BitVec 32 := Scalar.addi v503 v504
  v505.toNat
def k0_dev122 (d0 : Dev nD) : Nat :=
  let c0_i32_370 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_369 : BitVec 32 := 8#32
  let v526 : BitVec 32 := Scalar.muli v2 c8_i32_369
  let v527 : BitVec 32 := Scalar.addi c0_i32_370 v526
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_371 : BitVec 32 := 4#32
  let v528 : BitVec 32 := Scalar.muli v20 c4_i32_371
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_372 : BitVec 32 := 1#32
  let v530 : BitVec 32 := Scalar.muli v8 c1_i32_372
  let v531 : BitVec 32 := Scalar.addi v529 v530
  v531.toNat
def k0_dev123 (d0 : Dev nD) : Nat :=
  let c0_i32_390 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_389 : BitVec 32 := 8#32
  let v552 : BitVec 32 := Scalar.muli v2 c8_i32_389
  let v553 : BitVec 32 := Scalar.addi c0_i32_390 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_391 : BitVec 32 := 4#32
  let v554 : BitVec 32 := Scalar.muli v5 c4_i32_391
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_392 : BitVec 32 := 1#32
  let v556 : BitVec 32 := Scalar.muli v23 c1_i32_392
  let v557 : BitVec 32 := Scalar.addi v555 v556
  v557.toNat
def k0_dev124 (d0 : Dev nD) : Nat :=
  let c0_i32_411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_410 : BitVec 32 := 8#32
  let v578 : BitVec 32 := Scalar.muli v2 c8_i32_410
  let v579 : BitVec 32 := Scalar.addi c0_i32_411 v578
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_412 : BitVec 32 := 4#32
  let v580 : BitVec 32 := Scalar.muli v20 c4_i32_412
  let v581 : BitVec 32 := Scalar.addi v579 v580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v582 : BitVec 32 := Scalar.muli v8 c1_i32_413
  let v583 : BitVec 32 := Scalar.addi v581 v582
  v583.toNat
def k0_dev125 (d0 : Dev nD) : Nat :=
  let c0_i32_431 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_430 : BitVec 32 := 8#32
  let v604 : BitVec 32 := Scalar.muli v2 c8_i32_430
  let v605 : BitVec 32 := Scalar.addi c0_i32_431 v604
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_432 : BitVec 32 := 4#32
  let v606 : BitVec 32 := Scalar.muli v5 c4_i32_432
  let v607 : BitVec 32 := Scalar.addi v605 v606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_433 : BitVec 32 := 1#32
  let v608 : BitVec 32 := Scalar.muli v23 c1_i32_433
  let v609 : BitVec 32 := Scalar.addi v607 v608
  v609.toNat
def k0_dev126 (d0 : Dev nD) : Nat :=
  let c0_i32_452 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_451 : BitVec 32 := 8#32
  let v630 : BitVec 32 := Scalar.muli v2 c8_i32_451
  let v631 : BitVec 32 := Scalar.addi c0_i32_452 v630
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_453 : BitVec 32 := 4#32
  let v632 : BitVec 32 := Scalar.muli v20 c4_i32_453
  let v633 : BitVec 32 := Scalar.addi v631 v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_454 : BitVec 32 := 1#32
  let v634 : BitVec 32 := Scalar.muli v8 c1_i32_454
  let v635 : BitVec 32 := Scalar.addi v633 v634
  v635.toNat
def k0_off13 (d0 : Dev nD) (c0_i32_199 : BitVec 32) (c240_i32_200 : BitVec 32) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c2048_i32_27 : BitVec 32 := 2048#32
  let v45 : BitVec 32 := Scalar.muli v44 c2048_i32_27
  let v314 : BitVec 32 := Scalar.addi v45 c0_i32_199
  let v315 : BitVec 32 := Scalar.addi v314 c240_i32_200
  let c0_i32_463 : BitVec 32 := 0#32
  ![v315.toNat, 0]
def k0_off13_at (r : Fin 21) : BitVec 32 × BitVec 32 :=
  if r.val < 10 then
    if r.val < 5 then
      if r.val < 2 then
        if r.val < 1 then
          (0#32, 240#32)
        else
          (680#32, 288#32)
      else
        if r.val < 3 then
          (0#32, 280#32)
        else
          if r.val < 4 then
            (680#32, 328#32)
          else
            (0#32, 320#32)
    else
      if r.val < 7 then
        if r.val < 6 then
          (680#32, 368#32)
        else
          (0#32, 360#32)
      else
        if r.val < 8 then
          (680#32, 408#32)
        else
          if r.val < 9 then
            (0#32, 400#32)
          else
            (680#32, 448#32)
  else
    if r.val < 15 then
      if r.val < 12 then
        if r.val < 11 then
          (0#32, 440#32)
        else
          (680#32, 488#32)
      else
        if r.val < 13 then
          (0#32, 480#32)
        else
          if r.val < 14 then
            (680#32, 528#32)
          else
            (0#32, 520#32)
    else
      if r.val < 18 then
        if r.val < 16 then
          (680#32, 568#32)
        else
          if r.val < 17 then
            (0#32, 560#32)
          else
            (680#32, 608#32)
      else
        if r.val < 19 then
          (0#32, 600#32)
        else
          if r.val < 20 then
            (680#32, 648#32)
          else
            (0#32, 640#32)
def k0_dev127 (d0 : Dev nD) : Nat :=
  let c0_i32_472 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_471 : BitVec 32 := 8#32
  let v656 : BitVec 32 := Scalar.muli v2 c8_i32_471
  let v657 : BitVec 32 := Scalar.addi c0_i32_472 v656
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v658 : BitVec 32 := Scalar.muli v5 c4_i32_473
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_474 : BitVec 32 := 1#32
  let v660 : BitVec 32 := Scalar.muli v23 c1_i32_474
  let v661 : BitVec 32 := Scalar.addi v659 v660
  v661.toNat
def k0_dev128 (d0 : Dev nD) : Nat :=
  let c0_i32_493 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_492 : BitVec 32 := 8#32
  let v682 : BitVec 32 := Scalar.muli v2 c8_i32_492
  let v683 : BitVec 32 := Scalar.addi c0_i32_493 v682
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_494 : BitVec 32 := 4#32
  let v684 : BitVec 32 := Scalar.muli v20 c4_i32_494
  let v685 : BitVec 32 := Scalar.addi v683 v684
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495 : BitVec 32 := 1#32
  let v686 : BitVec 32 := Scalar.muli v8 c1_i32_495
  let v687 : BitVec 32 := Scalar.addi v685 v686
  v687.toNat
def k0_dev129 (d0 : Dev nD) : Nat :=
  let c0_i32_513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_512 : BitVec 32 := 8#32
  let v708 : BitVec 32 := Scalar.muli v2 c8_i32_512
  let v709 : BitVec 32 := Scalar.addi c0_i32_513 v708
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_514 : BitVec 32 := 4#32
  let v710 : BitVec 32 := Scalar.muli v5 c4_i32_514
  let v711 : BitVec 32 := Scalar.addi v709 v710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_515 : BitVec 32 := 1#32
  let v712 : BitVec 32 := Scalar.muli v23 c1_i32_515
  let v713 : BitVec 32 := Scalar.addi v711 v712
  v713.toNat
def k0_dev130 (d0 : Dev nD) : Nat :=
  let c0_i32_534 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_533 : BitVec 32 := 8#32
  let v734 : BitVec 32 := Scalar.muli v2 c8_i32_533
  let v735 : BitVec 32 := Scalar.addi c0_i32_534 v734
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_535 : BitVec 32 := 4#32
  let v736 : BitVec 32 := Scalar.muli v20 c4_i32_535
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v738 : BitVec 32 := Scalar.muli v8 c1_i32_536
  let v739 : BitVec 32 := Scalar.addi v737 v738
  v739.toNat
def k0_dev131 (d0 : Dev nD) : Nat :=
  let c0_i32_554 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_553 : BitVec 32 := 8#32
  let v760 : BitVec 32 := Scalar.muli v2 c8_i32_553
  let v761 : BitVec 32 := Scalar.addi c0_i32_554 v760
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_555 : BitVec 32 := 4#32
  let v762 : BitVec 32 := Scalar.muli v5 c4_i32_555
  let v763 : BitVec 32 := Scalar.addi v761 v762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_556 : BitVec 32 := 1#32
  let v764 : BitVec 32 := Scalar.muli v23 c1_i32_556
  let v765 : BitVec 32 := Scalar.addi v763 v764
  v765.toNat
def k0_dev132 (d0 : Dev nD) : Nat :=
  let c0_i32_575 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_574 : BitVec 32 := 8#32
  let v786 : BitVec 32 := Scalar.muli v2 c8_i32_574
  let v787 : BitVec 32 := Scalar.addi c0_i32_575 v786
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_576 : BitVec 32 := 4#32
  let v788 : BitVec 32 := Scalar.muli v20 c4_i32_576
  let v789 : BitVec 32 := Scalar.addi v787 v788
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_577 : BitVec 32 := 1#32
  let v790 : BitVec 32 := Scalar.muli v8 c1_i32_577
  let v791 : BitVec 32 := Scalar.addi v789 v790
  v791.toNat
def k0_dev133 (d0 : Dev nD) : Nat :=
  let c0_i32_595 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_594 : BitVec 32 := 8#32
  let v812 : BitVec 32 := Scalar.muli v2 c8_i32_594
  let v813 : BitVec 32 := Scalar.addi c0_i32_595 v812
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_596 : BitVec 32 := 4#32
  let v814 : BitVec 32 := Scalar.muli v5 c4_i32_596
  let v815 : BitVec 32 := Scalar.addi v813 v814
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_597 : BitVec 32 := 1#32
  let v816 : BitVec 32 := Scalar.muli v23 c1_i32_597
  let v817 : BitVec 32 := Scalar.addi v815 v816
  v817.toNat
def k0_dev134 (d0 : Dev nD) : Nat :=
  let c0_i32_616 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_615 : BitVec 32 := 8#32
  let v838 : BitVec 32 := Scalar.muli v2 c8_i32_615
  let v839 : BitVec 32 := Scalar.addi c0_i32_616 v838
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_617 : BitVec 32 := 4#32
  let v840 : BitVec 32 := Scalar.muli v20 c4_i32_617
  let v841 : BitVec 32 := Scalar.addi v839 v840
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_618 : BitVec 32 := 1#32
  let v842 : BitVec 32 := Scalar.muli v8 c1_i32_618
  let v843 : BitVec 32 := Scalar.addi v841 v842
  v843.toNat
def k0_dev135 (d0 : Dev nD) : Nat :=
  let c0_i32_636 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_635 : BitVec 32 := 8#32
  let v864 : BitVec 32 := Scalar.muli v2 c8_i32_635
  let v865 : BitVec 32 := Scalar.addi c0_i32_636 v864
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_637 : BitVec 32 := 4#32
  let v866 : BitVec 32 := Scalar.muli v5 c4_i32_637
  let v867 : BitVec 32 := Scalar.addi v865 v866
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_638 : BitVec 32 := 1#32
  let v868 : BitVec 32 := Scalar.muli v23 c1_i32_638
  let v869 : BitVec 32 := Scalar.addi v867 v868
  v869.toNat
def k0_dev136 (d0 : Dev nD) : Nat :=
  let c0_i32_657 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_656 : BitVec 32 := 8#32
  let v890 : BitVec 32 := Scalar.muli v2 c8_i32_656
  let v891 : BitVec 32 := Scalar.addi c0_i32_657 v890
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_658 : BitVec 32 := 4#32
  let v892 : BitVec 32 := Scalar.muli v20 c4_i32_658
  let v893 : BitVec 32 := Scalar.addi v891 v892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_659 : BitVec 32 := 1#32
  let v894 : BitVec 32 := Scalar.muli v8 c1_i32_659
  let v895 : BitVec 32 := Scalar.addi v893 v894
  v895.toNat
def k0_dev137 (d0 : Dev nD) : Nat :=
  let c0_i32_677 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_676 : BitVec 32 := 8#32
  let v916 : BitVec 32 := Scalar.muli v2 c8_i32_676
  let v917 : BitVec 32 := Scalar.addi c0_i32_677 v916
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_678 : BitVec 32 := 4#32
  let v918 : BitVec 32 := Scalar.muli v5 c4_i32_678
  let v919 : BitVec 32 := Scalar.addi v917 v918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_679 : BitVec 32 := 1#32
  let v920 : BitVec 32 := Scalar.muli v23 c1_i32_679
  let v921 : BitVec 32 := Scalar.addi v919 v920
  v921.toNat
def k0_dev138 (d0 : Dev nD) : Nat :=
  let c0_i32_698 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_697 : BitVec 32 := 8#32
  let v942 : BitVec 32 := Scalar.muli v2 c8_i32_697
  let v943 : BitVec 32 := Scalar.addi c0_i32_698 v942
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_699 : BitVec 32 := 4#32
  let v944 : BitVec 32 := Scalar.muli v20 c4_i32_699
  let v945 : BitVec 32 := Scalar.addi v943 v944
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_700 : BitVec 32 := 1#32
  let v946 : BitVec 32 := Scalar.muli v8 c1_i32_700
  let v947 : BitVec 32 := Scalar.addi v945 v946
  v947.toNat
def k0_dev139 (d0 : Dev nD) : Nat :=
  let c0_i32_718 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_717 : BitVec 32 := 8#32
  let v968 : BitVec 32 := Scalar.muli v2 c8_i32_717
  let v969 : BitVec 32 := Scalar.addi c0_i32_718 v968
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_719 : BitVec 32 := 4#32
  let v970 : BitVec 32 := Scalar.muli v5 c4_i32_719
  let v971 : BitVec 32 := Scalar.addi v969 v970
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_720 : BitVec 32 := 1#32
  let v972 : BitVec 32 := Scalar.muli v23 c1_i32_720
  let v973 : BitVec 32 := Scalar.addi v971 v972
  v973.toNat
def k0_dev140 (d0 : Dev nD) : Nat :=
  let c0_i32_739 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_738 : BitVec 32 := 8#32
  let v994 : BitVec 32 := Scalar.muli v2 c8_i32_738
  let v995 : BitVec 32 := Scalar.addi c0_i32_739 v994
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_740 : BitVec 32 := 4#32
  let v996 : BitVec 32 := Scalar.muli v20 c4_i32_740
  let v997 : BitVec 32 := Scalar.addi v995 v996
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_741 : BitVec 32 := 1#32
  let v998 : BitVec 32 := Scalar.muli v8 c1_i32_741
  let v999 : BitVec 32 := Scalar.addi v997 v998
  v999.toNat
def k0_dev141 (d0 : Dev nD) : Nat :=
  let c0_i32_759 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_758 : BitVec 32 := 8#32
  let v1020 : BitVec 32 := Scalar.muli v2 c8_i32_758
  let v1021 : BitVec 32 := Scalar.addi c0_i32_759 v1020
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_760 : BitVec 32 := 4#32
  let v1022 : BitVec 32 := Scalar.muli v5 c4_i32_760
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_761 : BitVec 32 := 1#32
  let v1024 : BitVec 32 := Scalar.muli v23 c1_i32_761
  let v1025 : BitVec 32 := Scalar.addi v1023 v1024
  v1025.toNat
def k0_dev142 (d0 : Dev nD) : Nat :=
  let c0_i32_780 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_779 : BitVec 32 := 8#32
  let v1046 : BitVec 32 := Scalar.muli v2 c8_i32_779
  let v1047 : BitVec 32 := Scalar.addi c0_i32_780 v1046
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_781 : BitVec 32 := 4#32
  let v1048 : BitVec 32 := Scalar.muli v20 c4_i32_781
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_782 : BitVec 32 := 1#32
  let v1050 : BitVec 32 := Scalar.muli v8 c1_i32_782
  let v1051 : BitVec 32 := Scalar.addi v1049 v1050
  v1051.toNat
def k0_dev143 (d0 : Dev nD) : Nat :=
  let c0_i32_800 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_799 : BitVec 32 := 8#32
  let v1072 : BitVec 32 := Scalar.muli v2 c8_i32_799
  let v1073 : BitVec 32 := Scalar.addi c0_i32_800 v1072
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_801 : BitVec 32 := 4#32
  let v1074 : BitVec 32 := Scalar.muli v5 c4_i32_801
  let v1075 : BitVec 32 := Scalar.addi v1073 v1074
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_802 : BitVec 32 := 1#32
  let v1076 : BitVec 32 := Scalar.muli v23 c1_i32_802
  let v1077 : BitVec 32 := Scalar.addi v1075 v1076
  v1077.toNat
def k0_dev144 (d0 : Dev nD) : Nat :=
  let c0_i32_821 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_820 : BitVec 32 := 8#32
  let v1098 : BitVec 32 := Scalar.muli v2 c8_i32_820
  let v1099 : BitVec 32 := Scalar.addi c0_i32_821 v1098
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_822 : BitVec 32 := 4#32
  let v1100 : BitVec 32 := Scalar.muli v20 c4_i32_822
  let v1101 : BitVec 32 := Scalar.addi v1099 v1100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_823 : BitVec 32 := 1#32
  let v1102 : BitVec 32 := Scalar.muli v8 c1_i32_823
  let v1103 : BitVec 32 := Scalar.addi v1101 v1102
  v1103.toNat
def k0_dev145 (d0 : Dev nD) : Nat :=
  let c0_i32_841 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_840 : BitVec 32 := 8#32
  let v1124 : BitVec 32 := Scalar.muli v2 c8_i32_840
  let v1125 : BitVec 32 := Scalar.addi c0_i32_841 v1124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_842 : BitVec 32 := 4#32
  let v1126 : BitVec 32 := Scalar.muli v5 c4_i32_842
  let v1127 : BitVec 32 := Scalar.addi v1125 v1126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_843 : BitVec 32 := 1#32
  let v1128 : BitVec 32 := Scalar.muli v23 c1_i32_843
  let v1129 : BitVec 32 := Scalar.addi v1127 v1128
  v1129.toNat
def k0_dev146 (d0 : Dev nD) : Nat :=
  let c0_i32_862 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_861 : BitVec 32 := 8#32
  let v1150 : BitVec 32 := Scalar.muli v2 c8_i32_861
  let v1151 : BitVec 32 := Scalar.addi c0_i32_862 v1150
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_863 : BitVec 32 := 4#32
  let v1152 : BitVec 32 := Scalar.muli v20 c4_i32_863
  let v1153 : BitVec 32 := Scalar.addi v1151 v1152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_864 : BitVec 32 := 1#32
  let v1154 : BitVec 32 := Scalar.muli v8 c1_i32_864
  let v1155 : BitVec 32 := Scalar.addi v1153 v1154
  v1155.toNat
def k0_dev147 (d0 : Dev nD) : Nat :=
  let c0_i32_882 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_881 : BitVec 32 := 8#32
  let v1176 : BitVec 32 := Scalar.muli v2 c8_i32_881
  let v1177 : BitVec 32 := Scalar.addi c0_i32_882 v1176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_883 : BitVec 32 := 4#32
  let v1178 : BitVec 32 := Scalar.muli v5 c4_i32_883
  let v1179 : BitVec 32 := Scalar.addi v1177 v1178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_884 : BitVec 32 := 1#32
  let v1180 : BitVec 32 := Scalar.muli v23 c1_i32_884
  let v1181 : BitVec 32 := Scalar.addi v1179 v1180
  v1181.toNat
def k0_cond4 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_38 : BitVec 32 := 1#32
  let v62 : BitVec 1 := Scalar.cmpi .eq v5 c1_i32_38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_39 : BitVec 32 := 1#32
  let v63 : BitVec 1 := Scalar.cmpi .eq v18 c1_i32_39
  let v64 : BitVec 1 := Scalar.andi v62 v63
  let v65 : BitVec 32 := Scalar.extui v64
  let c0_i32_40 : BitVec 32 := 0#32
  let v66 : BitVec 1 := Scalar.cmpi .ne v65 c0_i32_40
  v66

def k0_off14 (d0 : Dev nD) (c0_i32_42 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c680_i32 : BitVec 32 := 680#32
  let v68 : BitVec 32 := Scalar.addi v43 c680_i32
  let v69 : BitVec 32 := Scalar.addi v68 c0_i32_42
  let c0_i32_49 : BitVec 32 := 0#32
  ![v69.toNat, 0]
def k0_dev148 (d0 : Dev nD) : Nat :=
  let c0_i32_46 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_45 : BitVec 32 := 8#32
  let v70 : BitVec 32 := Scalar.muli v19 c8_i32_45
  let v71 : BitVec 32 := Scalar.addi c0_i32_46 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v72 : BitVec 32 := Scalar.muli v5 c4_i32_47
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v74 : BitVec 32 := Scalar.muli v8 c1_i32_48
  let v75 : BitVec 32 := Scalar.addi v73 v74
  v75.toNat
def k0_dev149 (d0 : Dev nD) : Nat :=
  let c0_i32_56 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_55 : BitVec 32 := 8#32
  let v84 : BitVec 32 := Scalar.muli v19 c8_i32_55
  let v85 : BitVec 32 := Scalar.addi c0_i32_56 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v86 : BitVec 32 := Scalar.muli v5 c4_i32_57
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v88 : BitVec 32 := Scalar.muli v8 c1_i32_58
  let v89 : BitVec 32 := Scalar.addi v87 v88
  v89.toNat
def k0_dev150 (d0 : Dev nD) : Nat :=
  let c0_i32_65 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_64 : BitVec 32 := 8#32
  let v98 : BitVec 32 := Scalar.muli v19 c8_i32_64
  let v99 : BitVec 32 := Scalar.addi c0_i32_65 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v100 : BitVec 32 := Scalar.muli v5 c4_i32_66
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v102 : BitVec 32 := Scalar.muli v8 c1_i32_67
  let v103 : BitVec 32 := Scalar.addi v101 v102
  v103.toNat
def k0_dev151 (d0 : Dev nD) : Nat :=
  let c0_i32_74 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_73 : BitVec 32 := 8#32
  let v112 : BitVec 32 := Scalar.muli v19 c8_i32_73
  let v113 : BitVec 32 := Scalar.addi c0_i32_74 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v114 : BitVec 32 := Scalar.muli v5 c4_i32_75
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v116 : BitVec 32 := Scalar.muli v8 c1_i32_76
  let v117 : BitVec 32 := Scalar.addi v115 v116
  v117.toNat
def k0_dev152 (d0 : Dev nD) : Nat :=
  let c0_i32_83 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_82 : BitVec 32 := 8#32
  let v126 : BitVec 32 := Scalar.muli v19 c8_i32_82
  let v127 : BitVec 32 := Scalar.addi c0_i32_83 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v128 : BitVec 32 := Scalar.muli v5 c4_i32_84
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v130 : BitVec 32 := Scalar.muli v8 c1_i32_85
  let v131 : BitVec 32 := Scalar.addi v129 v130
  v131.toNat
def k0_dev153 (d0 : Dev nD) : Nat :=
  let c0_i32_91 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_90 : BitVec 32 := 8#32
  let v140 : BitVec 32 := Scalar.muli v19 c8_i32_90
  let v141 : BitVec 32 := Scalar.addi c0_i32_91 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v142 : BitVec 32 := Scalar.muli v5 c4_i32_92
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v144 : BitVec 32 := Scalar.muli v8 c1_i32_93
  let v145 : BitVec 32 := Scalar.addi v143 v144
  v145.toNat
def k0_off15 (d0 : Dev nD) (c288_i32 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v43 : BitVec 32 := Scalar.muli v2 c2048_i32
  let c680_i32_96 : BitVec 32 := 680#32
  let v152 : BitVec 32 := Scalar.addi v43 c680_i32_96
  let v153 : BitVec 32 := Scalar.addi v152 c288_i32
  let c0_i32_102 : BitVec 32 := 0#32
  ![v153.toNat, 0]
def k0_dev154 (d0 : Dev nD) : Nat :=
  let c0_i32_99 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_98 : BitVec 32 := 8#32
  let v154 : BitVec 32 := Scalar.muli v19 c8_i32_98
  let v155 : BitVec 32 := Scalar.addi c0_i32_99 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v156 : BitVec 32 := Scalar.muli v5 c4_i32_100
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v158 : BitVec 32 := Scalar.muli v8 c1_i32_101
  let v159 : BitVec 32 := Scalar.addi v157 v158
  v159.toNat
def k0_dev155 (d0 : Dev nD) : Nat :=
  let c0_i32_107 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_106 : BitVec 32 := 8#32
  let v168 : BitVec 32 := Scalar.muli v19 c8_i32_106
  let v169 : BitVec 32 := Scalar.addi c0_i32_107 v168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_108 : BitVec 32 := 4#32
  let v170 : BitVec 32 := Scalar.muli v5 c4_i32_108
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v172 : BitVec 32 := Scalar.muli v8 c1_i32_109
  let v173 : BitVec 32 := Scalar.addi v171 v172
  v173.toNat
def k0_dev156 (d0 : Dev nD) : Nat :=
  let c0_i32_116 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_115 : BitVec 32 := 8#32
  let v182 : BitVec 32 := Scalar.muli v19 c8_i32_115
  let v183 : BitVec 32 := Scalar.addi c0_i32_116 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v184 : BitVec 32 := Scalar.muli v5 c4_i32_117
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v186 : BitVec 32 := Scalar.muli v8 c1_i32_118
  let v187 : BitVec 32 := Scalar.addi v185 v186
  v187.toNat
def k0_dev157 (d0 : Dev nD) : Nat :=
  let c0_i32_124 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_123 : BitVec 32 := 8#32
  let v196 : BitVec 32 := Scalar.muli v19 c8_i32_123
  let v197 : BitVec 32 := Scalar.addi c0_i32_124 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v198 : BitVec 32 := Scalar.muli v5 c4_i32_125
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v200 : BitVec 32 := Scalar.muli v8 c1_i32_126
  let v201 : BitVec 32 := Scalar.addi v199 v200
  v201.toNat
def k0_dev158 (d0 : Dev nD) : Nat :=
  let c0_i32_132 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_131 : BitVec 32 := 8#32
  let v210 : BitVec 32 := Scalar.muli v19 c8_i32_131
  let v211 : BitVec 32 := Scalar.addi c0_i32_132 v210
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v212 : BitVec 32 := Scalar.muli v5 c4_i32_133
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v214 : BitVec 32 := Scalar.muli v8 c1_i32_134
  let v215 : BitVec 32 := Scalar.addi v213 v214
  v215.toNat
def k0_dev159 (d0 : Dev nD) : Nat :=
  let c0_i32_140 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_139 : BitVec 32 := 8#32
  let v224 : BitVec 32 := Scalar.muli v19 c8_i32_139
  let v225 : BitVec 32 := Scalar.addi c0_i32_140 v224
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v226 : BitVec 32 := Scalar.muli v5 c4_i32_141
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v228 : BitVec 32 := Scalar.muli v8 c1_i32_142
  let v229 : BitVec 32 := Scalar.addi v227 v228
  v229.toNat
def k0_dev160 (d0 : Dev nD) : Nat :=
  let c0_i32_148 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_147 : BitVec 32 := 8#32
  let v238 : BitVec 32 := Scalar.muli v19 c8_i32_147
  let v239 : BitVec 32 := Scalar.addi c0_i32_148 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_149 : BitVec 32 := 4#32
  let v240 : BitVec 32 := Scalar.muli v5 c4_i32_149
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v242 : BitVec 32 := Scalar.muli v8 c1_i32_150
  let v243 : BitVec 32 := Scalar.addi v241 v242
  v243.toNat
def k0_dev161 (d0 : Dev nD) : Nat :=
  let c0_i32_156 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_155 : BitVec 32 := 8#32
  let v252 : BitVec 32 := Scalar.muli v19 c8_i32_155
  let v253 : BitVec 32 := Scalar.addi c0_i32_156 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_157 : BitVec 32 := 4#32
  let v254 : BitVec 32 := Scalar.muli v5 c4_i32_157
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v256 : BitVec 32 := Scalar.muli v8 c1_i32_158
  let v257 : BitVec 32 := Scalar.addi v255 v256
  v257.toNat
def k0_dev162 (d0 : Dev nD) : Nat :=
  let c0_i32_164 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_163 : BitVec 32 := 8#32
  let v266 : BitVec 32 := Scalar.muli v19 c8_i32_163
  let v267 : BitVec 32 := Scalar.addi c0_i32_164 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_165 : BitVec 32 := 4#32
  let v268 : BitVec 32 := Scalar.muli v5 c4_i32_165
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v270 : BitVec 32 := Scalar.muli v8 c1_i32_166
  let v271 : BitVec 32 := Scalar.addi v269 v270
  v271.toNat
def k0_dev163 (d0 : Dev nD) : Nat :=
  let c0_i32_172 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_171 : BitVec 32 := 8#32
  let v280 : BitVec 32 := Scalar.muli v19 c8_i32_171
  let v281 : BitVec 32 := Scalar.addi c0_i32_172 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v282 : BitVec 32 := Scalar.muli v5 c4_i32_173
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v284 : BitVec 32 := Scalar.muli v8 c1_i32_174
  let v285 : BitVec 32 := Scalar.addi v283 v284
  v285.toNat
def k0_off16 (d0 : Dev nD) (c680_i32_241 : BitVec 32) (c0_i32_242 : BitVec 32) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c2048_i32_27 : BitVec 32 := 2048#32
  let v45 : BitVec 32 := Scalar.muli v44 c2048_i32_27
  let v368 : BitVec 32 := Scalar.addi v45 c680_i32_241
  let v369 : BitVec 32 := Scalar.addi v368 c0_i32_242
  let c0_i32_249 : BitVec 32 := 0#32
  ![v369.toNat, 0]
def k0_off16_at (r : Fin 11) : BitVec 32 × BitVec 32 :=
  if r.val < 5 then
    if r.val < 2 then
      if r.val < 1 then
        (680#32, 0#32)
      else
        (1368#32, 0#32)
    else
      if r.val < 3 then
        (680#32, 48#32)
      else
        if r.val < 4 then
          (1368#32, 48#32)
        else
          (680#32, 96#32)
  else
    if r.val < 8 then
      if r.val < 6 then
        (1368#32, 96#32)
      else
        if r.val < 7 then
          (680#32, 144#32)
        else
          (1368#32, 144#32)
    else
      if r.val < 9 then
        (680#32, 192#32)
      else
        if r.val < 10 then
          (1368#32, 192#32)
        else
          (680#32, 240#32)
def k0_dev164 (d0 : Dev nD) : Nat :=
  let c0_i32_246 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_245 : BitVec 32 := 8#32
  let v370 : BitVec 32 := Scalar.muli v2 c8_i32_245
  let v371 : BitVec 32 := Scalar.addi c0_i32_246 v370
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_247 : BitVec 32 := 4#32
  let v372 : BitVec 32 := Scalar.muli v20 c4_i32_247
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v374 : BitVec 32 := Scalar.muli v8 c1_i32_248
  let v375 : BitVec 32 := Scalar.addi v373 v374
  v375.toNat
def k0_dev165 (d0 : Dev nD) : Nat :=
  let c0_i32_266 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_265 : BitVec 32 := 8#32
  let v396 : BitVec 32 := Scalar.muli v2 c8_i32_265
  let v397 : BitVec 32 := Scalar.addi c0_i32_266 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_267 : BitVec 32 := 4#32
  let v398 : BitVec 32 := Scalar.muli v5 c4_i32_267
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_268 : BitVec 32 := 1#32
  let v400 : BitVec 32 := Scalar.muli v23 c1_i32_268
  let v401 : BitVec 32 := Scalar.addi v399 v400
  v401.toNat
def k0_dev166 (d0 : Dev nD) : Nat :=
  let c0_i32_287 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_286 : BitVec 32 := 8#32
  let v422 : BitVec 32 := Scalar.muli v2 c8_i32_286
  let v423 : BitVec 32 := Scalar.addi c0_i32_287 v422
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_288 : BitVec 32 := 4#32
  let v424 : BitVec 32 := Scalar.muli v20 c4_i32_288
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v426 : BitVec 32 := Scalar.muli v8 c1_i32_289
  let v427 : BitVec 32 := Scalar.addi v425 v426
  v427.toNat
def k0_dev167 (d0 : Dev nD) : Nat :=
  let c0_i32_307 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_306 : BitVec 32 := 8#32
  let v448 : BitVec 32 := Scalar.muli v2 c8_i32_306
  let v449 : BitVec 32 := Scalar.addi c0_i32_307 v448
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_308 : BitVec 32 := 4#32
  let v450 : BitVec 32 := Scalar.muli v5 c4_i32_308
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_309 : BitVec 32 := 1#32
  let v452 : BitVec 32 := Scalar.muli v23 c1_i32_309
  let v453 : BitVec 32 := Scalar.addi v451 v452
  v453.toNat
def k0_dev168 (d0 : Dev nD) : Nat :=
  let c0_i32_328 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_327 : BitVec 32 := 8#32
  let v474 : BitVec 32 := Scalar.muli v2 c8_i32_327
  let v475 : BitVec 32 := Scalar.addi c0_i32_328 v474
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_329 : BitVec 32 := 4#32
  let v476 : BitVec 32 := Scalar.muli v20 c4_i32_329
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v478 : BitVec 32 := Scalar.muli v8 c1_i32_330
  let v479 : BitVec 32 := Scalar.addi v477 v478
  v479.toNat
def k0_dev169 (d0 : Dev nD) : Nat :=
  let c0_i32_348 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_347 : BitVec 32 := 8#32
  let v500 : BitVec 32 := Scalar.muli v2 c8_i32_347
  let v501 : BitVec 32 := Scalar.addi c0_i32_348 v500
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_349 : BitVec 32 := 4#32
  let v502 : BitVec 32 := Scalar.muli v5 c4_i32_349
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_350 : BitVec 32 := 1#32
  let v504 : BitVec 32 := Scalar.muli v23 c1_i32_350
  let v505 : BitVec 32 := Scalar.addi v503 v504
  v505.toNat
def k0_dev170 (d0 : Dev nD) : Nat :=
  let c0_i32_369 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_368 : BitVec 32 := 8#32
  let v526 : BitVec 32 := Scalar.muli v2 c8_i32_368
  let v527 : BitVec 32 := Scalar.addi c0_i32_369 v526
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_370 : BitVec 32 := 4#32
  let v528 : BitVec 32 := Scalar.muli v20 c4_i32_370
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v530 : BitVec 32 := Scalar.muli v8 c1_i32_371
  let v531 : BitVec 32 := Scalar.addi v529 v530
  v531.toNat
def k0_dev171 (d0 : Dev nD) : Nat :=
  let c0_i32_389 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_388 : BitVec 32 := 8#32
  let v552 : BitVec 32 := Scalar.muli v2 c8_i32_388
  let v553 : BitVec 32 := Scalar.addi c0_i32_389 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_390 : BitVec 32 := 4#32
  let v554 : BitVec 32 := Scalar.muli v5 c4_i32_390
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_391 : BitVec 32 := 1#32
  let v556 : BitVec 32 := Scalar.muli v23 c1_i32_391
  let v557 : BitVec 32 := Scalar.addi v555 v556
  v557.toNat
def k0_dev172 (d0 : Dev nD) : Nat :=
  let c0_i32_410 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_409 : BitVec 32 := 8#32
  let v578 : BitVec 32 := Scalar.muli v2 c8_i32_409
  let v579 : BitVec 32 := Scalar.addi c0_i32_410 v578
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_411 : BitVec 32 := 4#32
  let v580 : BitVec 32 := Scalar.muli v20 c4_i32_411
  let v581 : BitVec 32 := Scalar.addi v579 v580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_412 : BitVec 32 := 1#32
  let v582 : BitVec 32 := Scalar.muli v8 c1_i32_412
  let v583 : BitVec 32 := Scalar.addi v581 v582
  v583.toNat
def k0_dev173 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v604 : BitVec 32 := Scalar.muli v2 c8_i32_429
  let v605 : BitVec 32 := Scalar.addi c0_i32_430 v604
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v606 : BitVec 32 := Scalar.muli v5 c4_i32_431
  let v607 : BitVec 32 := Scalar.addi v605 v606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_432 : BitVec 32 := 1#32
  let v608 : BitVec 32 := Scalar.muli v23 c1_i32_432
  let v609 : BitVec 32 := Scalar.addi v607 v608
  v609.toNat
def k0_dev174 (d0 : Dev nD) : Nat :=
  let c0_i32_451 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_450 : BitVec 32 := 8#32
  let v630 : BitVec 32 := Scalar.muli v2 c8_i32_450
  let v631 : BitVec 32 := Scalar.addi c0_i32_451 v630
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_452 : BitVec 32 := 4#32
  let v632 : BitVec 32 := Scalar.muli v20 c4_i32_452
  let v633 : BitVec 32 := Scalar.addi v631 v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_453 : BitVec 32 := 1#32
  let v634 : BitVec 32 := Scalar.muli v8 c1_i32_453
  let v635 : BitVec 32 := Scalar.addi v633 v634
  v635.toNat
def k0_off17 (d0 : Dev nD) (c1368_i32_198 : BitVec 32) (c240_i32_199 : BitVec 32) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c2048_i32_27 : BitVec 32 := 2048#32
  let v45 : BitVec 32 := Scalar.muli v44 c2048_i32_27
  let v314 : BitVec 32 := Scalar.addi v45 c1368_i32_198
  let v315 : BitVec 32 := Scalar.addi v314 c240_i32_199
  let c0_i32_462 : BitVec 32 := 0#32
  ![v315.toNat, 0]
def k0_off17_at (r : Fin 21) : BitVec 32 × BitVec 32 :=
  if r.val < 10 then
    if r.val < 5 then
      if r.val < 2 then
        if r.val < 1 then
          (1368#32, 240#32)
        else
          (680#32, 288#32)
      else
        if r.val < 3 then
          (1368#32, 280#32)
        else
          if r.val < 4 then
            (680#32, 328#32)
          else
            (1368#32, 320#32)
    else
      if r.val < 7 then
        if r.val < 6 then
          (680#32, 368#32)
        else
          (1368#32, 360#32)
      else
        if r.val < 8 then
          (680#32, 408#32)
        else
          if r.val < 9 then
            (1368#32, 400#32)
          else
            (680#32, 448#32)
  else
    if r.val < 15 then
      if r.val < 12 then
        if r.val < 11 then
          (1368#32, 440#32)
        else
          (680#32, 488#32)
      else
        if r.val < 13 then
          (1368#32, 480#32)
        else
          if r.val < 14 then
            (680#32, 528#32)
          else
            (1368#32, 520#32)
    else
      if r.val < 18 then
        if r.val < 16 then
          (680#32, 568#32)
        else
          if r.val < 17 then
            (1368#32, 560#32)
          else
            (680#32, 608#32)
      else
        if r.val < 19 then
          (1368#32, 600#32)
        else
          if r.val < 20 then
            (680#32, 648#32)
          else
            (1368#32, 640#32)
def k0_dev175 (d0 : Dev nD) : Nat :=
  let c0_i32_471 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_470 : BitVec 32 := 8#32
  let v656 : BitVec 32 := Scalar.muli v2 c8_i32_470
  let v657 : BitVec 32 := Scalar.addi c0_i32_471 v656
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_472 : BitVec 32 := 4#32
  let v658 : BitVec 32 := Scalar.muli v5 c4_i32_472
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_473 : BitVec 32 := 1#32
  let v660 : BitVec 32 := Scalar.muli v23 c1_i32_473
  let v661 : BitVec 32 := Scalar.addi v659 v660
  v661.toNat
def k0_dev176 (d0 : Dev nD) : Nat :=
  let c0_i32_492 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_491 : BitVec 32 := 8#32
  let v682 : BitVec 32 := Scalar.muli v2 c8_i32_491
  let v683 : BitVec 32 := Scalar.addi c0_i32_492 v682
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_493 : BitVec 32 := 4#32
  let v684 : BitVec 32 := Scalar.muli v20 c4_i32_493
  let v685 : BitVec 32 := Scalar.addi v683 v684
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v686 : BitVec 32 := Scalar.muli v8 c1_i32_494
  let v687 : BitVec 32 := Scalar.addi v685 v686
  v687.toNat
def k0_dev177 (d0 : Dev nD) : Nat :=
  let c0_i32_512 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_511 : BitVec 32 := 8#32
  let v708 : BitVec 32 := Scalar.muli v2 c8_i32_511
  let v709 : BitVec 32 := Scalar.addi c0_i32_512 v708
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_513 : BitVec 32 := 4#32
  let v710 : BitVec 32 := Scalar.muli v5 c4_i32_513
  let v711 : BitVec 32 := Scalar.addi v709 v710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_514 : BitVec 32 := 1#32
  let v712 : BitVec 32 := Scalar.muli v23 c1_i32_514
  let v713 : BitVec 32 := Scalar.addi v711 v712
  v713.toNat
def k0_dev178 (d0 : Dev nD) : Nat :=
  let c0_i32_533 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_532 : BitVec 32 := 8#32
  let v734 : BitVec 32 := Scalar.muli v2 c8_i32_532
  let v735 : BitVec 32 := Scalar.addi c0_i32_533 v734
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_534 : BitVec 32 := 4#32
  let v736 : BitVec 32 := Scalar.muli v20 c4_i32_534
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v738 : BitVec 32 := Scalar.muli v8 c1_i32_535
  let v739 : BitVec 32 := Scalar.addi v737 v738
  v739.toNat
def k0_dev179 (d0 : Dev nD) : Nat :=
  let c0_i32_553 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_552 : BitVec 32 := 8#32
  let v760 : BitVec 32 := Scalar.muli v2 c8_i32_552
  let v761 : BitVec 32 := Scalar.addi c0_i32_553 v760
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_554 : BitVec 32 := 4#32
  let v762 : BitVec 32 := Scalar.muli v5 c4_i32_554
  let v763 : BitVec 32 := Scalar.addi v761 v762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_555 : BitVec 32 := 1#32
  let v764 : BitVec 32 := Scalar.muli v23 c1_i32_555
  let v765 : BitVec 32 := Scalar.addi v763 v764
  v765.toNat
def k0_dev180 (d0 : Dev nD) : Nat :=
  let c0_i32_574 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_573 : BitVec 32 := 8#32
  let v786 : BitVec 32 := Scalar.muli v2 c8_i32_573
  let v787 : BitVec 32 := Scalar.addi c0_i32_574 v786
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_575 : BitVec 32 := 4#32
  let v788 : BitVec 32 := Scalar.muli v20 c4_i32_575
  let v789 : BitVec 32 := Scalar.addi v787 v788
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_576 : BitVec 32 := 1#32
  let v790 : BitVec 32 := Scalar.muli v8 c1_i32_576
  let v791 : BitVec 32 := Scalar.addi v789 v790
  v791.toNat
def k0_dev181 (d0 : Dev nD) : Nat :=
  let c0_i32_594 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_593 : BitVec 32 := 8#32
  let v812 : BitVec 32 := Scalar.muli v2 c8_i32_593
  let v813 : BitVec 32 := Scalar.addi c0_i32_594 v812
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_595 : BitVec 32 := 4#32
  let v814 : BitVec 32 := Scalar.muli v5 c4_i32_595
  let v815 : BitVec 32 := Scalar.addi v813 v814
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_596 : BitVec 32 := 1#32
  let v816 : BitVec 32 := Scalar.muli v23 c1_i32_596
  let v817 : BitVec 32 := Scalar.addi v815 v816
  v817.toNat
def k0_dev182 (d0 : Dev nD) : Nat :=
  let c0_i32_615 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_614 : BitVec 32 := 8#32
  let v838 : BitVec 32 := Scalar.muli v2 c8_i32_614
  let v839 : BitVec 32 := Scalar.addi c0_i32_615 v838
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_616 : BitVec 32 := 4#32
  let v840 : BitVec 32 := Scalar.muli v20 c4_i32_616
  let v841 : BitVec 32 := Scalar.addi v839 v840
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_617 : BitVec 32 := 1#32
  let v842 : BitVec 32 := Scalar.muli v8 c1_i32_617
  let v843 : BitVec 32 := Scalar.addi v841 v842
  v843.toNat
def k0_dev183 (d0 : Dev nD) : Nat :=
  let c0_i32_635 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_634 : BitVec 32 := 8#32
  let v864 : BitVec 32 := Scalar.muli v2 c8_i32_634
  let v865 : BitVec 32 := Scalar.addi c0_i32_635 v864
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_636 : BitVec 32 := 4#32
  let v866 : BitVec 32 := Scalar.muli v5 c4_i32_636
  let v867 : BitVec 32 := Scalar.addi v865 v866
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_637 : BitVec 32 := 1#32
  let v868 : BitVec 32 := Scalar.muli v23 c1_i32_637
  let v869 : BitVec 32 := Scalar.addi v867 v868
  v869.toNat
def k0_dev184 (d0 : Dev nD) : Nat :=
  let c0_i32_656 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_655 : BitVec 32 := 8#32
  let v890 : BitVec 32 := Scalar.muli v2 c8_i32_655
  let v891 : BitVec 32 := Scalar.addi c0_i32_656 v890
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_657 : BitVec 32 := 4#32
  let v892 : BitVec 32 := Scalar.muli v20 c4_i32_657
  let v893 : BitVec 32 := Scalar.addi v891 v892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_658 : BitVec 32 := 1#32
  let v894 : BitVec 32 := Scalar.muli v8 c1_i32_658
  let v895 : BitVec 32 := Scalar.addi v893 v894
  v895.toNat
def k0_dev185 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v916 : BitVec 32 := Scalar.muli v2 c8_i32_675
  let v917 : BitVec 32 := Scalar.addi c0_i32_676 v916
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_677 : BitVec 32 := 4#32
  let v918 : BitVec 32 := Scalar.muli v5 c4_i32_677
  let v919 : BitVec 32 := Scalar.addi v917 v918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_678 : BitVec 32 := 1#32
  let v920 : BitVec 32 := Scalar.muli v23 c1_i32_678
  let v921 : BitVec 32 := Scalar.addi v919 v920
  v921.toNat
def k0_dev186 (d0 : Dev nD) : Nat :=
  let c0_i32_697 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_696 : BitVec 32 := 8#32
  let v942 : BitVec 32 := Scalar.muli v2 c8_i32_696
  let v943 : BitVec 32 := Scalar.addi c0_i32_697 v942
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_698 : BitVec 32 := 4#32
  let v944 : BitVec 32 := Scalar.muli v20 c4_i32_698
  let v945 : BitVec 32 := Scalar.addi v943 v944
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_699 : BitVec 32 := 1#32
  let v946 : BitVec 32 := Scalar.muli v8 c1_i32_699
  let v947 : BitVec 32 := Scalar.addi v945 v946
  v947.toNat
def k0_dev187 (d0 : Dev nD) : Nat :=
  let c0_i32_717 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_716 : BitVec 32 := 8#32
  let v968 : BitVec 32 := Scalar.muli v2 c8_i32_716
  let v969 : BitVec 32 := Scalar.addi c0_i32_717 v968
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_718 : BitVec 32 := 4#32
  let v970 : BitVec 32 := Scalar.muli v5 c4_i32_718
  let v971 : BitVec 32 := Scalar.addi v969 v970
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_719 : BitVec 32 := 1#32
  let v972 : BitVec 32 := Scalar.muli v23 c1_i32_719
  let v973 : BitVec 32 := Scalar.addi v971 v972
  v973.toNat
def k0_dev188 (d0 : Dev nD) : Nat :=
  let c0_i32_738 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_737 : BitVec 32 := 8#32
  let v994 : BitVec 32 := Scalar.muli v2 c8_i32_737
  let v995 : BitVec 32 := Scalar.addi c0_i32_738 v994
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_739 : BitVec 32 := 4#32
  let v996 : BitVec 32 := Scalar.muli v20 c4_i32_739
  let v997 : BitVec 32 := Scalar.addi v995 v996
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_740 : BitVec 32 := 1#32
  let v998 : BitVec 32 := Scalar.muli v8 c1_i32_740
  let v999 : BitVec 32 := Scalar.addi v997 v998
  v999.toNat
def k0_dev189 (d0 : Dev nD) : Nat :=
  let c0_i32_758 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_757 : BitVec 32 := 8#32
  let v1020 : BitVec 32 := Scalar.muli v2 c8_i32_757
  let v1021 : BitVec 32 := Scalar.addi c0_i32_758 v1020
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_759 : BitVec 32 := 4#32
  let v1022 : BitVec 32 := Scalar.muli v5 c4_i32_759
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_760 : BitVec 32 := 1#32
  let v1024 : BitVec 32 := Scalar.muli v23 c1_i32_760
  let v1025 : BitVec 32 := Scalar.addi v1023 v1024
  v1025.toNat
def k0_dev190 (d0 : Dev nD) : Nat :=
  let c0_i32_779 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_778 : BitVec 32 := 8#32
  let v1046 : BitVec 32 := Scalar.muli v2 c8_i32_778
  let v1047 : BitVec 32 := Scalar.addi c0_i32_779 v1046
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_780 : BitVec 32 := 4#32
  let v1048 : BitVec 32 := Scalar.muli v20 c4_i32_780
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v1050 : BitVec 32 := Scalar.muli v8 c1_i32_781
  let v1051 : BitVec 32 := Scalar.addi v1049 v1050
  v1051.toNat
def k0_dev191 (d0 : Dev nD) : Nat :=
  let c0_i32_799 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_798 : BitVec 32 := 8#32
  let v1072 : BitVec 32 := Scalar.muli v2 c8_i32_798
  let v1073 : BitVec 32 := Scalar.addi c0_i32_799 v1072
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_800 : BitVec 32 := 4#32
  let v1074 : BitVec 32 := Scalar.muli v5 c4_i32_800
  let v1075 : BitVec 32 := Scalar.addi v1073 v1074
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_801 : BitVec 32 := 1#32
  let v1076 : BitVec 32 := Scalar.muli v23 c1_i32_801
  let v1077 : BitVec 32 := Scalar.addi v1075 v1076
  v1077.toNat
def k0_dev192 (d0 : Dev nD) : Nat :=
  let c0_i32_820 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_819 : BitVec 32 := 8#32
  let v1098 : BitVec 32 := Scalar.muli v2 c8_i32_819
  let v1099 : BitVec 32 := Scalar.addi c0_i32_820 v1098
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_821 : BitVec 32 := 4#32
  let v1100 : BitVec 32 := Scalar.muli v20 c4_i32_821
  let v1101 : BitVec 32 := Scalar.addi v1099 v1100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_822 : BitVec 32 := 1#32
  let v1102 : BitVec 32 := Scalar.muli v8 c1_i32_822
  let v1103 : BitVec 32 := Scalar.addi v1101 v1102
  v1103.toNat
def k0_dev193 (d0 : Dev nD) : Nat :=
  let c0_i32_840 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_839 : BitVec 32 := 8#32
  let v1124 : BitVec 32 := Scalar.muli v2 c8_i32_839
  let v1125 : BitVec 32 := Scalar.addi c0_i32_840 v1124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_841 : BitVec 32 := 4#32
  let v1126 : BitVec 32 := Scalar.muli v5 c4_i32_841
  let v1127 : BitVec 32 := Scalar.addi v1125 v1126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_842 : BitVec 32 := 1#32
  let v1128 : BitVec 32 := Scalar.muli v23 c1_i32_842
  let v1129 : BitVec 32 := Scalar.addi v1127 v1128
  v1129.toNat
def k0_dev194 (d0 : Dev nD) : Nat :=
  let c0_i32_861 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_860 : BitVec 32 := 8#32
  let v1150 : BitVec 32 := Scalar.muli v2 c8_i32_860
  let v1151 : BitVec 32 := Scalar.addi c0_i32_861 v1150
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_862 : BitVec 32 := 4#32
  let v1152 : BitVec 32 := Scalar.muli v20 c4_i32_862
  let v1153 : BitVec 32 := Scalar.addi v1151 v1152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_863 : BitVec 32 := 1#32
  let v1154 : BitVec 32 := Scalar.muli v8 c1_i32_863
  let v1155 : BitVec 32 := Scalar.addi v1153 v1154
  v1155.toNat
def k0_dev195 (d0 : Dev nD) : Nat :=
  let c0_i32_881 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_880 : BitVec 32 := 8#32
  let v1176 : BitVec 32 := Scalar.muli v2 c8_i32_880
  let v1177 : BitVec 32 := Scalar.addi c0_i32_881 v1176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_882 : BitVec 32 := 4#32
  let v1178 : BitVec 32 := Scalar.muli v5 c4_i32_882
  let v1179 : BitVec 32 := Scalar.addi v1177 v1178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_883 : BitVec 32 := 1#32
  let v1180 : BitVec 32 := Scalar.muli v23 c1_i32_883
  let v1181 : BitVec 32 := Scalar.addi v1179 v1180
  v1181.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S16_S1_0 : ∀ a, (![0] : Fin 1 → Nat) a + S1.size a ≤ S16.size a
  squeezes_S1_S_ : S1.Squeezes S_
  inb_S2048x512_S48x512_0_0 : ∀ a, (![0, 0] : Fin 2 → Nat) a + S48x512.size a ≤ S2048x512.size a
  inb_S16_S1_1 : ∀ a, (![1] : Fin 1 → Nat) a + S1.size a ≤ S16.size a
  inb_S2048x512_S48x512_48_0 : ∀ a, (![48, 0] : Fin 2 → Nat) a + S48x512.size a ≤ S2048x512.size a
  inb_S16_S1_2 : ∀ a, (![2] : Fin 1 → Nat) a + S1.size a ≤ S16.size a
  inb_S2048x512_S48x512_96_0 : ∀ a, (![96, 0] : Fin 2 → Nat) a + S48x512.size a ≤ S2048x512.size a
  inb_S16_S1_3 : ∀ a, (![3] : Fin 1 → Nat) a + S1.size a ≤ S16.size a
  inb_S2048x512_S48x512_144_0 : ∀ a, (![144, 0] : Fin 2 → Nat) a + S48x512.size a ≤ S2048x512.size a
  inb_S16_S1_4 : ∀ a, (![4] : Fin 1 → Nat) a + S1.size a ≤ S16.size a
  inb_S2048x512_S48x512_192_0 : ∀ a, (![192, 0] : Fin 2 → Nat) a + S48x512.size a ≤ S2048x512.size a
  inb_S16_S1_5 : ∀ a, (![5] : Fin 1 → Nat) a + S1.size a ≤ S16.size a
  inb_S2048x512_S40x512_240_0 : ∀ a, (![240, 0] : Fin 2 → Nat) a + S40x512.size a ≤ S2048x512.size a
  inb_S16_S1_6 : ∀ a, (![6] : Fin 1 → Nat) a + S1.size a ≤ S16.size a
  inb_S2048x512_S40x512_280_0 : ∀ a, (![280, 0] : Fin 2 → Nat) a + S40x512.size a ≤ S2048x512.size a
  inb_S16_S1_7 : ∀ a, (![7] : Fin 1 → Nat) a + S1.size a ≤ S16.size a
  inb_S2048x512_S40x512_320_0 : ∀ a, (![320, 0] : Fin 2 → Nat) a + S40x512.size a ≤ S2048x512.size a
  inb_S16_S1_8 : ∀ a, (![8] : Fin 1 → Nat) a + S1.size a ≤ S16.size a
  inb_S2048x512_S40x512_360_0 : ∀ a, (![360, 0] : Fin 2 → Nat) a + S40x512.size a ≤ S2048x512.size a
  inb_S16_S1_9 : ∀ a, (![9] : Fin 1 → Nat) a + S1.size a ≤ S16.size a
  inb_S2048x512_S40x512_400_0 : ∀ a, (![400, 0] : Fin 2 → Nat) a + S40x512.size a ≤ S2048x512.size a
  inb_S16_S1_10 : ∀ a, (![10] : Fin 1 → Nat) a + S1.size a ≤ S16.size a
  inb_S2048x512_S40x512_440_0 : ∀ a, (![440, 0] : Fin 2 → Nat) a + S40x512.size a ≤ S2048x512.size a
  inb_S16_S1_11 : ∀ a, (![11] : Fin 1 → Nat) a + S1.size a ≤ S16.size a
  inb_S2048x512_S40x512_480_0 : ∀ a, (![480, 0] : Fin 2 → Nat) a + S40x512.size a ≤ S2048x512.size a
  inb_S16_S1_12 : ∀ a, (![12] : Fin 1 → Nat) a + S1.size a ≤ S16.size a
  inb_S2048x512_S40x512_520_0 : ∀ a, (![520, 0] : Fin 2 → Nat) a + S40x512.size a ≤ S2048x512.size a
  inb_S16_S1_13 : ∀ a, (![13] : Fin 1 → Nat) a + S1.size a ≤ S16.size a
  inb_S2048x512_S40x512_560_0 : ∀ a, (![560, 0] : Fin 2 → Nat) a + S40x512.size a ≤ S2048x512.size a
  inb_S16_S1_14 : ∀ a, (![14] : Fin 1 → Nat) a + S1.size a ≤ S16.size a
  inb_S2048x512_S40x512_600_0 : ∀ a, (![600, 0] : Fin 2 → Nat) a + S40x512.size a ≤ S2048x512.size a
  inb_S16_S1_15 : ∀ a, (![15] : Fin 1 → Nat) a + S1.size a ≤ S16.size a
  inb_S2048x512_S40x512_640_0 : ∀ a, (![640, 0] : Fin 2 → Nat) a + S40x512.size a ≤ S2048x512.size a
  inb_S2048x512_S48x512_1368_0 : ∀ a, (![1368, 0] : Fin 2 → Nat) a + S48x512.size a ≤ S2048x512.size a
  inb_S2048x512_S48x512_1416_0 : ∀ a, (![1416, 0] : Fin 2 → Nat) a + S48x512.size a ≤ S2048x512.size a
  inb_S2048x512_S48x512_1464_0 : ∀ a, (![1464, 0] : Fin 2 → Nat) a + S48x512.size a ≤ S2048x512.size a
  inb_S2048x512_S48x512_1512_0 : ∀ a, (![1512, 0] : Fin 2 → Nat) a + S48x512.size a ≤ S2048x512.size a
  inb_S2048x512_S48x512_1560_0 : ∀ a, (![1560, 0] : Fin 2 → Nat) a + S48x512.size a ≤ S2048x512.size a
  inb_S2048x512_S40x512_1608_0 : ∀ a, (![1608, 0] : Fin 2 → Nat) a + S40x512.size a ≤ S2048x512.size a
  inb_S2048x512_S40x512_1648_0 : ∀ a, (![1648, 0] : Fin 2 → Nat) a + S40x512.size a ≤ S2048x512.size a
  inb_S2048x512_S40x512_1688_0 : ∀ a, (![1688, 0] : Fin 2 → Nat) a + S40x512.size a ≤ S2048x512.size a
  inb_S2048x512_S40x512_1728_0 : ∀ a, (![1728, 0] : Fin 2 → Nat) a + S40x512.size a ≤ S2048x512.size a
  inb_S2048x512_S40x512_1768_0 : ∀ a, (![1768, 0] : Fin 2 → Nat) a + S40x512.size a ≤ S2048x512.size a
  inb_S2048x512_S40x512_1808_0 : ∀ a, (![1808, 0] : Fin 2 → Nat) a + S40x512.size a ≤ S2048x512.size a
  inb_S2048x512_S40x512_1848_0 : ∀ a, (![1848, 0] : Fin 2 → Nat) a + S40x512.size a ≤ S2048x512.size a
  inb_S2048x512_S40x512_1888_0 : ∀ a, (![1888, 0] : Fin 2 → Nat) a + S40x512.size a ≤ S2048x512.size a
  inb_S2048x512_S40x512_1928_0 : ∀ a, (![1928, 0] : Fin 2 → Nat) a + S40x512.size a ≤ S2048x512.size a
  inb_S2048x512_S40x512_1968_0 : ∀ a, (![1968, 0] : Fin 2 → Nat) a + S40x512.size a ≤ S2048x512.size a
  inb_S2048x512_S40x512_2008_0 : ∀ a, (![2008, 0] : Fin 2 → Nat) a + S40x512.size a ≤ S2048x512.size a
  inb_S2048x512_S48x512_680_0 : ∀ a, (![680, 0] : Fin 2 → Nat) a + S48x512.size a ≤ S2048x512.size a
  inb_S2048x512_S48x512_728_0 : ∀ a, (![728, 0] : Fin 2 → Nat) a + S48x512.size a ≤ S2048x512.size a
  inb_S2048x512_S48x512_776_0 : ∀ a, (![776, 0] : Fin 2 → Nat) a + S48x512.size a ≤ S2048x512.size a
  inb_S2048x512_S48x512_824_0 : ∀ a, (![824, 0] : Fin 2 → Nat) a + S48x512.size a ≤ S2048x512.size a
  inb_S2048x512_S48x512_872_0 : ∀ a, (![872, 0] : Fin 2 → Nat) a + S48x512.size a ≤ S2048x512.size a
  inb_S2048x512_S48x512_920_0 : ∀ a, (![920, 0] : Fin 2 → Nat) a + S48x512.size a ≤ S2048x512.size a
  inb_S2048x512_S40x512_968_0 : ∀ a, (![968, 0] : Fin 2 → Nat) a + S40x512.size a ≤ S2048x512.size a
  inb_S2048x512_S40x512_1008_0 : ∀ a, (![1008, 0] : Fin 2 → Nat) a + S40x512.size a ≤ S2048x512.size a
  inb_S2048x512_S40x512_1048_0 : ∀ a, (![1048, 0] : Fin 2 → Nat) a + S40x512.size a ≤ S2048x512.size a
  inb_S2048x512_S40x512_1088_0 : ∀ a, (![1088, 0] : Fin 2 → Nat) a + S40x512.size a ≤ S2048x512.size a
  inb_S2048x512_S40x512_1128_0 : ∀ a, (![1128, 0] : Fin 2 → Nat) a + S40x512.size a ≤ S2048x512.size a
  inb_S2048x512_S40x512_1168_0 : ∀ a, (![1168, 0] : Fin 2 → Nat) a + S40x512.size a ≤ S2048x512.size a
  inb_S2048x512_S40x512_1208_0 : ∀ a, (![1208, 0] : Fin 2 → Nat) a + S40x512.size a ≤ S2048x512.size a
  inb_S2048x512_S40x512_1248_0 : ∀ a, (![1248, 0] : Fin 2 → Nat) a + S40x512.size a ≤ S2048x512.size a
  inb_S2048x512_S40x512_1288_0 : ∀ a, (![1288, 0] : Fin 2 → Nat) a + S40x512.size a ≤ S2048x512.size a
  inb_S2048x512_S40x512_1328_0 : ∀ a, (![1328, 0] : Fin 2 → Nat) a + S40x512.size a ≤ S2048x512.size a
  hcc0_scratch0 : 2 + S16.numel ≤ 99
  hcc0_scratch1 : 18 + S16.numel ≤ 99
  hcc0_scratch2 : 34 + S16.numel ≤ 99
  hcc0_scratch3 : 50 + S16.numel ≤ 99
  hcc0_scratch4 : 66 + S16.numel ≤ 99
  hcc0_scratch5 : 82 + S16.numel ≤ 99
  hcc0_scratch6 : 98 + S_.numel ≤ 99
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S2048x512.size a ≤ S4096x512.size a
  k0_off2_inb : ∀ d0 : Dev nD, ∀ (k0_h1 : k0_cond1 d0 = 1#1), ∀ (r : Fin 5), ∀ a, (k0_off2 d0 (BitVec.ofNat 32 (48 * r.val))) a + S48x512.size a ≤ S4096x512.size a
  k0_dev4_lt : ∀ d0 : Dev nD, ∀ (k0_h1 : k0_cond1 d0 = 1#1), (k0_dev4 d0) < nD
  k0_dev5_lt : ∀ d0 : Dev nD, ∀ (k0_h1 : k0_cond1 d0 = 1#1), (k0_dev5 d0) < nD
  k0_dev6_lt : ∀ d0 : Dev nD, ∀ (k0_h1 : k0_cond1 d0 = 1#1), (k0_dev6 d0) < nD
  k0_dev7_lt : ∀ d0 : Dev nD, ∀ (k0_h1 : k0_cond1 d0 = 1#1), (k0_dev7 d0) < nD
  k0_dev8_lt : ∀ d0 : Dev nD, ∀ (k0_h1 : k0_cond1 d0 = 1#1), (k0_dev8 d0) < nD
  k0_off3_inb : ∀ d0 : Dev nD, ∀ (k0_h1 : k0_cond1 d0 = 1#1), ∀ (r : Fin 11), ∀ a, (k0_off3 d0 (BitVec.ofNat 32 (240 + 40 * r.val))) a + S40x512.size a ≤ S4096x512.size a
  k0_dev9_lt : ∀ d0 : Dev nD, ∀ (k0_h1 : k0_cond1 d0 = 1#1), (k0_dev9 d0) < nD
  k0_dev10_lt : ∀ d0 : Dev nD, ∀ (k0_h1 : k0_cond1 d0 = 1#1), (k0_dev10 d0) < nD
  k0_dev11_lt : ∀ d0 : Dev nD, ∀ (k0_h1 : k0_cond1 d0 = 1#1), (k0_dev11 d0) < nD
  k0_dev12_lt : ∀ d0 : Dev nD, ∀ (k0_h1 : k0_cond1 d0 = 1#1), (k0_dev12 d0) < nD
  k0_dev13_lt : ∀ d0 : Dev nD, ∀ (k0_h1 : k0_cond1 d0 = 1#1), (k0_dev13 d0) < nD
  k0_dev14_lt : ∀ d0 : Dev nD, ∀ (k0_h1 : k0_cond1 d0 = 1#1), (k0_dev14 d0) < nD
  k0_dev15_lt : ∀ d0 : Dev nD, ∀ (k0_h1 : k0_cond1 d0 = 1#1), (k0_dev15 d0) < nD
  k0_dev16_lt : ∀ d0 : Dev nD, ∀ (k0_h1 : k0_cond1 d0 = 1#1), (k0_dev16 d0) < nD
  k0_dev17_lt : ∀ d0 : Dev nD, ∀ (k0_h1 : k0_cond1 d0 = 1#1), (k0_dev17 d0) < nD
  k0_dev18_lt : ∀ d0 : Dev nD, ∀ (k0_h1 : k0_cond1 d0 = 1#1), (k0_dev18 d0) < nD
  k0_dev19_lt : ∀ d0 : Dev nD, ∀ (k0_h1 : k0_cond1 d0 = 1#1), (k0_dev19 d0) < nD
  k0_off4_inb : ∀ d0 : Dev nD, ∀ (k0_h1 : k0_cond1 d0 = 1#1), ∀ (r : Fin 11), ∀ a, (k0_off4 d0 (k0_off4_at r).1 (k0_off4_at r).2) a + S48x512.size a ≤ S4096x512.size a
  k0_dev20_lt : ∀ d0 : Dev nD, ∀ (k0_h1 : k0_cond1 d0 = 1#1), (k0_dev20 d0) < nD
  k0_dev21_lt : ∀ d0 : Dev nD, ∀ (k0_h1 : k0_cond1 d0 = 1#1), (k0_dev21 d0) < nD
  k0_dev22_lt : ∀ d0 : Dev nD, ∀ (k0_h1 : k0_cond1 d0 = 1#1), (k0_dev22 d0) < nD
  k0_dev23_lt : ∀ d0 : Dev nD, ∀ (k0_h1 : k0_cond1 d0 = 1#1), (k0_dev23 d0) < nD
  k0_dev24_lt : ∀ d0 : Dev nD, ∀ (k0_h1 : k0_cond1 d0 = 1#1), (k0_dev24 d0) < nD
  k0_dev25_lt : ∀ d0 : Dev nD, ∀ (k0_h1 : k0_cond1 d0 = 1#1), (k0_dev25 d0) < nD
  k0_dev26_lt : ∀ d0 : Dev nD, ∀ (k0_h1 : k0_cond1 d0 = 1#1), (k0_dev26 d0) < nD
  k0_dev27_lt : ∀ d0 : Dev nD, ∀ (k0_h1 : k0_cond1 d0 = 1#1), (k0_dev27 d0) < nD
  k0_dev28_lt : ∀ d0 : Dev nD, ∀ (k0_h1 : k0_cond1 d0 = 1#1), (k0_dev28 d0) < nD
  k0_dev29_lt : ∀ d0 : Dev nD, ∀ (k0_h1 : k0_cond1 d0 = 1#1), (k0_dev29 d0) < nD
  k0_off5_inb : ∀ d0 : Dev nD, ∀ (k0_h1 : k0_cond1 d0 = 1#1), ∀ (r : Fin 21), ∀ a, (k0_off5 d0 (k0_off5_at r).1 (k0_off5_at r).2) a + S40x512.size a ≤ S4096x512.size a
  k0_dev30_lt : ∀ d0 : Dev nD, ∀ (k0_h1 : k0_cond1 d0 = 1#1), (k0_dev30 d0) < nD
  k0_dev31_lt : ∀ d0 : Dev nD, ∀ (k0_h1 : k0_cond1 d0 = 1#1), (k0_dev31 d0) < nD
  k0_dev32_lt : ∀ d0 : Dev nD, ∀ (k0_h1 : k0_cond1 d0 = 1#1), (k0_dev32 d0) < nD
  k0_dev33_lt : ∀ d0 : Dev nD, ∀ (k0_h1 : k0_cond1 d0 = 1#1), (k0_dev33 d0) < nD
  k0_dev34_lt : ∀ d0 : Dev nD, ∀ (k0_h1 : k0_cond1 d0 = 1#1), (k0_dev34 d0) < nD
  k0_dev35_lt : ∀ d0 : Dev nD, ∀ (k0_h1 : k0_cond1 d0 = 1#1), (k0_dev35 d0) < nD
  k0_dev36_lt : ∀ d0 : Dev nD, ∀ (k0_h1 : k0_cond1 d0 = 1#1), (k0_dev36 d0) < nD
  k0_dev37_lt : ∀ d0 : Dev nD, ∀ (k0_h1 : k0_cond1 d0 = 1#1), (k0_dev37 d0) < nD
  k0_dev38_lt : ∀ d0 : Dev nD, ∀ (k0_h1 : k0_cond1 d0 = 1#1), (k0_dev38 d0) < nD
  k0_dev39_lt : ∀ d0 : Dev nD, ∀ (k0_h1 : k0_cond1 d0 = 1#1), (k0_dev39 d0) < nD
  k0_dev40_lt : ∀ d0 : Dev nD, ∀ (k0_h1 : k0_cond1 d0 = 1#1), (k0_dev40 d0) < nD
  k0_dev41_lt : ∀ d0 : Dev nD, ∀ (k0_h1 : k0_cond1 d0 = 1#1), (k0_dev41 d0) < nD
  k0_dev42_lt : ∀ d0 : Dev nD, ∀ (k0_h1 : k0_cond1 d0 = 1#1), (k0_dev42 d0) < nD
  k0_dev43_lt : ∀ d0 : Dev nD, ∀ (k0_h1 : k0_cond1 d0 = 1#1), (k0_dev43 d0) < nD
  k0_dev44_lt : ∀ d0 : Dev nD, ∀ (k0_h1 : k0_cond1 d0 = 1#1), (k0_dev44 d0) < nD
  k0_dev45_lt : ∀ d0 : Dev nD, ∀ (k0_h1 : k0_cond1 d0 = 1#1), (k0_dev45 d0) < nD
  k0_dev46_lt : ∀ d0 : Dev nD, ∀ (k0_h1 : k0_cond1 d0 = 1#1), (k0_dev46 d0) < nD
  k0_dev47_lt : ∀ d0 : Dev nD, ∀ (k0_h1 : k0_cond1 d0 = 1#1), (k0_dev47 d0) < nD
  k0_dev48_lt : ∀ d0 : Dev nD, ∀ (k0_h1 : k0_cond1 d0 = 1#1), (k0_dev48 d0) < nD
  k0_dev49_lt : ∀ d0 : Dev nD, ∀ (k0_h1 : k0_cond1 d0 = 1#1), (k0_dev49 d0) < nD
  k0_dev50_lt : ∀ d0 : Dev nD, ∀ (k0_h1 : k0_cond1 d0 = 1#1), (k0_dev50 d0) < nD
  k0_dev51_lt : ∀ d0 : Dev nD, ∀ (k0_h1 : k0_cond1 d0 = 1#1), (k0_dev51 d0) < nD
  k0_off6_inb : ∀ d0 : Dev nD, ∀ (k0_h2 : k0_cond2 d0 = 1#1), ∀ (r : Fin 5), ∀ a, (k0_off6 d0 (BitVec.ofNat 32 (48 * r.val))) a + S48x512.size a ≤ S4096x512.size a
  k0_dev52_lt : ∀ d0 : Dev nD, ∀ (k0_h2 : k0_cond2 d0 = 1#1), (k0_dev52 d0) < nD
  k0_dev53_lt : ∀ d0 : Dev nD, ∀ (k0_h2 : k0_cond2 d0 = 1#1), (k0_dev53 d0) < nD
  k0_dev54_lt : ∀ d0 : Dev nD, ∀ (k0_h2 : k0_cond2 d0 = 1#1), (k0_dev54 d0) < nD
  k0_dev55_lt : ∀ d0 : Dev nD, ∀ (k0_h2 : k0_cond2 d0 = 1#1), (k0_dev55 d0) < nD
  k0_dev56_lt : ∀ d0 : Dev nD, ∀ (k0_h2 : k0_cond2 d0 = 1#1), (k0_dev56 d0) < nD
  k0_off7_inb : ∀ d0 : Dev nD, ∀ (k0_h2 : k0_cond2 d0 = 1#1), ∀ (r : Fin 11), ∀ a, (k0_off7 d0 (BitVec.ofNat 32 (240 + 40 * r.val))) a + S40x512.size a ≤ S4096x512.size a
  k0_dev57_lt : ∀ d0 : Dev nD, ∀ (k0_h2 : k0_cond2 d0 = 1#1), (k0_dev57 d0) < nD
  k0_dev58_lt : ∀ d0 : Dev nD, ∀ (k0_h2 : k0_cond2 d0 = 1#1), (k0_dev58 d0) < nD
  k0_dev59_lt : ∀ d0 : Dev nD, ∀ (k0_h2 : k0_cond2 d0 = 1#1), (k0_dev59 d0) < nD
  k0_dev60_lt : ∀ d0 : Dev nD, ∀ (k0_h2 : k0_cond2 d0 = 1#1), (k0_dev60 d0) < nD
  k0_dev61_lt : ∀ d0 : Dev nD, ∀ (k0_h2 : k0_cond2 d0 = 1#1), (k0_dev61 d0) < nD
  k0_dev62_lt : ∀ d0 : Dev nD, ∀ (k0_h2 : k0_cond2 d0 = 1#1), (k0_dev62 d0) < nD
  k0_dev63_lt : ∀ d0 : Dev nD, ∀ (k0_h2 : k0_cond2 d0 = 1#1), (k0_dev63 d0) < nD
  k0_dev64_lt : ∀ d0 : Dev nD, ∀ (k0_h2 : k0_cond2 d0 = 1#1), (k0_dev64 d0) < nD
  k0_dev65_lt : ∀ d0 : Dev nD, ∀ (k0_h2 : k0_cond2 d0 = 1#1), (k0_dev65 d0) < nD
  k0_dev66_lt : ∀ d0 : Dev nD, ∀ (k0_h2 : k0_cond2 d0 = 1#1), (k0_dev66 d0) < nD
  k0_dev67_lt : ∀ d0 : Dev nD, ∀ (k0_h2 : k0_cond2 d0 = 1#1), (k0_dev67 d0) < nD
  k0_off8_inb : ∀ d0 : Dev nD, ∀ (k0_h2 : k0_cond2 d0 = 1#1), ∀ (r : Fin 11), ∀ a, (k0_off8 d0 (k0_off8_at r).1 (k0_off8_at r).2) a + S48x512.size a ≤ S4096x512.size a
  k0_dev68_lt : ∀ d0 : Dev nD, ∀ (k0_h2 : k0_cond2 d0 = 1#1), (k0_dev68 d0) < nD
  k0_dev69_lt : ∀ d0 : Dev nD, ∀ (k0_h2 : k0_cond2 d0 = 1#1), (k0_dev69 d0) < nD
  k0_dev70_lt : ∀ d0 : Dev nD, ∀ (k0_h2 : k0_cond2 d0 = 1#1), (k0_dev70 d0) < nD
  k0_dev71_lt : ∀ d0 : Dev nD, ∀ (k0_h2 : k0_cond2 d0 = 1#1), (k0_dev71 d0) < nD
  k0_dev72_lt : ∀ d0 : Dev nD, ∀ (k0_h2 : k0_cond2 d0 = 1#1), (k0_dev72 d0) < nD
  k0_dev73_lt : ∀ d0 : Dev nD, ∀ (k0_h2 : k0_cond2 d0 = 1#1), (k0_dev73 d0) < nD
  k0_dev74_lt : ∀ d0 : Dev nD, ∀ (k0_h2 : k0_cond2 d0 = 1#1), (k0_dev74 d0) < nD
  k0_dev75_lt : ∀ d0 : Dev nD, ∀ (k0_h2 : k0_cond2 d0 = 1#1), (k0_dev75 d0) < nD
  k0_dev76_lt : ∀ d0 : Dev nD, ∀ (k0_h2 : k0_cond2 d0 = 1#1), (k0_dev76 d0) < nD
  k0_dev77_lt : ∀ d0 : Dev nD, ∀ (k0_h2 : k0_cond2 d0 = 1#1), (k0_dev77 d0) < nD
  k0_off9_inb : ∀ d0 : Dev nD, ∀ (k0_h2 : k0_cond2 d0 = 1#1), ∀ (r : Fin 21), ∀ a, (k0_off9 d0 (k0_off9_at r).1 (k0_off9_at r).2) a + S40x512.size a ≤ S4096x512.size a
  k0_dev78_lt : ∀ d0 : Dev nD, ∀ (k0_h2 : k0_cond2 d0 = 1#1), (k0_dev78 d0) < nD
  k0_dev79_lt : ∀ d0 : Dev nD, ∀ (k0_h2 : k0_cond2 d0 = 1#1), (k0_dev79 d0) < nD
  k0_dev80_lt : ∀ d0 : Dev nD, ∀ (k0_h2 : k0_cond2 d0 = 1#1), (k0_dev80 d0) < nD
  k0_dev81_lt : ∀ d0 : Dev nD, ∀ (k0_h2 : k0_cond2 d0 = 1#1), (k0_dev81 d0) < nD
  k0_dev82_lt : ∀ d0 : Dev nD, ∀ (k0_h2 : k0_cond2 d0 = 1#1), (k0_dev82 d0) < nD
  k0_dev83_lt : ∀ d0 : Dev nD, ∀ (k0_h2 : k0_cond2 d0 = 1#1), (k0_dev83 d0) < nD
  k0_dev84_lt : ∀ d0 : Dev nD, ∀ (k0_h2 : k0_cond2 d0 = 1#1), (k0_dev84 d0) < nD
  k0_dev85_lt : ∀ d0 : Dev nD, ∀ (k0_h2 : k0_cond2 d0 = 1#1), (k0_dev85 d0) < nD
  k0_dev86_lt : ∀ d0 : Dev nD, ∀ (k0_h2 : k0_cond2 d0 = 1#1), (k0_dev86 d0) < nD
  k0_dev87_lt : ∀ d0 : Dev nD, ∀ (k0_h2 : k0_cond2 d0 = 1#1), (k0_dev87 d0) < nD
  k0_dev88_lt : ∀ d0 : Dev nD, ∀ (k0_h2 : k0_cond2 d0 = 1#1), (k0_dev88 d0) < nD
  k0_dev89_lt : ∀ d0 : Dev nD, ∀ (k0_h2 : k0_cond2 d0 = 1#1), (k0_dev89 d0) < nD
  k0_dev90_lt : ∀ d0 : Dev nD, ∀ (k0_h2 : k0_cond2 d0 = 1#1), (k0_dev90 d0) < nD
  k0_dev91_lt : ∀ d0 : Dev nD, ∀ (k0_h2 : k0_cond2 d0 = 1#1), (k0_dev91 d0) < nD
  k0_dev92_lt : ∀ d0 : Dev nD, ∀ (k0_h2 : k0_cond2 d0 = 1#1), (k0_dev92 d0) < nD
  k0_dev93_lt : ∀ d0 : Dev nD, ∀ (k0_h2 : k0_cond2 d0 = 1#1), (k0_dev93 d0) < nD
  k0_dev94_lt : ∀ d0 : Dev nD, ∀ (k0_h2 : k0_cond2 d0 = 1#1), (k0_dev94 d0) < nD
  k0_dev95_lt : ∀ d0 : Dev nD, ∀ (k0_h2 : k0_cond2 d0 = 1#1), (k0_dev95 d0) < nD
  k0_dev96_lt : ∀ d0 : Dev nD, ∀ (k0_h2 : k0_cond2 d0 = 1#1), (k0_dev96 d0) < nD
  k0_dev97_lt : ∀ d0 : Dev nD, ∀ (k0_h2 : k0_cond2 d0 = 1#1), (k0_dev97 d0) < nD
  k0_dev98_lt : ∀ d0 : Dev nD, ∀ (k0_h2 : k0_cond2 d0 = 1#1), (k0_dev98 d0) < nD
  k0_dev99_lt : ∀ d0 : Dev nD, ∀ (k0_h2 : k0_cond2 d0 = 1#1), (k0_dev99 d0) < nD
  k0_off10_inb : ∀ d0 : Dev nD, ∀ (k0_h3 : k0_cond3 d0 = 1#1), ∀ (r : Fin 6), ∀ a, (k0_off10 d0 (BitVec.ofNat 32 (48 * r.val))) a + S48x512.size a ≤ S4096x512.size a
  k0_dev100_lt : ∀ d0 : Dev nD, ∀ (k0_h3 : k0_cond3 d0 = 1#1), (k0_dev100 d0) < nD
  k0_dev101_lt : ∀ d0 : Dev nD, ∀ (k0_h3 : k0_cond3 d0 = 1#1), (k0_dev101 d0) < nD
  k0_dev102_lt : ∀ d0 : Dev nD, ∀ (k0_h3 : k0_cond3 d0 = 1#1), (k0_dev102 d0) < nD
  k0_dev103_lt : ∀ d0 : Dev nD, ∀ (k0_h3 : k0_cond3 d0 = 1#1), (k0_dev103 d0) < nD
  k0_dev104_lt : ∀ d0 : Dev nD, ∀ (k0_h3 : k0_cond3 d0 = 1#1), (k0_dev104 d0) < nD
  k0_dev105_lt : ∀ d0 : Dev nD, ∀ (k0_h3 : k0_cond3 d0 = 1#1), (k0_dev105 d0) < nD
  k0_off11_inb : ∀ d0 : Dev nD, ∀ (k0_h3 : k0_cond3 d0 = 1#1), ∀ (r : Fin 10), ∀ a, (k0_off11 d0 (BitVec.ofNat 32 (288 + 40 * r.val))) a + S40x512.size a ≤ S4096x512.size a
  k0_dev106_lt : ∀ d0 : Dev nD, ∀ (k0_h3 : k0_cond3 d0 = 1#1), (k0_dev106 d0) < nD
  k0_dev107_lt : ∀ d0 : Dev nD, ∀ (k0_h3 : k0_cond3 d0 = 1#1), (k0_dev107 d0) < nD
  k0_dev108_lt : ∀ d0 : Dev nD, ∀ (k0_h3 : k0_cond3 d0 = 1#1), (k0_dev108 d0) < nD
  k0_dev109_lt : ∀ d0 : Dev nD, ∀ (k0_h3 : k0_cond3 d0 = 1#1), (k0_dev109 d0) < nD
  k0_dev110_lt : ∀ d0 : Dev nD, ∀ (k0_h3 : k0_cond3 d0 = 1#1), (k0_dev110 d0) < nD
  k0_dev111_lt : ∀ d0 : Dev nD, ∀ (k0_h3 : k0_cond3 d0 = 1#1), (k0_dev111 d0) < nD
  k0_dev112_lt : ∀ d0 : Dev nD, ∀ (k0_h3 : k0_cond3 d0 = 1#1), (k0_dev112 d0) < nD
  k0_dev113_lt : ∀ d0 : Dev nD, ∀ (k0_h3 : k0_cond3 d0 = 1#1), (k0_dev113 d0) < nD
  k0_dev114_lt : ∀ d0 : Dev nD, ∀ (k0_h3 : k0_cond3 d0 = 1#1), (k0_dev114 d0) < nD
  k0_dev115_lt : ∀ d0 : Dev nD, ∀ (k0_h3 : k0_cond3 d0 = 1#1), (k0_dev115 d0) < nD
  k0_off12_inb : ∀ d0 : Dev nD, ∀ (k0_h3 : k0_cond3 d0 = 1#1), ∀ (r : Fin 11), ∀ a, (k0_off12 d0 (k0_off12_at r).1 (k0_off12_at r).2) a + S48x512.size a ≤ S4096x512.size a
  k0_dev116_lt : ∀ d0 : Dev nD, ∀ (k0_h3 : k0_cond3 d0 = 1#1), (k0_dev116 d0) < nD
  k0_dev117_lt : ∀ d0 : Dev nD, ∀ (k0_h3 : k0_cond3 d0 = 1#1), (k0_dev117 d0) < nD
  k0_dev118_lt : ∀ d0 : Dev nD, ∀ (k0_h3 : k0_cond3 d0 = 1#1), (k0_dev118 d0) < nD
  k0_dev119_lt : ∀ d0 : Dev nD, ∀ (k0_h3 : k0_cond3 d0 = 1#1), (k0_dev119 d0) < nD
  k0_dev120_lt : ∀ d0 : Dev nD, ∀ (k0_h3 : k0_cond3 d0 = 1#1), (k0_dev120 d0) < nD
  k0_dev121_lt : ∀ d0 : Dev nD, ∀ (k0_h3 : k0_cond3 d0 = 1#1), (k0_dev121 d0) < nD
  k0_dev122_lt : ∀ d0 : Dev nD, ∀ (k0_h3 : k0_cond3 d0 = 1#1), (k0_dev122 d0) < nD
  k0_dev123_lt : ∀ d0 : Dev nD, ∀ (k0_h3 : k0_cond3 d0 = 1#1), (k0_dev123 d0) < nD
  k0_dev124_lt : ∀ d0 : Dev nD, ∀ (k0_h3 : k0_cond3 d0 = 1#1), (k0_dev124 d0) < nD
  k0_dev125_lt : ∀ d0 : Dev nD, ∀ (k0_h3 : k0_cond3 d0 = 1#1), (k0_dev125 d0) < nD
  k0_dev126_lt : ∀ d0 : Dev nD, ∀ (k0_h3 : k0_cond3 d0 = 1#1), (k0_dev126 d0) < nD
  k0_off13_inb : ∀ d0 : Dev nD, ∀ (k0_h3 : k0_cond3 d0 = 1#1), ∀ (r : Fin 21), ∀ a, (k0_off13 d0 (k0_off13_at r).1 (k0_off13_at r).2) a + S40x512.size a ≤ S4096x512.size a
  k0_dev127_lt : ∀ d0 : Dev nD, ∀ (k0_h3 : k0_cond3 d0 = 1#1), (k0_dev127 d0) < nD
  k0_dev128_lt : ∀ d0 : Dev nD, ∀ (k0_h3 : k0_cond3 d0 = 1#1), (k0_dev128 d0) < nD
  k0_dev129_lt : ∀ d0 : Dev nD, ∀ (k0_h3 : k0_cond3 d0 = 1#1), (k0_dev129 d0) < nD
  k0_dev130_lt : ∀ d0 : Dev nD, ∀ (k0_h3 : k0_cond3 d0 = 1#1), (k0_dev130 d0) < nD
  k0_dev131_lt : ∀ d0 : Dev nD, ∀ (k0_h3 : k0_cond3 d0 = 1#1), (k0_dev131 d0) < nD
  k0_dev132_lt : ∀ d0 : Dev nD, ∀ (k0_h3 : k0_cond3 d0 = 1#1), (k0_dev132 d0) < nD
  k0_dev133_lt : ∀ d0 : Dev nD, ∀ (k0_h3 : k0_cond3 d0 = 1#1), (k0_dev133 d0) < nD
  k0_dev134_lt : ∀ d0 : Dev nD, ∀ (k0_h3 : k0_cond3 d0 = 1#1), (k0_dev134 d0) < nD
  k0_dev135_lt : ∀ d0 : Dev nD, ∀ (k0_h3 : k0_cond3 d0 = 1#1), (k0_dev135 d0) < nD
  k0_dev136_lt : ∀ d0 : Dev nD, ∀ (k0_h3 : k0_cond3 d0 = 1#1), (k0_dev136 d0) < nD
  k0_dev137_lt : ∀ d0 : Dev nD, ∀ (k0_h3 : k0_cond3 d0 = 1#1), (k0_dev137 d0) < nD
  k0_dev138_lt : ∀ d0 : Dev nD, ∀ (k0_h3 : k0_cond3 d0 = 1#1), (k0_dev138 d0) < nD
  k0_dev139_lt : ∀ d0 : Dev nD, ∀ (k0_h3 : k0_cond3 d0 = 1#1), (k0_dev139 d0) < nD
  k0_dev140_lt : ∀ d0 : Dev nD, ∀ (k0_h3 : k0_cond3 d0 = 1#1), (k0_dev140 d0) < nD
  k0_dev141_lt : ∀ d0 : Dev nD, ∀ (k0_h3 : k0_cond3 d0 = 1#1), (k0_dev141 d0) < nD
  k0_dev142_lt : ∀ d0 : Dev nD, ∀ (k0_h3 : k0_cond3 d0 = 1#1), (k0_dev142 d0) < nD
  k0_dev143_lt : ∀ d0 : Dev nD, ∀ (k0_h3 : k0_cond3 d0 = 1#1), (k0_dev143 d0) < nD
  k0_dev144_lt : ∀ d0 : Dev nD, ∀ (k0_h3 : k0_cond3 d0 = 1#1), (k0_dev144 d0) < nD
  k0_dev145_lt : ∀ d0 : Dev nD, ∀ (k0_h3 : k0_cond3 d0 = 1#1), (k0_dev145 d0) < nD
  k0_dev146_lt : ∀ d0 : Dev nD, ∀ (k0_h3 : k0_cond3 d0 = 1#1), (k0_dev146 d0) < nD
  k0_dev147_lt : ∀ d0 : Dev nD, ∀ (k0_h3 : k0_cond3 d0 = 1#1), (k0_dev147 d0) < nD
  k0_off14_inb : ∀ d0 : Dev nD, ∀ (k0_h4 : k0_cond4 d0 = 1#1), ∀ (r : Fin 6), ∀ a, (k0_off14 d0 (BitVec.ofNat 32 (48 * r.val))) a + S48x512.size a ≤ S4096x512.size a
  k0_dev148_lt : ∀ d0 : Dev nD, ∀ (k0_h4 : k0_cond4 d0 = 1#1), (k0_dev148 d0) < nD
  k0_dev149_lt : ∀ d0 : Dev nD, ∀ (k0_h4 : k0_cond4 d0 = 1#1), (k0_dev149 d0) < nD
  k0_dev150_lt : ∀ d0 : Dev nD, ∀ (k0_h4 : k0_cond4 d0 = 1#1), (k0_dev150 d0) < nD
  k0_dev151_lt : ∀ d0 : Dev nD, ∀ (k0_h4 : k0_cond4 d0 = 1#1), (k0_dev151 d0) < nD
  k0_dev152_lt : ∀ d0 : Dev nD, ∀ (k0_h4 : k0_cond4 d0 = 1#1), (k0_dev152 d0) < nD
  k0_dev153_lt : ∀ d0 : Dev nD, ∀ (k0_h4 : k0_cond4 d0 = 1#1), (k0_dev153 d0) < nD
  k0_off15_inb : ∀ d0 : Dev nD, ∀ (k0_h4 : k0_cond4 d0 = 1#1), ∀ (r : Fin 10), ∀ a, (k0_off15 d0 (BitVec.ofNat 32 (288 + 40 * r.val))) a + S40x512.size a ≤ S4096x512.size a
  k0_dev154_lt : ∀ d0 : Dev nD, ∀ (k0_h4 : k0_cond4 d0 = 1#1), (k0_dev154 d0) < nD
  k0_dev155_lt : ∀ d0 : Dev nD, ∀ (k0_h4 : k0_cond4 d0 = 1#1), (k0_dev155 d0) < nD
  k0_dev156_lt : ∀ d0 : Dev nD, ∀ (k0_h4 : k0_cond4 d0 = 1#1), (k0_dev156 d0) < nD
  k0_dev157_lt : ∀ d0 : Dev nD, ∀ (k0_h4 : k0_cond4 d0 = 1#1), (k0_dev157 d0) < nD
  k0_dev158_lt : ∀ d0 : Dev nD, ∀ (k0_h4 : k0_cond4 d0 = 1#1), (k0_dev158 d0) < nD
  k0_dev159_lt : ∀ d0 : Dev nD, ∀ (k0_h4 : k0_cond4 d0 = 1#1), (k0_dev159 d0) < nD
  k0_dev160_lt : ∀ d0 : Dev nD, ∀ (k0_h4 : k0_cond4 d0 = 1#1), (k0_dev160 d0) < nD
  k0_dev161_lt : ∀ d0 : Dev nD, ∀ (k0_h4 : k0_cond4 d0 = 1#1), (k0_dev161 d0) < nD
  k0_dev162_lt : ∀ d0 : Dev nD, ∀ (k0_h4 : k0_cond4 d0 = 1#1), (k0_dev162 d0) < nD
  k0_dev163_lt : ∀ d0 : Dev nD, ∀ (k0_h4 : k0_cond4 d0 = 1#1), (k0_dev163 d0) < nD
  k0_off16_inb : ∀ d0 : Dev nD, ∀ (k0_h4 : k0_cond4 d0 = 1#1), ∀ (r : Fin 11), ∀ a, (k0_off16 d0 (k0_off16_at r).1 (k0_off16_at r).2) a + S48x512.size a ≤ S4096x512.size a
  k0_dev164_lt : ∀ d0 : Dev nD, ∀ (k0_h4 : k0_cond4 d0 = 1#1), (k0_dev164 d0) < nD
  k0_dev165_lt : ∀ d0 : Dev nD, ∀ (k0_h4 : k0_cond4 d0 = 1#1), (k0_dev165 d0) < nD
  k0_dev166_lt : ∀ d0 : Dev nD, ∀ (k0_h4 : k0_cond4 d0 = 1#1), (k0_dev166 d0) < nD
  k0_dev167_lt : ∀ d0 : Dev nD, ∀ (k0_h4 : k0_cond4 d0 = 1#1), (k0_dev167 d0) < nD
  k0_dev168_lt : ∀ d0 : Dev nD, ∀ (k0_h4 : k0_cond4 d0 = 1#1), (k0_dev168 d0) < nD
  k0_dev169_lt : ∀ d0 : Dev nD, ∀ (k0_h4 : k0_cond4 d0 = 1#1), (k0_dev169 d0) < nD
  k0_dev170_lt : ∀ d0 : Dev nD, ∀ (k0_h4 : k0_cond4 d0 = 1#1), (k0_dev170 d0) < nD
  k0_dev171_lt : ∀ d0 : Dev nD, ∀ (k0_h4 : k0_cond4 d0 = 1#1), (k0_dev171 d0) < nD
  k0_dev172_lt : ∀ d0 : Dev nD, ∀ (k0_h4 : k0_cond4 d0 = 1#1), (k0_dev172 d0) < nD
  k0_dev173_lt : ∀ d0 : Dev nD, ∀ (k0_h4 : k0_cond4 d0 = 1#1), (k0_dev173 d0) < nD
  k0_dev174_lt : ∀ d0 : Dev nD, ∀ (k0_h4 : k0_cond4 d0 = 1#1), (k0_dev174 d0) < nD
  k0_off17_inb : ∀ d0 : Dev nD, ∀ (k0_h4 : k0_cond4 d0 = 1#1), ∀ (r : Fin 21), ∀ a, (k0_off17 d0 (k0_off17_at r).1 (k0_off17_at r).2) a + S40x512.size a ≤ S4096x512.size a
  k0_dev175_lt : ∀ d0 : Dev nD, ∀ (k0_h4 : k0_cond4 d0 = 1#1), (k0_dev175 d0) < nD
  k0_dev176_lt : ∀ d0 : Dev nD, ∀ (k0_h4 : k0_cond4 d0 = 1#1), (k0_dev176 d0) < nD
  k0_dev177_lt : ∀ d0 : Dev nD, ∀ (k0_h4 : k0_cond4 d0 = 1#1), (k0_dev177 d0) < nD
  k0_dev178_lt : ∀ d0 : Dev nD, ∀ (k0_h4 : k0_cond4 d0 = 1#1), (k0_dev178 d0) < nD
  k0_dev179_lt : ∀ d0 : Dev nD, ∀ (k0_h4 : k0_cond4 d0 = 1#1), (k0_dev179 d0) < nD
  k0_dev180_lt : ∀ d0 : Dev nD, ∀ (k0_h4 : k0_cond4 d0 = 1#1), (k0_dev180 d0) < nD
  k0_dev181_lt : ∀ d0 : Dev nD, ∀ (k0_h4 : k0_cond4 d0 = 1#1), (k0_dev181 d0) < nD
  k0_dev182_lt : ∀ d0 : Dev nD, ∀ (k0_h4 : k0_cond4 d0 = 1#1), (k0_dev182 d0) < nD
  k0_dev183_lt : ∀ d0 : Dev nD, ∀ (k0_h4 : k0_cond4 d0 = 1#1), (k0_dev183 d0) < nD
  k0_dev184_lt : ∀ d0 : Dev nD, ∀ (k0_h4 : k0_cond4 d0 = 1#1), (k0_dev184 d0) < nD
  k0_dev185_lt : ∀ d0 : Dev nD, ∀ (k0_h4 : k0_cond4 d0 = 1#1), (k0_dev185 d0) < nD
  k0_dev186_lt : ∀ d0 : Dev nD, ∀ (k0_h4 : k0_cond4 d0 = 1#1), (k0_dev186 d0) < nD
  k0_dev187_lt : ∀ d0 : Dev nD, ∀ (k0_h4 : k0_cond4 d0 = 1#1), (k0_dev187 d0) < nD
  k0_dev188_lt : ∀ d0 : Dev nD, ∀ (k0_h4 : k0_cond4 d0 = 1#1), (k0_dev188 d0) < nD
  k0_dev189_lt : ∀ d0 : Dev nD, ∀ (k0_h4 : k0_cond4 d0 = 1#1), (k0_dev189 d0) < nD
  k0_dev190_lt : ∀ d0 : Dev nD, ∀ (k0_h4 : k0_cond4 d0 = 1#1), (k0_dev190 d0) < nD
  k0_dev191_lt : ∀ d0 : Dev nD, ∀ (k0_h4 : k0_cond4 d0 = 1#1), (k0_dev191 d0) < nD
  k0_dev192_lt : ∀ d0 : Dev nD, ∀ (k0_h4 : k0_cond4 d0 = 1#1), (k0_dev192 d0) < nD
  k0_dev193_lt : ∀ d0 : Dev nD, ∀ (k0_h4 : k0_cond4 d0 = 1#1), (k0_dev193 d0) < nD
  k0_dev194_lt : ∀ d0 : Dev nD, ∀ (k0_h4 : k0_cond4 d0 = 1#1), (k0_dev194 d0) < nD
  k0_dev195_lt : ∀ d0 : Dev nD, ∀ (k0_h4 : k0_cond4 d0 = 1#1), (k0_dev195 d0) < nD
  hstage0_0 : ∀ j, (stage0_0 j).IsWhole
  hstage0_1 : ∀ j, (stage0_1 j).IsWhole

variable [Facts₀]

abbrev cc0_scratch0 : DmaSems sig S16 := SemArray.consecutive 2 S16 hcc0_scratch0
abbrev cc0_scratch1 : DmaSems sig S16 := SemArray.consecutive 18 S16 hcc0_scratch1
abbrev cc0_scratch2 : DmaSems sig S16 := SemArray.consecutive 34 S16 hcc0_scratch2
abbrev cc0_scratch3 : DmaSems sig S16 := SemArray.consecutive 50 S16 hcc0_scratch3
abbrev cc0_scratch4 : DmaSems sig S16 := SemArray.consecutive 66 S16 hcc0_scratch4
abbrev cc0_scratch5 : DmaSems sig S16 := SemArray.consecutive 82 S16 hcc0_scratch5
abbrev cc0_scratch6 : DmaSems sig S_ := SemArray.consecutive 98 S_ hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
import Idealize.ShloMosaic.Lib.Sig

namespace Cert.AG

def xc (c : Fin 16) : ℕ := c.val / 8

def yc (c : Fin 16) : ℕ := (c.val / 4) % 2

def pc (c : Fin 16) : ℕ := c.val % 2

def xp (c : Fin 16) : Fin 16 := ⟨(c.val + 8) % 16, Nat.mod_lt _ (by decide)⟩

def yp (c : Fin 16) : Fin 16 := ⟨8 * (c.val / 8) + 4 * (1 - (c.val / 4) % 2) + c.val % 4, by omega⟩

def zb (c : Fin 16) : Fin 16 := ⟨4 * (c.val / 4) + (c.val % 4 + 1 - 2 * (c.val % 2)), by omega⟩

theorem xp_xp : ∀ c, xp (xp c) = c := by decide
theorem yp_yp : ∀ c, yp (yp c) = c := by decide
theorem zb_zb : ∀ c, zb (zb c) = c := by decide

theorem xc_xp : ∀ c, xc (xp c) = 1 - xc c := by decide
theorem yc_xp : ∀ c, yc (xp c) = yc c := by decide
theorem pc_xp : ∀ c, pc (xp c) = pc c := by decide
theorem xc_yp : ∀ c, xc (yp c) = xc c := by decide
theorem yc_yp : ∀ c, yc (yp c) = 1 - yc c := by decide
theorem pc_yp : ∀ c, pc (yp c) = pc c := by decide
theorem xc_zb : ∀ c, xc (zb c) = xc c := by decide
theorem yc_zb : ∀ c, yc (zb c) = yc c := by decide
theorem pc_zb : ∀ c, pc (zb c) = 1 - pc c := by decide

theorem xc_lt (c : Fin 16) : xc c < 2 := by unfold xc; omega
theorem yc_lt (c : Fin 16) : yc c < 2 := by unfold yc; omega
theorem pc_lt (c : Fin 16) : pc c < 2 := by unfold pc; omega

def peer (d : Fin 3) (c : Fin 16) : Fin 16 := match d with | 0 => xp c | 1 => yp c | 2 => zb c
theorem peer_peer : ∀ d c, peer d (peer d c) = c := by decide

def slabLo (y p : ℕ) : ℕ := if y = 0 then (if p = 0 then 0 else 1368) else 680

def slabLen (y : ℕ) : ℕ := if y = 0 then 680 else 688

def off680 (k : ℕ) : ℕ := if k < 5 then 48 * k else 240 + 40 * (k - 5)

def len680 (k : ℕ) : ℕ := if k < 5 then 48 else 40

def off688 (k : ℕ) : ℕ := if k < 6 then 48 * k else 288 + 40 * (k - 6)
def len688 (k : ℕ) : ℕ := if k < 6 then 48 else 40

def chOff (y k : ℕ) : ℕ := if y = 0 then off680 k else off688 k
def chLen (y k : ℕ) : ℕ := if y = 0 then len680 k else len688 k

theorem off680_16 : off680 16 = 680 := by decide
theorem off688_16 : off688 16 = 688 := by decide

end Cert.AG
-- ==== Proof.Arith.lean ====
import proofs.«900679_g7700000000000680_dist_ag_v7x_xyz2x2x4_x_m2048_n512_f32_1_alg».proof.Proof.Mesh

namespace Cert.AG

/-- First row, in a device's output buffer, of chunk `k` of the slab it receives from partner `d`. -/
def rLo (c : Fin 16) (d : Fin 3) (k : ℕ) : ℕ :=
  2048 * (1 - xc c) + match d with
    | 0 => slabLo (yc c) (pc c) + chOff (yc c) k
    | 1 => slabLo (1 - yc c) (pc c) + chOff (1 - yc c) k
    | 2 => slabLo 0 (1 - pc c) + off680 k
def rLen (c : Fin 16) (d : Fin 3) (k : ℕ) : ℕ :=
  match d with
    | 0 => chLen (yc c) k
    | 1 => chLen (1 - yc c) k
    | 2 => len680 k
def sLen (c : Fin 16) (d : Fin 3) : ℕ := match d with | 0 => slabLen (yc c) | 1 => slabLen (1 - yc c) | 2 => 680
/-- First row a device reads for its copy `k` to partner `d`: in its input (d = 0) or its output buffer. -/
def sLo (c : Fin 16) (d : Fin 3) (k : ℕ) : ℕ :=
  match d with
    | 0 => slabLo (yc c) (pc c) + chOff (yc c) k
    | 1 => 2048 * (1 - xc c) + slabLo (yc c) (pc c) + chOff (yc c) k
    | 2 => 2048 * (1 - xc c) + slabLo 0 (pc c) + off680 k
/-- The device whose input holds row `r` of a device's output buffer. -/
def srcDev (c : Fin 16) (r : ℕ) : Fin 16 :=
  if r / 2048 = xc c then c
  else if slabLo (yc c) (pc c) ≤ r % 2048 ∧ r % 2048 < slabLo (yc c) (pc c) + slabLen (yc c) then xp c
  else if slabLo (1 - yc c) (pc c) ≤ r % 2048 ∧ r % 2048 < slabLo (1 - yc c) (pc c) + slabLen (1 - yc c) then xp (yp c)
  else if yc c = 0 then xp (zb c) else xp (yp (zb c))
def arrOf (j : ℕ) : ℕ := (j - 2) / 16
def chkOf (j : ℕ) : ℕ := (j - 2) % 16
def lenAt (c : Fin 16) (j : ℕ) : ℕ :=
  if arrOf j ≤ 2 then chLen (yc c) (chkOf j) else if arrOf j = 3 then chLen (1 - yc c) (chkOf j) else len680 (chkOf j)

theorem one_sub_one_sub_xc (c : Fin 16) : 1 - (1 - xc c) = xc c := by have := xc_lt c; omega
theorem one_sub_one_sub_yc (c : Fin 16) : 1 - (1 - yc c) = yc c := by have := yc_lt c; omega
theorem one_sub_one_sub_pc (c : Fin 16) : 1 - (1 - pc c) = pc c := by have := pc_lt c; omega
theorem sLo_y_eq (c : Fin 16) (k : ℕ) : sLo c 1 k = rLo (yp c) 1 k := by
  simp only [sLo, rLo, xc_yp, yc_yp, pc_yp, one_sub_one_sub_yc]; omega
theorem rLen_y_eq (c : Fin 16) (k : ℕ) : rLen c 0 k = rLen (yp c) 1 k := by
  simp only [rLen, yc_yp, one_sub_one_sub_yc]
theorem sLo_z_eq (c : Fin 16) (k : ℕ) : sLo c 2 k = rLo (zb c) 2 k := by
  simp only [sLo, rLo, xc_zb, pc_zb, one_sub_one_sub_pc]; omega
theorem rLen_z (c : Fin 16) (k : ℕ) : rLen c 2 k = len680 k := rfl
theorem rLen_x_eq (c : Fin 16) (k : ℕ) : rLen c 0 k = rLen (xp c) 0 k := by
  simp only [rLen, yc_xp]
theorem sLo_y_eq_rLo_x (c : Fin 16) (k : ℕ) : sLo c 1 k = rLo c 0 k := by
  simp only [sLo, rLo]; omega
theorem sLo_z_eq_rLo (c : Fin 16) (k : ℕ) : sLo c 2 k = (if yc c = 0 then rLo c 0 k else rLo c 1 k) := by
  have := yc_lt c
  split
  · next h => simp only [sLo, rLo, h, chOff, if_true]; omega
  · next h =>
    have h1 : yc c = 1 := by omega
    simp only [sLo, rLo, h1, chOff, Nat.sub_self, if_true]; omega
theorem len680_eq_rLen (c : Fin 16) (k : ℕ) : len680 k = (if yc c = 0 then rLen c 0 k else rLen c 1 k) := by
  have := yc_lt c
  split
  · next h => simp only [rLen, h, chLen, if_true]
  · next h =>
    have h1 : yc c = 1 := by omega
    simp only [rLen, h1, chLen, Nat.sub_self, if_true]
theorem rLo_xp_eq (c : Fin 16) (k : ℕ) : rLo (xp c) 0 k = 2048 * xc c + sLo c 0 k := by
  simp only [sLo, rLo, xc_xp, yc_xp, pc_xp, one_sub_one_sub_xc]
theorem len680_cases (k : ℕ) : len680 k = 48 ∨ len680 k = 40 := by unfold len680; split <;> simp
theorem len688_cases (k : ℕ) : len688 k = 48 ∨ len688 k = 40 := by unfold len688; split <;> simp
theorem chLen_cases (y k : ℕ) : chLen y k = 48 ∨ chLen y k = 40 := by
  unfold chLen; split
  · exact len680_cases k
  · exact len688_cases k
theorem rLen_cases (c : Fin 16) (d : Fin 3) (k : ℕ) : rLen c d k = 48 ∨ rLen c d k = 40 := by
  fin_cases d
  · exact chLen_cases _ k
  · exact chLen_cases _ k
  · exact len680_cases k
theorem off680_succ (k : ℕ) : off680 (k + 1) = off680 k + len680 k := by
  unfold off680 len680; split_ifs <;> omega
theorem off688_succ (k : ℕ) : off688 (k + 1) = off688 k + len688 k := by
  unfold off688 len688; split_ifs <;> omega
theorem chOff_succ (y k : ℕ) : chOff y (k + 1) = chOff y k + chLen y k := by
  unfold chOff chLen; split
  · exact off680_succ k
  · exact off688_succ k
theorem off680_zero : off680 0 = 0 := by decide
theorem off688_zero : off688 0 = 0 := by decide
theorem chOff_zero (y : ℕ) : chOff y 0 = 0 := by
  unfold chOff; split
  · exact off680_zero
  · exact off688_zero
theorem chOff_16 (y : ℕ) : chOff y 16 = slabLen y := by
  unfold chOff slabLen; split
  · exact off680_16
  · exact off688_16
theorem off680_add_len_le (k : ℕ) (hk : k < 16) : off680 k + len680 k ≤ 680 := by
  unfold off680 len680; split_ifs <;> omega
theorem off688_add_len_le (k : ℕ) (hk : k < 16) : off688 k + len688 k ≤ 688 := by
  unfold off688 len688; split_ifs <;> omega
theorem chOff_add_len_le (y k : ℕ) (hk : k < 16) : chOff y k + chLen y k ≤ slabLen y := by
  unfold chOff chLen slabLen; split
  · exact off680_add_len_le k hk
  · exact off688_add_len_le k hk
theorem slab_le (y p : ℕ) : slabLo y p + slabLen y ≤ 2048 := by
  unfold slabLo slabLen; split_ifs <;> omega
theorem rLo_succ (c : Fin 16) (d : Fin 3) (k : ℕ) : rLo c d (k + 1) = rLo c d k + rLen c d k := by
  match d with
  | 0 => simp only [rLo, rLen, chOff_succ]; omega
  | 1 => simp only [rLo, rLen, chOff_succ]; omega
  | 2 => simp only [rLo, rLen, off680_succ]; omega
theorem rLo_16 (c : Fin 16) (d : Fin 3) : rLo c d 16 = rLo c d 0 + sLen c d := by
  match d with
  | 0 => simp only [rLo, sLen, chOff_16, chOff_zero]; omega
  | 1 => simp only [rLo, sLen, chOff_16, chOff_zero]; omega
  | 2 => simp only [rLo, sLen, off680_16, off680_zero]; omega
theorem chunk_in_slab (c : Fin 16) (d : Fin 3) (k : ℕ) (hk : k < 16) :
    rLo c d 0 ≤ rLo c d k ∧ rLo c d k + rLen c d k ≤ rLo c d 0 + sLen c d := by
  match d with
  | 0 => have := chOff_add_len_le (yc c) k hk; simp only [rLo, rLen, sLen, chOff_zero]; omega
  | 1 => have := chOff_add_len_le (1 - yc c) k hk; simp only [rLo, rLen, sLen, chOff_zero]; omega
  | 2 => have := off680_add_len_le k hk; simp only [rLo, rLen, sLen, off680_zero]; omega
theorem sLo_x_in (c : Fin 16) (k : ℕ) (hk : k < 16) :
    slabLo (yc c) (pc c) ≤ sLo c 0 k ∧ sLo c 0 k + rLen c 0 k ≤ slabLo (yc c) (pc c) + slabLen (yc c) := by
  have := chOff_add_len_le (yc c) k hk; simp only [sLo, rLen]; omega
theorem sLo_x_lt (c : Fin 16) (k : ℕ) (hk : k < 16) : sLo c 0 k + rLen c 0 k ≤ 2048 := by
  have := sLo_x_in c k hk; have := slab_le (yc c) (pc c); omega
theorem rLo_zero_0 (c : Fin 16) : rLo c 0 0 = 2048 * (1 - xc c) + slabLo (yc c) (pc c) := by
  simp only [rLo, chOff_zero]; omega
theorem rLo_zero_1 (c : Fin 16) : rLo c 1 0 = 2048 * (1 - xc c) + slabLo (1 - yc c) (pc c) := by
  simp only [rLo, chOff_zero]; omega
theorem rLo_zero_2 (c : Fin 16) : rLo c 2 0 = 2048 * (1 - xc c) + slabLo 0 (1 - pc c) := by
  simp only [rLo, off680_zero]; omega
theorem slab_in_foreign (c : Fin 16) (d : Fin 3) :
    2048 * (1 - xc c) ≤ rLo c d 0 ∧ rLo c d 0 + sLen c d ≤ 2048 * (1 - xc c) + 2048 := by
  match d with
  | 0 => have := slab_le (yc c) (pc c); rw [rLo_zero_0]; simp only [sLen]; omega
  | 1 => have := slab_le (1 - yc c) (pc c); rw [rLo_zero_1]; simp only [sLen]; omega
  | 2 => have := slab_le 0 (1 - pc c); rw [rLo_zero_2]; simp only [sLen, slabLen, if_true] at *; omega
theorem own_slab_disjoint (c : Fin 16) (d : Fin 3) :
    2048 * xc c + 2048 ≤ rLo c d 0 ∨ rLo c d 0 + sLen c d ≤ 2048 * xc c := by
  have := slab_in_foreign c d; have := xc_lt c; omega
theorem slab_slab_disjoint : ∀ (c : Fin 16) (d d' : Fin 3), d ≠ d' →
    rLo c d 0 + sLen c d ≤ rLo c d' 0 ∨ rLo c d' 0 + sLen c d' ≤ rLo c d 0 := by decide
/-- The own half and the three slabs cover the 4096 rows. -/
theorem row_cover (c : Fin 16) (r : ℕ) (hr : r < 4096) :
    (2048 * xc c ≤ r ∧ r < 2048 * xc c + 2048) ∨ (rLo c 0 0 ≤ r ∧ r < rLo c 0 0 + sLen c 0)
      ∨ (rLo c 1 0 ≤ r ∧ r < rLo c 1 0 + sLen c 1) ∨ (rLo c 2 0 ≤ r ∧ r < rLo c 2 0 + sLen c 2) := by
  have hx := xc_lt c; have hy := yc_lt c; have hp := pc_lt c
  rw [rLo_zero_0, rLo_zero_1, rLo_zero_2]
  simp only [sLen, slabLo, slabLen]
  split_ifs <;> omega
theorem slab_y_disjoint (y p : ℕ) (hy : y < 2) :
    slabLo y p + slabLen y ≤ slabLo (1 - y) p ∨ slabLo (1 - y) p + slabLen (1 - y) ≤ slabLo y p := by
  unfold slabLo slabLen; split_ifs <;> omega
theorem srcDev_own (c : Fin 16) (r : ℕ) (h : 2048 * xc c ≤ r) (h' : r < 2048 * xc c + 2048) : srcDev c r = c := by
  unfold srcDev; rw [if_pos (by omega)]
theorem srcDev_slab0 (c : Fin 16) (r : ℕ) (h : rLo c 0 0 ≤ r) (h' : r < rLo c 0 0 + sLen c 0) : srcDev c r = xp c := by
  have hx := xc_lt c
  have b := slab_le (yc c) (pc c)
  rw [rLo_zero_0] at h h'
  simp only [sLen] at h'
  unfold srcDev
  rw [if_neg (by omega), if_pos (by omega)]
theorem srcDev_slab1 (c : Fin 16) (r : ℕ) (h : rLo c 1 0 ≤ r) (h' : r < rLo c 1 0 + sLen c 1) : srcDev c r = xp (yp c) := by
  have hx := xc_lt c
  have b := slab_le (1 - yc c) (pc c)
  have b' := slab_le (yc c) (pc c)
  have dj := slab_y_disjoint (yc c) (pc c) (yc_lt c)
  rw [rLo_zero_1] at h h'
  simp only [sLen] at h'
  unfold srcDev
  rw [if_neg (by omega), if_neg (by omega), if_pos (by omega)]
theorem srcDev_slab2 (c : Fin 16) (r : ℕ) (h : rLo c 2 0 ≤ r) (h' : r < rLo c 2 0 + sLen c 2) :
    srcDev c r = (if yc c = 0 then xp (zb c) else xp (yp (zb c))) := by
  have hx := xc_lt c; have hy := yc_lt c; have hp := pc_lt c
  rw [rLo_zero_2] at h h'
  simp only [sLen] at h'
  have n0 : ¬ (slabLo (yc c) (pc c) ≤ r % 2048 ∧ r % 2048 < slabLo (yc c) (pc c) + slabLen (yc c)) := by
    unfold slabLo slabLen at *; split_ifs at * <;> omega
  have n1 : ¬ (slabLo (1 - yc c) (pc c) ≤ r % 2048 ∧ r % 2048 < slabLo (1 - yc c) (pc c) + slabLen (1 - yc c)) := by
    unfold slabLo slabLen at *; split_ifs at * <;> omega
  have n2 : ¬ (r / 2048 = xc c) := by
    unfold slabLo at *; split_ifs at * <;> omega
  unfold srcDev
  rw [if_neg n2, if_neg n0, if_neg n1]
theorem xc_srcDev (c : Fin 16) (r : ℕ) (hr : r < 4096) : xc (srcDev c r) = r / 2048 := by
  have hx := xc_lt c
  unfold srcDev; split_ifs <;> (try simp only [xc_xp, xc_yp, xc_zb]) <;> omega
theorem srcDev_x (c : Fin 16) (k : ℕ) (hk : k < 16) (r : ℕ) (h : rLo (xp c) 0 k ≤ r)
    (h' : r < rLo (xp c) 0 k + rLen (xp c) 0 k) :
    srcDev (xp c) r = c ∧ r % 2048 = r - rLo (xp c) 0 k + sLo c 0 k := by
  have i0 := chunk_in_slab (xp c) 0 k hk
  constructor
  · rw [srcDev_slab0 (xp c) r (by omega) (by omega), xp_xp]
  · rw [rLo_xp_eq] at h h' ⊢; rw [← rLen_x_eq] at h'
    have := sLo_x_lt c k hk; have := xc_lt c; omega
theorem srcDev_y_slab (c : Fin 16) (r : ℕ) (h : rLo (yp c) 1 0 ≤ r) (h' : r < rLo (yp c) 1 0 + sLen (yp c) 1) :
    srcDev (yp c) r = srcDev c r := by
  have e0 : rLo (yp c) 1 0 = rLo c 0 0 := by rw [← sLo_y_eq, sLo_y_eq_rLo_x]
  have e1 : sLen (yp c) 1 = sLen c 0 := by simp only [sLen, yc_yp, one_sub_one_sub_yc]
  rw [srcDev_slab1 (yp c) r h h', yp_yp, srcDev_slab0 c r (by omega) (by omega)]
theorem srcDev_y (c : Fin 16) (k : ℕ) (hk : k < 16) (r : ℕ) (h : rLo (yp c) 1 k ≤ r)
    (h' : r < rLo (yp c) 1 k + rLen (yp c) 1 k) : srcDev (yp c) r = srcDev c r := by
  have i1 := chunk_in_slab (yp c) 1 k hk
  exact srcDev_y_slab c r (by omega) (by omega)
theorem srcDev_z_slab (c : Fin 16) (r : ℕ) (h : rLo (zb c) 2 0 ≤ r) (h' : r < rLo (zb c) 2 0 + sLen (zb c) 2) :
    srcDev (zb c) r = srcDev c r := by
  have hy := yc_lt c
  have e0 := sLo_z_eq c 0
  have e0' := sLo_z_eq_rLo c 0
  have e1 : sLen (zb c) 2 = 680 := rfl
  rw [srcDev_slab2 (zb c) r h h', zb_zb, yc_zb]
  split
  · next hy0 =>
    rw [if_pos hy0] at e0'
    have e2 : sLen c 0 = 680 := by simp only [sLen, hy0, slabLen, if_true]
    rw [srcDev_slab0 c r (by omega) (by omega)]
  · next hy0 =>
    rw [if_neg hy0] at e0'
    have hy1 : yc c = 1 := by omega
    have e2 : sLen c 1 = 680 := by simp only [sLen, hy1, Nat.sub_self, slabLen, if_true]
    rw [srcDev_slab1 c r (by omega) (by omega)]
theorem srcDev_z (c : Fin 16) (k : ℕ) (hk : k < 16) (r : ℕ) (h : rLo (zb c) 2 k ≤ r)
    (h' : r < rLo (zb c) 2 k + rLen (zb c) 2 k) : srcDev (zb c) r = srcDev c r := by
  have i2 := chunk_in_slab (zb c) 2 k hk
  exact srcDev_z_slab c r (by omega) (by omega)

end Cert.AG
-- ==== Proof.Rows.lean ====
import Idealize.ShloMosaic.Rules.PointsTo
import Idealize.ShloMosaic.Lib.Pipeline.Value

noncomputable section

namespace Cert.AGRows

open Idealize.ShloMosaic
open Idealize.SL Idealize.SL.RA Idealize.SL.BI
open scoped Idealize.SL.BI
open Idealize.SL.BI.BIBase Idealize.SL.BI.Laws Idealize.SL.ProofMode Idealize.SL.Sem

def rows (S : Shape) (lo n : ℕ) : Finset S.Idx :=
  Finset.univ.filter fun i => ∃ a : Fin S.rank, a.val = 0 ∧ lo ≤ (i a).val ∧ (i a).val < lo + n

theorem mem_rows {S : Shape} {lo n : ℕ} {i : S.Idx} :
    i ∈ rows S lo n ↔ ∃ a : Fin S.rank, a.val = 0 ∧ lo ≤ (i a).val ∧ (i a).val < lo + n := by
  simp [rows]

theorem mem_rows_of_pos {S : Shape} (h : 0 < S.rank) {lo n : ℕ} {i : S.Idx} :
    i ∈ rows S lo n ↔ lo ≤ (i ⟨0, h⟩).val ∧ (i ⟨0, h⟩).val < lo + n := by
  rw [mem_rows]
  constructor
  · rintro ⟨a, ha, h1⟩
    have : a = ⟨0, h⟩ := Fin.ext ha
    subst this; exact h1
  · intro h1; exact ⟨⟨0, h⟩, rfl, h1⟩

theorem mem_rows₂ {d : Fin 2 → ℕ} {lo n : ℕ} {i : (a : Fin 2) → Fin (d a)} :
    i ∈ rows ⟨2, d⟩ lo n ↔ lo ≤ (i 0).val ∧ (i 0).val < lo + n :=
  mem_rows_of_pos (S := ⟨2, d⟩) Nat.zero_lt_two

theorem rows_disjoint {S : Shape} {lo n lo' n' : ℕ} (h : lo + n ≤ lo' ∨ lo' + n' ≤ lo) :
    Disjoint (rows S lo n) (rows S lo' n') := by
  rw [Finset.disjoint_left]
  intro i h₁ h₂
  obtain ⟨a, ha, h1⟩ := mem_rows.mp h₁
  obtain ⟨a', ha', h2⟩ := mem_rows.mp h₂
  have : a = a' := Fin.ext (ha.trans ha'.symm)
  subst this
  omega

theorem rows_add (S : Shape) (lo n₁ n₂ : ℕ) :
    rows S lo (n₁ + n₂) = rows S lo n₁ ∪ rows S (lo + n₁) n₂ := by
  ext i
  simp only [Finset.mem_union, mem_rows]
  constructor
  · rintro ⟨a, ha, h1, h2⟩
    by_cases hc : (i a).val < lo + n₁
    · exact Or.inl ⟨a, ha, h1, hc⟩
    · exact Or.inr ⟨a, ha, by omega, by omega⟩
  · rintro (⟨a, ha, h1, h2⟩ | ⟨a, ha, h1, h2⟩)
    · exact ⟨a, ha, h1, by omega⟩
    · exact ⟨a, ha, by omega, by omega⟩

theorem rows_zero (S : Shape) (lo : ℕ) : rows S lo 0 = ∅ := by
  ext i
  simp only [mem_rows, Finset.notMem_empty, iff_false]
  rintro ⟨a, _, h1, h2⟩
  omega

theorem rows_univ {S : Shape} (h : 0 < S.rank) : rows S 0 (S.size ⟨0, h⟩) = Finset.univ := by
  ext i
  simp only [mem_rows_of_pos h, Finset.mem_univ, iff_true]
  exact ⟨Nat.zero_le _, by have := (i ⟨0, h⟩).isLt; omega⟩

theorem rows_univ₂ (d : Fin 2 → ℕ) : rows ⟨2, d⟩ 0 (d 0) = Finset.univ :=
  rows_univ (S := ⟨2, d⟩) Nat.zero_lt_two

theorem set_unit_eq_rows {S : Shape} (hS : 0 < S.rank) {off size : Fin S.rank → ℕ}
    {inb : ∀ a, off a + size a ≤ S.size a} {lo n : ℕ}
    (h0 : off ⟨0, hS⟩ = lo ∧ size ⟨0, hS⟩ = n)
    (h1 : ∀ a : Fin S.rank, a.val ≠ 0 → off a = 0 ∧ size a = S.size a) :
    (Rect.unit off size inb).set = rows S lo n := by
  ext i
  rw [Rect.mem_set_unit, mem_rows_of_pos hS]
  constructor
  · intro h
    have := h ⟨0, hS⟩
    rw [h0.1, h0.2] at this
    exact this
  · intro h a
    by_cases ha : a.val = 0
    · have : a = ⟨0, hS⟩ := Fin.ext ha
      subst this
      rw [h0.1, h0.2]; exact h
    · obtain ⟨e1, e2⟩ := h1 a ha
      rw [e1, e2]
      exact ⟨Nat.zero_le _, by have := (i a).isLt; omega⟩

theorem forall_fin_two_ne_zero {P : Fin 2 → Prop} (h : P 1) : ∀ a : Fin 2, a.val ≠ 0 → P a := by
  intro a ha
  rcases Fin.exists_fin_two.mp ⟨a, rfl⟩ with rfl | rfl
  · exact absurd rfl ha
  · exact h

theorem rows_rel_of_emb {dS dD size offS offD : Fin 2 → ℕ} {ls ld : ℕ}
    (hS : offS = ![ls, 0]) (hD : offD = ![ld, 0])
    {i : (a : Fin 2) → Fin (dD a)} {k : (a : Fin 2) → Fin (dS a)} {x : (a : Fin 2) → Fin (size a)}
    (hi : ∀ a, (i a : ℕ) = offD a + x a) (hk : ∀ a, (k a : ℕ) = offS a + x a) :
    ld ≤ (i 0 : ℕ) ∧ (i 0 : ℕ) < ld + size 0 ∧ (k 0 : ℕ) + ld = (i 0 : ℕ) + ls ∧ (k 1 : ℕ) = (i 1 : ℕ) := by
  subst hS hD
  have hi0 := hi 0
  have hi1 := hi 1
  have hk0 := hk 0
  have hk1 := hk 1
  have hx := (x 0).isLt
  have e1 : (![ld, 0] : Fin 2 → ℕ) 0 = ld := rfl
  have e2 : (![ld, 0] : Fin 2 → ℕ) 1 = 0 := rfl
  have e3 : (![ls, 0] : Fin 2 → ℕ) 0 = ls := rfl
  have e4 : (![ls, 0] : Fin 2 → ℕ) 1 = 0 := rfl
  rw [e1] at hi0; rw [e2] at hi1; rw [e3] at hk0; rw [e4] at hk1
  refine ⟨by omega, by omega, by omega, by omega⟩

section Views
variable {sig : RefSig} {κ : Kind}

theorem set_rowSlice (b : Ref sig κ) (hS : 0 < b.ty.shape.rank) {off size : Fin b.ty.shape.rank → ℕ}
    {inb : ∀ a, off a + size a ≤ b.ty.shape.size a} {hr : ∀ a, (Rect.unit off size inb).stride a = 1} {lo n : ℕ}
    (h0 : off ⟨0, hS⟩ = lo ∧ size ⟨0, hS⟩ = n)
    (h1 : ∀ a : Fin b.ty.shape.rank, a.val ≠ 0 → off a = 0 ∧ size a = b.ty.shape.size a) :
    ((Memref.whole b).slice (Rect.unit off size inb) hr).view.set = rows b.ty.shape lo n :=
  (View.set_slice_whole b _).trans (set_unit_eq_rows hS h0 h1)

theorem emb_slice_whole_val (b : Ref sig κ) {off size : Fin b.ty.shape.rank → ℕ}
    {inb : ∀ a, off a + size a ≤ b.ty.shape.size a} (hr : ∀ a, (Rect.unit off size inb).stride a = 1)
    (x : (Rect.unit off size inb).shape.Idx) (a : Fin b.ty.shape.rank) :
    ((((Memref.whole b).slice (Rect.unit off size inb) hr).view.emb x) a : ℕ) = off a + x a := by
  show off a + 1 * (x a : ℕ) = off a + x a
  rw [Nat.one_mul]

end Views

section PointsTo
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {q : PosShare TreeShare} {f g : Buf Val ℓ}

theorem pointsTo_rows_add (lo n₁ n₂ : ℕ) :
    (ℓ ↦[rows ℓ.ty.shape lo (n₁ + n₂)]{q} f : sProp 𝕄)
      ⊣⊢ iprop((ℓ ↦[rows ℓ.ty.shape lo n₁]{q} f) ∗ ℓ ↦[rows ℓ.ty.shape (lo + n₁) n₂]{q} f) := by
  rw [rows_add]
  exact pointsTo_union (rows_disjoint (Or.inl (le_refl _)))

theorem pointsTo_rows_add_eq (lo n₁ n₂ : ℕ) :
    (ℓ ↦[rows ℓ.ty.shape lo (n₁ + n₂)]{q} f : sProp 𝕄)
      = iprop((ℓ ↦[rows ℓ.ty.shape lo n₁]{q} f) ∗ ℓ ↦[rows ℓ.ty.shape (lo + n₁) n₂]{q} f) :=
  BI.equiv_iff.mp ⟨(pointsTo_rows_add lo n₁ n₂).1, (pointsTo_rows_add lo n₁ n₂).2⟩

theorem pointsTo_rows_chain (lo : ℕ) (bd len : ℕ → ℕ) (h0 : bd 0 = 0) (N : ℕ)
    (hch : ∀ k < N, bd k + len k = bd (k + 1)) :
    (ℓ ↦[rows ℓ.ty.shape lo (bd N)]{q} f : sProp 𝕄)
      = bigSep (Finset.range N) fun k => ℓ ↦[rows ℓ.ty.shape (lo + bd k) (len k)]{q} f := by
  induction N with
  | zero => rw [h0, rows_zero, pointsTo_empty, Finset.range_zero, bigSep_empty]; rfl
  | succ N ih =>
    rw [Finset.range_add_one, bigSep_insert Finset.notMem_range_self,
      ← ih (fun k hk => hch k (Nat.lt_succ_of_lt hk)), ← hch N (Nat.lt_succ_self N),
      pointsTo_rows_add_eq]
    have hc : ∀ A B : sProp 𝕄, iprop(A ∗ B) = iprop(B ∗ A) := fun A B => BI.equiv_iff.mp ⟨BI.sep_comm, BI.sep_comm⟩
    exact hc _ _

theorem pointsTo_rows_chain_fin (lo : ℕ) (bd len : ℕ → ℕ) (h0 : bd 0 = 0) (N : ℕ)
    (hch : ∀ k < N, bd k + len k = bd (k + 1)) :
    (ℓ ↦[rows ℓ.ty.shape lo (bd N)]{q} f : sProp 𝕄)
      = bigSep (Finset.univ : Finset (Fin N)) fun k => ℓ ↦[rows ℓ.ty.shape (lo + bd k.val) (len k.val)]{q} f := by
  rw [pointsTo_rows_chain lo bd len h0 N hch]
  have hm : (Finset.univ : Finset (Fin N)).map Fin.valEmbedding = Finset.range N := by
    ext k
    simp only [Finset.mem_map, Finset.mem_univ, true_and, Fin.valEmbedding_apply, Finset.mem_range]
    exact ⟨fun ⟨a, ha⟩ => ha ▸ a.isLt, fun hk => ⟨⟨k, hk⟩, rfl⟩⟩
  rw [← hm, bigSep_map]
  rfl

theorem pointsTo_halves_of (I : Finset (Idx ℓ)) (q : PosShare TreeShare) :
    (ℓ ↦[I]{q} f : sProp 𝕄) ⊣⊢ iprop((ℓ ↦[I]{q.left} f) ∗ ℓ ↦[I]{q.right} f) :=
  pointsTo_share (PosShare.mem_left_op_right q)

section Landed
variable {κ : Kind} {sp sp' : Space} {s : Shape} {e : EltTy} {c' : Thread nD τ}

theorem write_read_emb_heq {κ' : Kind} (vs : View sig κ sp s e) (vd : View sig κ' sp' s e)
    (fs : vs.ty.Contents Val) (fd : vd.ty.Contents Val) (x : s.Idx) :
    HEq (vd.write Val fd (vs.read Val fs) Finset.univ (vd.emb x)) (fs (vs.emb x)) := by
  rw [View.write_emb_of_mem _ _ (Finset.mem_univ x), View.read_apply]
  exact (cast_heq _ _).trans (cast_heq _ _)

theorem pointsTo_landed (vs : View sig κ sp s e) (vd : View sig c'.2.kind sp' s e)
    (fs : vs.ty.Contents Val) (fd G : Buf Val (vd.loc c'))
    (hG : ∀ x : s.Idx, HEq (G (vd.emb x)) (fs (vs.emb x))) :
    (vd.loc c' ↦[vd.set]{q} (vd.write Val fd (vs.read Val fs) Finset.univ) : sProp 𝕄) = vd.loc c' ↦[vd.set]{q} G := by
  refine pointsTo_congr fun i hi => ?_
  obtain ⟨x, rfl⟩ := vd.exists_emb_of_mem_set hi
  exact eq_of_heq ((write_read_emb_heq vs vd fs fd x).trans (hG x).symm)

end Landed

end PointsTo

end Cert.AGRows
-- ==== Proof.Proto.lean ====
import proofs.«900679_g7700000000000680_dist_ag_v7x_xyz2x2x4_x_m2048_n512_f32_1_alg».proof.Proof.Arith
import proofs.«900679_g7700000000000680_dist_ag_v7x_xyz2x2x4_x_m2048_n512_f32_1_alg».proof.Proof.Rows
import proofs.«900679_g7700000000000680_dist_ag_v7x_xyz2x2x4_x_m2048_n512_f32_1_alg».proof.Proof.Gen.KernelIdeal
import proofs.«900679_g7700000000000680_dist_ag_v7x_xyz2x2x4_x_m2048_n512_f32_1_alg».proof.Proof.Gen.KernelIdeal.Skeleton
import proofs.«900679_g7700000000000680_dist_ag_v7x_xyz2x2x4_x_m2048_n512_f32_1_alg».proof.Proof.Gen.KernelIdeal.Launch
import proofs.«900679_g7700000000000680_dist_ag_v7x_xyz2x2x4_x_m2048_n512_f32_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev barS : Sem sig := (SemArray.scalar (sig.barrier 0 rfl) : Sems sig S_).sem
abbrev barCell (c : Dev nD) : GSem nD τ sig := ((c : Thread nD τ), .reg barS)

def semOf (a : Fin 6) (k : Fin 16) : DmaSem sig := ⟨2 + 16 * a.val + k.val, by have := a.isLt; have := k.isLt; show _ < 99; omega⟩

abbrev locS : DmaSem sig := ⟨98, by decide⟩
abbrev dcell (c : Dev nD) (a : Fin 6) (k : Fin 16) : GSem nD τ sig := ((c : Thread nD τ), .dma (semOf a k))
abbrev locCell (c : Dev nD) : GSem nD τ sig := ((c : Thread nD τ), .dma locS)

abbrev xM : Memref sig .tc .vmem S2048x512 .f32 := Memref.whole cc0_stg0_0
abbrev oM : Memref sig .tc .vmem S4096x512 .f32 := Memref.whole cc0_stg1_0

abbrev ℓx (c : Dev nD) : Loc nD τ sig := (c : Thread nD τ).loc cc0_stg0_0
abbrev ℓo (c : Dev nD) : Loc nD τ sig := (c : Thread nD τ).loc cc0_stg1_0

def Xin (c : Dev nD) : (cc0_stg0_0 : Ref sig .tc).ty.Contents (Elt F) :=
  (win0_0.blk (0 : Fin 1)).view.read (Elt F) (m ((c : Thread nD τ).loc main_arg0))

def Gout (c : Dev nD) : (cc0_stg1_0 : Ref sig .tc).ty.Contents (Elt F) :=
  fun i => Xin m (srcDev c (i 0).val) (ValueIdx.ix2 (n0 := 2048) (n1 := 512) ⟨(i 0).val % 2048, Nat.mod_lt _ (by decide)⟩ (i 1))

def A48 : ℕ := ((oM.slice (Rect.unit (s := S4096x512) ![0, 0] S48x512.size (by decide)) (fun _ => rfl) : Memref sig .tc .vmem S48x512 .f32)).view.dmaCredit
def A40 : ℕ := ((oM.slice (Rect.unit (s := S4096x512) ![0, 0] S40x512.size (by decide)) (fun _ => rfl) : Memref sig .tc .vmem S40x512 .f32)).view.dmaCredit
def A2048 : ℕ := ((oM.slice (Rect.unit (s := S4096x512) ![0, 0] S2048x512.size (by decide)) (fun _ => rfl) : Memref sig .tc .vmem S2048x512 .f32)).view.dmaCredit
theorem A48_pos : 0 < A48 := View.dmaCredit_pos _ (by decide)
theorem A40_pos : 0 < A40 := View.dmaCredit_pos _ (by decide)
theorem A2048_pos : 0 < A2048 := View.dmaCredit_pos _ (by decide)

def amt (c : Fin 16) (j : ℕ) : ℕ := if j = 98 then A2048 else if lenAt c j = 48 then A48 else A40

theorem amt_pos (c : Fin 16) (j : ℕ) : 0 < amt c j := by
  unfold amt; split; · exact A2048_pos
  split; · exact A48_pos
  exact A40_pos

abbrev rowsO (lo n : ℕ) : Finset S4096x512.Idx := Cert.AGRows.rows S4096x512 lo n
abbrev rowsX (lo n : ℕ) : Finset S2048x512.Idx := Cert.AGRows.rows S2048x512 lo n

def barPay (c : Dev nD) (d : Fin 3) : sProp 𝕄 :=
  iprop(∃ f, ℓo (peer d c) ↦[rowsO (rLo (peer d c) d 0) (sLen (peer d c) d)]{fullShare} f)

def dmaPay (c : Dev nD) (j : ℕ) : sProp 𝕄 :=
  if j = 98 then iprop((ℓo c ↦[rowsO (2048 * xc c) 2048]{fullShare} Gout m c) ∗ (ℓx c ↦[rowsX 0 2048]{fullShare.left} Xin m c))
  else if arrOf j = 0 then (ℓx c ↦[rowsX (sLo c 0 (chkOf j)) (rLen c 0 (chkOf j))]{fullShare.right} Xin m c)
  else if arrOf j = 1 then (ℓo c ↦[rowsO (rLo c 0 (chkOf j)) (rLen c 0 (chkOf j))]{fullShare} Gout m c)
  else if arrOf j = 2 then (ℓo c ↦[rowsO (sLo c 1 (chkOf j)) (rLen c 0 (chkOf j))]{fullShare.left} Gout m c)
  else if arrOf j = 3 then (ℓo c ↦[rowsO (rLo c 1 (chkOf j)) (rLen c 1 (chkOf j))]{fullShare} Gout m c)
  else if arrOf j = 4 then (ℓo c ↦[rowsO (sLo c 2 (chkOf j)) (len680 (chkOf j))]{fullShare.right} Gout m c)
  else (ℓo c ↦[rowsO (rLo c 2 (chkOf j)) (rLen c 2 (chkOf j))]{fullShare} Gout m c)

def Rd : Rounds.Schedule (GSem nD τ sig) (Fin 3) 𝕄 where
  duties g r :=
    if r = 0 ∧ g.1.2 = .tc then
      (match g.2 with
        | .reg s => if s = barS then Finset.univ else ∅
        | .dma j => if 2 ≤ j.val then {0} else ∅)
    else ∅
  unitless _ := False
  amount g _ _ := match g.2 with | .reg _ => 1 | .dma j => amt g.1.1 j.val
  payload g _ d := match g.2 with | .reg _ => barPay g.1.1 d | .dma j => dmaPay m g.1.1 j.val
  amount_pos g _ _ _ := by
    cases hg : g.2 with
    | reg s => simp only [hg]; exact Nat.one_pos
    | dma j => simp only [hg]; exact amt_pos _ _

instance Rd_payload_storable (g : GSem nD τ sig) (r : ℕ) (d : Fin 3) :
    BI.Storable (upEmb : UEmb _ 𝕄) ((Rd (F := F) m).payload g r d) := by
  show BI.Storable upEmb (match g.2 with | .reg _ => barPay g.1.1 d | .dma j => dmaPay m g.1.1 j.val)
  unfold barPay dmaPay
  (repeat' split) <;> infer_instance

end Cert.KernelIdeal.AG

end
-- ==== Proof.Owed.lean ====
import proofs.«900679_g7700000000000680_dist_ag_v7x_xyz2x2x4_x_m2048_n512_f32_1_alg».proof.Proof.Proto
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

def sendArr (d : Fin 3) : Fin 6 := ⟨2 * d.val, by omega⟩
def recvArr (d : Fin 3) : Fin 6 := ⟨2 * d.val + 1, by omega⟩

def tR (c : Dev nD) (d : Fin 3) (k : Fin 16) : CellTallies nD τ sig Unit :=
  tallyAt (dcell (peer d c) (recvArr d) k) () (amt (peer d c) (semOf (recvArr d) k).val)

def tB (c : Dev nD) (d : Fin 3) : CellTallies nD τ sig Unit := tallyAt (barCell (peer d c)) () 1

def rk (j : ℕ) (h : j < 16) : Fin 16 := ⟨15 - j, by omega⟩

def owedL (c : Dev nD) : ℕ → CellTallies nD τ sig Unit
  | 0 => 0
  | j + 1 => if h : j < 16 then owedL c j + tR c 2 (rk j h) + tR c 1 (rk j h) else owedL c j

def owedX (c : Dev nD) : ℕ → CellTallies nD τ sig Unit
  | 0 => owedL c 16
  | j + 1 => if h : j < 16 then owedX c j + tR c 0 (rk j h) else owedX c j

def O₀ (c : Dev nD) : CellTallies nD τ sig Unit := owedX c 16 + tB c 2 + tB c 1 + tB c 0

theorem owedL_succ (c : Dev nD) (j : ℕ) (h : j < 16) : owedL c (j + 1) = owedL c j + tR c 2 (rk j h) + tR c 1 (rk j h) := dif_pos h
theorem owedX_succ (c : Dev nD) (j : ℕ) (h : j < 16) : owedX c (j + 1) = owedX c j + tR c 0 (rk j h) := dif_pos h
theorem owedX_zero (c : Dev nD) : owedX c 0 = owedL c 16 := rfl
theorem owedL_zero (c : Dev nD) : owedL c 0 = 0 := rfl

def L (g : GSem nD τ sig) : Finset Unit := if g.1.2 = .tc then {()} else ∅
def lvSem : SemLoc sig → ℕ
  | .reg _ => 1
  | .dma j => if arrOf j.val = 1 then 2 + 3 * chkOf j.val else if arrOf j.val = 3 then 3 + 3 * chkOf j.val
      else if arrOf j.val = 5 then 4 + 3 * chkOf j.val else 0
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.AG
end
-- ==== Proof.Geom.lean ====
import proofs.«900679_g7700000000000680_dist_ag_v7x_xyz2x2x4_x_m2048_n512_f32_1_alg».proof.Proof.Proto

namespace Cert.KernelIdeal.AG

open Cert.AG

open Idealize.ShloMosaic

theorem semOf_val (a : Fin 6) (k : Fin 16) : (semOf a k).val = 2 + 16 * a.val + k.val := rfl
theorem arrOf_semOf (a : Fin 6) (k : Fin 16) : arrOf (semOf a k).val = a.val := by
  have := k.isLt; rw [semOf_val]; unfold arrOf; omega
theorem chkOf_semOf (a : Fin 6) (k : Fin 16) : chkOf (semOf a k).val = k.val := by
  have := k.isLt; rw [semOf_val]; unfold chkOf; omega
theorem semOf_ne_98 (a : Fin 6) (k : Fin 16) : (semOf a k).val ≠ 98 := by
  have := a.isLt; have := k.isLt; rw [semOf_val]; omega
theorem two_le_semOf (a : Fin 6) (k : Fin 16) : 2 ≤ (semOf a k).val := by
  rw [semOf_val]; omega
theorem lenAt_semOf_le2 (c : Fin 16) (a : Fin 6) (k : Fin 16) (h : a.val ≤ 2) :
    lenAt c (semOf a k).val = rLen c 0 k.val := by
  unfold lenAt; rw [arrOf_semOf, chkOf_semOf, if_pos h]; rfl
theorem lenAt_semOf_3 (c : Fin 16) (k : Fin 16) : lenAt c (semOf 3 k).val = rLen c 1 k.val := by
  unfold lenAt; rw [arrOf_semOf, chkOf_semOf, if_neg (by decide), if_pos (by decide)]; rfl
theorem lenAt_semOf_ge4 (c : Fin 16) (a : Fin 6) (k : Fin 16) (h : 4 ≤ a.val) :
    lenAt c (semOf a k).val = rLen c 2 k.val := by
  unfold lenAt; rw [arrOf_semOf, chkOf_semOf, if_neg (by omega), if_neg (by omega)]; rfl
theorem amt_semOf (c : Fin 16) (a : Fin 6) (k : Fin 16) :
    amt c (semOf a k).val = (if lenAt c (semOf a k).val = 48 then A48 else A40) := by
  unfold amt; rw [if_neg (semOf_ne_98 a k)]
theorem amt_98 (c : Fin 16) : amt c 98 = A2048 := by unfold amt; rw [if_pos rfl]
theorem mem_rowsO {lo n : ℕ} {i : S4096x512.Idx} : i ∈ rowsO lo n ↔ lo ≤ (i 0).val ∧ (i 0).val < lo + n :=
  Cert.AGRows.mem_rows₂
theorem rowsX_univ : rowsX 0 2048 = Finset.univ := Cert.AGRows.rows_univ₂ _
theorem rowsO_split (c : Fin 16) :
    (Finset.univ : Finset S4096x512.Idx)
      = rowsO (2048 * xc c) 2048 ∪ (rowsO (rLo c 0 0) (sLen c 0) ∪ (rowsO (rLo c 1 0) (sLen c 1) ∪ rowsO (rLo c 2 0) (sLen c 2))) := by
  ext i; have hi : (i 0).val < 4096 := (i 0).isLt
  simp only [Finset.mem_univ, Finset.mem_union, mem_rowsO, true_iff]
  exact row_cover c _ hi
theorem rowsO_own_slab_disjoint (c : Fin 16) (d : Fin 3) :
    Disjoint (rowsO (2048 * xc c) 2048) (rowsO (rLo c d 0) (sLen c d)) :=
  Cert.AGRows.rows_disjoint (own_slab_disjoint c d)
theorem rowsO_slab_slab_disjoint (c : Fin 16) (d d' : Fin 3) (hd : d ≠ d') :
    Disjoint (rowsO (rLo c d 0) (sLen c d)) (rowsO (rLo c d' 0) (sLen c d')) :=
  Cert.AGRows.rows_disjoint (slab_slab_disjoint c d d' hd)

end Cert.KernelIdeal.AG
-- ==== Proof.Tables.lean ====
import proofs.«900679_g7700000000000680_dist_ag_v7x_xyz2x2x4_x_m2048_n512_f32_1_alg».proof.Proof.Proto
import proofs.«900679_g7700000000000680_dist_ag_v7x_xyz2x2x4_x_m2048_n512_f32_1_alg».proof.Proof.Geom
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem duties_dma (c : Dev nD) (a : Fin 6) (k : Fin 16) : (Rd (F := F) m).duties (dcell c a k) 0 = {0} := by
  show (if (0 : ℕ) = 0 ∧ (Proc.tc : Proc τ) = .tc then (if 2 ≤ (semOf a k).val then ({0} : Finset (Fin 3)) else ∅) else ∅) = {0}
  rw [if_pos ⟨rfl, rfl⟩, if_pos (two_le_semOf a k)]
theorem duties_loc (c : Dev nD) : (Rd (F := F) m).duties (locCell c) 0 = {0} := by
  show (if (0 : ℕ) = 0 ∧ (Proc.tc : Proc τ) = .tc then (if 2 ≤ (98 : ℕ) then ({0} : Finset (Fin 3)) else ∅) else ∅) = {0}
  rw [if_pos ⟨rfl, rfl⟩, if_pos (by decide)]
theorem duties_bar (c : Dev nD) : (Rd (F := F) m).duties (barCell c) 0 = Finset.univ := by
  show (if (0 : ℕ) = 0 ∧ (Proc.tc : Proc τ) = .tc then (if barS = barS then (Finset.univ : Finset (Fin 3)) else ∅) else ∅) = Finset.univ
  rw [if_pos ⟨rfl, rfl⟩, if_pos rfl]
theorem duties_later (g : GSem nD τ sig) : ∀ r, 1 ≤ r → (Rd (F := F) m).duties g r = ∅ :=
  fun r hr => by dsimp only [Rd]; rw [if_neg fun h => by omega]

theorem mem_duties_dma (c : Dev nD) (a : Fin 6) (k : Fin 16) : (0 : Fin 3) ∈ (Rd (F := F) m).duties (dcell c a k) 0 := by
  rw [duties_dma]; exact Finset.mem_singleton_self _
theorem mem_duties_loc (c : Dev nD) : (0 : Fin 3) ∈ (Rd (F := F) m).duties (locCell c) 0 := by
  rw [duties_loc]; exact Finset.mem_singleton_self _
theorem mem_duties_bar (c : Dev nD) (d : Fin 3) : d ∈ (Rd (F := F) m).duties (barCell c) 0 := by
  rw [duties_bar]; exact Finset.mem_univ _

theorem amount_dma (c : Dev nD) (a : Fin 6) (k : Fin 16) (d : Fin 3) : (Rd (F := F) m).amount (dcell c a k) 0 d = amt c (semOf a k).val := rfl
theorem amount_loc (c : Dev nD) (d : Fin 3) : (Rd (F := F) m).amount (locCell c) 0 d = amt c 98 := rfl
theorem amount_bar (c : Dev nD) (d : Fin 3) : (Rd (F := F) m).amount (barCell c) 0 d = 1 := rfl

theorem expect_dma (c : Dev nD) (a : Fin 6) (k : Fin 16) : (Rd (F := F) m).expect (dcell c a k) 0 = amt c (semOf a k).val := by
  unfold Schedule.expect Schedule.amountOf; rw [duties_dma, Finset.sum_singleton, amount_dma]
theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]

theorem payload_dma (c : Dev nD) (a : Fin 6) (k : Fin 16) (d : Fin 3) : (Rd (F := F) m).payload (dcell c a k) 0 d = dmaPay m c (semOf a k).val := rfl
theorem payload_loc (c : Dev nD) (d : Fin 3) : (Rd (F := F) m).payload (locCell c) 0 d = dmaPay m c 98 := rfl
theorem payload_bar (c : Dev nD) (d : Fin 3) : (Rd (F := F) m).payload (barCell c) 0 d = barPay c d := rfl

theorem dmaPay_0 (c : Dev nD) (k : Fin 16) : dmaPay m c (semOf 0 k).val
    = (ℓx c ↦[rowsX (sLo c 0 k.val) (rLen c 0 k.val)]{fullShare.right} Xin m c) := by
  unfold dmaPay; rw [if_neg (semOf_ne_98 _ _), arrOf_semOf, chkOf_semOf]; rfl
theorem dmaPay_1 (c : Dev nD) (k : Fin 16) : dmaPay m c (semOf 1 k).val
    = (ℓo c ↦[rowsO (rLo c 0 k.val) (rLen c 0 k.val)]{fullShare} Gout m c) := by
  unfold dmaPay; rw [if_neg (semOf_ne_98 _ _), arrOf_semOf, chkOf_semOf]; rfl
theorem dmaPay_2 (c : Dev nD) (k : Fin 16) : dmaPay m c (semOf 2 k).val
    = (ℓo c ↦[rowsO (sLo c 1 k.val) (rLen c 0 k.val)]{fullShare.left} Gout m c) := by
  unfold dmaPay; rw [if_neg (semOf_ne_98 _ _), arrOf_semOf, chkOf_semOf]; rfl
theorem dmaPay_3 (c : Dev nD) (k : Fin 16) : dmaPay m c (semOf 3 k).val
    = (ℓo c ↦[rowsO (rLo c 1 k.val) (rLen c 1 k.val)]{fullShare} Gout m c) := by
  unfold dmaPay; rw [if_neg (semOf_ne_98 _ _), arrOf_semOf, chkOf_semOf]; rfl
theorem dmaPay_4 (c : Dev nD) (k : Fin 16) : dmaPay m c (semOf 4 k).val
    = (ℓo c ↦[rowsO (sLo c 2 k.val) (len680 k.val)]{fullShare.right} Gout m c) := by
  unfold dmaPay; rw [if_neg (semOf_ne_98 _ _), arrOf_semOf, chkOf_semOf]; rfl
theorem dmaPay_5 (c : Dev nD) (k : Fin 16) : dmaPay m c (semOf 5 k).val
    = (ℓo c ↦[rowsO (rLo c 2 k.val) (rLen c 2 k.val)]{fullShare} Gout m c) := by
  unfold dmaPay; rw [if_neg (semOf_ne_98 _ _), arrOf_semOf, chkOf_semOf]; rfl

theorem rest_dma (c : Dev nD) (a : Fin 6) (k : Fin 16) :
    bigSep ((Rd (F := F) m).duties (dcell c a k) 0 \ ∅) (fun d => (Rd (F := F) m).payload (dcell c a k) 0 d) = dmaPay m c (semOf a k).val := by
  rw [Finset.sdiff_empty, duties_dma, bigSep_singleton, payload_dma]

theorem rest_bar (c : Dev nD) :
    bigSep ((Rd (F := F) m).duties (barCell c) 0 \ ∅) (fun d => (Rd (F := F) m).payload (barCell c) 0 d)
      = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton]
  rfl

end Cert.KernelIdeal.AG
end
-- ==== Proof.Fam.lean ====
import proofs.«900679_g7700000000000680_dist_ag_v7x_xyz2x2x4_x_m2048_n512_f32_1_alg».proof.Proof.Owed
import proofs.«900679_g7700000000000680_dist_ag_v7x_xyz2x2x4_x_m2048_n512_f32_1_alg».proof.Proof.Tables
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

abbrev 𝒱₀ : Variants := Variants.none

def ge (n : ℕ) : Finset (Fin 16) := Finset.univ.filter fun i => n ≤ i.val

def lt (n : ℕ) : Finset (Fin 16) := Finset.univ.filter fun i => i.val < n

theorem ge_zero : ge 0 = Finset.univ := by decide
theorem lt_zero : lt 0 = ∅ := by decide
theorem lt_16 : lt 16 = Finset.univ := by decide
theorem ge_succ (k : ℕ) (hk : k < 16) : ge k = insert ⟨k, hk⟩ (ge (k + 1)) := by
  ext i; simp only [ge, Finset.mem_filter, Finset.mem_univ, true_and, Finset.mem_insert, Fin.ext_iff]; omega
theorem not_mem_ge_succ (k : ℕ) (hk : k < 16) : (⟨k, hk⟩ : Fin 16) ∉ ge (k + 1) := by
  simp only [ge, Finset.mem_filter, Finset.mem_univ, true_and]; omega
theorem lt_succ (k : ℕ) (hk : k < 16) : lt (k + 1) = insert ⟨k, hk⟩ (lt k) := by
  ext i; simp only [lt, Finset.mem_filter, Finset.mem_univ, true_and, Finset.mem_insert, Fin.ext_iff]; omega
theorem not_mem_lt (k : ℕ) (hk : k < 16) : (⟨k, hk⟩ : Fin 16) ∉ lt k := by
  simp only [lt, Finset.mem_filter, Finset.mem_univ, true_and]; omega

theorem peel_ge (Φ : Fin 16 → sProp 𝕄) (k : ℕ) (hk : k < 16) : bigSep (ge k) Φ = iprop(Φ ⟨k, hk⟩ ∗ bigSep (ge (k + 1)) Φ) := by
  rw [ge_succ k hk]; exact bigSep_insert (not_mem_ge_succ k hk)

theorem push_lt (Φ : Fin 16 → sProp 𝕄) (k : ℕ) (hk : k < 16) : bigSep (lt (k + 1)) Φ = iprop(Φ ⟨k, hk⟩ ∗ bigSep (lt k) Φ) := by
  rw [lt_succ k hk]; exact bigSep_insert (not_mem_lt k hk)

def TokF (c : Dev nD) (d : Fin 3) (S : Finset (Fin 16)) : sProp 𝕄 :=
  bigSep S fun k => iprop(dutyTok ER (dcell c (sendArr d) k) 0 0 ∗ dutyTok ER (dcell (peer d c) (recvArr d) k) 0 0)

def DstF (c : Dev nD) (d : Fin 3) (S : Finset (Fin 16)) : sProp 𝕄 :=
  bigSep S fun k => iprop(∃ f, ℓo (peer d c) ↦[rowsO (rLo (peer d c) d k.val) (rLen (peer d c) d k.val)]{fullShare} f)

def AtF (c : Dev nD) (a : Fin 6) (S : Finset (Fin 16)) : sProp 𝕄 := bigSep S fun k => atPos ER (dcell c a k) 0 ∅ 0

def CrR (c : Dev nD) (d : Fin 3) (S : Finset (Fin 16)) : sProp 𝕄 :=
  bigSep S fun k => cred (tallyAt (dcell c (recvArr d) k) () (amt c (semOf (recvArr d) k).val))
def CrS (c : Dev nD) (d : Fin 3) (S : Finset (Fin 16)) : sProp 𝕄 :=
  bigSep S fun k => cred (tallyAt (dcell c (sendArr d) k) () (amt c (semOf (sendArr d) k).val))

def ClF (c : Dev nD) (a : Fin 6) (S : Finset (Fin 16)) : sProp 𝕄 := bigSep S fun k => semVal (dcell c a k) 0

def SrcX (c : Dev nD) (S : Finset (Fin 16)) : sProp 𝕄 :=
  bigSep S fun k => (ℓx c ↦[rowsX (sLo c 0 k.val) (rLen c 0 k.val)]{fullShare.right} Xin m c)

def Lnd (c : Dev nD) (d : Fin 3) (q : PosShare TreeShare) (S : Finset (Fin 16)) : sProp 𝕄 :=
  bigSep S fun k => (ℓo c ↦[rowsO (rLo c d k.val) (rLen c d k.val)]{q} Gout m c)

theorem wp_wait_dma (K : ℕ) (c : Dev nD) (a : Fin 6) (k : Fin 16)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt c (semOf a k).val)
    (O : CellTallies nD τ sig Unit) (W : Waits sig Unit)
    {α : Type} {Q : α → sProp 𝕄} {kt : PUnit → Prog (TpuEff nD τ sig (Elt F) Λ₀ .tc) α} :
    iprop(cellInv ER (Rd m) K (dcell c a k) ∗ cred (tallyAt (dcell c a k) () (amt c (semOf a k).val)) ∗ owes (c : Thread nD τ) O W
        ∗ MayWait (c : Thread nD τ) (.dma (semOf a k)) () O ∗ atPos ER (dcell c a k) 0 ∅ 0)
      ⊢ iprop(((owes (c : Thread nD τ) O (insert (SemLoc.dma (semOf a k), ()) W) ∗ semVal (dcell c a k) 0 ∗ dmaPay m c (semOf a k).val)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf a k) src dst hsrc hdst) kt) Q) := by
  iintro ⟨#HI, Hc, HO, Hmw, Hat⟩ Hk
  iapply (Rounds.wp_wait_rest_token 𝒱₀ ER (Rd m) (c : Thread nD τ) none (κ := K)
      (wpE_waitDma2_eq 𝒱₀ (c : Thread nD τ) none Set.univ) (Set.mem_univ _) () (O := O) (W := W) (R := 0) (m := 0) (T := ∅)
      (by rw [Nat.zero_add, expect_dma, hamt])) $$ [Hc HO Hmw Hat]
  · isplitr; · iexact HI
    isplitl [Hc]; · rw [hamt]; iexact Hc
    iframe # ∗
  iintro ⟨HO, Hat, -, Hpay⟩
  ihave Hp := (Entails.of_eq (rest_dma m c a k)) $$ Hpay
  imod (Rounds.cell_close ER (Rd m) (Set.mem_univ K) (fun h => h) (R := 0 + 1) (duties_later m (dcell c a k))) $$ [Hat] with Hz
  · iframe # ∗
  iapply Hk
  iframe # ∗

end Cert.KernelIdeal.AG
end
-- ==== Proof.Levels.lean ====
import proofs.«900679_g7700000000000680_dist_ag_v7x_xyz2x2x4_x_m2048_n512_f32_1_alg».proof.Proof.Owed

noncomputable section

namespace Cert.KernelIdeal.AG

open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

@[simp] theorem peer_0 (c : Fin 16) : peer 0 c = xp c := rfl
@[simp] theorem peer_1 (c : Fin 16) : peer 1 c = yp c := rfl
@[simp] theorem peer_2 (c : Fin 16) : peer 2 c = zb c := rfl
@[simp] theorem sendArr_0 : sendArr 0 = 0 := rfl
@[simp] theorem sendArr_1 : sendArr 1 = 2 := rfl
@[simp] theorem sendArr_2 : sendArr 2 = 4 := rfl
@[simp] theorem recvArr_0 : recvArr 0 = 1 := rfl
@[simp] theorem recvArr_1 : recvArr 1 = 3 := rfl
@[simp] theorem recvArr_2 : recvArr 2 = 5 := rfl

private theorem arrOf_semOf' (a : Fin 6) (k : Fin 16) : arrOf (semOf a k).val = a.val := by
  have := k.isLt; show (2 + 16 * a.val + k.val - 2) / 16 = a.val; omega
private theorem chkOf_semOf' (a : Fin 6) (k : Fin 16) : chkOf (semOf a k).val = k.val := by
  have := k.isLt; show (2 + 16 * a.val + k.val - 2) % 16 = k.val; omega

theorem lvSem_semOf (a : Fin 6) (k : Fin 16) :
    lvSem (.dma (semOf a k)) = if a.val = 1 then 2 + 3 * k.val else if a.val = 3 then 3 + 3 * k.val
      else if a.val = 5 then 4 + 3 * k.val else 0 := by
  show (if arrOf (semOf a k).val = 1 then 2 + 3 * chkOf (semOf a k).val else if arrOf (semOf a k).val = 3 then 3 + 3 * chkOf (semOf a k).val
      else if arrOf (semOf a k).val = 5 then 4 + 3 * chkOf (semOf a k).val else 0) = _
  rw [arrOf_semOf', chkOf_semOf']
theorem lvSem_xr (k : Fin 16) : lvSem (.dma (semOf 1 k)) = 2 + 3 * k.val := by rw [lvSem_semOf]; rfl
theorem lvSem_yr (k : Fin 16) : lvSem (.dma (semOf 3 k)) = 3 + 3 * k.val := by rw [lvSem_semOf]; rfl
theorem lvSem_zr (k : Fin 16) : lvSem (.dma (semOf 5 k)) = 4 + 3 * k.val := by rw [lvSem_semOf]; rfl

theorem mem_L_tc (c : Dev nD) (sm : SemLoc sig) (u : Unit) : u ∈ L ((c : Thread nD τ), sm) := by
  rw [L_tc]; exact Finset.mem_singleton_self _

theorem tR_pos {c : Dev nD} {d : Fin 3} {k : Fin 16} {g : GSem nD τ sig} {u : Unit} (h : 0 < tR c d k g u) :
    g = dcell (peer d c) (recvArr d) k := (Pipeline.tallyAt_pos h).1
theorem tB_pos {c : Dev nD} {d : Fin 3} {g : GSem nD τ sig} {u : Unit} (h : 0 < tB c d g u) :
    g = barCell (peer d c) := (Pipeline.tallyAt_pos h).1

private theorem zero_not_pos {g : GSem nD τ sig} {u : Unit} (h : 0 < (0 : CellTallies nD τ sig Unit) g u) : False :=
  Nat.lt_irrefl 0 h

theorem owedL_pos {c : Dev nD} {g : GSem nD τ sig} {u : Unit} : ∀ j, 0 < owedL c j g u →
    ∃ i : Fin 16, 16 - j ≤ i.val ∧ (g = dcell (yp c) 3 i ∨ g = dcell (zb c) 5 i)
  | 0, h => (zero_not_pos h).elim
  | j + 1, h => by
    by_cases hj : j < 16
    · rw [owedL_succ c j hj] at h
      rcases Pipeline.add_pos_cases h with h | h
      · rcases Pipeline.add_pos_cases h with h | h
        · obtain ⟨i, hi, hg⟩ := owedL_pos j h
          exact ⟨i, by omega, hg⟩
        · exact ⟨rk j hj, by show 16 - (j + 1) ≤ 15 - j; omega, Or.inr (tR_pos h)⟩
      · exact ⟨rk j hj, by show 16 - (j + 1) ≤ 15 - j; omega, Or.inl (tR_pos h)⟩
    · have e : owedL c (j + 1) = owedL c j := dif_neg hj
      rw [e] at h
      obtain ⟨i, hi, hg⟩ := owedL_pos j h
      exact ⟨i, by omega, hg⟩

theorem owedX_pos {c : Dev nD} {g : GSem nD τ sig} {u : Unit} : ∀ j, 0 < owedX c j g u →
    ∃ i : Fin 16, (16 - j ≤ i.val ∧ g = dcell (xp c) 1 i) ∨ g = dcell (yp c) 3 i ∨ g = dcell (zb c) 5 i
  | 0, h => by
    rw [owedX_zero] at h
    obtain ⟨i, _, hg⟩ := owedL_pos 16 h
    exact ⟨i, Or.inr hg⟩
  | j + 1, h => by
    by_cases hj : j < 16
    · rw [owedX_succ c j hj] at h
      rcases Pipeline.add_pos_cases h with h | h
      · obtain ⟨i, hg⟩ := owedX_pos j h
        rcases hg with ⟨hi, hg⟩ | hg
        · exact ⟨i, Or.inl ⟨by omega, hg⟩⟩
        · exact ⟨i, Or.inr hg⟩
      · exact ⟨rk j hj, Or.inl ⟨by show 16 - (j + 1) ≤ 15 - j; omega, tR_pos h⟩⟩
    · have e : owedX c (j + 1) = owedX c j := dif_neg hj
      rw [e] at h
      obtain ⟨i, hg⟩ := owedX_pos j h
      rcases hg with ⟨hi, hg⟩ | hg
      · exact ⟨i, Or.inl ⟨by omega, hg⟩⟩
      · exact ⟨i, Or.inr hg⟩

theorem O₀_pos {c : Dev nD} {g : GSem nD τ sig} {u : Unit} (h : 0 < O₀ c g u) :
    (g = barCell (xp c) ∨ g = barCell (yp c) ∨ g = barCell (zb c)) ∨
      ∃ i : Fin 16, g = dcell (xp c) 1 i ∨ g = dcell (yp c) 3 i ∨ g = dcell (zb c) 5 i := by
  unfold O₀ at h
  rcases Pipeline.add_pos_cases h with h | h
  · rcases Pipeline.add_pos_cases h with h | h
    · rcases Pipeline.add_pos_cases h with h | h
      · obtain ⟨i, hg⟩ := owedX_pos 16 h
        rcases hg with ⟨_, hg⟩ | hg
        · exact Or.inr ⟨i, Or.inl hg⟩
        · exact Or.inr ⟨i, Or.inr hg⟩
      · exact Or.inl (Or.inr (Or.inr (tB_pos h)))
    · exact Or.inl (Or.inr (Or.inl (tB_pos h)))
  · exact Or.inl (Or.inl (tB_pos h))

omit [FloatOps F] in

theorem mayWait_low (c : Dev nD) (sm : SemLoc sig) (hsm : lvSem sm = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (mem_L_tc c sm ()) fun g u hg => ?_
    show u ∈ L g ∧ lvSem sm < lvSem g.2
    rw [hsm]
    rcases O₀_pos hg with (rfl | rfl | rfl) | ⟨i, rfl | rfl | rfl⟩
    · exact ⟨mem_L_tc _ _ u, Nat.one_pos⟩
    · exact ⟨mem_L_tc _ _ u, Nat.one_pos⟩
    · exact ⟨mem_L_tc _ _ u, Nat.one_pos⟩
    · exact ⟨mem_L_tc _ _ u, by rw [lvSem_xr]; omega⟩
    · exact ⟨mem_L_tc _ _ u, by rw [lvSem_yr]; omega⟩
    · exact ⟨mem_L_tc _ _ u, by rw [lvSem_zr]; omega⟩
  · rw [MayWait_zero]; iintro -; iempintro

omit [FloatOps F] in

theorem mayWait_bar (c : Dev nD) :
    (levAts L lv : sProp 𝕄) ⊢ MayWait (c : Thread nD τ) (.reg barS) () (owedX c 16) := by
  refine Pipeline.mayWait_of_levAts (mem_L_tc c _ ()) fun g u hg => ?_
  show u ∈ L g ∧ 1 < lvSem g.2
  obtain ⟨i, hg⟩ := owedX_pos 16 hg
  rcases hg with ⟨_, rfl⟩ | rfl | rfl
  · exact ⟨mem_L_tc _ _ u, by rw [lvSem_xr]; omega⟩
  · exact ⟨mem_L_tc _ _ u, by rw [lvSem_yr]; omega⟩
  · exact ⟨mem_L_tc _ _ u, by rw [lvSem_zr]; omega⟩

omit [FloatOps F] in

theorem mayWait_xr (c : Dev nD) (j : ℕ) (hj : j < 16) :
    (levAts L lv : sProp 𝕄) ⊢ MayWait (c : Thread nD τ) (.dma (semOf 1 (rk j hj))) () (owedL c (j + 1)) := by
  refine Pipeline.mayWait_of_levAts (mem_L_tc c _ ()) fun g u hg => ?_
  show u ∈ L g ∧ lvSem (.dma (semOf 1 (rk j hj))) < lvSem g.2
  rw [lvSem_xr]
  obtain ⟨i, hi, hg⟩ := owedL_pos (j + 1) hg
  have hr : (rk j hj).val = 15 - j := rfl
  rcases hg with rfl | rfl
  · exact ⟨mem_L_tc _ _ u, by rw [lvSem_yr]; omega⟩
  · exact ⟨mem_L_tc _ _ u, by rw [lvSem_zr]; omega⟩

omit [FloatOps F] in

theorem mayWait_yr (c : Dev nD) (j : ℕ) (hj : j < 16) :
    (levAts L lv : sProp 𝕄) ⊢ MayWait (c : Thread nD τ) (.dma (semOf 3 (rk j hj))) () (owedL c j + tR c 2 (rk j hj)) := by
  refine Pipeline.mayWait_of_levAts (mem_L_tc c _ ()) fun g u hg => ?_
  show u ∈ L g ∧ lvSem (.dma (semOf 3 (rk j hj))) < lvSem g.2
  rw [lvSem_yr]
  have hr : (rk j hj).val = 15 - j := rfl
  rcases Pipeline.add_pos_cases hg with hg | hg
  · obtain ⟨i, hi, hg⟩ := owedL_pos j hg
    rcases hg with rfl | rfl
    · exact ⟨mem_L_tc _ _ u, by rw [lvSem_yr]; omega⟩
    · exact ⟨mem_L_tc _ _ u, by rw [lvSem_zr]; omega⟩
  · rw [tR_pos hg]
    exact ⟨mem_L_tc _ _ u, by show 3 + 3 * (rk j hj).val < lvSem (.dma (semOf 5 (rk j hj))); rw [lvSem_zr]; omega⟩

omit [FloatOps F] in

def lastChunks (j : ℕ) : Finset (Fin 16) := Finset.univ.filter fun k => 16 - j ≤ k.val

theorem mem_lastChunks {j : ℕ} {k : Fin 16} : k ∈ lastChunks j ↔ 16 - j ≤ k.val := by
  unfold lastChunks; rw [Finset.mem_filter]; exact ⟨fun h => h.2, fun h => ⟨Finset.mem_univ _, h⟩⟩
theorem lastChunks_zero : lastChunks 0 = ∅ := by
  ext k; rw [mem_lastChunks]; have := k.isLt
  exact ⟨fun h => by omega, fun h => absurd h (Finset.notMem_empty _)⟩
theorem lastChunks_succ (j : ℕ) (h : j < 16) : lastChunks (j + 1) = insert (rk j h) (lastChunks j) := by
  ext k; rw [Finset.mem_insert, mem_lastChunks, mem_lastChunks]
  have hr : (rk j h).val = 15 - j := rfl
  constructor
  · intro hk
    by_cases e : k = rk j h
    · exact Or.inl e
    · have : k.val ≠ 15 - j := fun hv => e (Fin.ext (hv.trans hr.symm))
      exact Or.inr (by omega)
  · rintro (rfl | hk)
    · omega
    · omega
theorem rk_notMem_lastChunks (j : ℕ) (h : j < 16) : rk j h ∉ lastChunks j := by
  rw [mem_lastChunks]; have hr : (rk j h).val = 15 - j := rfl; omega
theorem lastChunks_16 : lastChunks 16 = Finset.univ := by
  ext k; rw [mem_lastChunks]; exact ⟨fun _ => Finset.mem_univ _, fun _ => Nat.zero_le _⟩

theorem owedL_eq_sum (c : Dev nD) : ∀ j, j ≤ 16 → owedL c j = ∑ k ∈ lastChunks j, (tR c 2 k + tR c 1 k)
  | 0, _ => by rw [owedL_zero, lastChunks_zero, Finset.sum_empty]
  | j + 1, hj => by
    have h : j < 16 := hj
    rw [owedL_succ c j h, lastChunks_succ j h, Finset.sum_insert (rk_notMem_lastChunks j h), owedL_eq_sum c j (by omega),
      add_assoc, add_comm]
theorem owedX_eq_sum (c : Dev nD) : ∀ j, j ≤ 16 → owedX c j = owedL c 16 + ∑ k ∈ lastChunks j, tR c 0 k
  | 0, _ => by rw [owedX_zero, lastChunks_zero, Finset.sum_empty, add_zero]
  | j + 1, hj => by
    have h : j < 16 := hj
    rw [owedX_succ c j h, lastChunks_succ j h, Finset.sum_insert (rk_notMem_lastChunks j h), owedX_eq_sum c j (by omega),
      add_assoc, add_comm (tR c 0 (rk j h))]

theorem O₀_eq_sum (c : Dev nD) :
    O₀ c = (∑ k : Fin 16, (tR c 2 k + tR c 1 k)) + (∑ k : Fin 16, tR c 0 k) + tB c 2 + tB c 1 + tB c 0 := by
  unfold O₀; rw [owedX_eq_sum c 16 (Nat.le_refl _), owedL_eq_sum c 16 (Nat.le_refl _), lastChunks_16]

def recvDue (c : Dev nD) (d : Fin 3) (k : Fin 16) : CellTallies nD τ sig Unit :=
  tallyAt (dcell c (recvArr d) k) () (amt c (semOf (recvArr d) k).val)

def dueAt (c : Dev nD) : CellTallies nD τ sig Unit :=
  tallyAt (barCell c) () 3 + ∑ dk : Fin 3 × Fin 16, recvDue c dk.1 dk.2

def peerEquiv (d : Fin 3) : Dev nD ≃ Dev nD := ⟨peer d, peer d, peer_peer d, peer_peer d⟩

theorem sum_tR (d : Fin 3) (k : Fin 16) : (∑ c : Dev nD, tR c d k) = ∑ c : Dev nD, recvDue c d k :=
  (peerEquiv d).sum_comp fun c => recvDue c d k
theorem sum_tB (d : Fin 3) : (∑ c : Dev nD, tB c d) = ∑ c : Dev nD, (tallyAt (barCell c) () 1 : CellTallies nD τ sig Unit) :=
  (peerEquiv d).sum_comp fun c => (tallyAt (barCell c) () 1 : CellTallies nD τ sig Unit)

theorem sum_O₀ : (∑ c : Dev nD, O₀ c) = ∑ c : Dev nD, dueAt c := by
  have hR (d : Fin 3) : (∑ c : Dev nD, ∑ k : Fin 16, tR c d k) = ∑ c : Dev nD, ∑ k : Fin 16, recvDue c d k := by
    rw [Finset.sum_comm, Finset.sum_congr rfl fun k _ => sum_tR d k, Finset.sum_comm]
  have hB : (∑ c : Dev nD, (tallyAt (barCell c) () 3 : CellTallies nD τ sig Unit))
      = (∑ c : Dev nD, tB c 2) + (∑ c : Dev nD, tB c 1) + ∑ c : Dev nD, tB c 0 := by
    rw [sum_tB, sum_tB, sum_tB, ← Finset.sum_add_distrib, ← Finset.sum_add_distrib]
    exact Finset.sum_congr rfl fun c _ => by rw [tallyAt_add, tallyAt_add]
  have hT (c : Dev nD) : (∑ dk : Fin 3 × Fin 16, recvDue c dk.1 dk.2)
      = (∑ k, recvDue c 0 k) + (∑ k, recvDue c 1 k) + ∑ k, recvDue c 2 k := by
    rw [Fintype.sum_prod_type, Fin.sum_univ_three]
  simp only [O₀_eq_sum, dueAt, hT, Finset.sum_add_distrib, hR, hB]
  ac_rfl

theorem dueAt_support (d : Dev nD) (g : GSem nD τ sig) (h : dueAt d g ≠ 0) : g.1 = (d.tc : Thread nD τ) := by
  by_contra hne
  refine h ?_
  unfold dueAt recvDue
  rw [Pi.add_apply, Finset.sum_apply, tallyAt_ne_cell (fun e => hne (congrArg Prod.fst e)), zero_add]
  exact Finset.sum_eq_zero fun dk _ => tallyAt_ne_cell (fun e => hne (congrArg Prod.fst e)) _ _

omit [FloatOps F] in

theorem creds (c : Dev nD) :
    (Pipeline.launchCred O₀ c : sProp 𝕄) ⊢ iprop(cred (tallyAt (barCell c) () 3) ∗ bigSep Finset.univ fun dk : Fin 3 × Fin 16 =>
      cred (tallyAt (dcell c (recvArr dk.1) dk.2) () (amt c (semOf (recvArr dk.1) dk.2).val))) := by
  rw [Pipeline.launchCred_of_sum O₀ dueAt sum_O₀ dueAt_support c]
  unfold dueAt
  refine (cred_add _ _).1.trans (sep_mono_right ?_)
  rw [Pipeline.cred_finsetSum]
  exact Entails.rfl

end Cert.KernelIdeal.AG

end
-- ==== Proof.Ghost.lean ====
import proofs.«900679_g7700000000000680_dist_ag_v7x_xyz2x2x4_x_m2048_n512_f32_1_alg».proof.Proof.Fam
import proofs.«900679_g7700000000000680_dist_ag_v7x_xyz2x2x4_x_m2048_n512_f32_1_alg».proof.Proof.Levels
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

abbrev CIx : Type := Option (Option (Fin 6 × Fin 16))
def kcell (ck : Dev nD × CIx) : GSem nD τ sig :=
  match ck.2 with
  | none => barCell ck.1
  | some none => locCell ck.1
  | some (some ak) => dcell ck.1 ak.1 ak.2

def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

def linear (c : Dev nD) : sProp 𝕄 :=
  iprop(atPos ER (barCell c) 0 ∅ 0 ∗ atPos ER (locCell c) 0 ∅ 0 ∗ (bigSep Finset.univ fun a : Fin 6 => AtF (F := F) c a Finset.univ)
    ∗ (bigSep Finset.univ fun d : Fin 3 => dutyTok ER (barCell (peer d c)) 0 d) ∗ dutyTok ER (locCell c) 0 0
    ∗ (bigSep Finset.univ fun d : Fin 3 => TokF (F := F) c d Finset.univ))

def ghost (K : Dev nD × CIx → ℕ) (c : Dev nD) : sProp 𝕄 := iprop(records m K ∗ linear (F := F) c)

def start (c : Dev nD) : sProp 𝕄 :=
  iprop((∃ K, ghost m K c) ∗ cred (tallyAt (barCell c) () 3) ∗ (bigSep Finset.univ fun d : Fin 3 => CrR (F := F) c d Finset.univ) ∗ levAts L lv)

def Φ₀ (c : Dev nD) : sProp 𝕄 := start m c

def Φ₁ (c : Dev nD) : sProp 𝕄 := iprop(semVal (locCell c) 0 ∗ bigSep Finset.univ fun a : Fin 6 => ClF (F := F) c a Finset.univ)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xin m c
    | ⟨1, _⟩ => Gout m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (Xin m c) ∗ stg c cc0_stg1_0 (Gout m c))

end Cert.KernelIdeal.AG
end
-- ==== Proof.Launch.lean ====
import proofs.«900679_g7700000000000680_dist_ag_v7x_xyz2x2x4_x_m2048_n512_f32_1_alg».proof.Proof.Ghost
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

def osem : Option (Fin 6 × Fin 16) → SemLoc sig
  | none => .dma locS
  | some ak => .dma (semOf ak.1 ak.2)

theorem osem_injective : Function.Injective (osem : Option (Fin 6 × Fin 16) → SemLoc sig) := by
  rintro (_ | ⟨a, k⟩) (_ | ⟨a', k'⟩) h
  · rfl
  · have h3 : (98 : ℕ) = 2 + 16 * a'.val + k'.val := congrArg Fin.val (SemLoc.dma.inj h)
    have := a'.isLt; have := k'.isLt; omega
  · have h3 : 2 + 16 * a.val + k.val = (98 : ℕ) := congrArg Fin.val (SemLoc.dma.inj h)
    have := a.isLt; have := k.isLt; omega
  · have h3 : 2 + 16 * a.val + k.val = 2 + 16 * a'.val + k'.val := congrArg Fin.val (SemLoc.dma.inj h)
    have := k.isLt; have := k'.isLt
    have ha : a = a' := Fin.ext (by omega)
    have hk : k = k' := Fin.ext (by omega)
    rw [ha, hk]

theorem ownSemFacts : Pipeline.OwnSemFacts cfg0.spec osem :=
  ⟨by decide, osem_injective, by decide⟩

theorem share_eq (c : Dev nD) (w : Fin cfg0.W) : (dats m ρ 0 c).share w = fullShare := by unfold Dat.share; split <;> rfl

theorem kcell_some (c : Dev nD) (o : Option (Fin 6 × Fin 16)) : kcell (c, some o) = ((c : Thread nD τ), osem o) := by
  cases o <;> rfl

theorem kcell_injective : Function.Injective (kcell : Dev nD × CIx → GSem nD τ sig) := by
  rintro ⟨c, k⟩ ⟨c', k'⟩ h
  have h1 : c = c' := by
    have := congrArg (fun g : GSem nD τ sig => g.1.1) h
    rcases k with _ | _ | ak <;> rcases k' with _ | _ | ak' <;> exact this
  subst h1
  have h2 : (kcell (c, k)).2 = (kcell (c, k')).2 := congrArg Prod.snd h
  rcases k with _ | o <;> rcases k' with _ | o'
  · rfl
  · rw [kcell_some] at h2; exact absurd h2 (by cases o' <;> exact fun h => by cases h)
  · rw [kcell_some] at h2; exact absurd h2 (by cases o <;> exact fun h => by cases h)
  · rw [kcell_some, kcell_some] at h2
    rw [osem_injective h2]

def agCells : Finset (GSem nD τ sig) := Finset.univ.map ⟨kcell, kcell_injective⟩

abbrev TIx : Type := Fin 3 ⊕ Option (Fin 6 × Fin 16)
def tcell : TIx → CIx
  | .inl _ => none
  | .inr o => some o
def tduty : TIx → Fin 3
  | .inl d => d
  | .inr _ => 0
def tokOf (cj : Dev nD × TIx) : GSem nD τ sig × ℕ × Fin 3 := (kcell (cj.1, tcell cj.2), 0, tduty cj.2)
theorem tokOf_injective : Function.Injective (tokOf : Dev nD × TIx → GSem nD τ sig × ℕ × Fin 3) := by
  rintro ⟨c, j⟩ ⟨c', j'⟩ h
  have h1 : (c, tcell j) = (c', tcell j') := kcell_injective (congrArg (fun x : GSem nD τ sig × ℕ × Fin 3 => x.1) h)
  have h2 : tduty j = tduty j' := congrArg (fun x : GSem nD τ sig × ℕ × Fin 3 => x.2.2) h
  have hc : c = c' := congrArg Prod.fst h1
  have ht : tcell j = tcell j' := congrArg Prod.snd h1
  subst hc
  have : j = j' := by
    rcases j with d | o <;> rcases j' with d' | o'
    · exact congrArg Sum.inl h2
    · cases ht
    · cases ht
    · exact congrArg Sum.inr (Option.some.inj ht)
  rw [this]
def agToks : Finset (GSem nD τ sig × ℕ × Fin 3) := Finset.univ.map ⟨tokOf, tokOf_injective⟩

def u₀ : UU :=
  (initOf (Pipeline.cells cfgs cellOf_inj) (Pipeline.launchToks cfgs cellOf_inj), initOf agCells agToks)

def toks (c : Dev nD) : sProp 𝕄 :=
  iprop((bigSep Finset.univ fun d : Fin 3 => dutyTok ER (barCell c) 0 d) ∗ dutyTok ER (locCell c) 0 0
    ∗ bigSep Finset.univ fun ak : Fin 6 × Fin 16 => dutyTok ER (dcell c ak.1 ak.2) 0 0)

def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks (F := F) c)

def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in

theorem bigSep_univ_option {α : Type} [Fintype α] [DecidableEq α] (Φ : Option α → sProp 𝕄) :
    bigSep Finset.univ Φ = iprop(Φ none ∗ bigSep Finset.univ fun a => Φ (some a)) := by
  have e : (Finset.univ.erase (none : Option α)) = Finset.univ.map Function.Embedding.some := by
    ext x; cases x <;> simp
  rw [bigSep_univ_at Φ none, e, bigSep_map]; rfl

omit [FloatOps F] in
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : CIx => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_univ_sum, bigSep_univ_option]; rfl
  iintro HX
  imod (Rounds.fund ER (Rd m) agCells agToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = iprop(semVal (locCell c) 0 ∗ bigSep Finset.univ fun ak : Fin 6 × Fin 16 => semVal (dcell c ak.1 ak.2) 0) := by
  unfold Pipeline.ownSems0; rw [bigSep_univ_option]; rfl
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_univ_option,
    bigSep_congr (s := Finset.univ) (Φ := fun o : Option (Fin 6 × Fin 16) => (semVal (kcell (c, some o)) 0 : sProp 𝕄))
      (Ψ := fun o : Option (Fin 6 × Fin 16) => (semVal ((c : Thread nD τ), osem o) 0 : sProp 𝕄)) fun o _ => by rw [kcell_some]]
  unfold Pipeline.ownSems0
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe # ∗

def payToks (c : Dev nD) : sProp 𝕄 :=
  iprop((bigSep Finset.univ fun d : Fin 3 => dutyTok ER (barCell (peer d c)) 0 d) ∗ dutyTok ER (locCell c) 0 0
    ∗ (bigSep Finset.univ fun d : Fin 3 => TokF (F := F) c d Finset.univ))

omit [FloatOps F] in

theorem bigSep_around (X : Dev nD → Fin 3 → sProp 𝕄) :
    (bigSep Finset.univ fun c : Dev nD => bigSep Finset.univ fun d : Fin 3 => X c d)
      = bigSep Finset.univ fun c : Dev nD => bigSep Finset.univ fun d : Fin 3 => X (peer d c) d := by
  rw [bigSep_univ_comm, bigSep_congr (s := Finset.univ) fun (d : Fin 3) _ => bigSep_univ_equiv (peerEquiv d) (fun c : Dev nD => X c d),
    bigSep_univ_comm]
  rfl

omit [FloatOps F] in
theorem bigSep_sep4 {I : Type} (s : Finset I) (A B C D : I → sProp 𝕄) :
    bigSep s (fun i => iprop(A i ∗ B i ∗ C i ∗ D i)) = iprop(bigSep s A ∗ bigSep s B ∗ bigSep s C ∗ bigSep s D) := by
  rw [bigSep_sep', bigSep_sep', bigSep_sep']

def tokS (c : Dev nD) (d : Fin 3) : sProp 𝕄 := bigSep Finset.univ fun k : Fin 16 => dutyTok ER (dcell c (sendArr d) k) 0 0
def tokR (c : Dev nD) (d : Fin 3) : sProp 𝕄 := bigSep Finset.univ fun k : Fin 16 => dutyTok ER (dcell c (recvArr d) k) 0 0
def tokB (c : Dev nD) (d : Fin 3) : sProp 𝕄 := dutyTok ER (barCell c) 0 d

omit [FloatOps F] in

theorem dma_toks_split (c : Dev nD) :
    (bigSep Finset.univ fun ak : Fin 6 × Fin 16 => (dutyTok ER (dcell c ak.1 ak.2) 0 0 : sProp 𝕄))
      ⊢ iprop((bigSep Finset.univ fun d : Fin 3 => tokS (F := F) c d) ∗ bigSep Finset.univ fun d : Fin 3 => tokR (F := F) c d) := by
  unfold tokS tokR
  rw [bigSep_univ_prod, bigSep_fin6, bigSep_fin3, bigSep_fin3]
  iintro ⟨H0, H1, H2, H3, H4, H5⟩
  isplitl [H0 H2 H4]
  · isplitl [H0]; · iexact H0
    isplitl [H2]; · iexact H2
    iexact H4
  · isplitl [H1]; · iexact H1
    isplitl [H3]; · iexact H3
    iexact H5

omit [FloatOps F] in
theorem toks_split (c : Dev nD) :
    (toks c : sProp 𝕄) ⊢ iprop((bigSep Finset.univ fun d : Fin 3 => tokB (F := F) c d) ∗ dutyTok ER (locCell c) 0 0
      ∗ (bigSep Finset.univ fun d : Fin 3 => tokS (F := F) c d) ∗ bigSep Finset.univ fun d : Fin 3 => tokR (F := F) c d) := by
  unfold toks tokB
  iintro ⟨HB, HL, HD⟩
  ihave HD' := (dma_toks_split (F := F) c) $$ HD
  icases HD' with ⟨HS, HR⟩
  iframe # ∗

omit [FloatOps F] in
theorem tokF_all (c : Dev nD) :
    (bigSep Finset.univ fun d : Fin 3 => TokF (F := F) c d Finset.univ)
      = iprop((bigSep Finset.univ fun d : Fin 3 => tokS (F := F) c d) ∗ bigSep Finset.univ fun d : Fin 3 => tokR (F := F) (peer d c) d) := by
  unfold TokF tokS tokR
  rw [← bigSep_sep']
  exact bigSep_congr fun d _ => bigSep_sep' _ _ _

omit [FloatOps F] in
theorem payToks_join (c : Dev nD) :
    iprop((bigSep Finset.univ fun d : Fin 3 => tokB (F := F) (peer d c) d) ∗ dutyTok ER (locCell c) 0 0
      ∗ (bigSep Finset.univ fun d : Fin 3 => tokS (F := F) c d) ∗ bigSep Finset.univ fun d : Fin 3 => tokR (F := F) (peer d c) d)
      ⊢ payToks (F := F) c := by
  unfold payToks
  rw [tokF_all]
  unfold tokB
  iintro ⟨HB, HL, HS, HR⟩
  iframe # ∗

omit [FloatOps F] in

theorem toks_around : (bigSep Finset.univ fun c : Dev nD => (toks c : sProp 𝕄)) ⊢ bigSep Finset.univ fun c : Dev nD => payToks c :=
  (bigSep_mono (s := Finset.univ) fun c _ => toks_split (F := F) c).trans <| by
    rw [bigSep_sep4, bigSep_around (fun c d => tokB (F := F) c d), bigSep_around (fun c d => tokR (F := F) c d), ← bigSep_sep4]
    exact bigSep_mono fun c _ => payToks_join (F := F) c

omit [FloatOps F] in
theorem linear_intro (c : Dev nD) :
    iprop((bigSep Finset.univ fun k : CIx => (atPos ER (kcell (c, k)) 0 ∅ 0 : sProp 𝕄)) ∗ payToks (F := F) c) ⊢ linear (F := F) c := by
  unfold linear payToks AtF
  rw [bigSep_univ_option, bigSep_univ_option, bigSep_univ_prod]
  iintro ⟨⟨HaB, HaL, HaD⟩, Hb, Hl, Ht⟩
  isplitl [HaB]; · iexact HaB
  isplitl [HaL]; · iexact HaL
  isplitl [HaD]; · iexact HaD
  isplitl [Hb]; · iexact Hb
  isplitl [Hl]; · iexact Hl
  iexact Ht

omit [FloatOps F] in
theorem regroup :
    (bigSep Finset.univ fun c : Dev nD => iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ linear (F := F) c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun k : CIx => (atPos ER (kcell (c, k)) 0 ∅ 0 : sProp 𝕄)) payToks).symm).trans
      (bigSep_mono fun c _ => linear_intro (F := F) c))
    iframe # ∗

omit [FloatOps F] in

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem creds' (c : Dev nD) :
    (Pipeline.launchCred O₀ c : sProp 𝕄) ⊢ iprop(cred (tallyAt (barCell c) () 3) ∗ bigSep Finset.univ fun d : Fin 3 => CrR (F := F) c d Finset.univ) := by
  unfold CrR
  rw [← bigSep_univ_prod (fun dk : Fin 3 × Fin 16 => (cred (tallyAt (dcell c (recvArr dk.1) dk.2) () (amt c (semOf (recvArr dk.1) dk.2).val)) : sProp 𝕄))]
  exact creds (F := F) c

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds' (F := F) c) $$ Hcr
  icases Hc with ⟨H1, HN⟩
  imodintro
  unfold start G'
  isplitl
  · iframe # ∗
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ ClF
  rw [bigSep_univ_prod]
  iintro ⟨Hl, Hd⟩
  isplitr; · iempintro
  isplitl
  · iframe # ∗
  · iempintro

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in

theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_o (c : Dev nD) :
    (win0_1.blk (0 : Fin 1)).view.read (Elt F) (finalA m ρ c (1 : Fin 2)) = Gout m c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in

theorem body_obligation_of (c : Dev nD)
    (h : bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c)) :
    BodyObligation (dats (F := F) m ρ 0 c) (defs₀ (F := F)) 𝒱₀ () Set.univ := fun t => by
  rw [fin_N t]
  rw [bigSep_W, bigSep_W]
  simp only [owns_whole_eq]
  exact h

end Cert.KernelIdeal.AG
end
-- ==== Proof.Value.lean ====
import proofs.«900679_g7700000000000680_dist_ag_v7x_xyz2x2x4_x_m2048_n512_f32_1_alg».proof.Proof.Geom
import Idealize.ShloMosaic.Lib.Layout

noncomputable section

namespace Cert.KernelIdeal.AG

open Cert.KernelIdeal Cert.KernelIdeal.Gen Cert.AG
open Idealize.ShloMosaic
open Idealize.ShloMosaic.TcCoe
open Idealize.SL.Sem

variable {F : FTy → Type} [FloatOps F]
variable (m : (ℓ : Loc nD τ sig) → Buf (Elt F) ℓ)

theorem blk_emb (i : S2048x512.Idx) : (win0_0.blk (0 : Fin 1)).view.emb i = i := by
  funext a
  apply Fin.ext
  show 0 * S2048x512.size a + 1 * (i a : ℕ) = (i a : ℕ)
  rw [Nat.zero_mul, Nat.zero_add, Nat.one_mul]

theorem Xin_apply (c : Dev nD) (i : S2048x512.Idx) :
    Xin m c i = m ((c : Thread nD τ).loc main_arg0) i := by
  show m ((c : Thread nD τ).loc main_arg0) ((win0_0.blk (0 : Fin 1)).view.emb i) = _
  rw [blk_emb]

theorem meshBlock_rows (c : Fin 16) : ((Layout.meshBlock [2, 2, 4] ![[0], []] c) 0).val = xc c := by
  revert c; decide
theorem meshBlock_cols (c : Fin 16) : ((Layout.meshBlock [2, 2, 4] ![[0], []] c) 1).val = 0 := by
  revert c; decide

theorem block_apply (X : (⟨2, ![4096, 512]⟩ : Shape).Idx → Elt F .f32) (c : Dev nD) (i : S2048x512.Idx)
    (hr : 2048 * xc c + (i 0).val < 4096) :
    (Layout.blockN ⟨2, ![2048, 512]⟩ ⟨2, ![4096, 512]⟩ (Layout.meshBlock [2, 2, 4] ![[0], []] c) X) i
      = X (ValueIdx.ix2 (n0 := 4096) (n1 := 512) ⟨2048 * xc c + (i 0).val, hr⟩ (i 1)) := by
  rw [Layout.blockN_apply]
  congr 1
  funext b
  apply Fin.ext
  match b with
  | ⟨0, _⟩ =>
    show ((Layout.meshBlock [2, 2, 4] ![[0], []] c) 0).val * 2048 + (i 0).val = 2048 * xc c + (i 0).val
    rw [meshBlock_rows]; omega
  | ⟨1, _⟩ =>
    show ((Layout.meshBlock [2, 2, 4] ![[0], []] c) 1).val * 512 + (i 1).val = (i 1).val
    rw [meshBlock_cols]; omega

theorem Xin_block (X : (⟨2, ![4096, 512]⟩ : Shape).Idx → Elt F .f32)
    (hblk : ∀ c : Dev nD, m ((c : Thread nD τ).loc main_arg0)
      = Layout.blockN ⟨2, ![2048, 512]⟩ ⟨2, ![4096, 512]⟩ (Layout.meshBlock [2, 2, 4] ![[0], []] c) X)
    (c : Dev nD) (i : S2048x512.Idx) (hr : 2048 * xc c + (i 0).val < 4096) :
    Xin m c i = X (ValueIdx.ix2 (n0 := 4096) (n1 := 512) ⟨2048 * xc c + (i 0).val, hr⟩ (i 1)) := by
  rw [Xin_apply, hblk c]; exact block_apply X c i hr

theorem Gout_apply_whole (X : (⟨2, ![4096, 512]⟩ : Shape).Idx → Elt F .f32)
    (hblk : ∀ c : Dev nD, m ((c : Thread nD τ).loc main_arg0)
      = Layout.blockN ⟨2, ![2048, 512]⟩ ⟨2, ![4096, 512]⟩ (Layout.meshBlock [2, 2, 4] ![[0], []] c) X)
    (c : Dev nD) (i : S4096x512.Idx) : Gout m c i = X i := by
  have hi : (i 0).val < 4096 := (i 0).isLt
  have hx := xc_srcDev c (i 0).val hi
  unfold Gout
  rw [Xin_block m X hblk _ _ (by rw [hx]; show 2048 * ((i 0).val / 2048) + (i 0).val % 2048 < 4096; omega)]
  congr 1
  funext b
  apply Fin.ext
  match b with
  | ⟨0, _⟩ =>
    show 2048 * xc (srcDev c (i 0).val) + (i 0).val % 2048 = (i 0).val
    rw [hx]; omega
  | ⟨1, _⟩ => rfl

theorem Gout_eq_whole (X : (⟨2, ![4096, 512]⟩ : Shape).Idx → Elt F .f32)
    (hblk : ∀ c : Dev nD, m ((c : Thread nD τ).loc main_arg0)
      = Layout.blockN ⟨2, ![2048, 512]⟩ ⟨2, ![4096, 512]⟩ (Layout.meshBlock [2, 2, 4] ![[0], []] c) X)
    (c : Dev nD) : Gout m c = X := funext (Gout_apply_whole m X hblk c)

end Cert.KernelIdeal.AG

end
-- ==== Proof.Claims.lean ====
import proofs.«900679_g7700000000000680_dist_ag_v7x_xyz2x2x4_x_m2048_n512_f32_1_alg».proof.Proof.Launch
import proofs.«900679_g7700000000000680_dist_ag_v7x_xyz2x2x4_x_m2048_n512_f32_1_alg».proof.Proof.Value
import proofs.«900679_g7700000000000680_dist_ag_v7x_xyz2x2x4_x_m2048_n512_f32_1_alg».proof.Defs
import proofs.«900679_g7700000000000680_dist_ag_v7x_xyz2x2x4_x_m2048_n512_f32_1_alg».proof.Proof.Gen.Pre_finite_inputs_Kernel

noncomputable section

namespace Cert.KernelIdeal.AG

open Cert.KernelIdeal Cert.KernelIdeal.Gen Cert.AG
open Idealize.ShloMosaic
open Idealize.ShloMosaic.TcCoe
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem blk_out_emb (i : S4096x512.Idx) : (win0_1.blk (0 : Fin 1)).view.emb i = i := by
  funext a
  apply Fin.ext
  show 0 * S4096x512.size a + 1 * (i a : ℕ) = (i a : ℕ)
  rw [Nat.zero_mul, Nat.zero_add, Nat.one_mul]

theorem blk_out_read (c : Dev nD) (f : Buf (Elt F) ((c.tc : Thread nD τ).loc main_v1)) (i : S4096x512.Idx) :
    (win0_1.blk (0 : Fin 1)).view.read (Elt F) f i = f i := by
  show f ((win0_1.blk (0 : Fin 1)).view.emb i) = f i
  rw [blk_out_emb]

theorem run_frame (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c (0 : Fin 2)).trans (finalA_x m ρ c)) (run_main m ρ hbody)

theorem run_value (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Gout m c
      ∧ r.2.mem ((c.tc : Thread nD τ).loc main_arg0) = m ((c.tc : Thread nD τ).loc main_arg0)) :=
  (θ_run defs _ _).mono (fun r h c =>
      ⟨(funext fun i => ((blk_out_read c (r.2.mem ((c.tc : Thread nD τ).loc main_v1)) i).symm.trans
          (congrFun (congrArg ((win0_1.blk (0 : Fin 1)).view.read (Elt F)) (h c (1 : Fin 2))) i)).trans
            (congrFun (finalA_o m ρ c) i)),
        (h c (0 : Fin 2)).trans (finalA_x m ρ c)⟩)
    (run_main m ρ hbody)

theorem frame_ki_of
    (hbody : ∀ (F : FTy → Type) [FloatOps F] (m : (ℓ : Loc nD τ sig) → Buf (Elt F) ℓ) (ρ : Dev nD → PrngReg) (c : Dev nD),
      BodyObligation (dats (F := F) m ρ 0 c) (defs₀ (F := F)) 𝒱₀ () Set.univ) :
    Cert.frame_KernelIdeal :=
  fun m g _ => run_frame m g (hbody _ m g)

end Cert.KernelIdeal.AG

end
-- ==== Proof.RefRun.lean ====
import proofs.«900679_g7700000000000680_dist_ag_v7x_xyz2x2x4_x_m2048_n512_f32_1_alg».proof.Defs
import proofs.«900679_g7700000000000680_dist_ag_v7x_xyz2x2x4_x_m2048_n512_f32_1_alg».proof.Proof.Gen.ReferenceIdeal
import proofs.«900679_g7700000000000680_dist_ag_v7x_xyz2x2x4_x_m2048_n512_f32_1_alg».proof.Proof.Gen.Pre_finite_inputs_ReferenceIdeal
import Idealize.ShloMosaic.Lib.StableHlo.Run

noncomputable section

namespace Cert.AGRef

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq [] := rfl

theorem scopedRefs_eq : (Finset.univ.filter fun b : Ref sig .tc => b.isScoped) = ∅ := by decide

theorem scopedSems_eq : (Finset.univ.filter fun sm : SemLoc sig => sm.isScoped .tc) = ∅ := by decide

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = m ((c.tc : Thread nD τ).loc b) :=
  (θ_run defs _ _).mono (fun _ h c b => h c b)
    (run_seq scopedRefs_eq scopedSems_eq defs main (fun _ => []) main_eq (fun _ => trivial) m ρ)

theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run (Cert.ReferenceIdeal.defs (F := Ideal)) _ _).mono (fun _ h c => h c main_arg0) (run_all (F := Ideal) m' g')

theorem frame_ri : Cert.frame_ReferenceIdeal := fun m g _ => run m g

end Cert.AGRef

end
-- ==== Proof.ClaimsAlg.lean ====
import proofs.«900679_g7700000000000680_dist_ag_v7x_xyz2x2x4_x_m2048_n512_f32_1_alg».proof.Proof.Claims
import proofs.«900679_g7700000000000680_dist_ag_v7x_xyz2x2x4_x_m2048_n512_f32_1_alg».proof.Proof.RefRun

noncomputable section

namespace Cert.KernelIdeal.AG

open Cert.KernelIdeal Cert.KernelIdeal.Gen Cert.AG
open Idealize.ShloMosaic
open Idealize.ShloMosaic.TcCoe
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem algebraic_of
    (hbody : ∀ (F : FTy → Type) [FloatOps F] (m : (ℓ : Loc nD τ sig) → Buf (Elt F) ℓ) (ρ : Dev nD → PrngReg) (c : Dev nD),
      BodyObligation (dats (F := F) m ρ 0 c) (defs₀ (F := F)) 𝒱₀ () Set.univ) :
    Cert.algebraic_KernelIdeal_ReferenceIdeal := by
  intro m g m' g' _ hblk
  exact ⟨m' (((0 : Dev Cert.ReferenceIdeal.nD).tc : Thread Cert.ReferenceIdeal.nD Cert.ReferenceIdeal.τ).loc Cert.ReferenceIdeal.main_arg0),
    (θ_run _ _ _).mono (fun r h c => ⟨(h c).1.trans (Gout_eq_whole m _ hblk c), (h c).2⟩) (run_value m g (hbody _ m g)),
    (θ_run _ _ _).mono (fun r h => ⟨h 0, h 0⟩) (Cert.AGRef.run m' g')⟩

end Cert.KernelIdeal.AG

end
-- ==== Proof.ProtoK.lean ====
import proofs.«900679_g7700000000000680_dist_ag_v7x_xyz2x2x4_x_m2048_n512_f32_1_alg».proof.Proof.Arith
import proofs.«900679_g7700000000000680_dist_ag_v7x_xyz2x2x4_x_m2048_n512_f32_1_alg».proof.Proof.Rows
import proofs.«900679_g7700000000000680_dist_ag_v7x_xyz2x2x4_x_m2048_n512_f32_1_alg».proof.Proof.Gen.Kernel
import proofs.«900679_g7700000000000680_dist_ag_v7x_xyz2x2x4_x_m2048_n512_f32_1_alg».proof.Proof.Gen.Kernel.Skeleton
import proofs.«900679_g7700000000000680_dist_ag_v7x_xyz2x2x4_x_m2048_n512_f32_1_alg».proof.Proof.Gen.Kernel.Launch
import proofs.«900679_g7700000000000680_dist_ag_v7x_xyz2x2x4_x_m2048_n512_f32_1_alg».proof.Proof.Gen.Kernel.Frame
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev barS : Sem sig := (SemArray.scalar (sig.barrier 0 rfl) : Sems sig S_).sem
abbrev barCell (c : Dev nD) : GSem nD τ sig := ((c : Thread nD τ), .reg barS)

def semOf (a : Fin 6) (k : Fin 16) : DmaSem sig := ⟨2 + 16 * a.val + k.val, by have := a.isLt; have := k.isLt; show _ < 99; omega⟩

abbrev locS : DmaSem sig := ⟨98, by decide⟩
abbrev dcell (c : Dev nD) (a : Fin 6) (k : Fin 16) : GSem nD τ sig := ((c : Thread nD τ), .dma (semOf a k))
abbrev locCell (c : Dev nD) : GSem nD τ sig := ((c : Thread nD τ), .dma locS)

abbrev xM : Memref sig .tc .vmem S2048x512 .f32 := Memref.whole cc0_stg0_0
abbrev oM : Memref sig .tc .vmem S4096x512 .f32 := Memref.whole cc0_stg1_0

abbrev ℓx (c : Dev nD) : Loc nD τ sig := (c : Thread nD τ).loc cc0_stg0_0
abbrev ℓo (c : Dev nD) : Loc nD τ sig := (c : Thread nD τ).loc cc0_stg1_0

def Xin (c : Dev nD) : (cc0_stg0_0 : Ref sig .tc).ty.Contents (Elt F) :=
  (win0_0.blk (0 : Fin 1)).view.read (Elt F) (m ((c : Thread nD τ).loc main_arg0))

def Gout (c : Dev nD) : (cc0_stg1_0 : Ref sig .tc).ty.Contents (Elt F) :=
  fun i => Xin m (srcDev c (i 0).val) (ValueIdx.ix2 (n0 := 2048) (n1 := 512) ⟨(i 0).val % 2048, Nat.mod_lt _ (by decide)⟩ (i 1))

def A48 : ℕ := ((oM.slice (Rect.unit (s := S4096x512) ![0, 0] S48x512.size (by decide)) (fun _ => rfl) : Memref sig .tc .vmem S48x512 .f32)).view.dmaCredit
def A40 : ℕ := ((oM.slice (Rect.unit (s := S4096x512) ![0, 0] S40x512.size (by decide)) (fun _ => rfl) : Memref sig .tc .vmem S40x512 .f32)).view.dmaCredit
def A2048 : ℕ := ((oM.slice (Rect.unit (s := S4096x512) ![0, 0] S2048x512.size (by decide)) (fun _ => rfl) : Memref sig .tc .vmem S2048x512 .f32)).view.dmaCredit
theorem A48_pos : 0 < A48 := View.dmaCredit_pos _ (by decide)
theorem A40_pos : 0 < A40 := View.dmaCredit_pos _ (by decide)
theorem A2048_pos : 0 < A2048 := View.dmaCredit_pos _ (by decide)

def amt (c : Fin 16) (j : ℕ) : ℕ := if j = 98 then A2048 else if lenAt c j = 48 then A48 else A40

theorem amt_pos (c : Fin 16) (j : ℕ) : 0 < amt c j := by
  unfold amt; split; · exact A2048_pos
  split; · exact A48_pos
  exact A40_pos

abbrev rowsO (lo n : ℕ) : Finset S4096x512.Idx := Cert.AGRows.rows S4096x512 lo n
abbrev rowsX (lo n : ℕ) : Finset S2048x512.Idx := Cert.AGRows.rows S2048x512 lo n

def barPay (c : Dev nD) (d : Fin 3) : sProp 𝕄 :=
  iprop(∃ f, ℓo (peer d c) ↦[rowsO (rLo (peer d c) d 0) (sLen (peer d c) d)]{fullShare} f)

def dmaPay (c : Dev nD) (j : ℕ) : sProp 𝕄 :=
  if j = 98 then iprop((ℓo c ↦[rowsO (2048 * xc c) 2048]{fullShare} Gout m c) ∗ (ℓx c ↦[rowsX 0 2048]{fullShare.left} Xin m c))
  else if arrOf j = 0 then (ℓx c ↦[rowsX (sLo c 0 (chkOf j)) (rLen c 0 (chkOf j))]{fullShare.right} Xin m c)
  else if arrOf j = 1 then (ℓo c ↦[rowsO (rLo c 0 (chkOf j)) (rLen c 0 (chkOf j))]{fullShare} Gout m c)
  else if arrOf j = 2 then (ℓo c ↦[rowsO (sLo c 1 (chkOf j)) (rLen c 0 (chkOf j))]{fullShare.left} Gout m c)
  else if arrOf j = 3 then (ℓo c ↦[rowsO (rLo c 1 (chkOf j)) (rLen c 1 (chkOf j))]{fullShare} Gout m c)
  else if arrOf j = 4 then (ℓo c ↦[rowsO (sLo c 2 (chkOf j)) (len680 (chkOf j))]{fullShare.right} Gout m c)
  else (ℓo c ↦[rowsO (rLo c 2 (chkOf j)) (rLen c 2 (chkOf j))]{fullShare} Gout m c)

def Rd : Rounds.Schedule (GSem nD τ sig) (Fin 3) 𝕄 where
  duties g r :=
    if r = 0 ∧ g.1.2 = .tc then
      (match g.2 with
        | .reg s => if s = barS then Finset.univ else ∅
        | .dma j => if 2 ≤ j.val then {0} else ∅)
    else ∅
  unitless _ := False
  amount g _ _ := match g.2 with | .reg _ => 1 | .dma j => amt g.1.1 j.val
  payload g _ d := match g.2 with | .reg _ => barPay g.1.1 d | .dma j => dmaPay m g.1.1 j.val
  amount_pos g _ _ _ := by
    cases hg : g.2 with
    | reg s => simp only [hg]; exact Nat.one_pos
    | dma j => simp only [hg]; exact amt_pos _ _

instance Rd_payload_storable (g : GSem nD τ sig) (r : ℕ) (d : Fin 3) :
    BI.Storable (upEmb : UEmb _ 𝕄) ((Rd (F := F) m).payload g r d) := by
  show BI.Storable upEmb (match g.2 with | .reg _ => barPay g.1.1 d | .dma j => dmaPay m g.1.1 j.val)
  unfold barPay dmaPay
  (repeat' split) <;> infer_instance

end Cert.Kernel.AG

end
-- ==== Proof.OwedK.lean ====
import proofs.«900679_g7700000000000680_dist_ag_v7x_xyz2x2x4_x_m2048_n512_f32_1_alg».proof.Proof.ProtoK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

def sendArr (d : Fin 3) : Fin 6 := ⟨2 * d.val, by omega⟩
def recvArr (d : Fin 3) : Fin 6 := ⟨2 * d.val + 1, by omega⟩

def tR (c : Dev nD) (d : Fin 3) (k : Fin 16) : CellTallies nD τ sig Unit :=
  tallyAt (dcell (peer d c) (recvArr d) k) () (amt (peer d c) (semOf (recvArr d) k).val)

def tB (c : Dev nD) (d : Fin 3) : CellTallies nD τ sig Unit := tallyAt (barCell (peer d c)) () 1

def rk (j : ℕ) (h : j < 16) : Fin 16 := ⟨15 - j, by omega⟩

def owedL (c : Dev nD) : ℕ → CellTallies nD τ sig Unit
  | 0 => 0
  | j + 1 => if h : j < 16 then owedL c j + tR c 2 (rk j h) + tR c 1 (rk j h) else owedL c j

def owedX (c : Dev nD) : ℕ → CellTallies nD τ sig Unit
  | 0 => owedL c 16
  | j + 1 => if h : j < 16 then owedX c j + tR c 0 (rk j h) else owedX c j

def O₀ (c : Dev nD) : CellTallies nD τ sig Unit := owedX c 16 + tB c 2 + tB c 1 + tB c 0

theorem owedL_succ (c : Dev nD) (j : ℕ) (h : j < 16) : owedL c (j + 1) = owedL c j + tR c 2 (rk j h) + tR c 1 (rk j h) := dif_pos h
theorem owedX_succ (c : Dev nD) (j : ℕ) (h : j < 16) : owedX c (j + 1) = owedX c j + tR c 0 (rk j h) := dif_pos h
theorem owedX_zero (c : Dev nD) : owedX c 0 = owedL c 16 := rfl
theorem owedL_zero (c : Dev nD) : owedL c 0 = 0 := rfl

def L (g : GSem nD τ sig) : Finset Unit := if g.1.2 = .tc then {()} else ∅
def lvSem : SemLoc sig → ℕ
  | .reg _ => 1
  | .dma j => if arrOf j.val = 1 then 2 + 3 * chkOf j.val else if arrOf j.val = 3 then 3 + 3 * chkOf j.val
      else if arrOf j.val = 5 then 4 + 3 * chkOf j.val else 0
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl

end Cert.Kernel.AG
end
-- ==== Proof.GeomK.lean ====
import proofs.«900679_g7700000000000680_dist_ag_v7x_xyz2x2x4_x_m2048_n512_f32_1_alg».proof.Proof.ProtoK

namespace Cert.Kernel.AG

open Cert.AG

open Idealize.ShloMosaic

theorem semOf_val (a : Fin 6) (k : Fin 16) : (semOf a k).val = 2 + 16 * a.val + k.val := rfl
theorem arrOf_semOf (a : Fin 6) (k : Fin 16) : arrOf (semOf a k).val = a.val := by
  have := k.isLt; rw [semOf_val]; unfold arrOf; omega
theorem chkOf_semOf (a : Fin 6) (k : Fin 16) : chkOf (semOf a k).val = k.val := by
  have := k.isLt; rw [semOf_val]; unfold chkOf; omega
theorem semOf_ne_98 (a : Fin 6) (k : Fin 16) : (semOf a k).val ≠ 98 := by
  have := a.isLt; have := k.isLt; rw [semOf_val]; omega
theorem two_le_semOf (a : Fin 6) (k : Fin 16) : 2 ≤ (semOf a k).val := by
  rw [semOf_val]; omega
theorem lenAt_semOf_le2 (c : Fin 16) (a : Fin 6) (k : Fin 16) (h : a.val ≤ 2) :
    lenAt c (semOf a k).val = rLen c 0 k.val := by
  unfold lenAt; rw [arrOf_semOf, chkOf_semOf, if_pos h]; rfl
theorem lenAt_semOf_3 (c : Fin 16) (k : Fin 16) : lenAt c (semOf 3 k).val = rLen c 1 k.val := by
  unfold lenAt; rw [arrOf_semOf, chkOf_semOf, if_neg (by decide), if_pos (by decide)]; rfl
theorem lenAt_semOf_ge4 (c : Fin 16) (a : Fin 6) (k : Fin 16) (h : 4 ≤ a.val) :
    lenAt c (semOf a k).val = rLen c 2 k.val := by
  unfold lenAt; rw [arrOf_semOf, chkOf_semOf, if_neg (by omega), if_neg (by omega)]; rfl
theorem amt_semOf (c : Fin 16) (a : Fin 6) (k : Fin 16) :
    amt c (semOf a k).val = (if lenAt c (semOf a k).val = 48 then A48 else A40) := by
  unfold amt; rw [if_neg (semOf_ne_98 a k)]
theorem amt_98 (c : Fin 16) : amt c 98 = A2048 := by unfold amt; rw [if_pos rfl]
theorem mem_rowsO {lo n : ℕ} {i : S4096x512.Idx} : i ∈ rowsO lo n ↔ lo ≤ (i 0).val ∧ (i 0).val < lo + n :=
  Cert.AGRows.mem_rows₂
theorem rowsX_univ : rowsX 0 2048 = Finset.univ := Cert.AGRows.rows_univ₂ _
theorem rowsO_split (c : Fin 16) :
    (Finset.univ : Finset S4096x512.Idx)
      = rowsO (2048 * xc c) 2048 ∪ (rowsO (rLo c 0 0) (sLen c 0) ∪ (rowsO (rLo c 1 0) (sLen c 1) ∪ rowsO (rLo c 2 0) (sLen c 2))) := by
  ext i; have hi : (i 0).val < 4096 := (i 0).isLt
  simp only [Finset.mem_univ, Finset.mem_union, mem_rowsO, true_iff]
  exact row_cover c _ hi
theorem rowsO_own_slab_disjoint (c : Fin 16) (d : Fin 3) :
    Disjoint (rowsO (2048 * xc c) 2048) (rowsO (rLo c d 0) (sLen c d)) :=
  Cert.AGRows.rows_disjoint (own_slab_disjoint c d)
theorem rowsO_slab_slab_disjoint (c : Fin 16) (d d' : Fin 3) (hd : d ≠ d') :
    Disjoint (rowsO (rLo c d 0) (sLen c d)) (rowsO (rLo c d' 0) (sLen c d')) :=
  Cert.AGRows.rows_disjoint (slab_slab_disjoint c d d' hd)

end Cert.Kernel.AG
-- ==== Proof.TablesK.lean ====
import proofs.«900679_g7700000000000680_dist_ag_v7x_xyz2x2x4_x_m2048_n512_f32_1_alg».proof.Proof.ProtoK
import proofs.«900679_g7700000000000680_dist_ag_v7x_xyz2x2x4_x_m2048_n512_f32_1_alg».proof.Proof.GeomK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem duties_dma (c : Dev nD) (a : Fin 6) (k : Fin 16) : (Rd (F := F) m).duties (dcell c a k) 0 = {0} := by
  show (if (0 : ℕ) = 0 ∧ (Proc.tc : Proc τ) = .tc then (if 2 ≤ (semOf a k).val then ({0} : Finset (Fin 3)) else ∅) else ∅) = {0}
  rw [if_pos ⟨rfl, rfl⟩, if_pos (two_le_semOf a k)]
theorem duties_loc (c : Dev nD) : (Rd (F := F) m).duties (locCell c) 0 = {0} := by
  show (if (0 : ℕ) = 0 ∧ (Proc.tc : Proc τ) = .tc then (if 2 ≤ (98 : ℕ) then ({0} : Finset (Fin 3)) else ∅) else ∅) = {0}
  rw [if_pos ⟨rfl, rfl⟩, if_pos (by decide)]
theorem duties_bar (c : Dev nD) : (Rd (F := F) m).duties (barCell c) 0 = Finset.univ := by
  show (if (0 : ℕ) = 0 ∧ (Proc.tc : Proc τ) = .tc then (if barS = barS then (Finset.univ : Finset (Fin 3)) else ∅) else ∅) = Finset.univ
  rw [if_pos ⟨rfl, rfl⟩, if_pos rfl]
theorem duties_later (g : GSem nD τ sig) : ∀ r, 1 ≤ r → (Rd (F := F) m).duties g r = ∅ :=
  fun r hr => by dsimp only [Rd]; rw [if_neg fun h => by omega]

theorem mem_duties_dma (c : Dev nD) (a : Fin 6) (k : Fin 16) : (0 : Fin 3) ∈ (Rd (F := F) m).duties (dcell c a k) 0 := by
  rw [duties_dma]; exact Finset.mem_singleton_self _
theorem mem_duties_loc (c : Dev nD) : (0 : Fin 3) ∈ (Rd (F := F) m).duties (locCell c) 0 := by
  rw [duties_loc]; exact Finset.mem_singleton_self _
theorem mem_duties_bar (c : Dev nD) (d : Fin 3) : d ∈ (Rd (F := F) m).duties (barCell c) 0 := by
  rw [duties_bar]; exact Finset.mem_univ _

theorem amount_dma (c : Dev nD) (a : Fin 6) (k : Fin 16) (d : Fin 3) : (Rd (F := F) m).amount (dcell c a k) 0 d = amt c (semOf a k).val := rfl
theorem amount_loc (c : Dev nD) (d : Fin 3) : (Rd (F := F) m).amount (locCell c) 0 d = amt c 98 := rfl
theorem amount_bar (c : Dev nD) (d : Fin 3) : (Rd (F := F) m).amount (barCell c) 0 d = 1 := rfl

theorem expect_dma (c : Dev nD) (a : Fin 6) (k : Fin 16) : (Rd (F := F) m).expect (dcell c a k) 0 = amt c (semOf a k).val := by
  unfold Schedule.expect Schedule.amountOf; rw [duties_dma, Finset.sum_singleton, amount_dma]
theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]

theorem payload_dma (c : Dev nD) (a : Fin 6) (k : Fin 16) (d : Fin 3) : (Rd (F := F) m).payload (dcell c a k) 0 d = dmaPay m c (semOf a k).val := rfl
theorem payload_loc (c : Dev nD) (d : Fin 3) : (Rd (F := F) m).payload (locCell c) 0 d = dmaPay m c 98 := rfl
theorem payload_bar (c : Dev nD) (d : Fin 3) : (Rd (F := F) m).payload (barCell c) 0 d = barPay c d := rfl

theorem dmaPay_0 (c : Dev nD) (k : Fin 16) : dmaPay m c (semOf 0 k).val
    = (ℓx c ↦[rowsX (sLo c 0 k.val) (rLen c 0 k.val)]{fullShare.right} Xin m c) := by
  unfold dmaPay; rw [if_neg (semOf_ne_98 _ _), arrOf_semOf, chkOf_semOf]; rfl
theorem dmaPay_1 (c : Dev nD) (k : Fin 16) : dmaPay m c (semOf 1 k).val
    = (ℓo c ↦[rowsO (rLo c 0 k.val) (rLen c 0 k.val)]{fullShare} Gout m c) := by
  unfold dmaPay; rw [if_neg (semOf_ne_98 _ _), arrOf_semOf, chkOf_semOf]; rfl
theorem dmaPay_2 (c : Dev nD) (k : Fin 16) : dmaPay m c (semOf 2 k).val
    = (ℓo c ↦[rowsO (sLo c 1 k.val) (rLen c 0 k.val)]{fullShare.left} Gout m c) := by
  unfold dmaPay; rw [if_neg (semOf_ne_98 _ _), arrOf_semOf, chkOf_semOf]; rfl
theorem dmaPay_3 (c : Dev nD) (k : Fin 16) : dmaPay m c (semOf 3 k).val
    = (ℓo c ↦[rowsO (rLo c 1 k.val) (rLen c 1 k.val)]{fullShare} Gout m c) := by
  unfold dmaPay; rw [if_neg (semOf_ne_98 _ _), arrOf_semOf, chkOf_semOf]; rfl
theorem dmaPay_4 (c : Dev nD) (k : Fin 16) : dmaPay m c (semOf 4 k).val
    = (ℓo c ↦[rowsO (sLo c 2 k.val) (len680 k.val)]{fullShare.right} Gout m c) := by
  unfold dmaPay; rw [if_neg (semOf_ne_98 _ _), arrOf_semOf, chkOf_semOf]; rfl
theorem dmaPay_5 (c : Dev nD) (k : Fin 16) : dmaPay m c (semOf 5 k).val
    = (ℓo c ↦[rowsO (rLo c 2 k.val) (rLen c 2 k.val)]{fullShare} Gout m c) := by
  unfold dmaPay; rw [if_neg (semOf_ne_98 _ _), arrOf_semOf, chkOf_semOf]; rfl

theorem rest_dma (c : Dev nD) (a : Fin 6) (k : Fin 16) :
    bigSep ((Rd (F := F) m).duties (dcell c a k) 0 \ ∅) (fun d => (Rd (F := F) m).payload (dcell c a k) 0 d) = dmaPay m c (semOf a k).val := by
  rw [Finset.sdiff_empty, duties_dma, bigSep_singleton, payload_dma]

theorem rest_bar (c : Dev nD) :
    bigSep ((Rd (F := F) m).duties (barCell c) 0 \ ∅) (fun d => (Rd (F := F) m).payload (barCell c) 0 d)
      = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton]
  rfl

end Cert.Kernel.AG
end
-- ==== Proof.FamK.lean ====
import proofs.«900679_g7700000000000680_dist_ag_v7x_xyz2x2x4_x_m2048_n512_f32_1_alg».proof.Proof.OwedK
import proofs.«900679_g7700000000000680_dist_ag_v7x_xyz2x2x4_x_m2048_n512_f32_1_alg».proof.Proof.TablesK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

abbrev 𝒱₀ : Variants := Variants.none

def ge (n : ℕ) : Finset (Fin 16) := Finset.univ.filter fun i => n ≤ i.val

def lt (n : ℕ) : Finset (Fin 16) := Finset.univ.filter fun i => i.val < n

theorem ge_zero : ge 0 = Finset.univ := by decide
theorem lt_zero : lt 0 = ∅ := by decide
theorem lt_16 : lt 16 = Finset.univ := by decide
theorem ge_succ (k : ℕ) (hk : k < 16) : ge k = insert ⟨k, hk⟩ (ge (k + 1)) := by
  ext i; simp only [ge, Finset.mem_filter, Finset.mem_univ, true_and, Finset.mem_insert, Fin.ext_iff]; omega
theorem not_mem_ge_succ (k : ℕ) (hk : k < 16) : (⟨k, hk⟩ : Fin 16) ∉ ge (k + 1) := by
  simp only [ge, Finset.mem_filter, Finset.mem_univ, true_and]; omega
theorem lt_succ (k : ℕ) (hk : k < 16) : lt (k + 1) = insert ⟨k, hk⟩ (lt k) := by
  ext i; simp only [lt, Finset.mem_filter, Finset.mem_univ, true_and, Finset.mem_insert, Fin.ext_iff]; omega
theorem not_mem_lt (k : ℕ) (hk : k < 16) : (⟨k, hk⟩ : Fin 16) ∉ lt k := by
  simp only [lt, Finset.mem_filter, Finset.mem_univ, true_and]; omega

theorem peel_ge (Φ : Fin 16 → sProp 𝕄) (k : ℕ) (hk : k < 16) : bigSep (ge k) Φ = iprop(Φ ⟨k, hk⟩ ∗ bigSep (ge (k + 1)) Φ) := by
  rw [ge_succ k hk]; exact bigSep_insert (not_mem_ge_succ k hk)

theorem push_lt (Φ : Fin 16 → sProp 𝕄) (k : ℕ) (hk : k < 16) : bigSep (lt (k + 1)) Φ = iprop(Φ ⟨k, hk⟩ ∗ bigSep (lt k) Φ) := by
  rw [lt_succ k hk]; exact bigSep_insert (not_mem_lt k hk)

def TokF (c : Dev nD) (d : Fin 3) (S : Finset (Fin 16)) : sProp 𝕄 :=
  bigSep S fun k => iprop(dutyTok ER (dcell c (sendArr d) k) 0 0 ∗ dutyTok ER (dcell (peer d c) (recvArr d) k) 0 0)

def DstF (c : Dev nD) (d : Fin 3) (S : Finset (Fin 16)) : sProp 𝕄 :=
  bigSep S fun k => iprop(∃ f, ℓo (peer d c) ↦[rowsO (rLo (peer d c) d k.val) (rLen (peer d c) d k.val)]{fullShare} f)

def AtF (c : Dev nD) (a : Fin 6) (S : Finset (Fin 16)) : sProp 𝕄 := bigSep S fun k => atPos ER (dcell c a k) 0 ∅ 0

def CrR (c : Dev nD) (d : Fin 3) (S : Finset (Fin 16)) : sProp 𝕄 :=
  bigSep S fun k => cred (tallyAt (dcell c (recvArr d) k) () (amt c (semOf (recvArr d) k).val))
def CrS (c : Dev nD) (d : Fin 3) (S : Finset (Fin 16)) : sProp 𝕄 :=
  bigSep S fun k => cred (tallyAt (dcell c (sendArr d) k) () (amt c (semOf (sendArr d) k).val))

def ClF (c : Dev nD) (a : Fin 6) (S : Finset (Fin 16)) : sProp 𝕄 := bigSep S fun k => semVal (dcell c a k) 0

def SrcX (c : Dev nD) (S : Finset (Fin 16)) : sProp 𝕄 :=
  bigSep S fun k => (ℓx c ↦[rowsX (sLo c 0 k.val) (rLen c 0 k.val)]{fullShare.right} Xin m c)

def Lnd (c : Dev nD) (d : Fin 3) (q : PosShare TreeShare) (S : Finset (Fin 16)) : sProp 𝕄 :=
  bigSep S fun k => (ℓo c ↦[rowsO (rLo c d k.val) (rLen c d k.val)]{q} Gout m c)

theorem wp_wait_dma (K : ℕ) (c : Dev nD) (a : Fin 6) (k : Fin 16)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt c (semOf a k).val)
    (O : CellTallies nD τ sig Unit) (W : Waits sig Unit)
    {α : Type} {Q : α → sProp 𝕄} {kt : PUnit → Prog (TpuEff nD τ sig (Elt F) Λ₀ .tc) α} :
    iprop(cellInv ER (Rd m) K (dcell c a k) ∗ cred (tallyAt (dcell c a k) () (amt c (semOf a k).val)) ∗ owes (c : Thread nD τ) O W
        ∗ MayWait (c : Thread nD τ) (.dma (semOf a k)) () O ∗ atPos ER (dcell c a k) 0 ∅ 0)
      ⊢ iprop(((owes (c : Thread nD τ) O (insert (SemLoc.dma (semOf a k), ()) W) ∗ semVal (dcell c a k) 0 ∗ dmaPay m c (semOf a k).val)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf a k) src dst hsrc hdst) kt) Q) := by
  iintro ⟨#HI, Hc, HO, Hmw, Hat⟩ Hk
  iapply (Rounds.wp_wait_rest_token 𝒱₀ ER (Rd m) (c : Thread nD τ) none (κ := K)
      (wpE_waitDma2_eq 𝒱₀ (c : Thread nD τ) none Set.univ) (Set.mem_univ _) () (O := O) (W := W) (R := 0) (m := 0) (T := ∅)
      (by rw [Nat.zero_add, expect_dma, hamt])) $$ [Hc HO Hmw Hat]
  · isplitr; · iexact HI
    isplitl [Hc]; · rw [hamt]; iexact Hc
    iframe # ∗
  iintro ⟨HO, Hat, -, Hpay⟩
  ihave Hp := (Entails.of_eq (rest_dma m c a k)) $$ Hpay
  imod (Rounds.cell_close ER (Rd m) (Set.mem_univ K) (fun h => h) (R := 0 + 1) (duties_later m (dcell c a k))) $$ [Hat] with Hz
  · iframe # ∗
  iapply Hk
  iframe # ∗

end Cert.Kernel.AG
end
-- ==== Proof.LevelsK.lean ====
import proofs.«900679_g7700000000000680_dist_ag_v7x_xyz2x2x4_x_m2048_n512_f32_1_alg».proof.Proof.OwedK

noncomputable section

namespace Cert.Kernel.AG

open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

@[simp] theorem peer_0 (c : Fin 16) : peer 0 c = xp c := rfl
@[simp] theorem peer_1 (c : Fin 16) : peer 1 c = yp c := rfl
@[simp] theorem peer_2 (c : Fin 16) : peer 2 c = zb c := rfl
@[simp] theorem sendArr_0 : sendArr 0 = 0 := rfl
@[simp] theorem sendArr_1 : sendArr 1 = 2 := rfl
@[simp] theorem sendArr_2 : sendArr 2 = 4 := rfl
@[simp] theorem recvArr_0 : recvArr 0 = 1 := rfl
@[simp] theorem recvArr_1 : recvArr 1 = 3 := rfl
@[simp] theorem recvArr_2 : recvArr 2 = 5 := rfl

private theorem arrOf_semOf' (a : Fin 6) (k : Fin 16) : arrOf (semOf a k).val = a.val := by
  have := k.isLt; show (2 + 16 * a.val + k.val - 2) / 16 = a.val; omega
private theorem chkOf_semOf' (a : Fin 6) (k : Fin 16) : chkOf (semOf a k).val = k.val := by
  have := k.isLt; show (2 + 16 * a.val + k.val - 2) % 16 = k.val; omega

theorem lvSem_semOf (a : Fin 6) (k : Fin 16) :
    lvSem (.dma (semOf a k)) = if a.val = 1 then 2 + 3 * k.val else if a.val = 3 then 3 + 3 * k.val
      else if a.val = 5 then 4 + 3 * k.val else 0 := by
  show (if arrOf (semOf a k).val = 1 then 2 + 3 * chkOf (semOf a k).val else if arrOf (semOf a k).val = 3 then 3 + 3 * chkOf (semOf a k).val
      else if arrOf (semOf a k).val = 5 then 4 + 3 * chkOf (semOf a k).val else 0) = _
  rw [arrOf_semOf', chkOf_semOf']
theorem lvSem_xr (k : Fin 16) : lvSem (.dma (semOf 1 k)) = 2 + 3 * k.val := by rw [lvSem_semOf]; rfl
theorem lvSem_yr (k : Fin 16) : lvSem (.dma (semOf 3 k)) = 3 + 3 * k.val := by rw [lvSem_semOf]; rfl
theorem lvSem_zr (k : Fin 16) : lvSem (.dma (semOf 5 k)) = 4 + 3 * k.val := by rw [lvSem_semOf]; rfl

theorem mem_L_tc (c : Dev nD) (sm : SemLoc sig) (u : Unit) : u ∈ L ((c : Thread nD τ), sm) := by
  rw [L_tc]; exact Finset.mem_singleton_self _

theorem tR_pos {c : Dev nD} {d : Fin 3} {k : Fin 16} {g : GSem nD τ sig} {u : Unit} (h : 0 < tR c d k g u) :
    g = dcell (peer d c) (recvArr d) k := (Pipeline.tallyAt_pos h).1
theorem tB_pos {c : Dev nD} {d : Fin 3} {g : GSem nD τ sig} {u : Unit} (h : 0 < tB c d g u) :
    g = barCell (peer d c) := (Pipeline.tallyAt_pos h).1

private theorem zero_not_pos {g : GSem nD τ sig} {u : Unit} (h : 0 < (0 : CellTallies nD τ sig Unit) g u) : False :=
  Nat.lt_irrefl 0 h

theorem owedL_pos {c : Dev nD} {g : GSem nD τ sig} {u : Unit} : ∀ j, 0 < owedL c j g u →
    ∃ i : Fin 16, 16 - j ≤ i.val ∧ (g = dcell (yp c) 3 i ∨ g = dcell (zb c) 5 i)
  | 0, h => (zero_not_pos h).elim
  | j + 1, h => by
    by_cases hj : j < 16
    · rw [owedL_succ c j hj] at h
      rcases Pipeline.add_pos_cases h with h | h
      · rcases Pipeline.add_pos_cases h with h | h
        · obtain ⟨i, hi, hg⟩ := owedL_pos j h
          exact ⟨i, by omega, hg⟩
        · exact ⟨rk j hj, by show 16 - (j + 1) ≤ 15 - j; omega, Or.inr (tR_pos h)⟩
      · exact ⟨rk j hj, by show 16 - (j + 1) ≤ 15 - j; omega, Or.inl (tR_pos h)⟩
    · have e : owedL c (j + 1) = owedL c j := dif_neg hj
      rw [e] at h
      obtain ⟨i, hi, hg⟩ := owedL_pos j h
      exact ⟨i, by omega, hg⟩

theorem owedX_pos {c : Dev nD} {g : GSem nD τ sig} {u : Unit} : ∀ j, 0 < owedX c j g u →
    ∃ i : Fin 16, (16 - j ≤ i.val ∧ g = dcell (xp c) 1 i) ∨ g = dcell (yp c) 3 i ∨ g = dcell (zb c) 5 i
  | 0, h => by
    rw [owedX_zero] at h
    obtain ⟨i, _, hg⟩ := owedL_pos 16 h
    exact ⟨i, Or.inr hg⟩
  | j + 1, h => by
    by_cases hj : j < 16
    · rw [owedX_succ c j hj] at h
      rcases Pipeline.add_pos_cases h with h | h
      · obtain ⟨i, hg⟩ := owedX_pos j h
        rcases hg with ⟨hi, hg⟩ | hg
        · exact ⟨i, Or.inl ⟨by omega, hg⟩⟩
        · exact ⟨i, Or.inr hg⟩
      · exact ⟨rk j hj, Or.inl ⟨by show 16 - (j + 1) ≤ 15 - j; omega, tR_pos h⟩⟩
    · have e : owedX c (j + 1) = owedX c j := dif_neg hj
      rw [e] at h
      obtain ⟨i, hg⟩ := owedX_pos j h
      rcases hg with ⟨hi, hg⟩ | hg
      · exact ⟨i, Or.inl ⟨by omega, hg⟩⟩
      · exact ⟨i, Or.inr hg⟩

theorem O₀_pos {c : Dev nD} {g : GSem nD τ sig} {u : Unit} (h : 0 < O₀ c g u) :
    (g = barCell (xp c) ∨ g = barCell (yp c) ∨ g = barCell (zb c)) ∨
      ∃ i : Fin 16, g = dcell (xp c) 1 i ∨ g = dcell (yp c) 3 i ∨ g = dcell (zb c) 5 i := by
  unfold O₀ at h
  rcases Pipeline.add_pos_cases h with h | h
  · rcases Pipeline.add_pos_cases h with h | h
    · rcases Pipeline.add_pos_cases h with h | h
      · obtain ⟨i, hg⟩ := owedX_pos 16 h
        rcases hg with ⟨_, hg⟩ | hg
        · exact Or.inr ⟨i, Or.inl hg⟩
        · exact Or.inr ⟨i, Or.inr hg⟩
      · exact Or.inl (Or.inr (Or.inr (tB_pos h)))
    · exact Or.inl (Or.inr (Or.inl (tB_pos h)))
  · exact Or.inl (Or.inl (tB_pos h))

omit [FloatOps F] in

theorem mayWait_low (c : Dev nD) (sm : SemLoc sig) (hsm : lvSem sm = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (mem_L_tc c sm ()) fun g u hg => ?_
    show u ∈ L g ∧ lvSem sm < lvSem g.2
    rw [hsm]
    rcases O₀_pos hg with (rfl | rfl | rfl) | ⟨i, rfl | rfl | rfl⟩
    · exact ⟨mem_L_tc _ _ u, Nat.one_pos⟩
    · exact ⟨mem_L_tc _ _ u, Nat.one_pos⟩
    · exact ⟨mem_L_tc _ _ u, Nat.one_pos⟩
    · exact ⟨mem_L_tc _ _ u, by rw [lvSem_xr]; omega⟩
    · exact ⟨mem_L_tc _ _ u, by rw [lvSem_yr]; omega⟩
    · exact ⟨mem_L_tc _ _ u, by rw [lvSem_zr]; omega⟩
  · rw [MayWait_zero]; iintro -; iempintro

omit [FloatOps F] in

theorem mayWait_bar (c : Dev nD) :
    (levAts L lv : sProp 𝕄) ⊢ MayWait (c : Thread nD τ) (.reg barS) () (owedX c 16) := by
  refine Pipeline.mayWait_of_levAts (mem_L_tc c _ ()) fun g u hg => ?_
  show u ∈ L g ∧ 1 < lvSem g.2
  obtain ⟨i, hg⟩ := owedX_pos 16 hg
  rcases hg with ⟨_, rfl⟩ | rfl | rfl
  · exact ⟨mem_L_tc _ _ u, by rw [lvSem_xr]; omega⟩
  · exact ⟨mem_L_tc _ _ u, by rw [lvSem_yr]; omega⟩
  · exact ⟨mem_L_tc _ _ u, by rw [lvSem_zr]; omega⟩

omit [FloatOps F] in

theorem mayWait_xr (c : Dev nD) (j : ℕ) (hj : j < 16) :
    (levAts L lv : sProp 𝕄) ⊢ MayWait (c : Thread nD τ) (.dma (semOf 1 (rk j hj))) () (owedL c (j + 1)) := by
  refine Pipeline.mayWait_of_levAts (mem_L_tc c _ ()) fun g u hg => ?_
  show u ∈ L g ∧ lvSem (.dma (semOf 1 (rk j hj))) < lvSem g.2
  rw [lvSem_xr]
  obtain ⟨i, hi, hg⟩ := owedL_pos (j + 1) hg
  have hr : (rk j hj).val = 15 - j := rfl
  rcases hg with rfl | rfl
  · exact ⟨mem_L_tc _ _ u, by rw [lvSem_yr]; omega⟩
  · exact ⟨mem_L_tc _ _ u, by rw [lvSem_zr]; omega⟩

omit [FloatOps F] in

theorem mayWait_yr (c : Dev nD) (j : ℕ) (hj : j < 16) :
    (levAts L lv : sProp 𝕄) ⊢ MayWait (c : Thread nD τ) (.dma (semOf 3 (rk j hj))) () (owedL c j + tR c 2 (rk j hj)) := by
  refine Pipeline.mayWait_of_levAts (mem_L_tc c _ ()) fun g u hg => ?_
  show u ∈ L g ∧ lvSem (.dma (semOf 3 (rk j hj))) < lvSem g.2
  rw [lvSem_yr]
  have hr : (rk j hj).val = 15 - j := rfl
  rcases Pipeline.add_pos_cases hg with hg | hg
  · obtain ⟨i, hi, hg⟩ := owedL_pos j hg
    rcases hg with rfl | rfl
    · exact ⟨mem_L_tc _ _ u, by rw [lvSem_yr]; omega⟩
    · exact ⟨mem_L_tc _ _ u, by rw [lvSem_zr]; omega⟩
  · rw [tR_pos hg]
    exact ⟨mem_L_tc _ _ u, by show 3 + 3 * (rk j hj).val < lvSem (.dma (semOf 5 (rk j hj))); rw [lvSem_zr]; omega⟩

omit [FloatOps F] in

def lastChunks (j : ℕ) : Finset (Fin 16) := Finset.univ.filter fun k => 16 - j ≤ k.val

theorem mem_lastChunks {j : ℕ} {k : Fin 16} : k ∈ lastChunks j ↔ 16 - j ≤ k.val := by
  unfold lastChunks; rw [Finset.mem_filter]; exact ⟨fun h => h.2, fun h => ⟨Finset.mem_univ _, h⟩⟩
theorem lastChunks_zero : lastChunks 0 = ∅ := by
  ext k; rw [mem_lastChunks]; have := k.isLt
  exact ⟨fun h => by omega, fun h => absurd h (Finset.notMem_empty _)⟩
theorem lastChunks_succ (j : ℕ) (h : j < 16) : lastChunks (j + 1) = insert (rk j h) (lastChunks j) := by
  ext k; rw [Finset.mem_insert, mem_lastChunks, mem_lastChunks]
  have hr : (rk j h).val = 15 - j := rfl
  constructor
  · intro hk
    by_cases e : k = rk j h
    · exact Or.inl e
    · have : k.val ≠ 15 - j := fun hv => e (Fin.ext (hv.trans hr.symm))
      exact Or.inr (by omega)
  · rintro (rfl | hk)
    · omega
    · omega
theorem rk_notMem_lastChunks (j : ℕ) (h : j < 16) : rk j h ∉ lastChunks j := by
  rw [mem_lastChunks]; have hr : (rk j h).val = 15 - j := rfl; omega
theorem lastChunks_16 : lastChunks 16 = Finset.univ := by
  ext k; rw [mem_lastChunks]; exact ⟨fun _ => Finset.mem_univ _, fun _ => Nat.zero_le _⟩

theorem owedL_eq_sum (c : Dev nD) : ∀ j, j ≤ 16 → owedL c j = ∑ k ∈ lastChunks j, (tR c 2 k + tR c 1 k)
  | 0, _ => by rw [owedL_zero, lastChunks_zero, Finset.sum_empty]
  | j + 1, hj => by
    have h : j < 16 := hj
    rw [owedL_succ c j h, lastChunks_succ j h, Finset.sum_insert (rk_notMem_lastChunks j h), owedL_eq_sum c j (by omega),
      add_assoc, add_comm]
theorem owedX_eq_sum (c : Dev nD) : ∀ j, j ≤ 16 → owedX c j = owedL c 16 + ∑ k ∈ lastChunks j, tR c 0 k
  | 0, _ => by rw [owedX_zero, lastChunks_zero, Finset.sum_empty, add_zero]
  | j + 1, hj => by
    have h : j < 16 := hj
    rw [owedX_succ c j h, lastChunks_succ j h, Finset.sum_insert (rk_notMem_lastChunks j h), owedX_eq_sum c j (by omega),
      add_assoc, add_comm (tR c 0 (rk j h))]

theorem O₀_eq_sum (c : Dev nD) :
    O₀ c = (∑ k : Fin 16, (tR c 2 k + tR c 1 k)) + (∑ k : Fin 16, tR c 0 k) + tB c 2 + tB c 1 + tB c 0 := by
  unfold O₀; rw [owedX_eq_sum c 16 (Nat.le_refl _), owedL_eq_sum c 16 (Nat.le_refl _), lastChunks_16]

def recvDue (c : Dev nD) (d : Fin 3) (k : Fin 16) : CellTallies nD τ sig Unit :=
  tallyAt (dcell c (recvArr d) k) () (amt c (semOf (recvArr d) k).val)

def dueAt (c : Dev nD) : CellTallies nD τ sig Unit :=
  tallyAt (barCell c) () 3 + ∑ dk : Fin 3 × Fin 16, recvDue c dk.1 dk.2

def peerEquiv (d : Fin 3) : Dev nD ≃ Dev nD := ⟨peer d, peer d, peer_peer d, peer_peer d⟩

theorem sum_tR (d : Fin 3) (k : Fin 16) : (∑ c : Dev nD, tR c d k) = ∑ c : Dev nD, recvDue c d k :=
  (peerEquiv d).sum_comp fun c => recvDue c d k
theorem sum_tB (d : Fin 3) : (∑ c : Dev nD, tB c d) = ∑ c : Dev nD, (tallyAt (barCell c) () 1 : CellTallies nD τ sig Unit) :=
  (peerEquiv d).sum_comp fun c => (tallyAt (barCell c) () 1 : CellTallies nD τ sig Unit)

theorem sum_O₀ : (∑ c : Dev nD, O₀ c) = ∑ c : Dev nD, dueAt c := by
  have hR (d : Fin 3) : (∑ c : Dev nD, ∑ k : Fin 16, tR c d k) = ∑ c : Dev nD, ∑ k : Fin 16, recvDue c d k := by
    rw [Finset.sum_comm, Finset.sum_congr rfl fun k _ => sum_tR d k, Finset.sum_comm]
  have hB : (∑ c : Dev nD, (tallyAt (barCell c) () 3 : CellTallies nD τ sig Unit))
      = (∑ c : Dev nD, tB c 2) + (∑ c : Dev nD, tB c 1) + ∑ c : Dev nD, tB c 0 := by
    rw [sum_tB, sum_tB, sum_tB, ← Finset.sum_add_distrib, ← Finset.sum_add_distrib]
    exact Finset.sum_congr rfl fun c _ => by rw [tallyAt_add, tallyAt_add]
  have hT (c : Dev nD) : (∑ dk : Fin 3 × Fin 16, recvDue c dk.1 dk.2)
      = (∑ k, recvDue c 0 k) + (∑ k, recvDue c 1 k) + ∑ k, recvDue c 2 k := by
    rw [Fintype.sum_prod_type, Fin.sum_univ_three]
  simp only [O₀_eq_sum, dueAt, hT, Finset.sum_add_distrib, hR, hB]
  ac_rfl

theorem dueAt_support (d : Dev nD) (g : GSem nD τ sig) (h : dueAt d g ≠ 0) : g.1 = (d.tc : Thread nD τ) := by
  by_contra hne
  refine h ?_
  unfold dueAt recvDue
  rw [Pi.add_apply, Finset.sum_apply, tallyAt_ne_cell (fun e => hne (congrArg Prod.fst e)), zero_add]
  exact Finset.sum_eq_zero fun dk _ => tallyAt_ne_cell (fun e => hne (congrArg Prod.fst e)) _ _

omit [FloatOps F] in

theorem creds (c : Dev nD) :
    (Pipeline.launchCred O₀ c : sProp 𝕄) ⊢ iprop(cred (tallyAt (barCell c) () 3) ∗ bigSep Finset.univ fun dk : Fin 3 × Fin 16 =>
      cred (tallyAt (dcell c (recvArr dk.1) dk.2) () (amt c (semOf (recvArr dk.1) dk.2).val))) := by
  rw [Pipeline.launchCred_of_sum O₀ dueAt sum_O₀ dueAt_support c]
  unfold dueAt
  refine (cred_add _ _).1.trans (sep_mono_right ?_)
  rw [Pipeline.cred_finsetSum]
  exact Entails.rfl

end Cert.Kernel.AG

end
-- ==== Proof.GhostK.lean ====
import proofs.«900679_g7700000000000680_dist_ag_v7x_xyz2x2x4_x_m2048_n512_f32_1_alg».proof.Proof.FamK
import proofs.«900679_g7700000000000680_dist_ag_v7x_xyz2x2x4_x_m2048_n512_f32_1_alg».proof.Proof.LevelsK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

abbrev CIx : Type := Option (Option (Fin 6 × Fin 16))
def kcell (ck : Dev nD × CIx) : GSem nD τ sig :=
  match ck.2 with
  | none => barCell ck.1
  | some none => locCell ck.1
  | some (some ak) => dcell ck.1 ak.1 ak.2

def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

def linear (c : Dev nD) : sProp 𝕄 :=
  iprop(atPos ER (barCell c) 0 ∅ 0 ∗ atPos ER (locCell c) 0 ∅ 0 ∗ (bigSep Finset.univ fun a : Fin 6 => AtF (F := F) c a Finset.univ)
    ∗ (bigSep Finset.univ fun d : Fin 3 => dutyTok ER (barCell (peer d c)) 0 d) ∗ dutyTok ER (locCell c) 0 0
    ∗ (bigSep Finset.univ fun d : Fin 3 => TokF (F := F) c d Finset.univ))

def ghost (K : Dev nD × CIx → ℕ) (c : Dev nD) : sProp 𝕄 := iprop(records m K ∗ linear (F := F) c)

def start (c : Dev nD) : sProp 𝕄 :=
  iprop((∃ K, ghost m K c) ∗ cred (tallyAt (barCell c) () 3) ∗ (bigSep Finset.univ fun d : Fin 3 => CrR (F := F) c d Finset.univ) ∗ levAts L lv)

def Φ₀ (c : Dev nD) : sProp 𝕄 := start m c

def Φ₁ (c : Dev nD) : sProp 𝕄 := iprop(semVal (locCell c) 0 ∗ bigSep Finset.univ fun a : Fin 6 => ClF (F := F) c a Finset.univ)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xin m c
    | ⟨1, _⟩ => Gout m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (Xin m c) ∗ stg c cc0_stg1_0 (Gout m c))

end Cert.Kernel.AG
end
-- ==== Proof.LaunchK.lean ====
import proofs.«900679_g7700000000000680_dist_ag_v7x_xyz2x2x4_x_m2048_n512_f32_1_alg».proof.Proof.GhostK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

def osem : Option (Fin 6 × Fin 16) → SemLoc sig
  | none => .dma locS
  | some ak => .dma (semOf ak.1 ak.2)

theorem osem_injective : Function.Injective (osem : Option (Fin 6 × Fin 16) → SemLoc sig) := by
  rintro (_ | ⟨a, k⟩) (_ | ⟨a', k'⟩) h
  · rfl
  · have h3 : (98 : ℕ) = 2 + 16 * a'.val + k'.val := congrArg Fin.val (SemLoc.dma.inj h)
    have := a'.isLt; have := k'.isLt; omega
  · have h3 : 2 + 16 * a.val + k.val = (98 : ℕ) := congrArg Fin.val (SemLoc.dma.inj h)
    have := a.isLt; have := k.isLt; omega
  · have h3 : 2 + 16 * a.val + k.val = 2 + 16 * a'.val + k'.val := congrArg Fin.val (SemLoc.dma.inj h)
    have := k.isLt; have := k'.isLt
    have ha : a = a' := Fin.ext (by omega)
    have hk : k = k' := Fin.ext (by omega)
    rw [ha, hk]

theorem ownSemFacts : Pipeline.OwnSemFacts cfg0.spec osem :=
  ⟨by decide, osem_injective, by decide⟩

theorem share_eq (c : Dev nD) (w : Fin cfg0.W) : (dats m ρ 0 c).share w = fullShare := by unfold Dat.share; split <;> rfl

theorem kcell_some (c : Dev nD) (o : Option (Fin 6 × Fin 16)) : kcell (c, some o) = ((c : Thread nD τ), osem o) := by
  cases o <;> rfl

theorem kcell_injective : Function.Injective (kcell : Dev nD × CIx → GSem nD τ sig) := by
  rintro ⟨c, k⟩ ⟨c', k'⟩ h
  have h1 : c = c' := by
    have := congrArg (fun g : GSem nD τ sig => g.1.1) h
    rcases k with _ | _ | ak <;> rcases k' with _ | _ | ak' <;> exact this
  subst h1
  have h2 : (kcell (c, k)).2 = (kcell (c, k')).2 := congrArg Prod.snd h
  rcases k with _ | o <;> rcases k' with _ | o'
  · rfl
  · rw [kcell_some] at h2; exact absurd h2 (by cases o' <;> exact fun h => by cases h)
  · rw [kcell_some] at h2; exact absurd h2 (by cases o <;> exact fun h => by cases h)
  · rw [kcell_some, kcell_some] at h2
    rw [osem_injective h2]

def agCells : Finset (GSem nD τ sig) := Finset.univ.map ⟨kcell, kcell_injective⟩

abbrev TIx : Type := Fin 3 ⊕ Option (Fin 6 × Fin 16)
def tcell : TIx → CIx
  | .inl _ => none
  | .inr o => some o
def tduty : TIx → Fin 3
  | .inl d => d
  | .inr _ => 0
def tokOf (cj : Dev nD × TIx) : GSem nD τ sig × ℕ × Fin 3 := (kcell (cj.1, tcell cj.2), 0, tduty cj.2)
theorem tokOf_injective : Function.Injective (tokOf : Dev nD × TIx → GSem nD τ sig × ℕ × Fin 3) := by
  rintro ⟨c, j⟩ ⟨c', j'⟩ h
  have h1 : (c, tcell j) = (c', tcell j') := kcell_injective (congrArg (fun x : GSem nD τ sig × ℕ × Fin 3 => x.1) h)
  have h2 : tduty j = tduty j' := congrArg (fun x : GSem nD τ sig × ℕ × Fin 3 => x.2.2) h
  have hc : c = c' := congrArg Prod.fst h1
  have ht : tcell j = tcell j' := congrArg Prod.snd h1
  subst hc
  have : j = j' := by
    rcases j with d | o <;> rcases j' with d' | o'
    · exact congrArg Sum.inl h2
    · cases ht
    · cases ht
    · exact congrArg Sum.inr (Option.some.inj ht)
  rw [this]
def agToks : Finset (GSem nD τ sig × ℕ × Fin 3) := Finset.univ.map ⟨tokOf, tokOf_injective⟩

def u₀ : UU :=
  (initOf (Pipeline.cells cfgs cellOf_inj) (Pipeline.launchToks cfgs cellOf_inj), initOf agCells agToks)

def toks (c : Dev nD) : sProp 𝕄 :=
  iprop((bigSep Finset.univ fun d : Fin 3 => dutyTok ER (barCell c) 0 d) ∗ dutyTok ER (locCell c) 0 0
    ∗ bigSep Finset.univ fun ak : Fin 6 × Fin 16 => dutyTok ER (dcell c ak.1 ak.2) 0 0)

def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks (F := F) c)

def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in

theorem bigSep_univ_option {α : Type} [Fintype α] [DecidableEq α] (Φ : Option α → sProp 𝕄) :
    bigSep Finset.univ Φ = iprop(Φ none ∗ bigSep Finset.univ fun a => Φ (some a)) := by
  have e : (Finset.univ.erase (none : Option α)) = Finset.univ.map Function.Embedding.some := by
    ext x; cases x <;> simp
  rw [bigSep_univ_at Φ none, e, bigSep_map]; rfl

omit [FloatOps F] in
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : CIx => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_univ_sum, bigSep_univ_option]; rfl
  iintro HX
  imod (Rounds.fund ER (Rd m) agCells agToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = iprop(semVal (locCell c) 0 ∗ bigSep Finset.univ fun ak : Fin 6 × Fin 16 => semVal (dcell c ak.1 ak.2) 0) := by
  unfold Pipeline.ownSems0; rw [bigSep_univ_option]; rfl
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_univ_option,
    bigSep_congr (s := Finset.univ) (Φ := fun o : Option (Fin 6 × Fin 16) => (semVal (kcell (c, some o)) 0 : sProp 𝕄))
      (Ψ := fun o : Option (Fin 6 × Fin 16) => (semVal ((c : Thread nD τ), osem o) 0 : sProp 𝕄)) fun o _ => by rw [kcell_some]]
  unfold Pipeline.ownSems0
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe # ∗

def payToks (c : Dev nD) : sProp 𝕄 :=
  iprop((bigSep Finset.univ fun d : Fin 3 => dutyTok ER (barCell (peer d c)) 0 d) ∗ dutyTok ER (locCell c) 0 0
    ∗ (bigSep Finset.univ fun d : Fin 3 => TokF (F := F) c d Finset.univ))

omit [FloatOps F] in

theorem bigSep_around (X : Dev nD → Fin 3 → sProp 𝕄) :
    (bigSep Finset.univ fun c : Dev nD => bigSep Finset.univ fun d : Fin 3 => X c d)
      = bigSep Finset.univ fun c : Dev nD => bigSep Finset.univ fun d : Fin 3 => X (peer d c) d := by
  rw [bigSep_univ_comm, bigSep_congr (s := Finset.univ) fun (d : Fin 3) _ => bigSep_univ_equiv (peerEquiv d) (fun c : Dev nD => X c d),
    bigSep_univ_comm]
  rfl

omit [FloatOps F] in
theorem bigSep_sep4 {I : Type} (s : Finset I) (A B C D : I → sProp 𝕄) :
    bigSep s (fun i => iprop(A i ∗ B i ∗ C i ∗ D i)) = iprop(bigSep s A ∗ bigSep s B ∗ bigSep s C ∗ bigSep s D) := by
  rw [bigSep_sep', bigSep_sep', bigSep_sep']

def tokS (c : Dev nD) (d : Fin 3) : sProp 𝕄 := bigSep Finset.univ fun k : Fin 16 => dutyTok ER (dcell c (sendArr d) k) 0 0
def tokR (c : Dev nD) (d : Fin 3) : sProp 𝕄 := bigSep Finset.univ fun k : Fin 16 => dutyTok ER (dcell c (recvArr d) k) 0 0
def tokB (c : Dev nD) (d : Fin 3) : sProp 𝕄 := dutyTok ER (barCell c) 0 d

omit [FloatOps F] in

theorem dma_toks_split (c : Dev nD) :
    (bigSep Finset.univ fun ak : Fin 6 × Fin 16 => (dutyTok ER (dcell c ak.1 ak.2) 0 0 : sProp 𝕄))
      ⊢ iprop((bigSep Finset.univ fun d : Fin 3 => tokS (F := F) c d) ∗ bigSep Finset.univ fun d : Fin 3 => tokR (F := F) c d) := by
  unfold tokS tokR
  rw [bigSep_univ_prod, bigSep_fin6, bigSep_fin3, bigSep_fin3]
  iintro ⟨H0, H1, H2, H3, H4, H5⟩
  isplitl [H0 H2 H4]
  · isplitl [H0]; · iexact H0
    isplitl [H2]; · iexact H2
    iexact H4
  · isplitl [H1]; · iexact H1
    isplitl [H3]; · iexact H3
    iexact H5

omit [FloatOps F] in
theorem toks_split (c : Dev nD) :
    (toks c : sProp 𝕄) ⊢ iprop((bigSep Finset.univ fun d : Fin 3 => tokB (F := F) c d) ∗ dutyTok ER (locCell c) 0 0
      ∗ (bigSep Finset.univ fun d : Fin 3 => tokS (F := F) c d) ∗ bigSep Finset.univ fun d : Fin 3 => tokR (F := F) c d) := by
  unfold toks tokB
  iintro ⟨HB, HL, HD⟩
  ihave HD' := (dma_toks_split (F := F) c) $$ HD
  icases HD' with ⟨HS, HR⟩
  iframe # ∗

omit [FloatOps F] in
theorem tokF_all (c : Dev nD) :
    (bigSep Finset.univ fun d : Fin 3 => TokF (F := F) c d Finset.univ)
      = iprop((bigSep Finset.univ fun d : Fin 3 => tokS (F := F) c d) ∗ bigSep Finset.univ fun d : Fin 3 => tokR (F := F) (peer d c) d) := by
  unfold TokF tokS tokR
  rw [← bigSep_sep']
  exact bigSep_congr fun d _ => bigSep_sep' _ _ _

omit [FloatOps F] in
theorem payToks_join (c : Dev nD) :
    iprop((bigSep Finset.univ fun d : Fin 3 => tokB (F := F) (peer d c) d) ∗ dutyTok ER (locCell c) 0 0
      ∗ (bigSep Finset.univ fun d : Fin 3 => tokS (F := F) c d) ∗ bigSep Finset.univ fun d : Fin 3 => tokR (F := F) (peer d c) d)
      ⊢ payToks (F := F) c := by
  unfold payToks
  rw [tokF_all]
  unfold tokB
  iintro ⟨HB, HL, HS, HR⟩
  iframe # ∗

omit [FloatOps F] in

theorem toks_around : (bigSep Finset.univ fun c : Dev nD => (toks c : sProp 𝕄)) ⊢ bigSep Finset.univ fun c : Dev nD => payToks c :=
  (bigSep_mono (s := Finset.univ) fun c _ => toks_split (F := F) c).trans <| by
    rw [bigSep_sep4, bigSep_around (fun c d => tokB (F := F) c d), bigSep_around (fun c d => tokR (F := F) c d), ← bigSep_sep4]
    exact bigSep_mono fun c _ => payToks_join (F := F) c

omit [FloatOps F] in
theorem linear_intro (c : Dev nD) :
    iprop((bigSep Finset.univ fun k : CIx => (atPos ER (kcell (c, k)) 0 ∅ 0 : sProp 𝕄)) ∗ payToks (F := F) c) ⊢ linear (F := F) c := by
  unfold linear payToks AtF
  rw [bigSep_univ_option, bigSep_univ_option, bigSep_univ_prod]
  iintro ⟨⟨HaB, HaL, HaD⟩, Hb, Hl, Ht⟩
  isplitl [HaB]; · iexact HaB
  isplitl [HaL]; · iexact HaL
  isplitl [HaD]; · iexact HaD
  isplitl [Hb]; · iexact Hb
  isplitl [Hl]; · iexact Hl
  iexact Ht

omit [FloatOps F] in
theorem regroup :
    (bigSep Finset.univ fun c : Dev nD => iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ linear (F := F) c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun k : CIx => (atPos ER (kcell (c, k)) 0 ∅ 0 : sProp 𝕄)) payToks).symm).trans
      (bigSep_mono fun c _ => linear_intro (F := F) c))
    iframe # ∗

omit [FloatOps F] in

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem creds' (c : Dev nD) :
    (Pipeline.launchCred O₀ c : sProp 𝕄) ⊢ iprop(cred (tallyAt (barCell c) () 3) ∗ bigSep Finset.univ fun d : Fin 3 => CrR (F := F) c d Finset.univ) := by
  unfold CrR
  rw [← bigSep_univ_prod (fun dk : Fin 3 × Fin 16 => (cred (tallyAt (dcell c (recvArr dk.1) dk.2) () (amt c (semOf (recvArr dk.1) dk.2).val)) : sProp 𝕄))]
  exact creds (F := F) c

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds' (F := F) c) $$ Hcr
  icases Hc with ⟨H1, HN⟩
  imodintro
  unfold start G'
  isplitl
  · iframe # ∗
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ ClF
  rw [bigSep_univ_prod]
  iintro ⟨Hl, Hd⟩
  isplitr; · iempintro
  isplitl
  · iframe # ∗
  · iempintro

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in

theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_o (c : Dev nD) :
    (win0_1.blk (0 : Fin 1)).view.read (Elt F) (finalA m ρ c (1 : Fin 2)) = Gout m c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in

theorem body_obligation_of (c : Dev nD)
    (h : bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c)) :
    BodyObligation (dats (F := F) m ρ 0 c) (defs₀ (F := F)) 𝒱₀ () Set.univ := fun t => by
  rw [fin_N t]
  rw [bigSep_W, bigSep_W]
  simp only [owns_whole_eq]
  exact h

end Cert.Kernel.AG
end
-- ==== Proof.ValueK.lean ====
import proofs.«900679_g7700000000000680_dist_ag_v7x_xyz2x2x4_x_m2048_n512_f32_1_alg».proof.Proof.GeomK
import Idealize.ShloMosaic.Lib.Layout

noncomputable section

namespace Cert.Kernel.AG

open Cert.Kernel Cert.Kernel.Gen Cert.AG
open Idealize.ShloMosaic
open Idealize.ShloMosaic.TcCoe
open Idealize.SL.Sem

variable {F : FTy → Type} [FloatOps F]
variable (m : (ℓ : Loc nD τ sig) → Buf (Elt F) ℓ)

theorem blk_emb (i : S2048x512.Idx) : (win0_0.blk (0 : Fin 1)).view.emb i = i := by
  funext a
  apply Fin.ext
  show 0 * S2048x512.size a + 1 * (i a : ℕ) = (i a : ℕ)
  rw [Nat.zero_mul, Nat.zero_add, Nat.one_mul]

theorem Xin_apply (c : Dev nD) (i : S2048x512.Idx) :
    Xin m c i = m ((c : Thread nD τ).loc main_arg0) i := by
  show m ((c : Thread nD τ).loc main_arg0) ((win0_0.blk (0 : Fin 1)).view.emb i) = _
  rw [blk_emb]

theorem meshBlock_rows (c : Fin 16) : ((Layout.meshBlock [2, 2, 4] ![[0], []] c) 0).val = xc c := by
  revert c; decide
theorem meshBlock_cols (c : Fin 16) : ((Layout.meshBlock [2, 2, 4] ![[0], []] c) 1).val = 0 := by
  revert c; decide

theorem block_apply (X : (⟨2, ![4096, 512]⟩ : Shape).Idx → Elt F .f32) (c : Dev nD) (i : S2048x512.Idx)
    (hr : 2048 * xc c + (i 0).val < 4096) :
    (Layout.blockN ⟨2, ![2048, 512]⟩ ⟨2, ![4096, 512]⟩ (Layout.meshBlock [2, 2, 4] ![[0], []] c) X) i
      = X (ValueIdx.ix2 (n0 := 4096) (n1 := 512) ⟨2048 * xc c + (i 0).val, hr⟩ (i 1)) := by
  rw [Layout.blockN_apply]
  congr 1
  funext b
  apply Fin.ext
  match b with
  | ⟨0, _⟩ =>
    show ((Layout.meshBlock [2, 2, 4] ![[0], []] c) 0).val * 2048 + (i 0).val = 2048 * xc c + (i 0).val
    rw [meshBlock_rows]; omega
  | ⟨1, _⟩ =>
    show ((Layout.meshBlock [2, 2, 4] ![[0], []] c) 1).val * 512 + (i 1).val = (i 1).val
    rw [meshBlock_cols]; omega

theorem Xin_block (X : (⟨2, ![4096, 512]⟩ : Shape).Idx → Elt F .f32)
    (hblk : ∀ c : Dev nD, m ((c : Thread nD τ).loc main_arg0)
      = Layout.blockN ⟨2, ![2048, 512]⟩ ⟨2, ![4096, 512]⟩ (Layout.meshBlock [2, 2, 4] ![[0], []] c) X)
    (c : Dev nD) (i : S2048x512.Idx) (hr : 2048 * xc c + (i 0).val < 4096) :
    Xin m c i = X (ValueIdx.ix2 (n0 := 4096) (n1 := 512) ⟨2048 * xc c + (i 0).val, hr⟩ (i 1)) := by
  rw [Xin_apply, hblk c]; exact block_apply X c i hr

theorem Gout_apply_whole (X : (⟨2, ![4096, 512]⟩ : Shape).Idx → Elt F .f32)
    (hblk : ∀ c : Dev nD, m ((c : Thread nD τ).loc main_arg0)
      = Layout.blockN ⟨2, ![2048, 512]⟩ ⟨2, ![4096, 512]⟩ (Layout.meshBlock [2, 2, 4] ![[0], []] c) X)
    (c : Dev nD) (i : S4096x512.Idx) : Gout m c i = X i := by
  have hi : (i 0).val < 4096 := (i 0).isLt
  have hx := xc_srcDev c (i 0).val hi
  unfold Gout
  rw [Xin_block m X hblk _ _ (by rw [hx]; show 2048 * ((i 0).val / 2048) + (i 0).val % 2048 < 4096; omega)]
  congr 1
  funext b
  apply Fin.ext
  match b with
  | ⟨0, _⟩ =>
    show 2048 * xc (srcDev c (i 0).val) + (i 0).val % 2048 = (i 0).val
    rw [hx]; omega
  | ⟨1, _⟩ => rfl

theorem Gout_eq_whole (X : (⟨2, ![4096, 512]⟩ : Shape).Idx → Elt F .f32)
    (hblk : ∀ c : Dev nD, m ((c : Thread nD τ).loc main_arg0)
      = Layout.blockN ⟨2, ![2048, 512]⟩ ⟨2, ![4096, 512]⟩ (Layout.meshBlock [2, 2, 4] ![[0], []] c) X)
    (c : Dev nD) : Gout m c = X := funext (Gout_apply_whole m X hblk c)

end Cert.Kernel.AG

end
-- ==== Proof.ClaimsK.lean ====
import proofs.«900679_g7700000000000680_dist_ag_v7x_xyz2x2x4_x_m2048_n512_f32_1_alg».proof.Proof.LaunchK
import proofs.«900679_g7700000000000680_dist_ag_v7x_xyz2x2x4_x_m2048_n512_f32_1_alg».proof.Proof.ValueK
import proofs.«900679_g7700000000000680_dist_ag_v7x_xyz2x2x4_x_m2048_n512_f32_1_alg».proof.Defs
import proofs.«900679_g7700000000000680_dist_ag_v7x_xyz2x2x4_x_m2048_n512_f32_1_alg».proof.Proof.Gen.Pre_finite_inputs_Kernel

noncomputable section

namespace Cert.Kernel.AG

open Cert.Kernel Cert.Kernel.Gen Cert.AG
open Idealize.ShloMosaic
open Idealize.ShloMosaic.TcCoe
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem blk_out_emb (i : S4096x512.Idx) : (win0_1.blk (0 : Fin 1)).view.emb i = i := by
  funext a
  apply Fin.ext
  show 0 * S4096x512.size a + 1 * (i a : ℕ) = (i a : ℕ)
  rw [Nat.zero_mul, Nat.zero_add, Nat.one_mul]

theorem blk_out_read (c : Dev nD) (f : Buf (Elt F) ((c.tc : Thread nD τ).loc main_v1)) (i : S4096x512.Idx) :
    (win0_1.blk (0 : Fin 1)).view.read (Elt F) f i = f i := by
  show f ((win0_1.blk (0 : Fin 1)).view.emb i) = f i
  rw [blk_out_emb]

theorem run_frame (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c (0 : Fin 2)).trans (finalA_x m ρ c)) (run_main m ρ hbody)

theorem run_value (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Gout m c
      ∧ r.2.mem ((c.tc : Thread nD τ).loc main_arg0) = m ((c.tc : Thread nD τ).loc main_arg0)) :=
  (θ_run defs _ _).mono (fun r h c =>
      ⟨(funext fun i => ((blk_out_read c (r.2.mem ((c.tc : Thread nD τ).loc main_v1)) i).symm.trans
          (congrFun (congrArg ((win0_1.blk (0 : Fin 1)).view.read (Elt F)) (h c (1 : Fin 2))) i)).trans
            (congrFun (finalA_o m ρ c) i)),
        (h c (0 : Fin 2)).trans (finalA_x m ρ c)⟩)
    (run_main m ρ hbody)

theorem frame_ki_of
    (hbody : ∀ (F : FTy → Type) [FloatOps F] (m : (ℓ : Loc nD τ sig) → Buf (Elt F) ℓ) (ρ : Dev nD → PrngReg) (c : Dev nD),
      BodyObligation (dats (F := F) m ρ 0 c) (defs₀ (F := F)) 𝒱₀ () Set.univ) :
    Cert.frame_Kernel :=
  fun m g _ => run_frame m g (hbody _ m g)

end Cert.Kernel.AG

end
-- ==== Proof.DevEq.lean ====
import proofs.«900679_g7700000000000680_dist_ag_v7x_xyz2x2x4_x_m2048_n512_f32_1_alg».proof.Proof.Gen.KernelIdeal
import proofs.«900679_g7700000000000680_dist_ag_v7x_xyz2x2x4_x_m2048_n512_f32_1_alg».proof.Proof.Mesh

namespace Cert.KernelIdeal.AGDev

open Idealize.ShloMosaic Idealize.SL.Sem
open Cert.KernelIdeal Cert.KernelIdeal.Gen Cert.AG

theorem cond1_iff (c : Dev nD) : k0_cond1 c = 1#1 ↔ (yc c = 0 ∧ pc c = 0) := by revert c; decide +kernel
theorem cond2_iff (c : Dev nD) : k0_cond2 c = 1#1 ↔ (yc c = 0 ∧ pc c = 1) := by revert c; decide +kernel
theorem cond3_iff (c : Dev nD) : k0_cond3 c = 1#1 ↔ (yc c = 1 ∧ pc c = 0) := by revert c; decide +kernel
theorem cond4_iff (c : Dev nD) : k0_cond4 c = 1#1 ↔ (yc c = 1 ∧ pc c = 1) := by revert c; decide +kernel

theorem cond_cases (c : Dev nD) : k0_cond1 c = 1#1 ∨ k0_cond2 c = 1#1 ∨ k0_cond3 c = 1#1 ∨ k0_cond4 c = 1#1 := by
  revert c; decide +kernel

theorem conds_of_cond1 {c : Dev nD} (h : k0_cond1 c = 1#1) : ((k0_cond1 c = 1#1) = True) ∧ ((k0_cond2 c = 1#1) = False) ∧ ((k0_cond3 c = 1#1) = False) ∧ ((k0_cond4 c = 1#1) = False) := by
  have := (by decide +kernel : ∀ c : Dev nD, k0_cond1 c = 1#1 → ¬ k0_cond2 c = 1#1 ∧ ¬ k0_cond3 c = 1#1 ∧ ¬ k0_cond4 c = 1#1) c h
  exact ⟨eq_true h, eq_false this.1, eq_false this.2.1, eq_false this.2.2⟩
theorem conds_of_cond2 {c : Dev nD} (h : k0_cond2 c = 1#1) : ((k0_cond1 c = 1#1) = False) ∧ ((k0_cond2 c = 1#1) = True) ∧ ((k0_cond3 c = 1#1) = False) ∧ ((k0_cond4 c = 1#1) = False) := by
  have := (by decide +kernel : ∀ c : Dev nD, k0_cond2 c = 1#1 → ¬ k0_cond1 c = 1#1 ∧ ¬ k0_cond3 c = 1#1 ∧ ¬ k0_cond4 c = 1#1) c h
  exact ⟨eq_false this.1, eq_true h, eq_false this.2.1, eq_false this.2.2⟩
theorem conds_of_cond3 {c : Dev nD} (h : k0_cond3 c = 1#1) : ((k0_cond1 c = 1#1) = False) ∧ ((k0_cond2 c = 1#1) = False) ∧ ((k0_cond3 c = 1#1) = True) ∧ ((k0_cond4 c = 1#1) = False) := by
  have := (by decide +kernel : ∀ c : Dev nD, k0_cond3 c = 1#1 → ¬ k0_cond1 c = 1#1 ∧ ¬ k0_cond2 c = 1#1 ∧ ¬ k0_cond4 c = 1#1) c h
  exact ⟨eq_false this.1, eq_false this.2.1, eq_true h, eq_false this.2.2⟩
theorem conds_of_cond4 {c : Dev nD} (h : k0_cond4 c = 1#1) : ((k0_cond1 c = 1#1) = False) ∧ ((k0_cond2 c = 1#1) = False) ∧ ((k0_cond3 c = 1#1) = False) ∧ ((k0_cond4 c = 1#1) = True) := by
  have := (by decide +kernel : ∀ c : Dev nD, k0_cond4 c = 1#1 → ¬ k0_cond1 c = 1#1 ∧ ¬ k0_cond2 c = 1#1 ∧ ¬ k0_cond3 c = 1#1) c h
  exact ⟨eq_false this.1, eq_false this.2.1, eq_false this.2.2, eq_true h⟩

/-- A device number the body computes names a partner as soon as the two agree on all sixteen devices. -/
theorem dev_eq (f : Dev nD → ℕ) (g : Dev nD → Dev nD) (h : ∀ c, f c = (g c).val) (c : Dev nD) (hlt : f c < nD) :
    (⟨f c, hlt⟩ : Dev nD) = g c := Fin.ext (h c)

theorem dev1_eq (c : Dev nD) (h : k0_dev1 c < nD) : (⟨k0_dev1 c, h⟩ : Dev nD) = xp c := dev_eq _ _ (by decide +kernel) c h
theorem dev2_eq (c : Dev nD) (h : k0_dev2 c < nD) : (⟨k0_dev2 c, h⟩ : Dev nD) = yp c := dev_eq _ _ (by decide +kernel) c h
theorem dev3_eq (c : Dev nD) (h : k0_dev3 c < nD) : (⟨k0_dev3 c, h⟩ : Dev nD) = zb c := dev_eq _ _ (by decide +kernel) c h

theorem off1_eq (c : Dev nD) : k0_off1 c = ![2048 * xc c, 0] := k0_off1_eq c

/-- A fact about a device of a known class (y, parity of z) is checked on the sixteen devices. -/
macro "class_decide " c:ident hy:ident hp:ident : tactic =>
  `(tactic| (generalize $c = d at $hy:ident $hp:ident ⊢; revert d; decide +kernel))

end Cert.KernelIdeal.AGDev
-- ==== Proof.Views.lean ====
import proofs.«900679_g7700000000000680_dist_ag_v7x_xyz2x2x4_x_m2048_n512_f32_1_alg».proof.Proof.Proto
import proofs.«900679_g7700000000000680_dist_ag_v7x_xyz2x2x4_x_m2048_n512_f32_1_alg».proof.Proof.Geom

noncomputable section

namespace Cert.KernelIdeal.AG

open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

abbrev Sn (n : ℕ) : Shape := ⟨2, ![n, 512]⟩

abbrev oSl (n : ℕ) (off : Fin 2 → ℕ) (h : ∀ a, off a + (Sn n).size a ≤ S4096x512.size a) :
    Memref sig .tc .vmem (Sn n) .f32 :=
  oM.slice (Rect.unit (s := S4096x512) off (Sn n).size h) (fun _ => rfl)

abbrev xSl (n : ℕ) (off : Fin 2 → ℕ) (h : ∀ a, off a + (Sn n).size a ≤ S2048x512.size a) :
    Memref sig .tc .vmem (Sn n) .f32 :=
  xM.slice (Rect.unit (s := S2048x512) off (Sn n).size h) (fun _ => rfl)

omit [FloatOps F] in

theorem oSl_set (n : ℕ) (off : Fin 2 → ℕ) (h) (lo : ℕ) (ho : off = ![lo, 0]) :
    (oSl n off h).view.set = rowsO lo n :=
  Cert.AGRows.set_rowSlice cc0_stg1_0 Nat.zero_lt_two ⟨by rw [ho]; rfl, rfl⟩
    (Cert.AGRows.forall_fin_two_ne_zero ⟨by rw [ho]; rfl, rfl⟩)

omit [FloatOps F] in

theorem xSl_set (n : ℕ) (off : Fin 2 → ℕ) (h) (lo : ℕ) (ho : off = ![lo, 0]) :
    (xSl n off h).view.set = rowsX lo n :=
  Cert.AGRows.set_rowSlice cc0_stg0_0 Nat.zero_lt_two ⟨by rw [ho]; rfl, rfl⟩
    (Cert.AGRows.forall_fin_two_ne_zero ⟨by rw [ho]; rfl, rfl⟩)

omit [FloatOps F] in
theorem xM_set : xM.view.set = rowsX 0 2048 := by
  rw [show xM.view.set = Finset.univ from View.set_whole _]
  exact (Cert.AGRows.rows_univ₂ ![2048, 512]).symm

variable {q : PosShare TreeShare}

omit [FloatOps F] in

theorem landed_oo (c c' : Dev nD) (n : ℕ) (offS offD : Fin 2 → ℕ) (hS) (hD) {ls ld : ℕ}
    (hoS : offS = ![ls, 0]) (hoD : offD = ![ld, 0])
    (fs : Buf (Elt F) (ℓo c)) (fd G : Buf (Elt F) (ℓo c'))
    (hG : ∀ (i k : S4096x512.Idx), ld ≤ (i 0).val → (i 0).val < ld + n → (k 0).val + ld = (i 0).val + ls
      → (k 1).val = (i 1).val → G i = fs k) :
    ((oSl n offD hD).view.loc (c' : Thread nD τ) ↦[(oSl n offD hD).view.set]{q}
        ((oSl n offD hD).view.write (Elt F) fd ((oSl n offS hS).view.read (Elt F) fs) Finset.univ) : sProp 𝕄)
      = (ℓo c' ↦[rowsO ld n]{q} G) := by
  rw [Cert.AGRows.pointsTo_landed (c' := (c' : Thread nD τ)) (oSl n offS hS).view (oSl n offD hD).view fs fd G
    (fun x => heq_of_eq (by
      have h := Cert.AGRows.rows_rel_of_emb (dS := ![4096, 512]) (dD := ![4096, 512]) (size := ![n, 512]) hoS hoD
        (fun a => Cert.AGRows.emb_slice_whole_val cc0_stg1_0 (inb := hD) (fun _ => rfl) x a)
        (fun a => Cert.AGRows.emb_slice_whole_val cc0_stg1_0 (inb := hS) (fun _ => rfl) x a)
      exact hG _ _ h.1 h.2.1 h.2.2.1 h.2.2.2))]
  rw [oSl_set n offD hD ld hoD]

omit [FloatOps F] in

theorem landed_xo (c c' : Dev nD) (n : ℕ) (offS offD : Fin 2 → ℕ) (hS) (hD) {ls ld : ℕ}
    (hoS : offS = ![ls, 0]) (hoD : offD = ![ld, 0])
    (fs : Buf (Elt F) (ℓx c)) (fd G : Buf (Elt F) (ℓo c'))
    (hG : ∀ (i : S4096x512.Idx) (k : S2048x512.Idx), ld ≤ (i 0).val → (i 0).val < ld + n
      → (k 0).val + ld = (i 0).val + ls → (k 1).val = (i 1).val → G i = fs k) :
    ((oSl n offD hD).view.loc (c' : Thread nD τ) ↦[(oSl n offD hD).view.set]{q}
        ((oSl n offD hD).view.write (Elt F) fd ((xSl n offS hS).view.read (Elt F) fs) Finset.univ) : sProp 𝕄)
      = (ℓo c' ↦[rowsO ld n]{q} G) := by
  rw [Cert.AGRows.pointsTo_landed (c' := (c' : Thread nD τ)) (xSl n offS hS).view (oSl n offD hD).view fs fd G
    (fun x => heq_of_eq (by
      have h := Cert.AGRows.rows_rel_of_emb (dS := ![2048, 512]) (dD := ![4096, 512]) (size := ![n, 512]) hoS hoD
        (fun a => Cert.AGRows.emb_slice_whole_val cc0_stg1_0 (inb := hD) (fun _ => rfl) x a)
        (fun a => Cert.AGRows.emb_slice_whole_val cc0_stg0_0 (inb := hS) (fun _ => rfl) x a)
      exact hG _ _ h.1 h.2.1 h.2.2.1 h.2.2.2))]
  rw [oSl_set n offD hD ld hoD]

omit [FloatOps F] in

theorem landed_wo (c c' : Dev nD) (offD : Fin 2 → ℕ) (hD : ∀ a, offD a + S2048x512.size a ≤ S4096x512.size a) {ld : ℕ}
    (hoD : offD = ![ld, 0])
    (fs : Buf (Elt F) (ℓx c)) (fd G : Buf (Elt F) (ℓo c'))
    (hG : ∀ (i : S4096x512.Idx) (k : S2048x512.Idx), ld ≤ (i 0).val → (i 0).val < ld + 2048
      → (k 0).val + ld = (i 0).val → (k 1).val = (i 1).val → G i = fs k) :
    ((oM.slice (Rect.unit (s := S4096x512) offD S2048x512.size hD) (fun _ => rfl)).view.loc (c' : Thread nD τ)
        ↦[(oM.slice (Rect.unit (s := S4096x512) offD S2048x512.size hD) (fun _ => rfl)).view.set]{q}
        ((oM.slice (Rect.unit (s := S4096x512) offD S2048x512.size hD) (fun _ => rfl)).view.write (Elt F) fd
          (xM.view.read (Elt F) fs) Finset.univ) : sProp 𝕄)
      = (ℓo c' ↦[rowsO ld 2048]{q} G) := by
  rw [Cert.AGRows.pointsTo_landed (c' := (c' : Thread nD τ)) xM.view
    (oM.slice (Rect.unit (s := S4096x512) offD S2048x512.size hD) (fun _ => rfl)).view fs fd G
    (fun x => heq_of_eq (by
      have h := Cert.AGRows.rows_rel_of_emb (dS := ![2048, 512]) (dD := ![4096, 512]) (size := ![2048, 512])
        (offS := ![0, 0]) (ls := 0) rfl hoD
        (i := (oM.slice (Rect.unit (s := S4096x512) offD S2048x512.size hD) (fun _ => rfl)).view.emb x)
        (k := x) (x := x)
        (fun a => Cert.AGRows.emb_slice_whole_val cc0_stg1_0 (inb := hD) (fun _ => rfl) x a)
        (fun a => by
          rcases Fin.exists_fin_two.mp ⟨a, rfl⟩ with rfl | rfl
          · exact (Nat.zero_add _).symm
          · exact (Nat.zero_add _).symm)
      exact hG _ _ h.1 h.2.1 h.2.2.1 h.2.2.2))]
  rw [oSl_set 2048 offD hD ld hoD]

theorem idxX_ext {i k : S2048x512.Idx} (h0 : (i 0).val = (k 0).val) (h1 : (i 1).val = (k 1).val) : i = k :=
  Shape.idx_ext₂ h0 h1

theorem idxO_ext {i k : S4096x512.Idx} (h0 : (i 0).val = (k 0).val) (h1 : (i 1).val = (k 1).val) : i = k :=
  Shape.idx_ext₂ h0 h1

theorem land_x (c : Dev nD) (k : Fin 16) (n : ℕ) (hn : n = rLen c 0 k.val) (offS offD : Fin 2 → ℕ) (hS) (hD)
    (hoS : offS = ![sLo c 0 k.val, 0]) (hoD : offD = ![rLo (xp c) 0 k.val, 0]) (fd : Buf (Elt F) (ℓo (xp c))) :
    ((oSl n offD hD).view.loc (Dev.tc (xp c) : Thread nD τ) ↦[(oSl n offD hD).view.set]{fullShare}
        ((oSl n offD hD).view.write (Elt F) fd ((xSl n offS hS).view.read (Elt F) (Xin m c)) Finset.univ) : sProp 𝕄)
      = (ℓo (xp c) ↦[rowsO (rLo (xp c) 0 k.val) (rLen (xp c) 0 k.val)]{fullShare} Gout m (xp c)) := by
  have hn' : n = rLen (xp c) 0 k.val := hn.trans (rLen_x_eq c k.val)
  rw [← hn']
  refine landed_xo c (xp c) n offS offD hS hD hoS hoD (Xin m c) fd (Gout m (xp c)) ?_
  intro i j h1 h2 h3 h4
  obtain ⟨e1, e2⟩ := srcDev_x c k.val k.isLt (i 0).val h1 (by rw [← hn']; exact h2)
  unfold Gout
  rw [e1]
  congr 1
  refine idxX_ext ?_ ?_
  · show (i 0).val % 2048 = (j 0).val
    rw [e2]; omega
  · exact h4.symm

theorem land_o (c c' : Dev nD) (lo n : ℕ) (offS offD : Fin 2 → ℕ) (hS) (hD)
    (hoS : offS = ![lo, 0]) (hoD : offD = ![lo, 0])
    (hsrc : ∀ r, lo ≤ r → r < lo + n → srcDev c' r = srcDev c r) (fd : Buf (Elt F) (ℓo c')) :
    ((oSl n offD hD).view.loc (Dev.tc c' : Thread nD τ) ↦[(oSl n offD hD).view.set]{fullShare}
        ((oSl n offD hD).view.write (Elt F) fd ((oSl n offS hS).view.read (Elt F) (Gout m c)) Finset.univ) : sProp 𝕄)
      = (ℓo c' ↦[rowsO lo n]{fullShare} Gout m c') := by
  refine landed_oo c c' n offS offD hS hD hoS hoD (Gout m c) fd (Gout m c') ?_
  intro i j h1 h2 h3 h4
  have hij : j = i := idxO_ext (by omega) h4
  subst hij
  unfold Gout
  rw [hsrc (j 0).val h1 h2]

theorem land_loc (c : Dev nD) (off : Fin 2 → ℕ) (h : ∀ a, off a + S2048x512.size a ≤ S4096x512.size a)
    (ho : off = ![2048 * xc c, 0]) (fd : Buf (Elt F) (ℓo c)) :
    ((oM.slice (Rect.unit (s := S4096x512) off S2048x512.size h) (fun _ => rfl)).view.loc (Dev.tc c : Thread nD τ)
        ↦[(oM.slice (Rect.unit (s := S4096x512) off S2048x512.size h) (fun _ => rfl)).view.set]{fullShare}
        ((oM.slice (Rect.unit (s := S4096x512) off S2048x512.size h) (fun _ => rfl)).view.write (Elt F) fd
          (xM.view.read (Elt F) (Xin m c)) Finset.univ) : sProp 𝕄)
      = (ℓo c ↦[rowsO (2048 * xc c) 2048]{fullShare} Gout m c) := by
  refine landed_wo c c off h ho (Xin m c) fd (Gout m c) ?_
  intro i j h1 h2 h3 h4
  unfold Gout
  rw [srcDev_own c (i 0).val h1 h2]
  congr 1
  refine idxX_ext ?_ ?_
  · show (i 0).val % 2048 = (j 0).val
    have := xc_lt c
    omega
  · exact h4.symm

end Cert.KernelIdeal.AG

end
-- ==== Proof.Steps.lean ====
import proofs.«900679_g7700000000000680_dist_ag_v7x_xyz2x2x4_x_m2048_n512_f32_1_alg».proof.Proof.Fam
import proofs.«900679_g7700000000000680_dist_ag_v7x_xyz2x2x4_x_m2048_n512_f32_1_alg».proof.Proof.Views
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

def credN (n : ℕ) : ℕ := if n = 48 then A48 else A40

theorem credit_oSl (n : ℕ) (h48 : n = 48 ∨ n = 40) (off : Fin 2 → ℕ) (h : ∀ a, off a + (Sn n).size a ≤ S4096x512.size a) :
    (oSl n off h).view.amount (.dma (semOf 0 0)) = credN n := by
  rcases h48 with rfl | rfl <;> rfl

theorem amt_of_len (c : Fin 16) (a : Fin 6) (k : Fin 16) (n : ℕ) (h : lenAt c (semOf a k).val = n) : amt c (semOf a k).val = credN n := by
  rw [amt_semOf, h]; rfl

theorem wp_xsend (K1 K2 : ℕ) (c n' : Dev nD) (hn' : n' = peer 0 c) (k : Fin 16) (n : ℕ) (hn : n = rLen c 0 k.val)
    (offS offD : Fin 2 → ℕ) (hS : ∀ a, offS a + (Sn n).size a ≤ S2048x512.size a) (hD : ∀ a, offD a + (Sn n).size a ≤ S4096x512.size a)
    (hoS : offS = ![sLo c 0 k.val, 0]) (hoD : offD = ![rLo (peer 0 c) 0 k.val, 0])
    {hsc : (oSl n offD hD : Memref sig (Dev.tc n' : Thread nD τ).2.kind .vmem (Sn n) .f32).view.ref.isScScratch = false}
    {hsrc : (xSl n offS hS).view.WordExact} {hdst : (oSl n offD hD).view.WordExact}
    {hsem : DmaTarget.Typed .vmem (.dma (semOf (recvArr 0) k)) (.remote (Dev.tc n' : Thread nD τ) (oSl n offD hD) (.dma (semOf (sendArr 0) k)) hsc)}
    {α : Type} {Q : α → sProp 𝕄} {kt : PUnit → Prog (TpuEff nD τ sig (Elt F) Λ₀ .tc) α}
    (fd : Buf (Elt F) (ℓo (peer 0 c))) (W : Waits sig Unit) (O : CellTallies nD τ sig Unit) :
    iprop(cellInv ER (Rd m) K1 (dcell c (sendArr 0) k) ∗ cellInv ER (Rd m) K2 (dcell (peer 0 c) (recvArr 0) k)
        ∗ (ℓx c ↦[rowsX (sLo c 0 k.val) (rLen c 0 k.val)]{fullShare.right} Xin m c)
        ∗ (ℓo (peer 0 c) ↦[rowsO (rLo (peer 0 c) 0 k.val) (rLen (peer 0 c) 0 k.val)]{fullShare} fd)
        ∗ owes (c : Thread nD τ) (O + tR c 0 k) W
        ∗ dutyTok ER (dcell c (sendArr 0) k) 0 0 ∗ reached ER (dcell c (sendArr 0) k) 0
        ∗ dutyTok ER (dcell (peer 0 c) (recvArr 0) k) 0 0 ∗ reached ER (dcell (peer 0 c) (recvArr 0) k) 0)
      ⊢ iprop(((cred (tallyAt (dcell c (sendArr 0) k) () (amt c (semOf (sendArr 0) k).val)) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xSl n offS hS) (.remote (Dev.tc n' : Thread nD τ) (oSl n offD hD) (.dma (semOf (sendArr 0) k)) hsc) (.dma (semOf (recvArr 0) k)) hsrc hdst hsem) kt) Q) := by
  subst hn'
  have hlenS : lenAt c (semOf (sendArr 0) k).val = n := by rw [hn]; exact lenAt_semOf_le2 c _ k (by decide)
  have hlenR : lenAt (peer 0 c) (semOf (recvArr 0) k).val = n := by
    rw [hn]; exact (lenAt_semOf_le2 (xp c) _ k (by decide)).trans (rLen_x_eq c k.val).symm
  have h48 : n = 48 ∨ n = 40 := by rw [hn]; exact rLen_cases c 0 k.val
  have hamtS : amt c (semOf (sendArr 0) k).val = credN n := amt_of_len c _ k n hlenS
  have hamtR : amt (peer 0 c) (semOf (recvArr 0) k).val = credN n := amt_of_len (peer 0 c) _ k n hlenR
  have hrl : rLen (peer 0 c) 0 k.val = n := by rw [hn]; exact (rLen_x_eq c k.val).symm
  unfold tR
  rw [hamtS, hamtR, hrl, ← hn, ← xSl_set n offS hS _ hoS, ← oSl_set n offD hD _ hoD]
  exact Rounds.wp_send_pointsTo 𝒱₀ ER (Rd m) (c : Thread nD τ) none (κ₁ := K1) (κ₂ := K2)
    (src := xSl n offS hS) (dst := oSl n offD hD) (c' := (Dev.tc (peer 0 c) : Thread nD τ)) (hsc := hsc) (hsrc := hsrc) (hdst := hdst) (hsem := hsem)
    (q := fullShare.right) (fs := Xin m c) (k := kt)
    (r₁ := 0) (r₂ := 0) (d₁ := 0) (d₂ := 0) (fd := fd) (mem_duties_dma m c _ k) (mem_duties_dma m (peer 0 c) _ k) () () (credN n)
    (credit_oSl n h48 offD hD) ((amount_dma m c _ k 0).trans hamtS) ((amount_dma m (peer 0 c) _ k 0).trans hamtR) O rfl (W := W)
    (by rw [payload_dma]; exact Entails.of_eq (by rw [show (semOf (sendArr 0) k) = semOf 0 k from rfl, dmaPay_0, xSl_set n offS hS _ hoS, ← hn]))
    (by rw [payload_dma]; exact Entails.of_eq (by rw [show (semOf (recvArr 0) k) = semOf 1 k from rfl, dmaPay_1]; exact land_x m c k n hn offS offD hS hD hoS hoD fd))

theorem wp_ysend (K1 K2 : ℕ) (c n' : Dev nD) (hn' : n' = peer 1 c) (k : Fin 16) (n : ℕ) (hn : n = rLen c 0 k.val)
    (offS offD : Fin 2 → ℕ) (hS : ∀ a, offS a + (Sn n).size a ≤ S4096x512.size a) (hD : ∀ a, offD a + (Sn n).size a ≤ S4096x512.size a)
    (hoS : offS = ![sLo c 1 k.val, 0]) (hoD : offD = ![rLo (peer 1 c) 1 k.val, 0])
    {hsc : (oSl n offD hD : Memref sig (Dev.tc n' : Thread nD τ).2.kind .vmem (Sn n) .f32).view.ref.isScScratch = false}
    {hsrc : (oSl n offS hS).view.WordExact} {hdst : (oSl n offD hD).view.WordExact}
    {hsem : DmaTarget.Typed .vmem (.dma (semOf (recvArr 1) k)) (.remote (Dev.tc n' : Thread nD τ) (oSl n offD hD) (.dma (semOf (sendArr 1) k)) hsc)}
    {α : Type} {Q : α → sProp 𝕄} {kt : PUnit → Prog (TpuEff nD τ sig (Elt F) Λ₀ .tc) α}
    (fd : Buf (Elt F) (ℓo (peer 1 c))) (W : Waits sig Unit) (O : CellTallies nD τ sig Unit) :
    iprop(cellInv ER (Rd m) K1 (dcell c (sendArr 1) k) ∗ cellInv ER (Rd m) K2 (dcell (peer 1 c) (recvArr 1) k)
        ∗ (ℓo c ↦[rowsO (sLo c 1 k.val) (rLen c 0 k.val)]{fullShare.left} Gout m c)
        ∗ (ℓo (peer 1 c) ↦[rowsO (rLo (peer 1 c) 1 k.val) (rLen (peer 1 c) 1 k.val)]{fullShare} fd)
        ∗ owes (c : Thread nD τ) (O + tR c 1 k) W
        ∗ dutyTok ER (dcell c (sendArr 1) k) 0 0 ∗ reached ER (dcell c (sendArr 1) k) 0
        ∗ dutyTok ER (dcell (peer 1 c) (recvArr 1) k) 0 0 ∗ reached ER (dcell (peer 1 c) (recvArr 1) k) 0)
      ⊢ iprop(((cred (tallyAt (dcell c (sendArr 1) k) () (amt c (semOf (sendArr 1) k).val)) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSl n offS hS) (.remote (Dev.tc n' : Thread nD τ) (oSl n offD hD) (.dma (semOf (sendArr 1) k)) hsc) (.dma (semOf (recvArr 1) k)) hsrc hdst hsem) kt) Q) := by
  subst hn'
  have hlenS : lenAt c (semOf (sendArr 1) k).val = n := by rw [hn]; exact lenAt_semOf_le2 c _ k (by decide)
  have hlenR : lenAt (peer 1 c) (semOf (recvArr 1) k).val = n := by
    rw [hn]; exact (lenAt_semOf_3 (yp c) k).trans (rLen_y_eq c k.val).symm
  have h48 : n = 48 ∨ n = 40 := by rw [hn]; exact rLen_cases c 0 k.val
  have hamtS : amt c (semOf (sendArr 1) k).val = credN n := amt_of_len c _ k n hlenS
  have hamtR : amt (peer 1 c) (semOf (recvArr 1) k).val = credN n := amt_of_len (peer 1 c) _ k n hlenR
  have hrl : rLen (peer 1 c) 1 k.val = n := by rw [hn]; exact (rLen_y_eq c k.val).symm
  unfold tR
  rw [hamtS, hamtR, hrl, ← hn, ← oSl_set n offS hS _ hoS, ← oSl_set n offD hD _ hoD]
  exact Rounds.wp_send_pointsTo 𝒱₀ ER (Rd m) (c : Thread nD τ) none (κ₁ := K1) (κ₂ := K2)
    (src := oSl n offS hS) (dst := oSl n offD hD) (c' := (Dev.tc (peer 1 c) : Thread nD τ)) (hsc := hsc) (hsrc := hsrc) (hdst := hdst) (hsem := hsem)
    (q := fullShare.left) (fs := Gout m c) (k := kt)
    (r₁ := 0) (r₂ := 0) (d₁ := 0) (d₂ := 0) (fd := fd) (mem_duties_dma m c _ k) (mem_duties_dma m (peer 1 c) _ k) () () (credN n)
    (credit_oSl n h48 offD hD) ((amount_dma m c _ k 0).trans hamtS) ((amount_dma m (peer 1 c) _ k 0).trans hamtR) O rfl (W := W)
    (by rw [payload_dma]; exact Entails.of_eq (by rw [show (semOf (sendArr 1) k) = semOf 2 k from rfl, dmaPay_2, oSl_set n offS hS _ hoS, ← hn]))
    (by
      have e : rLo (peer 1 c) 1 k.val = sLo c 1 k.val := (sLo_y_eq c k.val).symm
      rw [payload_dma]
      exact Entails.of_eq (by
        rw [show (semOf (recvArr 1) k) = semOf 3 k from rfl, dmaPay_3, e, hrl]
        exact land_o m c (peer 1 c) (sLo c 1 k.val) n offS offD hS hD hoS (hoD.trans (by rw [e]))
          (fun r h1 h2 => srcDev_y c k.val k.isLt r (by rw [← sLo_y_eq]; exact h1) (by rw [← sLo_y_eq, ← rLen_y_eq, ← hn]; exact h2)) fd))

theorem wp_zsend (K1 K2 : ℕ) (c n' : Dev nD) (hn' : n' = peer 2 c) (k : Fin 16) (n : ℕ) (hn : n = len680 k.val)
    (offS offD : Fin 2 → ℕ) (hS : ∀ a, offS a + (Sn n).size a ≤ S4096x512.size a) (hD : ∀ a, offD a + (Sn n).size a ≤ S4096x512.size a)
    (hoS : offS = ![sLo c 2 k.val, 0]) (hoD : offD = ![rLo (peer 2 c) 2 k.val, 0])
    {hsc : (oSl n offD hD : Memref sig (Dev.tc n' : Thread nD τ).2.kind .vmem (Sn n) .f32).view.ref.isScScratch = false}
    {hsrc : (oSl n offS hS).view.WordExact} {hdst : (oSl n offD hD).view.WordExact}
    {hsem : DmaTarget.Typed .vmem (.dma (semOf (recvArr 2) k)) (.remote (Dev.tc n' : Thread nD τ) (oSl n offD hD) (.dma (semOf (sendArr 2) k)) hsc)}
    {α : Type} {Q : α → sProp 𝕄} {kt : PUnit → Prog (TpuEff nD τ sig (Elt F) Λ₀ .tc) α}
    (fd : Buf (Elt F) (ℓo (peer 2 c))) (W : Waits sig Unit) (O : CellTallies nD τ sig Unit) :
    iprop(cellInv ER (Rd m) K1 (dcell c (sendArr 2) k) ∗ cellInv ER (Rd m) K2 (dcell (peer 2 c) (recvArr 2) k)
        ∗ (ℓo c ↦[rowsO (sLo c 2 k.val) (len680 k.val)]{fullShare.right} Gout m c)
        ∗ (ℓo (peer 2 c) ↦[rowsO (rLo (peer 2 c) 2 k.val) (rLen (peer 2 c) 2 k.val)]{fullShare} fd)
        ∗ owes (c : Thread nD τ) (O + tR c 2 k) W
        ∗ dutyTok ER (dcell c (sendArr 2) k) 0 0 ∗ reached ER (dcell c (sendArr 2) k) 0
        ∗ dutyTok ER (dcell (peer 2 c) (recvArr 2) k) 0 0 ∗ reached ER (dcell (peer 2 c) (recvArr 2) k) 0)
      ⊢ iprop(((cred (tallyAt (dcell c (sendArr 2) k) () (amt c (semOf (sendArr 2) k).val)) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSl n offS hS) (.remote (Dev.tc n' : Thread nD τ) (oSl n offD hD) (.dma (semOf (sendArr 2) k)) hsc) (.dma (semOf (recvArr 2) k)) hsrc hdst hsem) kt) Q) := by
  subst hn'
  have hlenS : lenAt c (semOf (sendArr 2) k).val = n := by rw [hn]; exact lenAt_semOf_ge4 c _ k (by decide) |>.trans (rLen_z c k.val)
  have hlenR : lenAt (peer 2 c) (semOf (recvArr 2) k).val = n := by
    rw [hn]; exact (lenAt_semOf_ge4 (zb c) _ k (by decide)).trans (rLen_z (zb c) k.val)
  have h48 : n = 48 ∨ n = 40 := by rw [hn]; exact len680_cases k.val
  have hamtS : amt c (semOf (sendArr 2) k).val = credN n := amt_of_len c _ k n hlenS
  have hamtR : amt (peer 2 c) (semOf (recvArr 2) k).val = credN n := amt_of_len (peer 2 c) _ k n hlenR
  have hrl : rLen (peer 2 c) 2 k.val = n := by rw [hn]; exact rLen_z (zb c) k.val
  unfold tR
  rw [hamtS, hamtR, hrl, ← hn, ← oSl_set n offS hS _ hoS, ← oSl_set n offD hD _ hoD]
  exact Rounds.wp_send_pointsTo 𝒱₀ ER (Rd m) (c : Thread nD τ) none (κ₁ := K1) (κ₂ := K2)
    (src := oSl n offS hS) (dst := oSl n offD hD) (c' := (Dev.tc (peer 2 c) : Thread nD τ)) (hsc := hsc) (hsrc := hsrc) (hdst := hdst) (hsem := hsem)
    (q := fullShare.right) (fs := Gout m c) (k := kt)
    (r₁ := 0) (r₂ := 0) (d₁ := 0) (d₂ := 0) (fd := fd) (mem_duties_dma m c _ k) (mem_duties_dma m (peer 2 c) _ k) () () (credN n)
    (credit_oSl n h48 offD hD) ((amount_dma m c _ k 0).trans hamtS) ((amount_dma m (peer 2 c) _ k 0).trans hamtR) O rfl (W := W)
    (by rw [payload_dma]; exact Entails.of_eq (by rw [show (semOf (sendArr 2) k) = semOf 4 k from rfl, dmaPay_4, oSl_set n offS hS _ hoS, ← hn]))
    (by
      have e : rLo (peer 2 c) 2 k.val = sLo c 2 k.val := (sLo_z_eq c k.val).symm
      rw [payload_dma]
      exact Entails.of_eq (by
        rw [show (semOf (recvArr 2) k) = semOf 5 k from rfl, dmaPay_5, e, hrl]
        exact land_o m c (peer 2 c) (sLo c 2 k.val) n offS offD hS hD hoS (hoD.trans (by rw [e]))
          (fun r h1 h2 => srcDev_z c k.val k.isLt r (by rw [← sLo_z_eq]; exact h1) (by rw [← sLo_z_eq]; rw [hn] at h2; exact h2)) fd))

end Cert.KernelIdeal.AG
end
-- ==== Proof.FSends.lean ====
import proofs.«900679_g7700000000000680_dist_ag_v7x_xyz2x2x4_x_m2048_n512_f32_1_alg».proof.Proof.Steps
import proofs.«900679_g7700000000000680_dist_ag_v7x_xyz2x2x4_x_m2048_n512_f32_1_alg».proof.Proof.Ghost
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × CIx → ℕ)

theorem rec_bar (c : Dev nD) : records m K ⊢ iprop(cellInv ER (Rd m) (K (c, none)) (barCell c) ∗ reached ER (barCell c) 0) := by
  unfold records
  exact BI.sep_mono (bigSep_elim (i := ((c, none) : Dev nD × CIx)) (Finset.mem_univ _))
    (bigSep_elim (i := ((c, none) : Dev nD × CIx)) (Finset.mem_univ _))
theorem rec_loc (c : Dev nD) : records m K ⊢ iprop(cellInv ER (Rd m) (K (c, some none)) (locCell c) ∗ reached ER (locCell c) 0) := by
  unfold records
  exact BI.sep_mono (bigSep_elim (i := ((c, some none) : Dev nD × CIx)) (Finset.mem_univ _))
    (bigSep_elim (i := ((c, some none) : Dev nD × CIx)) (Finset.mem_univ _))
theorem rec_dma (c : Dev nD) (a : Fin 6) (k : Fin 16) :
    records m K ⊢ iprop(cellInv ER (Rd m) (K (c, some (some (a, k)))) (dcell c a k) ∗ reached ER (dcell c a k) 0) := by
  unfold records
  exact BI.sep_mono (bigSep_elim (i := ((c, some (some (a, k))) : Dev nD × CIx)) (Finset.mem_univ _))
    (bigSep_elim (i := ((c, some (some (a, k))) : Dev nD × CIx)) (Finset.mem_univ _))

theorem rk_eq (j k : ℕ) (hjk : j + k = 15) (hj : j < 16) (hk : k < 16) : rk j hj = ⟨k, hk⟩ := Fin.ext (by simp only [rk]; omega)

section Sends
variable (c n' : Dev nD) (j k : ℕ) (hjk : j + k = 15) (hk : k < 16) (n : ℕ)
variable (offS offD : Fin 2 → ℕ)
include hjk

theorem fstep_xsend (hn' : n' = peer 0 c) (hn : n = rLen c 0 k)
    (hS : ∀ a, offS a + (Sn n).size a ≤ S2048x512.size a) (hD : ∀ a, offD a + (Sn n).size a ≤ S4096x512.size a)
    (hoS : offS = ![sLo c 0 k, 0]) (hoD : offD = ![rLo (peer 0 c) 0 k, 0])
    {hsc : (oSl n offD hD : Memref sig (Dev.tc n' : Thread nD τ).2.kind .vmem (Sn n) .f32).view.ref.isScScratch = false}
    {hsrc : (xSl n offS hS).view.WordExact} {hdst : (oSl n offD hD).view.WordExact}
    {hsem : DmaTarget.Typed .vmem (.dma (semOf (recvArr 0) ⟨k, hk⟩)) (.remote (Dev.tc n' : Thread nD τ) (oSl n offD hD) (.dma (semOf (sendArr 0) ⟨k, hk⟩)) hsc)}
    {α : Type} {Q : α → sProp 𝕄} {kt : PUnit → Prog (TpuEff nD τ sig (Elt F) Λ₀ .tc) α} (W : Waits sig Unit) :
    iprop(records m K ∗ SrcX m c (ge k) ∗ DstF (F := F) c 0 (ge k) ∗ TokF (F := F) c 0 (ge k) ∗ CrS (F := F) c 0 (lt k) ∗ owes (c : Thread nD τ) (owedX c (j + 1)) W)
      ⊢ iprop(((SrcX m c (ge (k + 1)) ∗ DstF (F := F) c 0 (ge (k + 1)) ∗ TokF (F := F) c 0 (ge (k + 1)) ∗ CrS (F := F) c 0 (lt (k + 1)) ∗ owes (c : Thread nD τ) (owedX c j) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xSl n offS hS) (.remote (Dev.tc n' : Thread nD τ) (oSl n offD hD) (.dma (semOf (sendArr 0) ⟨k, hk⟩)) hsc) (.dma (semOf (recvArr 0) ⟨k, hk⟩)) hsrc hdst hsem) kt) Q) := by
  have hj : j < 16 := by omega
  rw [owedX_succ c j hj, rk_eq j k hjk hj hk]
  unfold SrcX DstF TokF CrS
  rw [peel_ge _ k hk, peel_ge _ k hk, peel_ge _ k hk, push_lt _ k hk]
  iintro ⟨#HR, ⟨Hs, HS⟩, ⟨⟨%fd, Hd⟩, HD⟩, ⟨⟨Ht1, Ht2⟩, HT⟩, HC, HO⟩ Hk
  ihave #H1 := (rec_dma m K c (sendArr 0) ⟨k, hk⟩) $$ HR
  ihave #H2 := (rec_dma m K (peer 0 c) (recvArr 0) ⟨k, hk⟩) $$ HR
  icases H1 with ⟨#HI1, #Hr1⟩
  icases H2 with ⟨#HI2, #Hr2⟩
  iapply (wp_xsend m (K (c, some (some (sendArr 0, ⟨k, hk⟩)))) (K (peer 0 c, some (some (recvArr 0, ⟨k, hk⟩)))) c n' hn' ⟨k, hk⟩ n hn
      offS offD hS hD hoS hoD (hsc := hsc) (hsrc := hsrc) (hdst := hdst) (hsem := hsem) (Q := Q) (kt := kt) fd W (owedX c j)) $$ [Hs Hd HO Ht1 Ht2]
  · iframe # ∗
  iintro ⟨Hcr, HO⟩
  iapply Hk
  iframe # ∗

theorem fstep_ysend (hn' : n' = peer 1 c) (hn : n = rLen c 0 k)
    (hS : ∀ a, offS a + (Sn n).size a ≤ S4096x512.size a) (hD : ∀ a, offD a + (Sn n).size a ≤ S4096x512.size a)
    (hoS : offS = ![sLo c 1 k, 0]) (hoD : offD = ![rLo (peer 1 c) 1 k, 0])
    {hsc : (oSl n offD hD : Memref sig (Dev.tc n' : Thread nD τ).2.kind .vmem (Sn n) .f32).view.ref.isScScratch = false}
    {hsrc : (oSl n offS hS).view.WordExact} {hdst : (oSl n offD hD).view.WordExact}
    {hsem : DmaTarget.Typed .vmem (.dma (semOf (recvArr 1) ⟨k, hk⟩)) (.remote (Dev.tc n' : Thread nD τ) (oSl n offD hD) (.dma (semOf (sendArr 1) ⟨k, hk⟩)) hsc)}
    {α : Type} {Q : α → sProp 𝕄} {kt : PUnit → Prog (TpuEff nD τ sig (Elt F) Λ₀ .tc) α} (W : Waits sig Unit) :
    iprop(records m K ∗ (ℓo c ↦[rowsO (rLo c 0 k) (rLen c 0 k)]{fullShare.left} Gout m c)
        ∗ DstF (F := F) c 1 (ge k) ∗ TokF (F := F) c 1 (ge k) ∗ CrS (F := F) c 1 (lt k) ∗ owes (c : Thread nD τ) (owedL c (j + 1)) W)
      ⊢ iprop(((DstF (F := F) c 1 (ge (k + 1)) ∗ TokF (F := F) c 1 (ge (k + 1)) ∗ CrS (F := F) c 1 (lt (k + 1))
              ∗ owes (c : Thread nD τ) (owedL c j + tR c 2 ⟨k, hk⟩) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSl n offS hS) (.remote (Dev.tc n' : Thread nD τ) (oSl n offD hD) (.dma (semOf (sendArr 1) ⟨k, hk⟩)) hsc) (.dma (semOf (recvArr 1) ⟨k, hk⟩)) hsrc hdst hsem) kt) Q) := by
  have hj : j < 16 := by omega
  rw [owedL_succ c j hj, rk_eq j k hjk hj hk, ← sLo_y_eq_rLo_x c k]
  unfold DstF TokF CrS
  rw [peel_ge _ k hk, peel_ge _ k hk, push_lt _ k hk]
  iintro ⟨#HR, Hs, ⟨⟨%fd, Hd⟩, HD⟩, ⟨⟨Ht1, Ht2⟩, HT⟩, HC, HO⟩ Hk
  ihave #H1 := (rec_dma m K c (sendArr 1) ⟨k, hk⟩) $$ HR
  ihave #H2 := (rec_dma m K (peer 1 c) (recvArr 1) ⟨k, hk⟩) $$ HR
  icases H1 with ⟨#HI1, #Hr1⟩
  icases H2 with ⟨#HI2, #Hr2⟩
  iapply (wp_ysend m (K (c, some (some (sendArr 1, ⟨k, hk⟩)))) (K (peer 1 c, some (some (recvArr 1, ⟨k, hk⟩)))) c n' hn' ⟨k, hk⟩ n hn
      offS offD hS hD hoS hoD (hsc := hsc) (hsrc := hsrc) (hdst := hdst) (hsem := hsem) (Q := Q) (kt := kt) fd W (owedL c j + tR c 2 ⟨k, hk⟩)) $$ [Hs Hd HO Ht1 Ht2]
  · iframe # ∗
  iintro ⟨Hcr, HO⟩
  iapply Hk
  iframe # ∗

theorem fstep_zsend (hn' : n' = peer 2 c) (hn : n = len680 k)
    (hS : ∀ a, offS a + (Sn n).size a ≤ S4096x512.size a) (hD : ∀ a, offD a + (Sn n).size a ≤ S4096x512.size a)
    (hoS : offS = ![sLo c 2 k, 0]) (hoD : offD = ![rLo (peer 2 c) 2 k, 0])
    {hsc : (oSl n offD hD : Memref sig (Dev.tc n' : Thread nD τ).2.kind .vmem (Sn n) .f32).view.ref.isScScratch = false}
    {hsrc : (oSl n offS hS).view.WordExact} {hdst : (oSl n offD hD).view.WordExact}
    {hsem : DmaTarget.Typed .vmem (.dma (semOf (recvArr 2) ⟨k, hk⟩)) (.remote (Dev.tc n' : Thread nD τ) (oSl n offD hD) (.dma (semOf (sendArr 2) ⟨k, hk⟩)) hsc)}
    {α : Type} {Q : α → sProp 𝕄} {kt : PUnit → Prog (TpuEff nD τ sig (Elt F) Λ₀ .tc) α} (W : Waits sig Unit) :
    iprop(records m K ∗ (ℓo c ↦[rowsO (sLo c 2 k) (len680 k)]{fullShare.right} Gout m c)
        ∗ DstF (F := F) c 2 (ge k) ∗ TokF (F := F) c 2 (ge k) ∗ CrS (F := F) c 2 (lt k) ∗ owes (c : Thread nD τ) (owedL c j + tR c 2 ⟨k, hk⟩) W)
      ⊢ iprop(((DstF (F := F) c 2 (ge (k + 1)) ∗ TokF (F := F) c 2 (ge (k + 1)) ∗ CrS (F := F) c 2 (lt (k + 1)) ∗ owes (c : Thread nD τ) (owedL c j) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSl n offS hS) (.remote (Dev.tc n' : Thread nD τ) (oSl n offD hD) (.dma (semOf (sendArr 2) ⟨k, hk⟩)) hsc) (.dma (semOf (recvArr 2) ⟨k, hk⟩)) hsrc hdst hsem) kt) Q) := by
  unfold DstF TokF CrS
  rw [peel_ge _ k hk, peel_ge _ k hk, push_lt _ k hk]
  iintro ⟨#HR, Hs, ⟨⟨%fd, Hd⟩, HD⟩, ⟨⟨Ht1, Ht2⟩, HT⟩, HC, HO⟩ Hk
  ihave #H1 := (rec_dma m K c (sendArr 2) ⟨k, hk⟩) $$ HR
  ihave #H2 := (rec_dma m K (peer 2 c) (recvArr 2) ⟨k, hk⟩) $$ HR
  icases H1 with ⟨#HI1, #Hr1⟩
  icases H2 with ⟨#HI2, #Hr2⟩
  iapply (wp_zsend m (K (c, some (some (sendArr 2, ⟨k, hk⟩)))) (K (peer 2 c, some (some (recvArr 2, ⟨k, hk⟩)))) c n' hn' ⟨k, hk⟩ n hn
      offS offD hS hD hoS hoD (hsc := hsc) (hsrc := hsrc) (hdst := hdst) (hsem := hsem) (Q := Q) (kt := kt) fd W (owedL c j)) $$ [Hs Hd HO Ht1 Ht2]
  · iframe # ∗
  iintro ⟨Hcr, HO⟩
  iapply Hk
  iframe # ∗

end Sends

end Cert.KernelIdeal.AG
end
-- ==== Proof.Assemble.lean ====
import proofs.«900679_g7700000000000680_dist_ag_v7x_xyz2x2x4_x_m2048_n512_f32_1_alg».proof.Proof.Fam
import proofs.«900679_g7700000000000680_dist_ag_v7x_xyz2x2x4_x_m2048_n512_f32_1_alg».proof.Proof.Views
import proofs.«900679_g7700000000000680_dist_ag_v7x_xyz2x2x4_x_m2048_n512_f32_1_alg».proof.Proof.Geom

noncomputable section

namespace Cert.KernelIdeal.AG

open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem eq_of_bi {P Q : sProp 𝕄} (h : P ⊣⊢ Q) : P = Q := BI.equiv_iff.mp ⟨h.1, h.2⟩

theorem ptsX_add (c : Dev nD) (q : PosShare TreeShare) (f : Buf (Elt F) (ℓx c)) (lo n₁ n₂ : ℕ) :
    (ℓx c ↦[rowsX lo (n₁ + n₂)]{q} f : sProp 𝕄) = iprop((ℓx c ↦[rowsX lo n₁]{q} f) ∗ ℓx c ↦[rowsX (lo + n₁) n₂]{q} f) :=
  Cert.AGRows.pointsTo_rows_add_eq (ℓ := ℓx c) lo n₁ n₂
theorem ptsO_union (c : Dev nD) (q : PosShare TreeShare) (f : Buf (Elt F) (ℓo c)) {I J : Finset S4096x512.Idx}
    (h : Disjoint I J) :
    (ℓo c ↦[I ∪ J]{q} f : sProp 𝕄) = iprop((ℓo c ↦[I]{q} f) ∗ ℓo c ↦[J]{q} f) :=
  eq_of_bi (pointsTo_union (ℓ := ℓo c) h)
theorem ptsO_univ (c : Dev nD) (q : PosShare TreeShare) (f : Buf (Elt F) (ℓo c)) (I : Finset S4096x512.Idx)
    (h : Finset.univ = I) : (ℓo c ↦{q} f : sProp 𝕄) = ℓo c ↦[I]{q} f :=
  congrArg (fun J => (ℓo c ↦[J]{q} f : sProp 𝕄)) h
theorem ptsX_univ (c : Dev nD) (q : PosShare TreeShare) (f : Buf (Elt F) (ℓx c)) (I : Finset S2048x512.Idx)
    (h : Finset.univ = I) : (ℓx c ↦{q} f : sProp 𝕄) = ℓx c ↦[I]{q} f :=
  congrArg (fun J => (ℓx c ↦[J]{q} f : sProp 𝕄)) h

theorem ptsO_halves (c : Dev nD) (q : PosShare TreeShare) (f : Buf (Elt F) (ℓo c)) (I : Finset S4096x512.Idx) :
    (ℓo c ↦[I]{q} f : sProp 𝕄) = iprop((ℓo c ↦[I]{q.left} f) ∗ ℓo c ↦[I]{q.right} f) :=
  eq_of_bi (Cert.AGRows.pointsTo_halves_of (ℓ := ℓo c) I q)
theorem ptsX_halves (c : Dev nD) (q : PosShare TreeShare) (f : Buf (Elt F) (ℓx c)) (I : Finset S2048x512.Idx) :
    (ℓx c ↦[I]{q} f : sProp 𝕄) = iprop((ℓx c ↦[I]{q.left} f) ∗ ℓx c ↦[I]{q.right} f) :=
  eq_of_bi (Cert.AGRows.pointsTo_halves_of (ℓ := ℓx c) I q)

theorem own_slabs_eq (c : Dev nD) (q : PosShare TreeShare) (f : Buf (Elt F) (ℓo c)) :
    (ℓo c ↦{q} f : sProp 𝕄)
      = iprop((ℓo c ↦[rowsO (2048 * xc c) 2048]{q} f) ∗ (ℓo c ↦[rowsO (rLo c 0 0) (sLen c 0)]{q} f)
          ∗ (ℓo c ↦[rowsO (rLo c 1 0) (sLen c 1)]{q} f) ∗ (ℓo c ↦[rowsO (rLo c 2 0) (sLen c 2)]{q} f)) := by
  have h12 : Disjoint (rowsO (rLo c 1 0) (sLen c 1)) (rowsO (rLo c 2 0) (sLen c 2)) :=
    rowsO_slab_slab_disjoint c 1 2 (by decide)
  have h0 : Disjoint (rowsO (rLo c 0 0) (sLen c 0)) (rowsO (rLo c 1 0) (sLen c 1) ∪ rowsO (rLo c 2 0) (sLen c 2)) :=
    Finset.disjoint_union_right.mpr ⟨rowsO_slab_slab_disjoint c 0 1 (by decide), rowsO_slab_slab_disjoint c 0 2 (by decide)⟩
  have hA : Disjoint (rowsO (2048 * xc c) 2048)
      (rowsO (rLo c 0 0) (sLen c 0) ∪ (rowsO (rLo c 1 0) (sLen c 1) ∪ rowsO (rLo c 2 0) (sLen c 2))) :=
    Finset.disjoint_union_right.mpr ⟨rowsO_own_slab_disjoint c 0,
      Finset.disjoint_union_right.mpr ⟨rowsO_own_slab_disjoint c 1, rowsO_own_slab_disjoint c 2⟩⟩
  rw [ptsO_univ c q f _ (rowsO_split c), ptsO_union c q f hA, ptsO_union c q f h0, ptsO_union c q f h12]

theorem slab_chain (c : Dev nD) (d : Fin 3) (q : PosShare TreeShare) (f : Buf (Elt F) (ℓo c)) :
    (ℓo c ↦[rowsO (rLo c d 0) (sLen c d)]{q} f : sProp 𝕄)
      = (bigSep (Finset.univ : Finset (Fin 16)) fun k => ℓo c ↦[rowsO (rLo c d k.val) (rLen c d k.val)]{q} f : sProp 𝕄) := by
  have h := Cert.AGRows.pointsTo_rows_chain_fin (Ix := Unit) (Name := ℕ) (U := UU) (Lvl := ℕ) (ℓ := ℓo c) (q := q) (f := f) (rLo c d 0)
    (fun k => rLo c d k - rLo c d 0) (fun k => rLen c d k) (Nat.sub_self _) 16
    (fun k hk => by
      have h1 := chunk_in_slab c d k hk
      have h2 := rLo_succ c d k
      show rLo c d k - rLo c d 0 + rLen c d k = rLo c d (k + 1) - rLo c d 0
      omega)
  have e16 : rLo c d 16 - rLo c d 0 = sLen c d := by rw [rLo_16]; omega
  rw [← e16]
  refine h.trans (bigSep_congr fun k _ => ?_)
  have h1 := chunk_in_slab c d k.val k.isLt
  show (ℓo c ↦[rowsO (rLo c d 0 + (rLo c d k.val - rLo c d 0)) (rLen c d k.val)]{q} f : sProp 𝕄) = _
  rw [Nat.add_sub_cancel' h1.1]

theorem give_away (c : Dev nD) (f : Buf (Elt F) (ℓo c)) :
    (ℓo c ↦{fullShare} f : sProp 𝕄)
      ⊢ iprop((ℓo c ↦[rowsO (2048 * xc c) 2048]{fullShare} f) ∗ barPay (peer 0 c) 0 ∗ barPay (peer 1 c) 1 ∗ barPay (peer 2 c) 2) := by
  rw [own_slabs_eq c fullShare f]
  have hb : ∀ d : Fin 3, (ℓo c ↦[rowsO (rLo c d 0) (sLen c d)]{fullShare} f : sProp 𝕄) ⊢ barPay (peer d c) d := by
    intro d; unfold barPay; rw [peer_peer]; iintro H; iexists f; iexact H
  iintro ⟨H, H0, H1, H2⟩
  isplitl [H]; · iexact H
  isplitl [H0]; · iapply (hb 0) $$ H0
  isplitl [H1]; · iapply (hb 1) $$ H1
  iapply (hb 2) $$ H2

theorem barPay_chunks (c : Dev nD) (d : Fin 3) : (barPay c d : sProp 𝕄) ⊢ DstF c d Finset.univ := by
  have hm : ∀ f : Buf (Elt F) (ℓo (peer d c)),
      (bigSep (Finset.univ : Finset (Fin 16)) fun k => ℓo (peer d c) ↦[rowsO (rLo (peer d c) d k.val) (rLen (peer d c) d k.val)]{fullShare} f : sProp 𝕄)
        ⊢ DstF c d Finset.univ := by
    intro f; unfold DstF
    exact bigSep_mono fun k _ =>
      (show (ℓo (peer d c) ↦[rowsO (rLo (peer d c) d k.val) (rLen (peer d c) d k.val)]{fullShare} f : sProp 𝕄)
          ⊢ iprop(∃ f, ℓo (peer d c) ↦[rowsO (rLo (peer d c) d k.val) (rLen (peer d c) d k.val)]{fullShare} f) from by
        iintro H; iexists f; iexact H)
  unfold barPay
  iintro ⟨%f, H⟩
  iapply (hm f)
  iapply (Entails.of_eq (slab_chain (peer d c) d fullShare f)) $$ H

def XRest (c : Dev nD) : sProp 𝕄 :=
  iprop((ℓx c ↦[rowsX 0 (slabLo (yc c) (pc c))]{fullShare.right} Xin m c)
    ∗ (ℓx c ↦[rowsX (slabLo (yc c) (pc c) + slabLen (yc c)) (2048 - (slabLo (yc c) (pc c) + slabLen (yc c)))]{fullShare.right} Xin m c))

theorem srcX_chain (c : Dev nD) (q : PosShare TreeShare) (f : Buf (Elt F) (ℓx c)) :
    (ℓx c ↦[rowsX (slabLo (yc c) (pc c)) (slabLen (yc c))]{q} f : sProp 𝕄)
      = (bigSep (Finset.univ : Finset (Fin 16)) fun k => ℓx c ↦[rowsX (sLo c 0 k.val) (rLen c 0 k.val)]{q} f : sProp 𝕄) := by
  have h := Cert.AGRows.pointsTo_rows_chain_fin (Ix := Unit) (Name := ℕ) (U := UU) (Lvl := ℕ) (ℓ := ℓx c) (q := q) (f := f) (slabLo (yc c) (pc c))
    (chOff (yc c)) (chLen (yc c)) (chOff_zero _) 16 (fun k _ => (chOff_succ _ k).symm)
  rw [chOff_16] at h
  exact h

theorem xin_split (c : Dev nD) :
    (ℓx c ↦{fullShare} Xin m c : sProp 𝕄)
      = iprop((ℓx c ↦[rowsX 0 2048]{fullShare.left} Xin m c) ∗ SrcX m c Finset.univ ∗ XRest m c) := by
  have hL := slab_le (yc c) (pc c)
  have hR : slabLo (yc c) (pc c) + (slabLen (yc c) + (2048 - (slabLo (yc c) (pc c) + slabLen (yc c)))) = 2048 := by omega
  have e2 := ptsX_add c fullShare.right (Xin m c) 0 (slabLo (yc c) (pc c)) (slabLen (yc c) + (2048 - (slabLo (yc c) (pc c) + slabLen (yc c))))
  rw [hR, Nat.zero_add, ptsX_add c fullShare.right (Xin m c), srcX_chain c fullShare.right (Xin m c)] at e2
  rw [ptsX_univ c fullShare (Xin m c) _ rowsX_univ.symm, ptsX_halves c fullShare (Xin m c), e2]
  unfold SrcX XRest
  exact congrArg (fun X => iprop((ℓx c ↦[rowsX 0 2048]{fullShare.left} Xin m c) ∗ X)) (eq_of_bi sep_left_comm)

theorem xin_split_bi (c : Dev nD) :
    (ℓx c ↦{fullShare} Xin m c : sProp 𝕄)
      ⊣⊢ iprop((ℓx c ↦[rowsX 0 2048]{fullShare.left} Xin m c) ∗ SrcX m c Finset.univ ∗ XRest m c) :=
  ⟨Entails.of_eq (xin_split m c), Entails.of_eq (xin_split m c).symm⟩

theorem Lnd_univ (c : Dev nD) (d : Fin 3) (q : PosShare TreeShare) :
    Lnd m c d q Finset.univ = (ℓo c ↦[rowsO (rLo c d 0) (sLen c d)]{q} Gout m c : sProp 𝕄) :=
  (slab_chain c d q (Gout m c)).symm

theorem reassemble_eq (c : Dev nD) (q : PosShare TreeShare) :
    (iprop((ℓo c ↦[rowsO (2048 * xc c) 2048]{q} Gout m c) ∗ Lnd m c 0 q Finset.univ ∗ Lnd m c 1 q Finset.univ
        ∗ Lnd m c 2 q Finset.univ) : sProp 𝕄) = (ℓo c ↦{q} Gout m c) := by
  rw [Lnd_univ, Lnd_univ, Lnd_univ]
  exact (own_slabs_eq c q (Gout m c)).symm
theorem reassemble (c : Dev nD) :
    (iprop((ℓo c ↦[rowsO (2048 * xc c) 2048]{fullShare} Gout m c) ∗ Lnd m c 0 fullShare Finset.univ
        ∗ Lnd m c 1 fullShare Finset.univ ∗ Lnd m c 2 fullShare Finset.univ) : sProp 𝕄)
      ⊢ (ℓo c ↦{fullShare} Gout m c) :=
  Entails.of_eq (reassemble_eq m c fullShare)

theorem chunk_halves (c : Dev nD) (lo n : ℕ) (q : PosShare TreeShare) :
    (ℓo c ↦[rowsO lo n]{q} Gout m c : sProp 𝕄)
      = iprop((ℓo c ↦[rowsO lo n]{q.left} Gout m c) ∗ ℓo c ↦[rowsO lo n]{q.right} Gout m c) :=
  ptsO_halves c q (Gout m c) _

theorem Lnd_halves (c : Dev nD) (d : Fin 3) (q : PosShare TreeShare) (S : Finset (Fin 16)) :
    (iprop(Lnd m c d q.left S ∗ Lnd m c d q.right S) : sProp 𝕄) = Lnd m c d q S := by
  unfold Lnd
  rw [← bigSep_sep']
  exact bigSep_congr fun k _ => (chunk_halves m c _ _ q).symm
theorem Lnd_halves_bi (c : Dev nD) (d : Fin 3) (S : Finset (Fin 16)) :
    (iprop(Lnd m c d fullShare.left S ∗ Lnd m c d fullShare.right S) : sProp 𝕄) ⊣⊢ Lnd m c d fullShare S :=
  ⟨Entails.of_eq (Lnd_halves m c d fullShare S), Entails.of_eq (Lnd_halves m c d fullShare S).symm⟩

end Cert.KernelIdeal.AG

end
-- ==== Proof.Prologue.lean ====
import proofs.«900679_g7700000000000680_dist_ag_v7x_xyz2x2x4_x_m2048_n512_f32_1_alg».proof.Proof.FSends
import proofs.«900679_g7700000000000680_dist_ag_v7x_xyz2x2x4_x_m2048_n512_f32_1_alg».proof.Proof.Assemble
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × CIx → ℕ)

theorem expect_single (g : GSem nD τ sig) (h : (Rd (F := F) m).duties g 0 = {0}) :
    (Rd (F := F) m).expect g 0 = (Rd (F := F) m).amount g 0 0 := by
  unfold Schedule.expect Schedule.amountOf; rw [h, Finset.sum_singleton]
theorem expect_loc (c : Dev nD) : (Rd (F := F) m).expect (locCell c) 0 = amt c 98 :=
  (expect_single m (locCell c) (duties_loc m c)).trans (amount_loc m c 0)
theorem dmaPay_loc (c : Dev nD) : dmaPay m c 98
    = iprop((ℓo c ↦[rowsO (2048 * xc c) 2048]{fullShare} Gout m c) ∗ (ℓx c ↦[rowsX 0 2048]{fullShare.left} Xin m c)) := by
  unfold dmaPay; rw [if_pos (rfl : (98 : ℕ) = 98)]
theorem rest_loc (c : Dev nD) :
    bigSep ((Rd (F := F) m).duties (locCell c) 0 \ ∅) (fun d => (Rd (F := F) m).payload (locCell c) 0 d) = dmaPay m c 98 := by
  have h : (Rd (F := F) m).duties (locCell c) 0 \ ∅ = {0} := (Finset.sdiff_empty).trans (duties_loc m c)
  exact ((congrArg (fun s => bigSep s fun d => (Rd (F := F) m).payload (locCell c) 0 d) h).trans bigSep_singleton).trans (payload_loc m c 0)

theorem credit_loc (off : Fin 2 → ℕ) (h : ∀ a, off a + S2048x512.size a ≤ S4096x512.size a) :
    ((oM.slice (Rect.unit (s := S4096x512) off S2048x512.size h) (fun _ => rfl) : Memref sig .tc .vmem S2048x512 .f32)).view.dmaCredit = A2048 := rfl

section Pro
variable (c : Dev nD)

theorem fstep_signal (n' : Dev nD) (d : Fin 3) (hn' : n' = peer d c) (k' : ℕ) (hk' : k' = 1) (O : CellTallies nD τ sig Unit) (W : Waits sig Unit)
    {α : Type} {Q : α → sProp 𝕄} {kt : PUnit → Prog (TpuEff nD τ sig (Elt F) Λ₀ .tc) α} :
    iprop(records m K ∗ barPay (F := F) (peer d c) d ∗ dutyTok ER (barCell (peer d c)) 0 d ∗ owes (c : Thread nD τ) (O + tB c d) W)
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc n' : Thread nD τ) barS k') kt) Q) := by
  subst hn' hk'
  iintro ⟨#HR, Hp, Ht, HO⟩ Hk
  ihave HI := (rec_bar m K (peer d c)) $$ HR
  icases HI with ⟨#HI, #Hr⟩
  iapply (Rounds.wp_signal 𝒱₀ ER (Rd m) (c : Thread nD τ) none (dst := (Dev.tc (peer d c) : Thread nD τ)) (sem := barS) (κ := K (peer d c, none))
      (r := 0) (d := d) (mem_duties_bar m (peer d c) d) (amount_bar m (peer d c) d) () O rfl) $$ [HO Ht Hp]
  · isplitr; · iexact HI
    isplitl [HO]; · iexact HO
    isplitl [Ht]; · iexact Ht
    isplitl [Hp]; · rw [payload_bar]; iexact Hp
    iexact Hr
  iexact Hk

theorem fstep_bar_wait (k' : ℕ) (hk' : k' = 3) (O : CellTallies nD τ sig Unit) (W : Waits sig Unit)
    {α : Type} {Q : α → sProp 𝕄} {kt : PUnit → Prog (TpuEff nD τ sig (Elt F) Λ₀ .tc) α} :
    iprop(records m K ∗ cred (tallyAt (barCell c) () 3) ∗ atPos ER (barCell c) 0 ∅ 0 ∗ owes (c : Thread nD τ) O W
        ∗ MayWait (c : Thread nD τ) (.reg barS) () O)
      ⊢ iprop(((owes (c : Thread nD τ) O (insert (SemLoc.reg barS, ()) W) ∗ DstF (F := F) c 0 Finset.univ ∗ DstF (F := F) c 1 Finset.univ ∗ DstF (F := F) c 2 Finset.univ)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS k') kt) Q) := by
  subst hk'
  iintro ⟨#HR, Hc, Hat, HO, Hmw⟩ Hk
  ihave HI := (rec_bar m K c) $$ HR
  icases HI with ⟨#HI, -⟩
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hmw Hat]
  · iframe # ∗
  iintro ⟨HO, -, -, Hpay⟩
  ihave Hp := (Entails.of_eq (rest_bar m c)) $$ Hpay
  icases Hp with ⟨H0, H1, H2⟩
  iapply Hk
  isplitl [HO]; · iexact HO
  isplitl [H0]; · iapply (barPay_chunks (F := F) c 0); iexact H0
  isplitl [H1]; · iapply (barPay_chunks (F := F) c 1); iexact H1
  iapply (barPay_chunks (F := F) c 2); iexact H2

theorem fstep_loc_start (off : Fin 2 → ℕ) (h : ∀ a, off a + S2048x512.size a ≤ S4096x512.size a) (ho : off = ![2048 * xc c, 0])
    {hsrc : (xM : Memref sig .tc .vmem S2048x512 .f32).view.WordExact}
    {hdst : ((oM.slice (Rect.unit (s := S4096x512) off S2048x512.size h) (fun _ => rfl) : Memref sig .tc .vmem S2048x512 .f32)).view.WordExact}
    {hsem : DmaTarget.Typed (nD := nD) .vmem (.dma locS) (DmaTarget.here (nD := nD) (p := (Proc.tc : Proc τ)) (oM.slice (Rect.unit (s := S4096x512) off S2048x512.size h) (fun _ => rfl) : Memref sig .tc .vmem S2048x512 .f32))}
    (fd : Buf (Elt F) (ℓo c)) {α : Type} {Q : α → sProp 𝕄} {kt : PUnit → Prog (TpuEff nD τ sig (Elt F) Λ₀ .tc) α} :
    iprop(records m K ∗ (ℓx c ↦[rowsX 0 2048]{fullShare.left} Xin m c) ∗ (ℓo c ↦[rowsO (2048 * xc c) 2048]{fullShare} fd) ∗ dutyTok ER (locCell c) 0 0)
      ⊢ iprop((cred (tallyAt (locCell c) () (amt c 98)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma xM (.here (oM.slice (Rect.unit (s := S4096x512) off S2048x512.size h) (fun _ => rfl) : Memref sig .tc .vmem S2048x512 .f32)) (.dma locS) hsrc hdst hsem) kt) Q) := by
  iintro ⟨#HR, Hx, Ho, Ht⟩ Hk
  ihave HI := (rec_loc m K c) $$ HR
  icases HI with ⟨#HI, #Hr⟩
  have hsetD : ((oM.slice (Rect.unit (s := S4096x512) off S2048x512.size h) (fun _ => rfl) : Memref sig .tc .vmem S2048x512 .f32)).view.set = rowsO (2048 * xc c) 2048 :=
    oSl_set 2048 off h _ ho
  iapply (Rounds.wp_copy_pointsTo 𝒱₀ ER (Rd m) (c : Thread nD τ) none (κ := K (c, some none))
      (src := xM) (dst := (oM.slice (Rect.unit (s := S4096x512) off S2048x512.size h) (fun _ => rfl) : Memref sig .tc .vmem S2048x512 .f32))
      (sem := .dma locS) (hsrc := hsrc) (hdst := hdst) (hsem := hsem) (q := fullShare.left) (fs := Xin m c) (fd := fd) (r := 0) (d := 0) (k := kt)
      (mem_duties_loc m c) () (amt c 98) ((credit_loc off h).trans (amt_98 c).symm) (amount_loc m c 0)
      (by rw [payload_loc, dmaPay_loc, land_loc m c off h ho fd, xM_set])) $$ [Hx Ho Ht]
  · isplitr; · iexact HI
    isplitl [Hx]; · rw [xM_set]; iexact Hx
    isplitl [Ho]; · rw [hsetD]; iexact Ho
    iframe # ∗
  iexact Hk

theorem fstep_loc_wait {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt c 98) (W : Waits sig Unit)
    {α : Type} {Q : α → sProp 𝕄} {kt : PUnit → Prog (TpuEff nD τ sig (Elt F) Λ₀ .tc) α} :
    iprop(records m K ∗ cred (tallyAt (locCell c) () (amt c 98)) ∗ atPos ER (locCell c) 0 ∅ 0 ∗ owes (c : Thread nD τ) 0 W)
      ⊢ iprop(((owes (c : Thread nD τ) 0 (insert (SemLoc.dma locS, ()) W) ∗ semVal (locCell c) 0
              ∗ (ℓo c ↦[rowsO (2048 * xc c) 2048]{fullShare} Gout m c) ∗ (ℓx c ↦[rowsX 0 2048]{fullShare.left} Xin m c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 locS src dst hsrc hdst) kt) Q) := by
  iintro ⟨#HR, Hc, Hat, HO⟩ Hk
  ihave HI := (rec_loc m K c) $$ HR
  icases HI with ⟨#HI, -⟩
  iapply (Rounds.wp_wait_rest_token 𝒱₀ ER (Rd m) (c : Thread nD τ) none (κ := K (c, some none))
      (wpE_waitDma2_eq 𝒱₀ (c : Thread nD τ) none Set.univ) (Set.mem_univ _) () (O := 0) (W := W) (R := 0) (m := 0) (T := ∅)
      (by rw [Nat.zero_add, expect_loc, hamt])) $$ [Hc HO Hat]
  · isplitr; · iexact HI
    isplitl [Hc]; · rw [hamt]; iexact Hc
    isplitl [HO]; · iexact HO
    isplitr; · rw [MayWait_zero]; iempintro
    iexact Hat
  iintro ⟨HO, Hat, -, Hpay⟩
  ihave Hp := (Entails.of_eq ((rest_loc m c).trans (dmaPay_loc m c))) $$ Hpay
  icases Hp with ⟨Ho, Hx⟩
  imod (Rounds.cell_close ER (Rd m) (Set.mem_univ (K (c, some none))) (fun h => h) (R := 0 + 1) (duties_later m (locCell c))) $$ [Hat] with Hz
  · iframe # ∗
  iapply Hk
  iframe # ∗
end Pro

end Cert.KernelIdeal.AG
end
-- ==== Proof.FWaits.lean ====
import proofs.«900679_g7700000000000680_dist_ag_v7x_xyz2x2x4_x_m2048_n512_f32_1_alg».proof.Proof.FSends
import proofs.«900679_g7700000000000680_dist_ag_v7x_xyz2x2x4_x_m2048_n512_f32_1_alg».proof.Proof.Assemble
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × CIx → ℕ)

theorem dmaPay_recv (c : Dev nD) (d : Fin 3) (k : Fin 16) :
    dmaPay m c (semOf (recvArr d) k).val = (ℓo c ↦[rowsO (rLo c d k.val) (rLen c d k.val)]{fullShare} Gout m c) := by
  fin_cases d
  · exact dmaPay_1 m c k
  · exact dmaPay_3 m c k
  · exact dmaPay_5 m c k

section Waits
variable (c : Dev nD) (k : ℕ) (hk : k < 16)
variable {sp sp' : Space} {s s' : Shape} {e e' : EltTy} {src : Memref sig .tc sp' s' e'} {κ' : Kind} {dst : Memref sig κ' sp s e}
variable {hsrc : src.view.WordExact} {hdst : dst.view.WordExact}

theorem fstep_wait_recv (d : Fin 3) (hamt : dst.view.dmaCredit = amt c (semOf (recvArr d) ⟨k, hk⟩).val)
    (O : CellTallies nD τ sig Unit) (W : Waits sig Unit)
    {α : Type} {Q : α → sProp 𝕄} {kt : PUnit → Prog (TpuEff nD τ sig (Elt F) Λ₀ .tc) α} :
    iprop(records m K ∗ CrR (F := F) c d (ge k) ∗ AtF (F := F) c (recvArr d) (ge k) ∗ ClF (F := F) c (recvArr d) (lt k) ∗ owes (c : Thread nD τ) O W
        ∗ MayWait (c : Thread nD τ) (.dma (semOf (recvArr d) ⟨k, hk⟩)) () O)
      ⊢ iprop(((CrR (F := F) c d (ge (k + 1)) ∗ AtF (F := F) c (recvArr d) (ge (k + 1)) ∗ ClF (F := F) c (recvArr d) (lt (k + 1))
              ∗ owes (c : Thread nD τ) O (insert (SemLoc.dma (semOf (recvArr d) ⟨k, hk⟩), ()) W)
              ∗ (ℓo c ↦[rowsO (rLo c d k) (rLen c d k)]{fullShare.left} Gout m c) ∗ (ℓo c ↦[rowsO (rLo c d k) (rLen c d k)]{fullShare.right} Gout m c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (recvArr d) ⟨k, hk⟩) src dst hsrc hdst) kt) Q) := by
  unfold CrR AtF ClF
  rw [peel_ge _ k hk, peel_ge _ k hk, push_lt _ k hk]
  iintro ⟨#HR, ⟨Hc, Hcr⟩, ⟨Ha, Hat⟩, Hcl, HO, Hmw⟩ Hk
  ihave #H1 := (rec_dma m K c (recvArr d) ⟨k, hk⟩) $$ HR
  icases H1 with ⟨#HI, #Hre⟩
  iapply (wp_wait_dma m (K (c, some (some (recvArr d, ⟨k, hk⟩)))) c (recvArr d) ⟨k, hk⟩ (src := src) (dst := dst) (hsrc := hsrc) (hdst := hdst)
      hamt O W (Q := Q) (kt := kt)) $$ [Hc HO Hmw Ha]
  · iframe # ∗
  iintro ⟨HO, Hz, Hp⟩
  ihave Hp' := (Entails.of_eq ((dmaPay_recv m c d ⟨k, hk⟩).trans (chunk_halves m c (rLo c d k) (rLen c d k) fullShare))) $$ Hp
  icases Hp' with ⟨Hl, Hr⟩
  iapply Hk
  iframe # ∗

theorem fstep_wait_send (d : Fin 3) (hamt : dst.view.dmaCredit = amt c (semOf (sendArr d) ⟨k, hk⟩).val) (W : Waits sig Unit)
    {α : Type} {Q : α → sProp 𝕄} {kt : PUnit → Prog (TpuEff nD τ sig (Elt F) Λ₀ .tc) α} :
    iprop(records m K ∗ CrS (F := F) c d (ge k) ∗ AtF (F := F) c (sendArr d) (ge k) ∗ ClF (F := F) c (sendArr d) (lt k) ∗ owes (c : Thread nD τ) 0 W)
      ⊢ iprop(((CrS (F := F) c d (ge (k + 1)) ∗ AtF (F := F) c (sendArr d) (ge (k + 1)) ∗ ClF (F := F) c (sendArr d) (lt (k + 1))
              ∗ owes (c : Thread nD τ) 0 (insert (SemLoc.dma (semOf (sendArr d) ⟨k, hk⟩), ()) W)
              ∗ dmaPay m c (semOf (sendArr d) ⟨k, hk⟩).val)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (sendArr d) ⟨k, hk⟩) src dst hsrc hdst) kt) Q) := by
  unfold CrS AtF ClF
  rw [peel_ge _ k hk, peel_ge _ k hk, push_lt _ k hk]
  iintro ⟨#HR, ⟨Hc, Hcr⟩, ⟨Ha, Hat⟩, Hcl, HO⟩ Hk
  ihave #H1 := (rec_dma m K c (sendArr d) ⟨k, hk⟩) $$ HR
  icases H1 with ⟨#HI, #Hre⟩
  iapply (wp_wait_dma m (K (c, some (some (sendArr d, ⟨k, hk⟩)))) c (sendArr d) ⟨k, hk⟩ (src := src) (dst := dst) (hsrc := hsrc) (hdst := hdst)
      hamt 0 W (Q := Q) (kt := kt)) $$ [Hc HO Ha]
  · isplitr; · iexact HI
    isplitl [Hc]; · iexact Hc
    isplitl [HO]; · iexact HO
    isplitr; · rw [MayWait_zero]; iempintro
    iexact Ha
  iintro ⟨HO, Hz, Hp⟩
  iapply Hk
  iframe # ∗
end Waits

theorem dmaPay_send0 (c : Dev nD) (k : Fin 16) :
    dmaPay m c (semOf (sendArr 0) k).val = (ℓx c ↦[rowsX (sLo c 0 k.val) (rLen c 0 k.val)]{fullShare.right} Xin m c) :=
  dmaPay_0 m c k
theorem dmaPay_send1 (c : Dev nD) (k : Fin 16) :
    dmaPay m c (semOf (sendArr 1) k).val = (ℓo c ↦[rowsO (rLo c 0 k.val) (rLen c 0 k.val)]{fullShare.left} Gout m c) := by
  rw [show semOf (sendArr 1) k = semOf 2 k from rfl, dmaPay_2, sLo_y_eq_rLo_x]
theorem dmaPay_send2 (c : Dev nD) (k : Fin 16) :
    dmaPay m c (semOf (sendArr 2) k).val = (ℓo c ↦[rowsO (sLo c 2 k.val) (len680 k.val)]{fullShare.right} Gout m c) :=
  dmaPay_4 m c k

def ZSrc (c : Dev nD) (S : Finset (Fin 16)) : sProp 𝕄 :=
  bigSep S fun k => (ℓo c ↦[rowsO (sLo c 2 k.val) (len680 k.val)]{fullShare.right} Gout m c)

section WaitsInto
variable (c : Dev nD) (k : ℕ) (hk : k < 16)
variable {sp sp' : Space} {s s' : Shape} {e e' : EltTy} {src : Memref sig .tc sp' s' e'} {κ' : Kind} {dst : Memref sig κ' sp s e}
variable {hsrc : src.view.WordExact} {hdst : dst.view.WordExact}

theorem fstep_wait_send_x (hamt : dst.view.dmaCredit = amt c (semOf (sendArr 0) ⟨k, hk⟩).val) (W : Waits sig Unit)
    {α : Type} {Q : α → sProp 𝕄} {kt : PUnit → Prog (TpuEff nD τ sig (Elt F) Λ₀ .tc) α} :
    iprop(records m K ∗ CrS (F := F) c 0 (ge k) ∗ AtF (F := F) c (sendArr 0) (ge k) ∗ ClF (F := F) c (sendArr 0) (lt k)
        ∗ SrcX m c (lt k) ∗ owes (c : Thread nD τ) 0 W)
      ⊢ iprop(((CrS (F := F) c 0 (ge (k + 1)) ∗ AtF (F := F) c (sendArr 0) (ge (k + 1)) ∗ ClF (F := F) c (sendArr 0) (lt (k + 1))
              ∗ SrcX m c (lt (k + 1)) ∗ owes (c : Thread nD τ) 0 (insert (SemLoc.dma (semOf (sendArr 0) ⟨k, hk⟩), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (sendArr 0) ⟨k, hk⟩) src dst hsrc hdst) kt) Q) := by
  unfold SrcX
  rw [push_lt _ k hk]
  iintro ⟨#HR, HC, HA, HZ, HF, HO⟩ Hk
  iapply (fstep_wait_send m K c k hk (src := src) (dst := dst) (hsrc := hsrc) (hdst := hdst) 0 hamt W (Q := Q) (kt := kt)) $$ [HC HA HZ HO]
  · iframe # ∗
  iintro ⟨HC, HA, HZ, HO, Hp⟩
  ihave Hp' := (Entails.of_eq (dmaPay_send0 m c ⟨k, hk⟩)) $$ Hp
  iapply Hk
  iframe # ∗

theorem fstep_wait_send_y (hamt : dst.view.dmaCredit = amt c (semOf (sendArr 1) ⟨k, hk⟩).val) (W : Waits sig Unit)
    {α : Type} {Q : α → sProp 𝕄} {kt : PUnit → Prog (TpuEff nD τ sig (Elt F) Λ₀ .tc) α} :
    iprop(records m K ∗ CrS (F := F) c 1 (ge k) ∗ AtF (F := F) c (sendArr 1) (ge k) ∗ ClF (F := F) c (sendArr 1) (lt k)
        ∗ Lnd m c 0 fullShare.left (lt k) ∗ owes (c : Thread nD τ) 0 W)
      ⊢ iprop(((CrS (F := F) c 1 (ge (k + 1)) ∗ AtF (F := F) c (sendArr 1) (ge (k + 1)) ∗ ClF (F := F) c (sendArr 1) (lt (k + 1))
              ∗ Lnd m c 0 fullShare.left (lt (k + 1)) ∗ owes (c : Thread nD τ) 0 (insert (SemLoc.dma (semOf (sendArr 1) ⟨k, hk⟩), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (sendArr 1) ⟨k, hk⟩) src dst hsrc hdst) kt) Q) := by
  unfold Lnd
  rw [push_lt _ k hk]
  iintro ⟨#HR, HC, HA, HZ, HF, HO⟩ Hk
  iapply (fstep_wait_send m K c k hk (src := src) (dst := dst) (hsrc := hsrc) (hdst := hdst) 1 hamt W (Q := Q) (kt := kt)) $$ [HC HA HZ HO]
  · iframe # ∗
  iintro ⟨HC, HA, HZ, HO, Hp⟩
  ihave Hp' := (Entails.of_eq (dmaPay_send1 m c ⟨k, hk⟩)) $$ Hp
  iapply Hk
  iframe # ∗

theorem fstep_wait_send_z (hamt : dst.view.dmaCredit = amt c (semOf (sendArr 2) ⟨k, hk⟩).val) (W : Waits sig Unit)
    {α : Type} {Q : α → sProp 𝕄} {kt : PUnit → Prog (TpuEff nD τ sig (Elt F) Λ₀ .tc) α} :
    iprop(records m K ∗ CrS (F := F) c 2 (ge k) ∗ AtF (F := F) c (sendArr 2) (ge k) ∗ ClF (F := F) c (sendArr 2) (lt k)
        ∗ ZSrc m c (lt k) ∗ owes (c : Thread nD τ) 0 W)
      ⊢ iprop(((CrS (F := F) c 2 (ge (k + 1)) ∗ AtF (F := F) c (sendArr 2) (ge (k + 1)) ∗ ClF (F := F) c (sendArr 2) (lt (k + 1))
              ∗ ZSrc m c (lt (k + 1)) ∗ owes (c : Thread nD τ) 0 (insert (SemLoc.dma (semOf (sendArr 2) ⟨k, hk⟩), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (sendArr 2) ⟨k, hk⟩) src dst hsrc hdst) kt) Q) := by
  unfold ZSrc
  rw [push_lt _ k hk]
  iintro ⟨#HR, HC, HA, HZ, HF, HO⟩ Hk
  iapply (fstep_wait_send m K c k hk (src := src) (dst := dst) (hsrc := hsrc) (hdst := hdst) 2 hamt W (Q := Q) (kt := kt)) $$ [HC HA HZ HO]
  · iframe # ∗
  iintro ⟨HC, HA, HZ, HO, Hp⟩
  ihave Hp' := (Entails.of_eq (dmaPay_send2 m c ⟨k, hk⟩)) $$ Hp
  iapply Hk
  iframe # ∗

theorem fstep_wait_recv_end (d : Fin 3) (hamt : dst.view.dmaCredit = amt c (semOf (recvArr d) ⟨k, hk⟩).val) (W : Waits sig Unit)
    {α : Type} {Q : α → sProp 𝕄} {kt : PUnit → Prog (TpuEff nD τ sig (Elt F) Λ₀ .tc) α} :
    iprop(records m K ∗ CrR (F := F) c d (ge k) ∗ AtF (F := F) c (recvArr d) (ge k) ∗ ClF (F := F) c (recvArr d) (lt k)
        ∗ Lnd m c d fullShare (lt k) ∗ owes (c : Thread nD τ) 0 W)
      ⊢ iprop(((CrR (F := F) c d (ge (k + 1)) ∗ AtF (F := F) c (recvArr d) (ge (k + 1)) ∗ ClF (F := F) c (recvArr d) (lt (k + 1))
              ∗ Lnd m c d fullShare (lt (k + 1)) ∗ owes (c : Thread nD τ) 0 (insert (SemLoc.dma (semOf (recvArr d) ⟨k, hk⟩), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (recvArr d) ⟨k, hk⟩) src dst hsrc hdst) kt) Q) := by
  unfold CrR AtF ClF Lnd
  rw [peel_ge _ k hk, peel_ge _ k hk, push_lt _ k hk, push_lt _ k hk]
  iintro ⟨#HR, ⟨Hc, Hcr⟩, ⟨Ha, Hat⟩, Hcl, HF, HO⟩ Hk
  ihave #H1 := (rec_dma m K c (recvArr d) ⟨k, hk⟩) $$ HR
  icases H1 with ⟨#HI, #Hre⟩
  iapply (wp_wait_dma m (K (c, some (some (recvArr d, ⟨k, hk⟩)))) c (recvArr d) ⟨k, hk⟩ (src := src) (dst := dst) (hsrc := hsrc) (hdst := hdst)
      hamt 0 W (Q := Q) (kt := kt)) $$ [Hc HO Ha]
  · isplitr; · iexact HI
    isplitl [Hc]; · iexact Hc
    isplitl [HO]; · iexact HO
    isplitr; · rw [MayWait_zero]; iempintro
    iexact Ha
  iintro ⟨HO, Hz, Hp⟩
  ihave Hp' := (Entails.of_eq (dmaPay_recv m c d ⟨k, hk⟩)) $$ Hp
  iapply Hk
  iframe # ∗

end WaitsInto

end Cert.KernelIdeal.AG
end
-- ==== Proof.Regroup.lean ====
import proofs.«900679_g7700000000000680_dist_ag_v7x_xyz2x2x4_x_m2048_n512_f32_1_alg».proof.Proof.Prologue
import proofs.«900679_g7700000000000680_dist_ag_v7x_xyz2x2x4_x_m2048_n512_f32_1_alg».proof.Proof.FWaits
import proofs.«900679_g7700000000000680_dist_ag_v7x_xyz2x2x4_x_m2048_n512_f32_1_alg».proof.Proof.Launch
import proofs.«900679_g7700000000000680_dist_ag_v7x_xyz2x2x4_x_m2048_n512_f32_1_alg».proof.Proof.Assemble
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem CrS_lt_zero (c : Dev nD) (d : Fin 3) : (CrS (F := F) c d (lt 0) : sProp 𝕄) = iprop(emp) := by
  unfold CrS; rw [lt_zero, bigSep_empty]; rfl
omit [FloatOps F] in
theorem ClF_lt_zero (c : Dev nD) (a : Fin 6) : (ClF (F := F) c a (lt 0) : sProp 𝕄) = iprop(emp) := by
  unfold ClF; rw [lt_zero, bigSep_empty]; rfl
theorem Lnd_lt_zero (c : Dev nD) (d : Fin 3) (q : PosShare TreeShare) : (Lnd m c d q (lt 0) : sProp 𝕄) = iprop(emp) := by
  unfold Lnd; rw [lt_zero, bigSep_empty]; rfl
theorem SrcX_lt_zero (c : Dev nD) : (SrcX m c (lt 0) : sProp 𝕄) = iprop(emp) := by
  unfold SrcX; rw [lt_zero, bigSep_empty]; rfl
theorem ZSrc_lt_zero (c : Dev nD) : (ZSrc m c (lt 0) : sProp 𝕄) = iprop(emp) := by
  unfold ZSrc; rw [lt_zero, bigSep_empty]; rfl

theorem ZSrc_eq_y0 (c : Dev nD) (hy : yc c = 0) (S : Finset (Fin 16)) : ZSrc m c S = Lnd m c 0 fullShare.right S := by
  unfold ZSrc Lnd
  refine bigSep_congr fun k _ => ?_
  rw [sLo_z_eq_rLo c k.val, len680_eq_rLen c k.val, if_pos hy, if_pos hy]

theorem ZSrc_eq_y1 (c : Dev nD) (hy : yc c = 1) (S : Finset (Fin 16)) : ZSrc m c S = Lnd m c 1 fullShare.right S := by
  have hy0 : ¬ yc c = 0 := by omega
  unfold ZSrc Lnd
  refine bigSep_congr fun k _ => ?_
  rw [sLo_z_eq_rLo c k.val, len680_eq_rLen c k.val, if_neg hy0, if_neg hy0]

theorem fetch_in (t : Fin cfg0.N) : (cfg0.win (0 : Fin 2)).fetch t = true := by rw [fin_N t]; rfl

theorem pre_unpack (c : Dev nD) :
    bodyPre m ρ c ⊢ iprop(∃ (K : Dev nD × CIx → ℕ) (W : Waits sig Unit) (fo : Buf (Elt F) (ℓo c)),
      records m K ∗ levAts L lv ∗ owes (c : Thread nD τ) (O₀ c) W
        ∗ atPos ER (barCell c) 0 ∅ 0 ∗ atPos ER (locCell c) 0 ∅ 0 ∗ cred (tallyAt (barCell c) () 3)
        ∗ dutyTok ER (barCell (peer 0 c)) 0 0 ∗ dutyTok ER (barCell (peer 1 c)) 0 1 ∗ dutyTok ER (barCell (peer 2 c)) 0 2
        ∗ dutyTok ER (locCell c) 0 0
        ∗ (AtF (F := F) c 0 (ge 0) ∗ AtF (F := F) c 1 (ge 0) ∗ AtF (F := F) c 2 (ge 0) ∗ AtF (F := F) c 3 (ge 0)
            ∗ AtF (F := F) c 4 (ge 0) ∗ AtF (F := F) c 5 (ge 0))
        ∗ (TokF (F := F) c 0 (ge 0) ∗ TokF (F := F) c 1 (ge 0) ∗ TokF (F := F) c 2 (ge 0))
        ∗ (CrR (F := F) c 0 (ge 0) ∗ CrR (F := F) c 1 (ge 0) ∗ CrR (F := F) c 2 (ge 0))
        ∗ (ℓx c ↦{fullShare} Xin m c) ∗ (ℓo c ↦{fullShare} fo)) := by
  unfold bodyPre Φ₀ start ghost linear Dat.owesAt Pipeline.owesWithin
  rw [show (dats m ρ 0 c).owed t₀.castSucc = O₀ c from rfl, ge_zero, bigSep_fin6, bigSep_fin3, bigSep_fin3, bigSep_fin3]
  iintro ⟨⟨⟨%K, HR, Hab, Hal, ⟨A0, A1, A2, A3, A4, A5⟩, ⟨T0, T1, T2⟩, Tl, ⟨F0, F1, F2⟩⟩, Hcb, ⟨C0, C1, C2⟩, Hlev⟩,
    ⟨%W, %hW, HO⟩, ⟨%d0, %g0, %hg0, Hx⟩, ⟨%d1, %g1, %hg1, Hout⟩⟩
  have hx : g0 = Xin m c := by rw [hg0]; unfold Dat.before; rw [if_pos (fetch_in t₀)]; rfl
  subst hx
  iexists K, W, g1
  iframe # ∗

theorem post_pack_y0 (c : Dev nD) (hy : yc c = 0) (K : Dev nD × CIx → ℕ) (W : Waits sig Unit) :
    iprop(records m K ∗ owes (c : Thread nD τ) 0 W ∗ semVal (locCell c) 0
        ∗ (ClF (F := F) c 0 (lt 16) ∗ ClF (F := F) c 1 (lt 16) ∗ ClF (F := F) c 2 (lt 16) ∗ ClF (F := F) c 3 (lt 16)
            ∗ ClF (F := F) c 4 (lt 16) ∗ ClF (F := F) c 5 (lt 16))
        ∗ (ℓx c ↦[rowsX 0 2048]{fullShare.left} Xin m c) ∗ SrcX m c (lt 16) ∗ XRest m c
        ∗ (ℓo c ↦[rowsO (2048 * xc c) 2048]{fullShare} Gout m c) ∗ Lnd m c 0 fullShare.left (lt 16) ∗ ZSrc m c (lt 16)
        ∗ Lnd m c 1 fullShare (lt 16) ∗ Lnd m c 2 fullShare (lt 16))
      ⊢ bodyPost m ρ c := by
  rw [lt_16, ZSrc_eq_y0 m c hy]
  unfold bodyPost Φ₁ Dat.owesAt Pipeline.owesWithin
  rw [show (dats m ρ 0 c).owed t₀.succ = 0 from rfl, bigSep_fin6]
  iintro ⟨#HR, HO, Hz, ⟨Z0, Z1, Z2, Z3, Z4, Z5⟩, Hxl, Hsx, Hxr, Hown, L0l, L0r, L1, L2⟩
  isplitl [Hz Z0 Z1 Z2 Z3 Z4 Z5]
  · iframe # ∗
  isplitl [HO]
  · iexists W
    isplitr; · ipureintro; exact fun _ _ => Or.inl trivial
    iexact HO
  isplitl [Hxl Hsx Hxr]
  · iexists _; isplitr; · (ipureintro; rfl)
    iapply (xin_split_bi m c).2
    iframe # ∗
  iexists _; isplitr; · (ipureintro; rfl)
  iapply (reassemble m c)
  isplitl [Hown]; · iexact Hown
  isplitl [L0l L0r]
  · iapply (Lnd_halves_bi m c 0 Finset.univ).1
    iframe # ∗
  iframe # ∗

theorem post_pack_y1 (c : Dev nD) (hy : yc c = 1) (K : Dev nD × CIx → ℕ) (W : Waits sig Unit) :
    iprop(records m K ∗ owes (c : Thread nD τ) 0 W ∗ semVal (locCell c) 0
        ∗ (ClF (F := F) c 0 (lt 16) ∗ ClF (F := F) c 1 (lt 16) ∗ ClF (F := F) c 2 (lt 16) ∗ ClF (F := F) c 3 (lt 16)
            ∗ ClF (F := F) c 4 (lt 16) ∗ ClF (F := F) c 5 (lt 16))
        ∗ (ℓx c ↦[rowsX 0 2048]{fullShare.left} Xin m c) ∗ SrcX m c (lt 16) ∗ XRest m c
        ∗ (ℓo c ↦[rowsO (2048 * xc c) 2048]{fullShare} Gout m c) ∗ Lnd m c 0 fullShare.left (lt 16) ∗ Lnd m c 0 fullShare.right (lt 16)
        ∗ Lnd m c 1 fullShare.left (lt 16) ∗ ZSrc m c (lt 16) ∗ Lnd m c 2 fullShare (lt 16))
      ⊢ bodyPost m ρ c := by
  rw [lt_16, ZSrc_eq_y1 m c hy]
  unfold bodyPost Φ₁ Dat.owesAt Pipeline.owesWithin
  rw [show (dats m ρ 0 c).owed t₀.succ = 0 from rfl, bigSep_fin6]
  iintro ⟨#HR, HO, Hz, ⟨Z0, Z1, Z2, Z3, Z4, Z5⟩, Hxl, Hsx, Hxr, Hown, L0l, L0r, L1l, L1r, L2⟩
  isplitl [Hz Z0 Z1 Z2 Z3 Z4 Z5]
  · iframe # ∗
  isplitl [HO]
  · iexists W
    isplitr; · ipureintro; exact fun _ _ => Or.inl trivial
    iexact HO
  isplitl [Hxl Hsx Hxr]
  · iexists _; isplitr; · (ipureintro; rfl)
    iapply (xin_split_bi m c).2
    iframe # ∗
  iexists _; isplitr; · (ipureintro; rfl)
  iapply (reassemble m c)
  isplitl [Hown]; · iexact Hown
  isplitl [L0l L0r]
  · iapply (Lnd_halves_bi m c 0 Finset.univ).1
    iframe # ∗
  isplitl [L1l L1r]
  · iapply (Lnd_halves_bi m c 1 Finset.univ).1
    iframe # ∗
  iexact L2

end Cert.KernelIdeal.AG
end
-- ==== Proof.BodyLib.lean ====
import proofs.«900679_g7700000000000680_dist_ag_v7x_xyz2x2x4_x_m2048_n512_f32_1_alg».proof.Proof.Regroup
import proofs.«900679_g7700000000000680_dist_ag_v7x_xyz2x2x4_x_m2048_n512_f32_1_alg».proof.Proof.DevEq

noncomputable section
namespace Cert.KernelIdeal.AG
open Cert.KernelIdeal Cert.KernelIdeal.Gen Cert.AG Cert.KernelIdeal.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

/-- A slice of `n` rows is worth what the cell of a copy of `n` rows expects. -/
theorem hamt_o (c : Dev nD) (a : Fin 6) (k : Fin 16) (n : ℕ) (h48 : n = 48 ∨ n = 40) (off : Fin 2 → ℕ)
    (h : ∀ a, off a + (Sn n).size a ≤ S4096x512.size a) (hl : lenAt c (semOf a k).val = n) :
    (oSl n off h).view.dmaCredit = amt c (semOf a k).val := by
  rw [amt_of_len c a k n hl]; rcases h48 with rfl | rfl <;> rfl
theorem hamt_x (c : Dev nD) (a : Fin 6) (k : Fin 16) (n : ℕ) (h48 : n = 48 ∨ n = 40) (off : Fin 2 → ℕ)
    (h : ∀ a, off a + (Sn n).size a ≤ S2048x512.size a) (hl : lenAt c (semOf a k).val = n) :
    (xSl n off h).view.dmaCredit = amt c (semOf a k).val := by
  rw [amt_of_len c a k n hl]; rcases h48 with rfl | rfl <;> rfl

/-- A chunk in place joins the chunks below it. -/
theorem Lnd_push (c : Dev nD) (d : Fin 3) (q : PosShare TreeShare) (k : ℕ) (hk : k < 16) :
    iprop((ℓo c ↦[rowsO (rLo c d k) (rLen c d k)]{q} Gout m c) ∗ Lnd m c d q (lt k)) ⊢ Lnd m c d q (lt (k + 1)) := by
  unfold Lnd; rw [push_lt _ k hk]
theorem lt16_ge0 : lt 16 = ge 0 := by decide

/-- The rows forwarded to the z neighbour are those received across x when y = 0, across y when y = 1. -/
theorem zsrc0 (c : Dev nD) (hy : yc c = 0) (k : ℕ) (q : PosShare TreeShare) :
    (ℓo c ↦[rowsO (rLo c 0 k) (rLen c 0 k)]{q} Gout m c : sProp 𝕄) ⊢ (ℓo c ↦[rowsO (sLo c 2 k) (len680 k)]{q} Gout m c) := by
  rw [sLo_z_eq_rLo, len680_eq_rLen c k, if_pos hy, if_pos hy]
theorem zsrc1 (c : Dev nD) (hy : yc c = 1) (k : ℕ) (q : PosShare TreeShare) :
    (ℓo c ↦[rowsO (rLo c 1 k) (rLen c 1 k)]{q} Gout m c : sProp 𝕄) ⊢ (ℓo c ↦[rowsO (sLo c 2 k) (len680 k)]{q} Gout m c) := by
  rw [sLo_z_eq_rLo, len680_eq_rLen c k, if_neg (by omega), if_neg (by omega)]

variable (K : Dev nD × CIx → ℕ)

/-- The start of every body: the three partners are told their slabs are free, their word comes back, and the own half is copied in place. -/
theorem prologue (c : Dev nD) (W : Waits sig Unit) (fo : Buf (Elt F) (ℓo c))
    (off : Fin 2 → ℕ) (h : ∀ a, off a + S2048x512.size a ≤ S4096x512.size a) (ho : off = ![2048 * xc c, 0])
    {hsrc : (xM : Memref sig .tc .vmem S2048x512 .f32).view.WordExact}
    {hdst : ((oM.slice (Rect.unit (s := S4096x512) off S2048x512.size h) (fun _ => rfl) : Memref sig .tc .vmem S2048x512 .f32)).view.WordExact}
    {hsem : DmaTarget.Typed (nD := nD) .vmem (.dma locS) (DmaTarget.here (p := (Proc.tc : Proc τ)) (oM.slice (Rect.unit (s := S4096x512) off S2048x512.size h) (fun _ => rfl) : Memref sig .tc .vmem S2048x512 .f32))}
    (k1 k2 k3 k4 : ℕ) (h1 : k1 = 1) (h2 : k2 = 1) (h3' : k3 = 1) (h4 : k4 = 3)
    {α : Type} {Q : α → sProp 𝕄} {kt : PUnit → Prog (TpuEff nD τ sig (Elt F) Λ₀ .tc) α} :
    iprop(records m K ∗ levAts L lv ∗ owes (c : Thread nD τ) (O₀ c) W ∗ atPos ER (barCell c) 0 ∅ 0 ∗ cred (tallyAt (barCell c) () 3)
        ∗ dutyTok ER (barCell (peer 0 c)) 0 0 ∗ dutyTok ER (barCell (peer 1 c)) 0 1 ∗ dutyTok ER (barCell (peer 2 c)) 0 2
        ∗ dutyTok ER (locCell c) 0 0 ∗ (ℓx c ↦{fullShare} Xin m c) ∗ (ℓo c ↦{fullShare} fo))
      ⊢ iprop(((owes (c : Thread nD τ) (owedX c 16) (insert (SemLoc.reg barS, ()) W) ∗ SrcX m c (ge 0) ∗ XRest m c
              ∗ DstF (F := F) c 0 (ge 0) ∗ DstF (F := F) c 1 (ge 0) ∗ DstF (F := F) c 2 (ge 0)
              ∗ cred (tallyAt (locCell c) () (amt c 98))
              ∗ CrS (F := F) c 0 (lt 0) ∗ CrS (F := F) c 1 (lt 0) ∗ CrS (F := F) c 2 (lt 0)
              ∗ ClF (F := F) c 0 (lt 0) ∗ ClF (F := F) c 1 (lt 0) ∗ ClF (F := F) c 2 (lt 0) ∗ ClF (F := F) c 3 (lt 0) ∗ ClF (F := F) c 4 (lt 0) ∗ ClF (F := F) c 5 (lt 0)
              ∗ Lnd m c 2 fullShare (lt 0)
              ∗ SrcX m c (lt 0) ∗ Lnd m c 0 fullShare.left (lt 0) ∗ ZSrc m c (lt 0))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal (Dev.tc (xp c) : Thread nD τ) barS k1) fun _ =>
                .op (.semSignal (Dev.tc (yp c) : Thread nD τ) barS k2) fun _ =>
                .op (.semSignal (Dev.tc (zb c) : Thread nD τ) barS k3) fun _ =>
                .op (.semWait barS k4) fun _ =>
                .op (.enqueueDma xM (DmaTarget.here (p := (Proc.tc : Proc τ)) (oM.slice (Rect.unit (s := S4096x512) off S2048x512.size h) (fun _ => rfl) : Memref sig .tc .vmem S2048x512 .f32)) (.dma locS) hsrc hdst hsem) kt) Q) := by
  rw [CrS_lt_zero, CrS_lt_zero, CrS_lt_zero, ClF_lt_zero, ClF_lt_zero, ClF_lt_zero, ClF_lt_zero, ClF_lt_zero, ClF_lt_zero,
    Lnd_lt_zero, SrcX_lt_zero, Lnd_lt_zero, ZSrc_lt_zero, ge_zero]
  iintro ⟨#HR, #Hlev, HO, Hab, Hcb, T0, T1, T2, Tl, Hx, Hout⟩ Hk
  ihave Hg := (give_away c fo) $$ Hout
  icases Hg with ⟨Hown, HB0, HB1, HB2⟩
  ihave Hxs := (xin_split_bi m c).1 $$ Hx
  icases Hxs with ⟨Hxl, HSrc, HXR⟩
  iapply (fstep_signal m K c (xp c) 0 rfl k1 h1 (owedX c 16 + tB c 2 + tB c 1) W) $$ [HB0 T0 HO]
  · isplitr; · iexact HR
    isplitl [HB0]; · iexact HB0
    isplitl [T0]; · iexact T0
    iexact HO
  iintro HO
  iapply (fstep_signal m K c (yp c) 1 rfl k2 h2 (owedX c 16 + tB c 2) W) $$ [HB1 T1 HO]
  · iframe # ∗
  iintro HO
  iapply (fstep_signal m K c (zb c) 2 rfl k3 h3' (owedX c 16) W) $$ [HB2 T2 HO]
  · iframe # ∗
  iintro HO
  iapply (fstep_bar_wait m K c k4 h4 (owedX c 16) W) $$ [Hcb Hab HO]
  · isplitr; · iexact HR
    isplitl [Hcb]; · iexact Hcb
    isplitl [Hab]; · iexact Hab
    isplitl [HO]; · iexact HO
    iapply (mayWait_bar (F := F) c); iexact Hlev
  iintro ⟨HO, HD0, HD1, HD2⟩
  iapply (fstep_loc_start m K c off h ho fo) $$ [Hxl Hown Tl]
  · iframe # ∗
  iintro Hcl
  iapply Hk
  isplitl [HO]; · iexact HO
  isplitl [HSrc]; · iexact HSrc
  isplitl [HXR]; · iexact HXR
  isplitl [HD0]; · iexact HD0
  isplitl [HD1]; · iexact HD1
  isplitl [HD2]; · iexact HD2
  isplitl [Hcl]; · iexact Hcl
  repeat (isplitr; · iempintro)
  iempintro

open Lean in
set_option hygiene false in
/-- Copy `k` across x on a device of class `i` (classes 1 to 4: y = 0 or 1, z even or odd). -/
macro "xsend " i:num k:num : tactic => do
  let (iv, kv) := (i.getNat, k.getNat)
  let t := 5 + (iv - 1) / 2
  let n : Nat := if kv < t then 48 else 40
  let row : Nat := if kv < t then 48 * kv else 48 * t + 40 * (kv - t)
  let sb : Nat := #[0, 1368, 680, 680][iv - 1]!
  let dev := mkIdent (Name.mkSimple s!"k0_dev{48 * (iv - 1) + 4 + kv}")
  let devlt := mkIdent (Name.mkSimple s!"k0_dev{48 * (iv - 1) + 4 + kv}_lt")
  let offF := mkIdent (Name.mkSimple s!"k0_off{if kv < t then 4 * iv - 2 else 4 * iv - 1}")
  `(tactic| (
    iapply (fstep_xsend m K c ⟨$dev c, $devlt c hc⟩ $(quote (15 - kv)) $(quote kv) rfl (by decide) $(quote n) ![$(quote (sb + row)), 0] ($offF c (BitVec.ofNat 32 $(quote row)))
        (dev_eq $dev xp (by decide +kernel) c _) (by class_decide c hy hp) _ _
        (by class_decide c hy hp) (by class_decide c hy hp) _) $$ [HSrc HD0 HT0 HCs0 HO]
    · iframe # ∗
    iintro ⟨HSrc, HD0, HT0, HCs0, HO⟩))

open Lean in
set_option hygiene false in
/-- Wait for chunk `k` from across x; its rows come back in two half shares. -/
macro "xrecv " i:num k:num : tactic => do
  let kv := k.getNat
  let n : Nat := if kv < 5 + (i.getNat - 1) / 2 then 48 else 40
  `(tactic| (
    iapply (fstep_wait_recv m K c $(quote kv) (by decide) 0
        (hamt_o c 1 ⟨$(quote kv), by decide⟩ $(quote n) (by decide) _ _ (by class_decide c hy hp))
        (owedL c ($(quote (15 - kv)) + 1)) _) $$ [HCr0 HA1 HC1 HO]
    · isplitr; · iexact HR
      isplitl [HCr0]; · iexact HCr0
      isplitl [HA1]; · iexact HA1
      isplitl [HC1]; · iexact HC1
      isplitl [HO]; · iexact HO
      iapply (mayWait_xr (F := F) c $(quote (15 - kv)) (by decide)); iexact Hlev
    iintro ⟨HCr0, HA1, HC1, HO, Hl, Hr⟩))

open Lean in
set_option hygiene false in
/-- Forward chunk `k` across y from the left half share of the rows received across x. -/
macro "ysend " i:num k:num : tactic => do
  let (iv, kv) := (i.getNat, k.getNat)
  let t := 5 + (iv - 1) / 2
  let n : Nat := if kv < t then 48 else 40
  let row : Nat := if kv < t then 48 * kv else 48 * t + 40 * (kv - t)
  let sb : Nat := #[0, 1368, 680, 680][iv - 1]!
  let dev := mkIdent (Name.mkSimple s!"k0_dev{48 * (iv - 1) + 20 + 2 * kv}")
  let devlt := mkIdent (Name.mkSimple s!"k0_dev{48 * (iv - 1) + 20 + 2 * kv}_lt")
  let offF := mkIdent (Name.mkSimple s!"k0_off{if kv < t then 4 * iv else 4 * iv + 1}")
  let tail ← if iv ≤ 2 then `(tactic| skip) else `(tactic| (
    ihave HLXr := (Lnd_push m c 0 fullShare.right $(quote kv) (by decide)) $$ [Hr HLXr]
    · isplitl [Hr] <;> iassumption))
  `(tactic| (
    iapply (fstep_ysend m K c ⟨$dev c, $devlt c hc⟩ $(quote (15 - kv)) $(quote kv) rfl (by decide) $(quote n)
        ($offF c (BitVec.ofNat 32 $(quote sb)) (BitVec.ofNat 32 $(quote row))) ($offF c (BitVec.ofNat 32 $(quote sb)) (BitVec.ofNat 32 $(quote row)))
        (dev_eq $dev yp (by decide +kernel) c _) (by class_decide c hy hp) _ _
        (by class_decide c hy hp) (by class_decide c hy hp) _) $$ [Hl HD1 HT1 HCs1 HO]
    · iframe # ∗
    iintro ⟨HD1, HT1, HCs1, HO⟩
    $tail))

open Lean in
set_option hygiene false in
/-- Forward chunk `k` of the first y block's slab to the z neighbour. -/
macro "zsend " i:num k:num : tactic => do
  let (iv, kv) := (i.getNat, k.getNat)
  let n : Nat := if kv < 5 then 48 else 40
  let row : Nat := if kv < 5 then 48 * kv else 240 + 40 * (kv - 5)
  let sb : Nat := 1368 * ((iv - 1) % 2)
  let dev := mkIdent (Name.mkSimple s!"k0_dev{48 * (iv - 1) + 21 + 2 * kv}")
  let devlt := mkIdent (Name.mkSimple s!"k0_dev{48 * (iv - 1) + 21 + 2 * kv}_lt")
  let offF := mkIdent (Name.mkSimple s!"k0_off{if kv < 5 then 4 * iv else 4 * iv + 1}")
  let zsrc := mkIdent (Name.mkSimple (if iv ≤ 2 then "zsrc0" else "zsrc1"))
  let tail ← if iv ≤ 2 then `(tactic| skip) else `(tactic| (
    ihave HLYl := (Lnd_push m c 1 fullShare.left $(quote kv) (by decide)) $$ [Hl HLYl]
    · isplitl [Hl] <;> iassumption))
  `(tactic| (
    iapply (fstep_zsend m K c ⟨$dev c, $devlt c hc⟩ $(quote (15 - kv)) $(quote kv) rfl (by decide) $(quote n)
        ($offF c (BitVec.ofNat 32 $(quote sb)) (BitVec.ofNat 32 $(quote row))) ($offF c (BitVec.ofNat 32 $(quote sb)) (BitVec.ofNat 32 $(quote row)))
        (dev_eq $dev zb (by decide +kernel) c _) rfl _ _
        (by class_decide c hy hp) (by class_decide c hy hp) _) $$ [Hr HD2 HT2 HCs2 HO]
    · isplitr; · iexact HR
      isplitl [Hr]; · iapply ($zsrc m c hy $(quote kv) _); iexact Hr
      iframe # ∗
    iintro ⟨HD2, HT2, HCs2, HO⟩
    $tail))

open Lean in
set_option hygiene false in
/-- Wait for chunk `k` from across y; when y = 1 its forward to the z neighbour is still owed. -/
macro "yrecv " i:num k:num : tactic => do
  let (iv, kv) := (i.getNat, k.getNat)
  let n : Nat := if kv < 6 - (iv - 1) / 2 then 48 else 40
  if iv ≤ 2 then `(tactic| (
    iapply (fstep_wait_recv_end m K c $(quote kv) (by decide) 1
        (hamt_o c 3 ⟨$(quote kv), by decide⟩ $(quote n) (by decide) _ _ (by class_decide c hy hp)) _) $$ [HCr1 HA3 HC3 HLY HO]
    · isplitr; · iexact HR
      isplitl [HCr1]; · iexact HCr1
      isplitl [HA3]; · iexact HA3
      isplitl [HC3]; · iexact HC3
      isplitl [HLY]; · iexact HLY
      iexact HO
    iintro ⟨HCr1, HA3, HC3, HLY, HO⟩))
  else `(tactic| (
    iapply (fstep_wait_recv m K c $(quote kv) (by decide) 1
        (hamt_o c 3 ⟨$(quote kv), by decide⟩ $(quote n) (by decide) _ _ (by class_decide c hy hp))
        (owedL c $(quote (15 - kv)) + tR c 2 ⟨$(quote kv), by decide⟩) _) $$ [HCr1 HA3 HC3 HO]
    · isplitr; · iexact HR
      isplitl [HCr1]; · iexact HCr1
      isplitl [HA3]; · iexact HA3
      isplitl [HC3]; · iexact HC3
      isplitl [HO]; · iexact HO
      iapply (mayWait_yr (F := F) c $(quote (15 - kv)) (by decide)); iexact Hlev
    iintro ⟨HCr1, HA3, HC3, HO, Hl, Hr⟩))

open Lean in
set_option hygiene false in
/-- Wait for chunk `k` from the z neighbour. -/
macro "zrecv " i:num k:num : tactic => do
  let kv := k.getNat
  let n : Nat := if kv < 5 then 48 else 40
  `(tactic| (
    iapply (fstep_wait_recv_end m K c $(quote kv) (by decide) 2
        (hamt_o c 5 ⟨$(quote kv), by decide⟩ $(quote n) (by decide) _ _ (by class_decide c hy hp)) _) $$ [HCr2 HA5 HC5 HLZ HO]
    · isplitr; · iexact HR
      isplitl [HCr2]; · iexact HCr2
      isplitl [HA5]; · iexact HA5
      isplitl [HC5]; · iexact HC5
      isplitl [HLZ]; · iexact HLZ
      iexact HO
    iintro ⟨HCr2, HA5, HC5, HLZ, HO⟩))

open Lean in
set_option hygiene false in
/-- Wait for the departure of chunk `k` across x: the lent share of the input rows returns. -/
macro "xswait " i:num k:num : tactic => do
  let kv := k.getNat
  let n : Nat := if kv < 5 + (i.getNat - 1) / 2 then 48 else 40
  `(tactic| (
    iapply (fstep_wait_send_x m K c $(quote kv) (by decide)
        (hamt_x c 0 ⟨$(quote kv), by decide⟩ $(quote n) (by decide) _ _ (by class_decide c hy hp)) _) $$ [HCs0 HA0 HC0 HSX HO]
    · isplitr; · iexact HR
      isplitl [HCs0]; · iexact HCs0
      isplitl [HA0]; · iexact HA0
      isplitl [HC0]; · iexact HC0
      isplitl [HSX]; · iexact HSX
      iexact HO
    iintro ⟨HCs0, HA0, HC0, HSX, HO⟩))

open Lean in
set_option hygiene false in
/-- Wait for the departure of chunk `k` across y. -/
macro "yswait " i:num k:num : tactic => do
  let kv := k.getNat
  let n : Nat := if kv < 5 + (i.getNat - 1) / 2 then 48 else 40
  `(tactic| (
    iapply (fstep_wait_send_y m K c $(quote kv) (by decide)
        (hamt_o c 2 ⟨$(quote kv), by decide⟩ $(quote n) (by decide) _ _ (by class_decide c hy hp)) _) $$ [HCs1 HA2 HC2 HLXl HO]
    · isplitr; · iexact HR
      isplitl [HCs1]; · iexact HCs1
      isplitl [HA2]; · iexact HA2
      isplitl [HC2]; · iexact HC2
      isplitl [HLXl]; · iexact HLXl
      iexact HO
    iintro ⟨HCs1, HA2, HC2, HLXl, HO⟩))

open Lean in
set_option hygiene false in
/-- Wait for the departure of chunk `k` to the z neighbour. -/
macro "zswait " i:num k:num : tactic => do
  let kv := k.getNat
  let n : Nat := if kv < 5 then 48 else 40
  `(tactic| (
    iapply (fstep_wait_send_z m K c $(quote kv) (by decide)
        (hamt_o c 4 ⟨$(quote kv), by decide⟩ $(quote n) (by decide) _ _ (by class_decide c hy hp)) _) $$ [HCs2 HA4 HC4 HZS HO]
    · isplitr; · iexact HR
      isplitl [HCs2]; · iexact HCs2
      isplitl [HA4]; · iexact HA4
      isplitl [HC4]; · iexact HC4
      isplitl [HZS]; · iexact HZS
      iexact HO
    iintro ⟨HCs2, HA4, HC4, HZS, HO⟩))

end Cert.KernelIdeal.AG
end
-- ==== Proof.Body1.lean ====
import proofs.«900679_g7700000000000680_dist_ag_v7x_xyz2x2x4_x_m2048_n512_f32_1_alg».proof.Proof.BodyLib

noncomputable section
namespace Cert.KernelIdeal.AG
open Cert.KernelIdeal Cert.KernelIdeal.Gen Cert.AG Cert.KernelIdeal.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

set_option maxHeartbeats 12800000 in
set_option maxRecDepth 65536 in
theorem body_c1 (c : Dev nD) (hc : k0_cond1 c = 1#1) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  sl_unfold [cc0_body, k0_part197, k0_part198]
  simp only [semSignalWord, semWaitWord, Prog.lift, Prog.bind_op, Prog.bind_ret, Prog.pure_eq_ret, wp_deviceId]
  simp only [conds_of_cond1 hc, ↓reduceDIte]
  sl_unfold [k0_part49, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48]
  simp only [Prog.lift, Prog.bind_op, Prog.bind_ret, Prog.pure_eq_ret]
  simp only [dev1_eq, dev2_eq, dev3_eq]
  have hy : yc c = 0 := ((cond1_iff c).1 hc).1
  have hp : pc c = 0 := ((cond1_iff c).1 hc).2
  iintro Hpre
  ihave H := (pre_unpack m ρ c) $$ Hpre
  icases H with ⟨%K, %W, %fo, #HR, #Hlev, HO, Hab, Hal, Hcb, T0, T1, T2, Tl, ⟨HA0, HA1, HA2, HA3, HA4, HA5⟩, ⟨HT0, HT1, HT2⟩, ⟨HCr0, HCr1, HCr2⟩, Hx, Hout⟩
  iapply (prologue m K c W fo (k0_off1 c) _ (off1_eq c) _ _ _ _ rfl rfl rfl rfl) $$ [HO Hab Hcb T0 T1 T2 Tl Hx Hout]
  · iframe # ∗
  iintro ⟨HO, HSrc, HXR, HD0, HD1, HD2, Hcl, HCs0, HCs1, HCs2, HC0, HC1, HC2, HC3, HC4, HC5, HLZ, HSX, HLXl, HZS⟩
  ihave HLY : Lnd m c 1 fullShare (lt 0) $$ []
  · rw [Lnd_lt_zero]; iempintro
  xsend 1 0
  xsend 1 1
  xsend 1 2
  xsend 1 3
  xsend 1 4
  xsend 1 5
  xsend 1 6
  xsend 1 7
  xsend 1 8
  xsend 1 9
  xsend 1 10
  xsend 1 11
  xsend 1 12
  xsend 1 13
  xsend 1 14
  xsend 1 15
  xrecv 1 0
  ysend 1 0
  zsend 1 0
  xrecv 1 1
  ysend 1 1
  zsend 1 1
  xrecv 1 2
  ysend 1 2
  zsend 1 2
  xrecv 1 3
  ysend 1 3
  zsend 1 3
  xrecv 1 4
  ysend 1 4
  zsend 1 4
  xrecv 1 5
  ysend 1 5
  zsend 1 5
  xrecv 1 6
  ysend 1 6
  zsend 1 6
  xrecv 1 7
  ysend 1 7
  zsend 1 7
  xrecv 1 8
  ysend 1 8
  zsend 1 8
  xrecv 1 9
  ysend 1 9
  zsend 1 9
  xrecv 1 10
  ysend 1 10
  zsend 1 10
  xrecv 1 11
  ysend 1 11
  zsend 1 11
  xrecv 1 12
  ysend 1 12
  zsend 1 12
  xrecv 1 13
  ysend 1 13
  zsend 1 13
  xrecv 1 14
  ysend 1 14
  zsend 1 14
  xrecv 1 15
  ysend 1 15
  zsend 1 15
  ihave Htmp := (Entails.of_eq (congrArg (CrS (F := F) c 0) lt16_ge0)) $$ HCs0
  irename Htmp => HCs0
  ihave Htmp := (Entails.of_eq (congrArg (CrS (F := F) c 1) lt16_ge0)) $$ HCs1
  irename Htmp => HCs1
  ihave Htmp := (Entails.of_eq (congrArg (CrS (F := F) c 2) lt16_ge0)) $$ HCs2
  irename Htmp => HCs2
  yrecv 1 0
  yrecv 1 1
  yrecv 1 2
  yrecv 1 3
  yrecv 1 4
  yrecv 1 5
  yrecv 1 6
  yrecv 1 7
  yrecv 1 8
  yrecv 1 9
  yrecv 1 10
  yrecv 1 11
  yrecv 1 12
  yrecv 1 13
  yrecv 1 14
  yrecv 1 15
  zrecv 1 0
  zrecv 1 1
  zrecv 1 2
  zrecv 1 3
  zrecv 1 4
  zrecv 1 5
  zrecv 1 6
  zrecv 1 7
  zrecv 1 8
  zrecv 1 9
  zrecv 1 10
  zrecv 1 11
  zrecv 1 12
  zrecv 1 13
  zrecv 1 14
  zrecv 1 15
  xswait 1 0
  xswait 1 1
  xswait 1 2
  xswait 1 3
  xswait 1 4
  xswait 1 5
  xswait 1 6
  xswait 1 7
  xswait 1 8
  xswait 1 9
  xswait 1 10
  xswait 1 11
  xswait 1 12
  xswait 1 13
  xswait 1 14
  xswait 1 15
  yswait 1 0
  yswait 1 1
  yswait 1 2
  yswait 1 3
  yswait 1 4
  yswait 1 5
  yswait 1 6
  yswait 1 7
  yswait 1 8
  yswait 1 9
  yswait 1 10
  yswait 1 11
  yswait 1 12
  yswait 1 13
  yswait 1 14
  yswait 1 15
  zswait 1 0
  zswait 1 1
  zswait 1 2
  zswait 1 3
  zswait 1 4
  zswait 1 5
  zswait 1 6
  zswait 1 7
  zswait 1 8
  zswait 1 9
  zswait 1 10
  zswait 1 11
  zswait 1 12
  zswait 1 13
  zswait 1 14
  zswait 1 15
  iapply (fstep_loc_wait m K c ((credit_loc (k0_off1 c) _).trans (amt_98 c).symm) _) $$ [Hcl Hal HO]
  · iframe # ∗
  iintro ⟨HO, Hz, Hown, HxL⟩
  rw [wp_ret]
  imodintro
  iapply (post_pack_y0 m ρ c hy K _)
  iframe # ∗
  isplitl [HC0]; · iexact HC0
  isplitl [HC1]; · iexact HC1
  isplitl [HC2]; · iexact HC2
  isplitl [HC3]; · iexact HC3
  isplitl [HC4]; · iexact HC4
  iexact HC5
end Cert.KernelIdeal.AG
end
-- ==== Proof.Body2.lean ====
import proofs.«900679_g7700000000000680_dist_ag_v7x_xyz2x2x4_x_m2048_n512_f32_1_alg».proof.Proof.BodyLib

noncomputable section
namespace Cert.KernelIdeal.AG
open Cert.KernelIdeal Cert.KernelIdeal.Gen Cert.AG Cert.KernelIdeal.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

set_option maxHeartbeats 12800000 in
set_option maxRecDepth 65536 in
theorem body_c2 (c : Dev nD) (hc : k0_cond2 c = 1#1) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  sl_unfold [cc0_body, k0_part197, k0_part198]
  simp only [semSignalWord, semWaitWord, Prog.lift, Prog.bind_op, Prog.bind_ret, Prog.pure_eq_ret, wp_deviceId]
  simp only [conds_of_cond2 hc, ↓reduceDIte]
  sl_unfold [k0_part98, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, k0_part72, k0_part73, k0_part74, k0_part75, k0_part76, k0_part77, k0_part78, k0_part79, k0_part80, k0_part81, k0_part82, k0_part83, k0_part84, k0_part85, k0_part86, k0_part87, k0_part88, k0_part89, k0_part90, k0_part91, k0_part92, k0_part93, k0_part94, k0_part95, k0_part96, k0_part97]
  simp only [Prog.lift, Prog.bind_op, Prog.bind_ret, Prog.pure_eq_ret]
  simp only [dev1_eq, dev2_eq, dev3_eq]
  have hy : yc c = 0 := ((cond2_iff c).1 hc).1
  have hp : pc c = 1 := ((cond2_iff c).1 hc).2
  iintro Hpre
  ihave H := (pre_unpack m ρ c) $$ Hpre
  icases H with ⟨%K, %W, %fo, #HR, #Hlev, HO, Hab, Hal, Hcb, T0, T1, T2, Tl, ⟨HA0, HA1, HA2, HA3, HA4, HA5⟩, ⟨HT0, HT1, HT2⟩, ⟨HCr0, HCr1, HCr2⟩, Hx, Hout⟩
  iapply (prologue m K c W fo (k0_off1 c) _ (off1_eq c) _ _ _ _ rfl rfl rfl rfl) $$ [HO Hab Hcb T0 T1 T2 Tl Hx Hout]
  · iframe # ∗
  iintro ⟨HO, HSrc, HXR, HD0, HD1, HD2, Hcl, HCs0, HCs1, HCs2, HC0, HC1, HC2, HC3, HC4, HC5, HLZ, HSX, HLXl, HZS⟩
  ihave HLY : Lnd m c 1 fullShare (lt 0) $$ []
  · rw [Lnd_lt_zero]; iempintro
  xsend 2 0
  xsend 2 1
  xsend 2 2
  xsend 2 3
  xsend 2 4
  xsend 2 5
  xsend 2 6
  xsend 2 7
  xsend 2 8
  xsend 2 9
  xsend 2 10
  xsend 2 11
  xsend 2 12
  xsend 2 13
  xsend 2 14
  xsend 2 15
  xrecv 2 0
  ysend 2 0
  zsend 2 0
  xrecv 2 1
  ysend 2 1
  zsend 2 1
  xrecv 2 2
  ysend 2 2
  zsend 2 2
  xrecv 2 3
  ysend 2 3
  zsend 2 3
  xrecv 2 4
  ysend 2 4
  zsend 2 4
  xrecv 2 5
  ysend 2 5
  zsend 2 5
  xrecv 2 6
  ysend 2 6
  zsend 2 6
  xrecv 2 7
  ysend 2 7
  zsend 2 7
  xrecv 2 8
  ysend 2 8
  zsend 2 8
  xrecv 2 9
  ysend 2 9
  zsend 2 9
  xrecv 2 10
  ysend 2 10
  zsend 2 10
  xrecv 2 11
  ysend 2 11
  zsend 2 11
  xrecv 2 12
  ysend 2 12
  zsend 2 12
  xrecv 2 13
  ysend 2 13
  zsend 2 13
  xrecv 2 14
  ysend 2 14
  zsend 2 14
  xrecv 2 15
  ysend 2 15
  zsend 2 15
  ihave Htmp := (Entails.of_eq (congrArg (CrS (F := F) c 0) lt16_ge0)) $$ HCs0
  irename Htmp => HCs0
  ihave Htmp := (Entails.of_eq (congrArg (CrS (F := F) c 1) lt16_ge0)) $$ HCs1
  irename Htmp => HCs1
  ihave Htmp := (Entails.of_eq (congrArg (CrS (F := F) c 2) lt16_ge0)) $$ HCs2
  irename Htmp => HCs2
  yrecv 2 0
  yrecv 2 1
  yrecv 2 2
  yrecv 2 3
  yrecv 2 4
  yrecv 2 5
  yrecv 2 6
  yrecv 2 7
  yrecv 2 8
  yrecv 2 9
  yrecv 2 10
  yrecv 2 11
  yrecv 2 12
  yrecv 2 13
  yrecv 2 14
  yrecv 2 15
  zrecv 2 0
  zrecv 2 1
  zrecv 2 2
  zrecv 2 3
  zrecv 2 4
  zrecv 2 5
  zrecv 2 6
  zrecv 2 7
  zrecv 2 8
  zrecv 2 9
  zrecv 2 10
  zrecv 2 11
  zrecv 2 12
  zrecv 2 13
  zrecv 2 14
  zrecv 2 15
  xswait 2 0
  xswait 2 1
  xswait 2 2
  xswait 2 3
  xswait 2 4
  xswait 2 5
  xswait 2 6
  xswait 2 7
  xswait 2 8
  xswait 2 9
  xswait 2 10
  xswait 2 11
  xswait 2 12
  xswait 2 13
  xswait 2 14
  xswait 2 15
  yswait 2 0
  yswait 2 1
  yswait 2 2
  yswait 2 3
  yswait 2 4
  yswait 2 5
  yswait 2 6
  yswait 2 7
  yswait 2 8
  yswait 2 9
  yswait 2 10
  yswait 2 11
  yswait 2 12
  yswait 2 13
  yswait 2 14
  yswait 2 15
  zswait 2 0
  zswait 2 1
  zswait 2 2
  zswait 2 3
  zswait 2 4
  zswait 2 5
  zswait 2 6
  zswait 2 7
  zswait 2 8
  zswait 2 9
  zswait 2 10
  zswait 2 11
  zswait 2 12
  zswait 2 13
  zswait 2 14
  zswait 2 15
  iapply (fstep_loc_wait m K c ((credit_loc (k0_off1 c) _).trans (amt_98 c).symm) _) $$ [Hcl Hal HO]
  · iframe # ∗
  iintro ⟨HO, Hz, Hown, HxL⟩
  rw [wp_ret]
  imodintro
  iapply (post_pack_y0 m ρ c hy K _)
  iframe # ∗
  isplitl [HC0]; · iexact HC0
  isplitl [HC1]; · iexact HC1
  isplitl [HC2]; · iexact HC2
  isplitl [HC3]; · iexact HC3
  isplitl [HC4]; · iexact HC4
  iexact HC5
end Cert.KernelIdeal.AG
end
-- ==== Proof.Body3.lean ====
import proofs.«900679_g7700000000000680_dist_ag_v7x_xyz2x2x4_x_m2048_n512_f32_1_alg».proof.Proof.BodyLib

noncomputable section
namespace Cert.KernelIdeal.AG
open Cert.KernelIdeal Cert.KernelIdeal.Gen Cert.AG Cert.KernelIdeal.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

set_option maxHeartbeats 12800000 in
set_option maxRecDepth 65536 in
theorem body_c3 (c : Dev nD) (hc : k0_cond3 c = 1#1) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  sl_unfold [cc0_body, k0_part197, k0_part198]
  simp only [semSignalWord, semWaitWord, Prog.lift, Prog.bind_op, Prog.bind_ret, Prog.pure_eq_ret, wp_deviceId]
  simp only [conds_of_cond3 hc, ↓reduceDIte]
  sl_unfold [k0_part147, k0_part99, k0_part100, k0_part101, k0_part102, k0_part103, k0_part104, k0_part105, k0_part106, k0_part107, k0_part108, k0_part109, k0_part110, k0_part111, k0_part112, k0_part113, k0_part114, k0_part115, k0_part116, k0_part117, k0_part118, k0_part119, k0_part120, k0_part121, k0_part122, k0_part123, k0_part124, k0_part125, k0_part126, k0_part127, k0_part128, k0_part129, k0_part130, k0_part131, k0_part132, k0_part133, k0_part134, k0_part135, k0_part136, k0_part137, k0_part138, k0_part139, k0_part140, k0_part141, k0_part142, k0_part143, k0_part144, k0_part145, k0_part146]
  simp only [Prog.lift, Prog.bind_op, Prog.bind_ret, Prog.pure_eq_ret]
  simp only [dev1_eq, dev2_eq, dev3_eq]
  have hy : yc c = 1 := ((cond3_iff c).1 hc).1
  have hp : pc c = 0 := ((cond3_iff c).1 hc).2
  iintro Hpre
  ihave H := (pre_unpack m ρ c) $$ Hpre
  icases H with ⟨%K, %W, %fo, #HR, #Hlev, HO, Hab, Hal, Hcb, T0, T1, T2, Tl, ⟨HA0, HA1, HA2, HA3, HA4, HA5⟩, ⟨HT0, HT1, HT2⟩, ⟨HCr0, HCr1, HCr2⟩, Hx, Hout⟩
  iapply (prologue m K c W fo (k0_off1 c) _ (off1_eq c) _ _ _ _ rfl rfl rfl rfl) $$ [HO Hab Hcb T0 T1 T2 Tl Hx Hout]
  · iframe # ∗
  iintro ⟨HO, HSrc, HXR, HD0, HD1, HD2, Hcl, HCs0, HCs1, HCs2, HC0, HC1, HC2, HC3, HC4, HC5, HLZ, HSX, HLXl, HZS⟩
  ihave HLXr : Lnd m c 0 fullShare.right (lt 0) $$ []
  · rw [Lnd_lt_zero]; iempintro
  ihave HLYl : Lnd m c 1 fullShare.left (lt 0) $$ []
  · rw [Lnd_lt_zero]; iempintro
  xsend 3 0
  xsend 3 1
  xsend 3 2
  xsend 3 3
  xsend 3 4
  xsend 3 5
  xsend 3 6
  xsend 3 7
  xsend 3 8
  xsend 3 9
  xsend 3 10
  xsend 3 11
  xsend 3 12
  xsend 3 13
  xsend 3 14
  xsend 3 15
  xrecv 3 0
  ysend 3 0
  yrecv 3 0
  zsend 3 0
  xrecv 3 1
  ysend 3 1
  yrecv 3 1
  zsend 3 1
  xrecv 3 2
  ysend 3 2
  yrecv 3 2
  zsend 3 2
  xrecv 3 3
  ysend 3 3
  yrecv 3 3
  zsend 3 3
  xrecv 3 4
  ysend 3 4
  yrecv 3 4
  zsend 3 4
  xrecv 3 5
  ysend 3 5
  yrecv 3 5
  zsend 3 5
  xrecv 3 6
  ysend 3 6
  yrecv 3 6
  zsend 3 6
  xrecv 3 7
  ysend 3 7
  yrecv 3 7
  zsend 3 7
  xrecv 3 8
  ysend 3 8
  yrecv 3 8
  zsend 3 8
  xrecv 3 9
  ysend 3 9
  yrecv 3 9
  zsend 3 9
  xrecv 3 10
  ysend 3 10
  yrecv 3 10
  zsend 3 10
  xrecv 3 11
  ysend 3 11
  yrecv 3 11
  zsend 3 11
  xrecv 3 12
  ysend 3 12
  yrecv 3 12
  zsend 3 12
  xrecv 3 13
  ysend 3 13
  yrecv 3 13
  zsend 3 13
  xrecv 3 14
  ysend 3 14
  yrecv 3 14
  zsend 3 14
  xrecv 3 15
  ysend 3 15
  yrecv 3 15
  zsend 3 15
  rw [owedL_zero]
  zrecv 3 0
  zrecv 3 1
  zrecv 3 2
  zrecv 3 3
  zrecv 3 4
  zrecv 3 5
  zrecv 3 6
  zrecv 3 7
  zrecv 3 8
  zrecv 3 9
  zrecv 3 10
  zrecv 3 11
  zrecv 3 12
  zrecv 3 13
  zrecv 3 14
  zrecv 3 15
  ihave HCs0 := (Entails.of_eq (congrArg (CrS (F := F) c 0) lt16_ge0)) $$ HCs0
  ihave HCs1 := (Entails.of_eq (congrArg (CrS (F := F) c 1) lt16_ge0)) $$ HCs1
  ihave HCs2 := (Entails.of_eq (congrArg (CrS (F := F) c 2) lt16_ge0)) $$ HCs2
  xswait 3 0
  xswait 3 1
  xswait 3 2
  xswait 3 3
  xswait 3 4
  xswait 3 5
  xswait 3 6
  xswait 3 7
  xswait 3 8
  xswait 3 9
  xswait 3 10
  xswait 3 11
  xswait 3 12
  xswait 3 13
  xswait 3 14
  xswait 3 15
  yswait 3 0
  yswait 3 1
  yswait 3 2
  yswait 3 3
  yswait 3 4
  yswait 3 5
  yswait 3 6
  yswait 3 7
  yswait 3 8
  yswait 3 9
  yswait 3 10
  yswait 3 11
  yswait 3 12
  yswait 3 13
  yswait 3 14
  yswait 3 15
  zswait 3 0
  zswait 3 1
  zswait 3 2
  zswait 3 3
  zswait 3 4
  zswait 3 5
  zswait 3 6
  zswait 3 7
  zswait 3 8
  zswait 3 9
  zswait 3 10
  zswait 3 11
  zswait 3 12
  zswait 3 13
  zswait 3 14
  zswait 3 15
  iapply (fstep_loc_wait m K c ((credit_loc _ _).trans (amt_98 c).symm) _) $$ [Hcl Hal HO]
  · iframe # ∗
  iintro ⟨HO, Hz, Hown, Hxl⟩
  rw [wp_ret]
  imodintro
  iapply (post_pack_y1 m ρ c hy K _)
  iframe # ∗
  isplitl [HC0]; · iexact HC0
  isplitl [HC1]; · iexact HC1
  isplitl [HC2]; · iexact HC2
  isplitl [HC3]; · iexact HC3
  isplitl [HC4]; · iexact HC4
  iexact HC5

end Cert.KernelIdeal.AG
end
-- ==== Proof.Body4.lean ====
import proofs.«900679_g7700000000000680_dist_ag_v7x_xyz2x2x4_x_m2048_n512_f32_1_alg».proof.Proof.BodyLib

noncomputable section
namespace Cert.KernelIdeal.AG
open Cert.KernelIdeal Cert.KernelIdeal.Gen Cert.AG Cert.KernelIdeal.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

set_option maxHeartbeats 12800000 in
set_option maxRecDepth 65536 in
theorem body_c4 (c : Dev nD) (hc : k0_cond4 c = 1#1) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  sl_unfold [cc0_body, k0_part197, k0_part198]
  simp only [semSignalWord, semWaitWord, Prog.lift, Prog.bind_op, Prog.bind_ret, Prog.pure_eq_ret, wp_deviceId]
  simp only [conds_of_cond4 hc, ↓reduceDIte]
  sl_unfold [k0_part196, k0_part148, k0_part149, k0_part150, k0_part151, k0_part152, k0_part153, k0_part154, k0_part155, k0_part156, k0_part157, k0_part158, k0_part159, k0_part160, k0_part161, k0_part162, k0_part163, k0_part164, k0_part165, k0_part166, k0_part167, k0_part168, k0_part169, k0_part170, k0_part171, k0_part172, k0_part173, k0_part174, k0_part175, k0_part176, k0_part177, k0_part178, k0_part179, k0_part180, k0_part181, k0_part182, k0_part183, k0_part184, k0_part185, k0_part186, k0_part187, k0_part188, k0_part189, k0_part190, k0_part191, k0_part192, k0_part193, k0_part194, k0_part195]
  simp only [Prog.lift, Prog.bind_op, Prog.bind_ret, Prog.pure_eq_ret]
  simp only [dev1_eq, dev2_eq, dev3_eq]
  have hy : yc c = 1 := ((cond4_iff c).1 hc).1
  have hp : pc c = 1 := ((cond4_iff c).1 hc).2
  iintro Hpre
  ihave H := (pre_unpack m ρ c) $$ Hpre
  icases H with ⟨%K, %W, %fo, #HR, #Hlev, HO, Hab, Hal, Hcb, T0, T1, T2, Tl, ⟨HA0, HA1, HA2, HA3, HA4, HA5⟩, ⟨HT0, HT1, HT2⟩, ⟨HCr0, HCr1, HCr2⟩, Hx, Hout⟩
  iapply (prologue m K c W fo (k0_off1 c) _ (off1_eq c) _ _ _ _ rfl rfl rfl rfl) $$ [HO Hab Hcb T0 T1 T2 Tl Hx Hout]
  · iframe # ∗
  iintro ⟨HO, HSrc, HXR, HD0, HD1, HD2, Hcl, HCs0, HCs1, HCs2, HC0, HC1, HC2, HC3, HC4, HC5, HLZ, HSX, HLXl, HZS⟩
  ihave HLXr : Lnd m c 0 fullShare.right (lt 0) $$ []
  · rw [Lnd_lt_zero]; iempintro
  ihave HLYl : Lnd m c 1 fullShare.left (lt 0) $$ []
  · rw [Lnd_lt_zero]; iempintro
  xsend 4 0
  xsend 4 1
  xsend 4 2
  xsend 4 3
  xsend 4 4
  xsend 4 5
  xsend 4 6
  xsend 4 7
  xsend 4 8
  xsend 4 9
  xsend 4 10
  xsend 4 11
  xsend 4 12
  xsend 4 13
  xsend 4 14
  xsend 4 15
  xrecv 4 0
  ysend 4 0
  yrecv 4 0
  zsend 4 0
  xrecv 4 1
  ysend 4 1
  yrecv 4 1
  zsend 4 1
  xrecv 4 2
  ysend 4 2
  yrecv 4 2
  zsend 4 2
  xrecv 4 3
  ysend 4 3
  yrecv 4 3
  zsend 4 3
  xrecv 4 4
  ysend 4 4
  yrecv 4 4
  zsend 4 4
  xrecv 4 5
  ysend 4 5
  yrecv 4 5
  zsend 4 5
  xrecv 4 6
  ysend 4 6
  yrecv 4 6
  zsend 4 6
  xrecv 4 7
  ysend 4 7
  yrecv 4 7
  zsend 4 7
  xrecv 4 8
  ysend 4 8
  yrecv 4 8
  zsend 4 8
  xrecv 4 9
  ysend 4 9
  yrecv 4 9
  zsend 4 9
  xrecv 4 10
  ysend 4 10
  yrecv 4 10
  zsend 4 10
  xrecv 4 11
  ysend 4 11
  yrecv 4 11
  zsend 4 11
  xrecv 4 12
  ysend 4 12
  yrecv 4 12
  zsend 4 12
  xrecv 4 13
  ysend 4 13
  yrecv 4 13
  zsend 4 13
  xrecv 4 14
  ysend 4 14
  yrecv 4 14
  zsend 4 14
  xrecv 4 15
  ysend 4 15
  yrecv 4 15
  zsend 4 15
  rw [owedL_zero]
  zrecv 4 0
  zrecv 4 1
  zrecv 4 2
  zrecv 4 3
  zrecv 4 4
  zrecv 4 5
  zrecv 4 6
  zrecv 4 7
  zrecv 4 8
  zrecv 4 9
  zrecv 4 10
  zrecv 4 11
  zrecv 4 12
  zrecv 4 13
  zrecv 4 14
  zrecv 4 15
  ihave HCs0 := (Entails.of_eq (congrArg (CrS (F := F) c 0) lt16_ge0)) $$ HCs0
  ihave HCs1 := (Entails.of_eq (congrArg (CrS (F := F) c 1) lt16_ge0)) $$ HCs1
  ihave HCs2 := (Entails.of_eq (congrArg (CrS (F := F) c 2) lt16_ge0)) $$ HCs2
  xswait 4 0
  xswait 4 1
  xswait 4 2
  xswait 4 3
  xswait 4 4
  xswait 4 5
  xswait 4 6
  xswait 4 7
  xswait 4 8
  xswait 4 9
  xswait 4 10
  xswait 4 11
  xswait 4 12
  xswait 4 13
  xswait 4 14
  xswait 4 15
  yswait 4 0
  yswait 4 1
  yswait 4 2
  yswait 4 3
  yswait 4 4
  yswait 4 5
  yswait 4 6
  yswait 4 7
  yswait 4 8
  yswait 4 9
  yswait 4 10
  yswait 4 11
  yswait 4 12
  yswait 4 13
  yswait 4 14
  yswait 4 15
  zswait 4 0
  zswait 4 1
  zswait 4 2
  zswait 4 3
  zswait 4 4
  zswait 4 5
  zswait 4 6
  zswait 4 7
  zswait 4 8
  zswait 4 9
  zswait 4 10
  zswait 4 11
  zswait 4 12
  zswait 4 13
  zswait 4 14
  zswait 4 15
  iapply (fstep_loc_wait m K c ((credit_loc _ _).trans (amt_98 c).symm) _) $$ [Hcl Hal HO]
  · iframe # ∗
  iintro ⟨HO, Hz, Hown, Hxl⟩
  rw [wp_ret]
  imodintro
  iapply (post_pack_y1 m ρ c hy K _)
  iframe # ∗
  isplitl [HC0]; · iexact HC0
  isplitl [HC1]; · iexact HC1
  isplitl [HC2]; · iexact HC2
  isplitl [HC3]; · iexact HC3
  isplitl [HC4]; · iexact HC4
  iexact HC5

end Cert.KernelIdeal.AG
end
-- ==== Proof.Bodies.lean ====
import proofs.«900679_g7700000000000680_dist_ag_v7x_xyz2x2x4_x_m2048_n512_f32_1_alg».proof.Proof.Launch
import proofs.«900679_g7700000000000680_dist_ag_v7x_xyz2x2x4_x_m2048_n512_f32_1_alg».proof.Proof.DevEq
import proofs.«900679_g7700000000000680_dist_ag_v7x_xyz2x2x4_x_m2048_n512_f32_1_alg».proof.Proof.Body1
import proofs.«900679_g7700000000000680_dist_ag_v7x_xyz2x2x4_x_m2048_n512_f32_1_alg».proof.Proof.Body2
import proofs.«900679_g7700000000000680_dist_ag_v7x_xyz2x2x4_x_m2048_n512_f32_1_alg».proof.Proof.Body3
import proofs.«900679_g7700000000000680_dist_ag_v7x_xyz2x2x4_x_m2048_n512_f32_1_alg».proof.Proof.Body4
noncomputable section
namespace Cert.KernelIdeal.AG
open Cert.KernelIdeal Cert.KernelIdeal.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

open Cert.KernelIdeal.AGDev

theorem body_all (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  rcases cond_cases c with h | h | h | h
  · exact body_c1 m ρ c h
  · exact body_c2 m ρ c h
  · exact body_c3 m ρ c h
  · exact body_c4 m ρ c h

theorem body_obligation (c : Dev nD) : BodyObligation (dats (F := F) m ρ 0 c) (defs₀ (F := F)) 𝒱₀ () Set.univ :=
  body_obligation_of m ρ c (body_all m ρ c)

end Cert.KernelIdeal.AG
end
-- ==== Proof.DevEqK.lean ====
import proofs.«900679_g7700000000000680_dist_ag_v7x_xyz2x2x4_x_m2048_n512_f32_1_alg».proof.Proof.Gen.Kernel
import proofs.«900679_g7700000000000680_dist_ag_v7x_xyz2x2x4_x_m2048_n512_f32_1_alg».proof.Proof.Mesh

namespace Cert.Kernel.AGDev

open Idealize.ShloMosaic Idealize.SL.Sem
open Cert.Kernel Cert.Kernel.Gen Cert.AG

theorem cond1_iff (c : Dev nD) : k0_cond1 c = 1#1 ↔ (yc c = 0 ∧ pc c = 0) := by revert c; decide +kernel
theorem cond2_iff (c : Dev nD) : k0_cond2 c = 1#1 ↔ (yc c = 0 ∧ pc c = 1) := by revert c; decide +kernel
theorem cond3_iff (c : Dev nD) : k0_cond3 c = 1#1 ↔ (yc c = 1 ∧ pc c = 0) := by revert c; decide +kernel
theorem cond4_iff (c : Dev nD) : k0_cond4 c = 1#1 ↔ (yc c = 1 ∧ pc c = 1) := by revert c; decide +kernel

theorem cond_cases (c : Dev nD) : k0_cond1 c = 1#1 ∨ k0_cond2 c = 1#1 ∨ k0_cond3 c = 1#1 ∨ k0_cond4 c = 1#1 := by
  revert c; decide +kernel

theorem conds_of_cond1 {c : Dev nD} (h : k0_cond1 c = 1#1) : ((k0_cond1 c = 1#1) = True) ∧ ((k0_cond2 c = 1#1) = False) ∧ ((k0_cond3 c = 1#1) = False) ∧ ((k0_cond4 c = 1#1) = False) := by
  have := (by decide +kernel : ∀ c : Dev nD, k0_cond1 c = 1#1 → ¬ k0_cond2 c = 1#1 ∧ ¬ k0_cond3 c = 1#1 ∧ ¬ k0_cond4 c = 1#1) c h
  exact ⟨eq_true h, eq_false this.1, eq_false this.2.1, eq_false this.2.2⟩
theorem conds_of_cond2 {c : Dev nD} (h : k0_cond2 c = 1#1) : ((k0_cond1 c = 1#1) = False) ∧ ((k0_cond2 c = 1#1) = True) ∧ ((k0_cond3 c = 1#1) = False) ∧ ((k0_cond4 c = 1#1) = False) := by
  have := (by decide +kernel : ∀ c : Dev nD, k0_cond2 c = 1#1 → ¬ k0_cond1 c = 1#1 ∧ ¬ k0_cond3 c = 1#1 ∧ ¬ k0_cond4 c = 1#1) c h
  exact ⟨eq_false this.1, eq_true h, eq_false this.2.1, eq_false this.2.2⟩
theorem conds_of_cond3 {c : Dev nD} (h : k0_cond3 c = 1#1) : ((k0_cond1 c = 1#1) = False) ∧ ((k0_cond2 c = 1#1) = False) ∧ ((k0_cond3 c = 1#1) = True) ∧ ((k0_cond4 c = 1#1) = False) := by
  have := (by decide +kernel : ∀ c : Dev nD, k0_cond3 c = 1#1 → ¬ k0_cond1 c = 1#1 ∧ ¬ k0_cond2 c = 1#1 ∧ ¬ k0_cond4 c = 1#1) c h
  exact ⟨eq_false this.1, eq_false this.2.1, eq_true h, eq_false this.2.2⟩
theorem conds_of_cond4 {c : Dev nD} (h : k0_cond4 c = 1#1) : ((k0_cond1 c = 1#1) = False) ∧ ((k0_cond2 c = 1#1) = False) ∧ ((k0_cond3 c = 1#1) = False) ∧ ((k0_cond4 c = 1#1) = True) := by
  have := (by decide +kernel : ∀ c : Dev nD, k0_cond4 c = 1#1 → ¬ k0_cond1 c = 1#1 ∧ ¬ k0_cond2 c = 1#1 ∧ ¬ k0_cond3 c = 1#1) c h
  exact ⟨eq_false this.1, eq_false this.2.1, eq_false this.2.2, eq_true h⟩

/-- A device number the body computes names a partner as soon as the two agree on all sixteen devices. -/
theorem dev_eq (f : Dev nD → ℕ) (g : Dev nD → Dev nD) (h : ∀ c, f c = (g c).val) (c : Dev nD) (hlt : f c < nD) :
    (⟨f c, hlt⟩ : Dev nD) = g c := Fin.ext (h c)

theorem dev1_eq (c : Dev nD) (h : k0_dev1 c < nD) : (⟨k0_dev1 c, h⟩ : Dev nD) = xp c := dev_eq _ _ (by decide +kernel) c h
theorem dev2_eq (c : Dev nD) (h : k0_dev2 c < nD) : (⟨k0_dev2 c, h⟩ : Dev nD) = yp c := dev_eq _ _ (by decide +kernel) c h
theorem dev3_eq (c : Dev nD) (h : k0_dev3 c < nD) : (⟨k0_dev3 c, h⟩ : Dev nD) = zb c := dev_eq _ _ (by decide +kernel) c h

theorem off1_eq (c : Dev nD) : k0_off1 c = ![2048 * xc c, 0] := k0_off1_eq c

/-- A fact about a device of a known class (y, parity of z) is checked on the sixteen devices. -/
macro "class_decide " c:ident hy:ident hp:ident : tactic =>
  `(tactic| (generalize $c = d at $hy:ident $hp:ident ⊢; revert d; decide +kernel))

end Cert.Kernel.AGDev
-- ==== Proof.ViewsK.lean ====
import proofs.«900679_g7700000000000680_dist_ag_v7x_xyz2x2x4_x_m2048_n512_f32_1_alg».proof.Proof.ProtoK
import proofs.«900679_g7700000000000680_dist_ag_v7x_xyz2x2x4_x_m2048_n512_f32_1_alg».proof.Proof.GeomK

noncomputable section

namespace Cert.Kernel.AG

open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

abbrev Sn (n : ℕ) : Shape := ⟨2, ![n, 512]⟩

abbrev oSl (n : ℕ) (off : Fin 2 → ℕ) (h : ∀ a, off a + (Sn n).size a ≤ S4096x512.size a) :
    Memref sig .tc .vmem (Sn n) .f32 :=
  oM.slice (Rect.unit (s := S4096x512) off (Sn n).size h) (fun _ => rfl)

abbrev xSl (n : ℕ) (off : Fin 2 → ℕ) (h : ∀ a, off a + (Sn n).size a ≤ S2048x512.size a) :
    Memref sig .tc .vmem (Sn n) .f32 :=
  xM.slice (Rect.unit (s := S2048x512) off (Sn n).size h) (fun _ => rfl)

omit [FloatOps F] in

theorem oSl_set (n : ℕ) (off : Fin 2 → ℕ) (h) (lo : ℕ) (ho : off = ![lo, 0]) :
    (oSl n off h).view.set = rowsO lo n :=
  Cert.AGRows.set_rowSlice cc0_stg1_0 Nat.zero_lt_two ⟨by rw [ho]; rfl, rfl⟩
    (Cert.AGRows.forall_fin_two_ne_zero ⟨by rw [ho]; rfl, rfl⟩)

omit [FloatOps F] in

theorem xSl_set (n : ℕ) (off : Fin 2 → ℕ) (h) (lo : ℕ) (ho : off = ![lo, 0]) :
    (xSl n off h).view.set = rowsX lo n :=
  Cert.AGRows.set_rowSlice cc0_stg0_0 Nat.zero_lt_two ⟨by rw [ho]; rfl, rfl⟩
    (Cert.AGRows.forall_fin_two_ne_zero ⟨by rw [ho]; rfl, rfl⟩)

omit [FloatOps F] in
theorem xM_set : xM.view.set = rowsX 0 2048 := by
  rw [show xM.view.set = Finset.univ from View.set_whole _]
  exact (Cert.AGRows.rows_univ₂ ![2048, 512]).symm

variable {q : PosShare TreeShare}

omit [FloatOps F] in

theorem landed_oo (c c' : Dev nD) (n : ℕ) (offS offD : Fin 2 → ℕ) (hS) (hD) {ls ld : ℕ}
    (hoS : offS = ![ls, 0]) (hoD : offD = ![ld, 0])
    (fs : Buf (Elt F) (ℓo c)) (fd G : Buf (Elt F) (ℓo c'))
    (hG : ∀ (i k : S4096x512.Idx), ld ≤ (i 0).val → (i 0).val < ld + n → (k 0).val + ld = (i 0).val + ls
      → (k 1).val = (i 1).val → G i = fs k) :
    ((oSl n offD hD).view.loc (c' : Thread nD τ) ↦[(oSl n offD hD).view.set]{q}
        ((oSl n offD hD).view.write (Elt F) fd ((oSl n offS hS).view.read (Elt F) fs) Finset.univ) : sProp 𝕄)
      = (ℓo c' ↦[rowsO ld n]{q} G) := by
  rw [Cert.AGRows.pointsTo_landed (c' := (c' : Thread nD τ)) (oSl n offS hS).view (oSl n offD hD).view fs fd G
    (fun x => heq_of_eq (by
      have h := Cert.AGRows.rows_rel_of_emb (dS := ![4096, 512]) (dD := ![4096, 512]) (size := ![n, 512]) hoS hoD
        (fun a => Cert.AGRows.emb_slice_whole_val cc0_stg1_0 (inb := hD) (fun _ => rfl) x a)
        (fun a => Cert.AGRows.emb_slice_whole_val cc0_stg1_0 (inb := hS) (fun _ => rfl) x a)
      exact hG _ _ h.1 h.2.1 h.2.2.1 h.2.2.2))]
  rw [oSl_set n offD hD ld hoD]

omit [FloatOps F] in

theorem landed_xo (c c' : Dev nD) (n : ℕ) (offS offD : Fin 2 → ℕ) (hS) (hD) {ls ld : ℕ}
    (hoS : offS = ![ls, 0]) (hoD : offD = ![ld, 0])
    (fs : Buf (Elt F) (ℓx c)) (fd G : Buf (Elt F) (ℓo c'))
    (hG : ∀ (i : S4096x512.Idx) (k : S2048x512.Idx), ld ≤ (i 0).val → (i 0).val < ld + n
      → (k 0).val + ld = (i 0).val + ls → (k 1).val = (i 1).val → G i = fs k) :
    ((oSl n offD hD).view.loc (c' : Thread nD τ) ↦[(oSl n offD hD).view.set]{q}
        ((oSl n offD hD).view.write (Elt F) fd ((xSl n offS hS).view.read (Elt F) fs) Finset.univ) : sProp 𝕄)
      = (ℓo c' ↦[rowsO ld n]{q} G) := by
  rw [Cert.AGRows.pointsTo_landed (c' := (c' : Thread nD τ)) (xSl n offS hS).view (oSl n offD hD).view fs fd G
    (fun x => heq_of_eq (by
      have h := Cert.AGRows.rows_rel_of_emb (dS := ![2048, 512]) (dD := ![4096, 512]) (size := ![n, 512]) hoS hoD
        (fun a => Cert.AGRows.emb_slice_whole_val cc0_stg1_0 (inb := hD) (fun _ => rfl) x a)
        (fun a => Cert.AGRows.emb_slice_whole_val cc0_stg0_0 (inb := hS) (fun _ => rfl) x a)
      exact hG _ _ h.1 h.2.1 h.2.2.1 h.2.2.2))]
  rw [oSl_set n offD hD ld hoD]

omit [FloatOps F] in

theorem landed_wo (c c' : Dev nD) (offD : Fin 2 → ℕ) (hD : ∀ a, offD a + S2048x512.size a ≤ S4096x512.size a) {ld : ℕ}
    (hoD : offD = ![ld, 0])
    (fs : Buf (Elt F) (ℓx c)) (fd G : Buf (Elt F) (ℓo c'))
    (hG : ∀ (i : S4096x512.Idx) (k : S2048x512.Idx), ld ≤ (i 0).val → (i 0).val < ld + 2048
      → (k 0).val + ld = (i 0).val → (k 1).val = (i 1).val → G i = fs k) :
    ((oM.slice (Rect.unit (s := S4096x512) offD S2048x512.size hD) (fun _ => rfl)).view.loc (c' : Thread nD τ)
        ↦[(oM.slice (Rect.unit (s := S4096x512) offD S2048x512.size hD) (fun _ => rfl)).view.set]{q}
        ((oM.slice (Rect.unit (s := S4096x512) offD S2048x512.size hD) (fun _ => rfl)).view.write (Elt F) fd
          (xM.view.read (Elt F) fs) Finset.univ) : sProp 𝕄)
      = (ℓo c' ↦[rowsO ld 2048]{q} G) := by
  rw [Cert.AGRows.pointsTo_landed (c' := (c' : Thread nD τ)) xM.view
    (oM.slice (Rect.unit (s := S4096x512) offD S2048x512.size hD) (fun _ => rfl)).view fs fd G
    (fun x => heq_of_eq (by
      have h := Cert.AGRows.rows_rel_of_emb (dS := ![2048, 512]) (dD := ![4096, 512]) (size := ![2048, 512])
        (offS := ![0, 0]) (ls := 0) rfl hoD
        (i := (oM.slice (Rect.unit (s := S4096x512) offD S2048x512.size hD) (fun _ => rfl)).view.emb x)
        (k := x) (x := x)
        (fun a => Cert.AGRows.emb_slice_whole_val cc0_stg1_0 (inb := hD) (fun _ => rfl) x a)
        (fun a => by
          rcases Fin.exists_fin_two.mp ⟨a, rfl⟩ with rfl | rfl
          · exact (Nat.zero_add _).symm
          · exact (Nat.zero_add _).symm)
      exact hG _ _ h.1 h.2.1 h.2.2.1 h.2.2.2))]
  rw [oSl_set 2048 offD hD ld hoD]

theorem idxX_ext {i k : S2048x512.Idx} (h0 : (i 0).val = (k 0).val) (h1 : (i 1).val = (k 1).val) : i = k :=
  Shape.idx_ext₂ h0 h1

theorem idxO_ext {i k : S4096x512.Idx} (h0 : (i 0).val = (k 0).val) (h1 : (i 1).val = (k 1).val) : i = k :=
  Shape.idx_ext₂ h0 h1

theorem land_x (c : Dev nD) (k : Fin 16) (n : ℕ) (hn : n = rLen c 0 k.val) (offS offD : Fin 2 → ℕ) (hS) (hD)
    (hoS : offS = ![sLo c 0 k.val, 0]) (hoD : offD = ![rLo (xp c) 0 k.val, 0]) (fd : Buf (Elt F) (ℓo (xp c))) :
    ((oSl n offD hD).view.loc (Dev.tc (xp c) : Thread nD τ) ↦[(oSl n offD hD).view.set]{fullShare}
        ((oSl n offD hD).view.write (Elt F) fd ((xSl n offS hS).view.read (Elt F) (Xin m c)) Finset.univ) : sProp 𝕄)
      = (ℓo (xp c) ↦[rowsO (rLo (xp c) 0 k.val) (rLen (xp c) 0 k.val)]{fullShare} Gout m (xp c)) := by
  have hn' : n = rLen (xp c) 0 k.val := hn.trans (rLen_x_eq c k.val)
  rw [← hn']
  refine landed_xo c (xp c) n offS offD hS hD hoS hoD (Xin m c) fd (Gout m (xp c)) ?_
  intro i j h1 h2 h3 h4
  obtain ⟨e1, e2⟩ := srcDev_x c k.val k.isLt (i 0).val h1 (by rw [← hn']; exact h2)
  unfold Gout
  rw [e1]
  congr 1
  refine idxX_ext ?_ ?_
  · show (i 0).val % 2048 = (j 0).val
    rw [e2]; omega
  · exact h4.symm

theorem land_o (c c' : Dev nD) (lo n : ℕ) (offS offD : Fin 2 → ℕ) (hS) (hD)
    (hoS : offS = ![lo, 0]) (hoD : offD = ![lo, 0])
    (hsrc : ∀ r, lo ≤ r → r < lo + n → srcDev c' r = srcDev c r) (fd : Buf (Elt F) (ℓo c')) :
    ((oSl n offD hD).view.loc (Dev.tc c' : Thread nD τ) ↦[(oSl n offD hD).view.set]{fullShare}
        ((oSl n offD hD).view.write (Elt F) fd ((oSl n offS hS).view.read (Elt F) (Gout m c)) Finset.univ) : sProp 𝕄)
      = (ℓo c' ↦[rowsO lo n]{fullShare} Gout m c') := by
  refine landed_oo c c' n offS offD hS hD hoS hoD (Gout m c) fd (Gout m c') ?_
  intro i j h1 h2 h3 h4
  have hij : j = i := idxO_ext (by omega) h4
  subst hij
  unfold Gout
  rw [hsrc (j 0).val h1 h2]

theorem land_loc (c : Dev nD) (off : Fin 2 → ℕ) (h : ∀ a, off a + S2048x512.size a ≤ S4096x512.size a)
    (ho : off = ![2048 * xc c, 0]) (fd : Buf (Elt F) (ℓo c)) :
    ((oM.slice (Rect.unit (s := S4096x512) off S2048x512.size h) (fun _ => rfl)).view.loc (Dev.tc c : Thread nD τ)
        ↦[(oM.slice (Rect.unit (s := S4096x512) off S2048x512.size h) (fun _ => rfl)).view.set]{fullShare}
        ((oM.slice (Rect.unit (s := S4096x512) off S2048x512.size h) (fun _ => rfl)).view.write (Elt F) fd
          (xM.view.read (Elt F) (Xin m c)) Finset.univ) : sProp 𝕄)
      = (ℓo c ↦[rowsO (2048 * xc c) 2048]{fullShare} Gout m c) := by
  refine landed_wo c c off h ho (Xin m c) fd (Gout m c) ?_
  intro i j h1 h2 h3 h4
  unfold Gout
  rw [srcDev_own c (i 0).val h1 h2]
  congr 1
  refine idxX_ext ?_ ?_
  · show (i 0).val % 2048 = (j 0).val
    have := xc_lt c
    omega
  · exact h4.symm

end Cert.Kernel.AG

end
-- ==== Proof.StepsK.lean ====
import proofs.«900679_g7700000000000680_dist_ag_v7x_xyz2x2x4_x_m2048_n512_f32_1_alg».proof.Proof.FamK
import proofs.«900679_g7700000000000680_dist_ag_v7x_xyz2x2x4_x_m2048_n512_f32_1_alg».proof.Proof.ViewsK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

def credN (n : ℕ) : ℕ := if n = 48 then A48 else A40

theorem credit_oSl (n : ℕ) (h48 : n = 48 ∨ n = 40) (off : Fin 2 → ℕ) (h : ∀ a, off a + (Sn n).size a ≤ S4096x512.size a) :
    (oSl n off h).view.amount (.dma (semOf 0 0)) = credN n := by
  rcases h48 with rfl | rfl <;> rfl

theorem amt_of_len (c : Fin 16) (a : Fin 6) (k : Fin 16) (n : ℕ) (h : lenAt c (semOf a k).val = n) : amt c (semOf a k).val = credN n := by
  rw [amt_semOf, h]; rfl

theorem wp_xsend (K1 K2 : ℕ) (c n' : Dev nD) (hn' : n' = peer 0 c) (k : Fin 16) (n : ℕ) (hn : n = rLen c 0 k.val)
    (offS offD : Fin 2 → ℕ) (hS : ∀ a, offS a + (Sn n).size a ≤ S2048x512.size a) (hD : ∀ a, offD a + (Sn n).size a ≤ S4096x512.size a)
    (hoS : offS = ![sLo c 0 k.val, 0]) (hoD : offD = ![rLo (peer 0 c) 0 k.val, 0])
    {hsc : (oSl n offD hD : Memref sig (Dev.tc n' : Thread nD τ).2.kind .vmem (Sn n) .f32).view.ref.isScScratch = false}
    {hsrc : (xSl n offS hS).view.WordExact} {hdst : (oSl n offD hD).view.WordExact}
    {hsem : DmaTarget.Typed .vmem (.dma (semOf (recvArr 0) k)) (.remote (Dev.tc n' : Thread nD τ) (oSl n offD hD) (.dma (semOf (sendArr 0) k)) hsc)}
    {α : Type} {Q : α → sProp 𝕄} {kt : PUnit → Prog (TpuEff nD τ sig (Elt F) Λ₀ .tc) α}
    (fd : Buf (Elt F) (ℓo (peer 0 c))) (W : Waits sig Unit) (O : CellTallies nD τ sig Unit) :
    iprop(cellInv ER (Rd m) K1 (dcell c (sendArr 0) k) ∗ cellInv ER (Rd m) K2 (dcell (peer 0 c) (recvArr 0) k)
        ∗ (ℓx c ↦[rowsX (sLo c 0 k.val) (rLen c 0 k.val)]{fullShare.right} Xin m c)
        ∗ (ℓo (peer 0 c) ↦[rowsO (rLo (peer 0 c) 0 k.val) (rLen (peer 0 c) 0 k.val)]{fullShare} fd)
        ∗ owes (c : Thread nD τ) (O + tR c 0 k) W
        ∗ dutyTok ER (dcell c (sendArr 0) k) 0 0 ∗ reached ER (dcell c (sendArr 0) k) 0
        ∗ dutyTok ER (dcell (peer 0 c) (recvArr 0) k) 0 0 ∗ reached ER (dcell (peer 0 c) (recvArr 0) k) 0)
      ⊢ iprop(((cred (tallyAt (dcell c (sendArr 0) k) () (amt c (semOf (sendArr 0) k).val)) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xSl n offS hS) (.remote (Dev.tc n' : Thread nD τ) (oSl n offD hD) (.dma (semOf (sendArr 0) k)) hsc) (.dma (semOf (recvArr 0) k)) hsrc hdst hsem) kt) Q) := by
  subst hn'
  have hlenS : lenAt c (semOf (sendArr 0) k).val = n := by rw [hn]; exact lenAt_semOf_le2 c _ k (by decide)
  have hlenR : lenAt (peer 0 c) (semOf (recvArr 0) k).val = n := by
    rw [hn]; exact (lenAt_semOf_le2 (xp c) _ k (by decide)).trans (rLen_x_eq c k.val).symm
  have h48 : n = 48 ∨ n = 40 := by rw [hn]; exact rLen_cases c 0 k.val
  have hamtS : amt c (semOf (sendArr 0) k).val = credN n := amt_of_len c _ k n hlenS
  have hamtR : amt (peer 0 c) (semOf (recvArr 0) k).val = credN n := amt_of_len (peer 0 c) _ k n hlenR
  have hrl : rLen (peer 0 c) 0 k.val = n := by rw [hn]; exact (rLen_x_eq c k.val).symm
  unfold tR
  rw [hamtS, hamtR, hrl, ← hn, ← xSl_set n offS hS _ hoS, ← oSl_set n offD hD _ hoD]
  exact Rounds.wp_send_pointsTo 𝒱₀ ER (Rd m) (c : Thread nD τ) none (κ₁ := K1) (κ₂ := K2)
    (src := xSl n offS hS) (dst := oSl n offD hD) (c' := (Dev.tc (peer 0 c) : Thread nD τ)) (hsc := hsc) (hsrc := hsrc) (hdst := hdst) (hsem := hsem)
    (q := fullShare.right) (fs := Xin m c) (k := kt)
    (r₁ := 0) (r₂ := 0) (d₁ := 0) (d₂ := 0) (fd := fd) (mem_duties_dma m c _ k) (mem_duties_dma m (peer 0 c) _ k) () () (credN n)
    (credit_oSl n h48 offD hD) ((amount_dma m c _ k 0).trans hamtS) ((amount_dma m (peer 0 c) _ k 0).trans hamtR) O rfl (W := W)
    (by rw [payload_dma]; exact Entails.of_eq (by rw [show (semOf (sendArr 0) k) = semOf 0 k from rfl, dmaPay_0, xSl_set n offS hS _ hoS, ← hn]))
    (by rw [payload_dma]; exact Entails.of_eq (by rw [show (semOf (recvArr 0) k) = semOf 1 k from rfl, dmaPay_1]; exact land_x m c k n hn offS offD hS hD hoS hoD fd))

theorem wp_ysend (K1 K2 : ℕ) (c n' : Dev nD) (hn' : n' = peer 1 c) (k : Fin 16) (n : ℕ) (hn : n = rLen c 0 k.val)
    (offS offD : Fin 2 → ℕ) (hS : ∀ a, offS a + (Sn n).size a ≤ S4096x512.size a) (hD : ∀ a, offD a + (Sn n).size a ≤ S4096x512.size a)
    (hoS : offS = ![sLo c 1 k.val, 0]) (hoD : offD = ![rLo (peer 1 c) 1 k.val, 0])
    {hsc : (oSl n offD hD : Memref sig (Dev.tc n' : Thread nD τ).2.kind .vmem (Sn n) .f32).view.ref.isScScratch = false}
    {hsrc : (oSl n offS hS).view.WordExact} {hdst : (oSl n offD hD).view.WordExact}
    {hsem : DmaTarget.Typed .vmem (.dma (semOf (recvArr 1) k)) (.remote (Dev.tc n' : Thread nD τ) (oSl n offD hD) (.dma (semOf (sendArr 1) k)) hsc)}
    {α : Type} {Q : α → sProp 𝕄} {kt : PUnit → Prog (TpuEff nD τ sig (Elt F) Λ₀ .tc) α}
    (fd : Buf (Elt F) (ℓo (peer 1 c))) (W : Waits sig Unit) (O : CellTallies nD τ sig Unit) :
    iprop(cellInv ER (Rd m) K1 (dcell c (sendArr 1) k) ∗ cellInv ER (Rd m) K2 (dcell (peer 1 c) (recvArr 1) k)
        ∗ (ℓo c ↦[rowsO (sLo c 1 k.val) (rLen c 0 k.val)]{fullShare.left} Gout m c)
        ∗ (ℓo (peer 1 c) ↦[rowsO (rLo (peer 1 c) 1 k.val) (rLen (peer 1 c) 1 k.val)]{fullShare} fd)
        ∗ owes (c : Thread nD τ) (O + tR c 1 k) W
        ∗ dutyTok ER (dcell c (sendArr 1) k) 0 0 ∗ reached ER (dcell c (sendArr 1) k) 0
        ∗ dutyTok ER (dcell (peer 1 c) (recvArr 1) k) 0 0 ∗ reached ER (dcell (peer 1 c) (recvArr 1) k) 0)
      ⊢ iprop(((cred (tallyAt (dcell c (sendArr 1) k) () (amt c (semOf (sendArr 1) k).val)) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSl n offS hS) (.remote (Dev.tc n' : Thread nD τ) (oSl n offD hD) (.dma (semOf (sendArr 1) k)) hsc) (.dma (semOf (recvArr 1) k)) hsrc hdst hsem) kt) Q) := by
  subst hn'
  have hlenS : lenAt c (semOf (sendArr 1) k).val = n := by rw [hn]; exact lenAt_semOf_le2 c _ k (by decide)
  have hlenR : lenAt (peer 1 c) (semOf (recvArr 1) k).val = n := by
    rw [hn]; exact (lenAt_semOf_3 (yp c) k).trans (rLen_y_eq c k.val).symm
  have h48 : n = 48 ∨ n = 40 := by rw [hn]; exact rLen_cases c 0 k.val
  have hamtS : amt c (semOf (sendArr 1) k).val = credN n := amt_of_len c _ k n hlenS
  have hamtR : amt (peer 1 c) (semOf (recvArr 1) k).val = credN n := amt_of_len (peer 1 c) _ k n hlenR
  have hrl : rLen (peer 1 c) 1 k.val = n := by rw [hn]; exact (rLen_y_eq c k.val).symm
  unfold tR
  rw [hamtS, hamtR, hrl, ← hn, ← oSl_set n offS hS _ hoS, ← oSl_set n offD hD _ hoD]
  exact Rounds.wp_send_pointsTo 𝒱₀ ER (Rd m) (c : Thread nD τ) none (κ₁ := K1) (κ₂ := K2)
    (src := oSl n offS hS) (dst := oSl n offD hD) (c' := (Dev.tc (peer 1 c) : Thread nD τ)) (hsc := hsc) (hsrc := hsrc) (hdst := hdst) (hsem := hsem)
    (q := fullShare.left) (fs := Gout m c) (k := kt)
    (r₁ := 0) (r₂ := 0) (d₁ := 0) (d₂ := 0) (fd := fd) (mem_duties_dma m c _ k) (mem_duties_dma m (peer 1 c) _ k) () () (credN n)
    (credit_oSl n h48 offD hD) ((amount_dma m c _ k 0).trans hamtS) ((amount_dma m (peer 1 c) _ k 0).trans hamtR) O rfl (W := W)
    (by rw [payload_dma]; exact Entails.of_eq (by rw [show (semOf (sendArr 1) k) = semOf 2 k from rfl, dmaPay_2, oSl_set n offS hS _ hoS, ← hn]))
    (by
      have e : rLo (peer 1 c) 1 k.val = sLo c 1 k.val := (sLo_y_eq c k.val).symm
      rw [payload_dma]
      exact Entails.of_eq (by
        rw [show (semOf (recvArr 1) k) = semOf 3 k from rfl, dmaPay_3, e, hrl]
        exact land_o m c (peer 1 c) (sLo c 1 k.val) n offS offD hS hD hoS (hoD.trans (by rw [e]))
          (fun r h1 h2 => srcDev_y c k.val k.isLt r (by rw [← sLo_y_eq]; exact h1) (by rw [← sLo_y_eq, ← rLen_y_eq, ← hn]; exact h2)) fd))

theorem wp_zsend (K1 K2 : ℕ) (c n' : Dev nD) (hn' : n' = peer 2 c) (k : Fin 16) (n : ℕ) (hn : n = len680 k.val)
    (offS offD : Fin 2 → ℕ) (hS : ∀ a, offS a + (Sn n).size a ≤ S4096x512.size a) (hD : ∀ a, offD a + (Sn n).size a ≤ S4096x512.size a)
    (hoS : offS = ![sLo c 2 k.val, 0]) (hoD : offD = ![rLo (peer 2 c) 2 k.val, 0])
    {hsc : (oSl n offD hD : Memref sig (Dev.tc n' : Thread nD τ).2.kind .vmem (Sn n) .f32).view.ref.isScScratch = false}
    {hsrc : (oSl n offS hS).view.WordExact} {hdst : (oSl n offD hD).view.WordExact}
    {hsem : DmaTarget.Typed .vmem (.dma (semOf (recvArr 2) k)) (.remote (Dev.tc n' : Thread nD τ) (oSl n offD hD) (.dma (semOf (sendArr 2) k)) hsc)}
    {α : Type} {Q : α → sProp 𝕄} {kt : PUnit → Prog (TpuEff nD τ sig (Elt F) Λ₀ .tc) α}
    (fd : Buf (Elt F) (ℓo (peer 2 c))) (W : Waits sig Unit) (O : CellTallies nD τ sig Unit) :
    iprop(cellInv ER (Rd m) K1 (dcell c (sendArr 2) k) ∗ cellInv ER (Rd m) K2 (dcell (peer 2 c) (recvArr 2) k)
        ∗ (ℓo c ↦[rowsO (sLo c 2 k.val) (len680 k.val)]{fullShare.right} Gout m c)
        ∗ (ℓo (peer 2 c) ↦[rowsO (rLo (peer 2 c) 2 k.val) (rLen (peer 2 c) 2 k.val)]{fullShare} fd)
        ∗ owes (c : Thread nD τ) (O + tR c 2 k) W
        ∗ dutyTok ER (dcell c (sendArr 2) k) 0 0 ∗ reached ER (dcell c (sendArr 2) k) 0
        ∗ dutyTok ER (dcell (peer 2 c) (recvArr 2) k) 0 0 ∗ reached ER (dcell (peer 2 c) (recvArr 2) k) 0)
      ⊢ iprop(((cred (tallyAt (dcell c (sendArr 2) k) () (amt c (semOf (sendArr 2) k).val)) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSl n offS hS) (.remote (Dev.tc n' : Thread nD τ) (oSl n offD hD) (.dma (semOf (sendArr 2) k)) hsc) (.dma (semOf (recvArr 2) k)) hsrc hdst hsem) kt) Q) := by
  subst hn'
  have hlenS : lenAt c (semOf (sendArr 2) k).val = n := by rw [hn]; exact lenAt_semOf_ge4 c _ k (by decide) |>.trans (rLen_z c k.val)
  have hlenR : lenAt (peer 2 c) (semOf (recvArr 2) k).val = n := by
    rw [hn]; exact (lenAt_semOf_ge4 (zb c) _ k (by decide)).trans (rLen_z (zb c) k.val)
  have h48 : n = 48 ∨ n = 40 := by rw [hn]; exact len680_cases k.val
  have hamtS : amt c (semOf (sendArr 2) k).val = credN n := amt_of_len c _ k n hlenS
  have hamtR : amt (peer 2 c) (semOf (recvArr 2) k).val = credN n := amt_of_len (peer 2 c) _ k n hlenR
  have hrl : rLen (peer 2 c) 2 k.val = n := by rw [hn]; exact rLen_z (zb c) k.val
  unfold tR
  rw [hamtS, hamtR, hrl, ← hn, ← oSl_set n offS hS _ hoS, ← oSl_set n offD hD _ hoD]
  exact Rounds.wp_send_pointsTo 𝒱₀ ER (Rd m) (c : Thread nD τ) none (κ₁ := K1) (κ₂ := K2)
    (src := oSl n offS hS) (dst := oSl n offD hD) (c' := (Dev.tc (peer 2 c) : Thread nD τ)) (hsc := hsc) (hsrc := hsrc) (hdst := hdst) (hsem := hsem)
    (q := fullShare.right) (fs := Gout m c) (k := kt)
    (r₁ := 0) (r₂ := 0) (d₁ := 0) (d₂ := 0) (fd := fd) (mem_duties_dma m c _ k) (mem_duties_dma m (peer 2 c) _ k) () () (credN n)
    (credit_oSl n h48 offD hD) ((amount_dma m c _ k 0).trans hamtS) ((amount_dma m (peer 2 c) _ k 0).trans hamtR) O rfl (W := W)
    (by rw [payload_dma]; exact Entails.of_eq (by rw [show (semOf (sendArr 2) k) = semOf 4 k from rfl, dmaPay_4, oSl_set n offS hS _ hoS, ← hn]))
    (by
      have e : rLo (peer 2 c) 2 k.val = sLo c 2 k.val := (sLo_z_eq c k.val).symm
      rw [payload_dma]
      exact Entails.of_eq (by
        rw [show (semOf (recvArr 2) k) = semOf 5 k from rfl, dmaPay_5, e, hrl]
        exact land_o m c (peer 2 c) (sLo c 2 k.val) n offS offD hS hD hoS (hoD.trans (by rw [e]))
          (fun r h1 h2 => srcDev_z c k.val k.isLt r (by rw [← sLo_z_eq]; exact h1) (by rw [← sLo_z_eq]; rw [hn] at h2; exact h2)) fd))

end Cert.Kernel.AG
end
-- ==== Proof.FSendsK.lean ====
import proofs.«900679_g7700000000000680_dist_ag_v7x_xyz2x2x4_x_m2048_n512_f32_1_alg».proof.Proof.StepsK
import proofs.«900679_g7700000000000680_dist_ag_v7x_xyz2x2x4_x_m2048_n512_f32_1_alg».proof.Proof.GhostK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × CIx → ℕ)

theorem rec_bar (c : Dev nD) : records m K ⊢ iprop(cellInv ER (Rd m) (K (c, none)) (barCell c) ∗ reached ER (barCell c) 0) := by
  unfold records
  exact BI.sep_mono (bigSep_elim (i := ((c, none) : Dev nD × CIx)) (Finset.mem_univ _))
    (bigSep_elim (i := ((c, none) : Dev nD × CIx)) (Finset.mem_univ _))
theorem rec_loc (c : Dev nD) : records m K ⊢ iprop(cellInv ER (Rd m) (K (c, some none)) (locCell c) ∗ reached ER (locCell c) 0) := by
  unfold records
  exact BI.sep_mono (bigSep_elim (i := ((c, some none) : Dev nD × CIx)) (Finset.mem_univ _))
    (bigSep_elim (i := ((c, some none) : Dev nD × CIx)) (Finset.mem_univ _))
theorem rec_dma (c : Dev nD) (a : Fin 6) (k : Fin 16) :
    records m K ⊢ iprop(cellInv ER (Rd m) (K (c, some (some (a, k)))) (dcell c a k) ∗ reached ER (dcell c a k) 0) := by
  unfold records
  exact BI.sep_mono (bigSep_elim (i := ((c, some (some (a, k))) : Dev nD × CIx)) (Finset.mem_univ _))
    (bigSep_elim (i := ((c, some (some (a, k))) : Dev nD × CIx)) (Finset.mem_univ _))

theorem rk_eq (j k : ℕ) (hjk : j + k = 15) (hj : j < 16) (hk : k < 16) : rk j hj = ⟨k, hk⟩ := Fin.ext (by simp only [rk]; omega)

section Sends
variable (c n' : Dev nD) (j k : ℕ) (hjk : j + k = 15) (hk : k < 16) (n : ℕ)
variable (offS offD : Fin 2 → ℕ)
include hjk

theorem fstep_xsend (hn' : n' = peer 0 c) (hn : n = rLen c 0 k)
    (hS : ∀ a, offS a + (Sn n).size a ≤ S2048x512.size a) (hD : ∀ a, offD a + (Sn n).size a ≤ S4096x512.size a)
    (hoS : offS = ![sLo c 0 k, 0]) (hoD : offD = ![rLo (peer 0 c) 0 k, 0])
    {hsc : (oSl n offD hD : Memref sig (Dev.tc n' : Thread nD τ).2.kind .vmem (Sn n) .f32).view.ref.isScScratch = false}
    {hsrc : (xSl n offS hS).view.WordExact} {hdst : (oSl n offD hD).view.WordExact}
    {hsem : DmaTarget.Typed .vmem (.dma (semOf (recvArr 0) ⟨k, hk⟩)) (.remote (Dev.tc n' : Thread nD τ) (oSl n offD hD) (.dma (semOf (sendArr 0) ⟨k, hk⟩)) hsc)}
    {α : Type} {Q : α → sProp 𝕄} {kt : PUnit → Prog (TpuEff nD τ sig (Elt F) Λ₀ .tc) α} (W : Waits sig Unit) :
    iprop(records m K ∗ SrcX m c (ge k) ∗ DstF (F := F) c 0 (ge k) ∗ TokF (F := F) c 0 (ge k) ∗ CrS (F := F) c 0 (lt k) ∗ owes (c : Thread nD τ) (owedX c (j + 1)) W)
      ⊢ iprop(((SrcX m c (ge (k + 1)) ∗ DstF (F := F) c 0 (ge (k + 1)) ∗ TokF (F := F) c 0 (ge (k + 1)) ∗ CrS (F := F) c 0 (lt (k + 1)) ∗ owes (c : Thread nD τ) (owedX c j) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xSl n offS hS) (.remote (Dev.tc n' : Thread nD τ) (oSl n offD hD) (.dma (semOf (sendArr 0) ⟨k, hk⟩)) hsc) (.dma (semOf (recvArr 0) ⟨k, hk⟩)) hsrc hdst hsem) kt) Q) := by
  have hj : j < 16 := by omega
  rw [owedX_succ c j hj, rk_eq j k hjk hj hk]
  unfold SrcX DstF TokF CrS
  rw [peel_ge _ k hk, peel_ge _ k hk, peel_ge _ k hk, push_lt _ k hk]
  iintro ⟨#HR, ⟨Hs, HS⟩, ⟨⟨%fd, Hd⟩, HD⟩, ⟨⟨Ht1, Ht2⟩, HT⟩, HC, HO⟩ Hk
  ihave #H1 := (rec_dma m K c (sendArr 0) ⟨k, hk⟩) $$ HR
  ihave #H2 := (rec_dma m K (peer 0 c) (recvArr 0) ⟨k, hk⟩) $$ HR
  icases H1 with ⟨#HI1, #Hr1⟩
  icases H2 with ⟨#HI2, #Hr2⟩
  iapply (wp_xsend m (K (c, some (some (sendArr 0, ⟨k, hk⟩)))) (K (peer 0 c, some (some (recvArr 0, ⟨k, hk⟩)))) c n' hn' ⟨k, hk⟩ n hn
      offS offD hS hD hoS hoD (hsc := hsc) (hsrc := hsrc) (hdst := hdst) (hsem := hsem) (Q := Q) (kt := kt) fd W (owedX c j)) $$ [Hs Hd HO Ht1 Ht2]
  · iframe # ∗
  iintro ⟨Hcr, HO⟩
  iapply Hk
  iframe # ∗

theorem fstep_ysend (hn' : n' = peer 1 c) (hn : n = rLen c 0 k)
    (hS : ∀ a, offS a + (Sn n).size a ≤ S4096x512.size a) (hD : ∀ a, offD a + (Sn n).size a ≤ S4096x512.size a)
    (hoS : offS = ![sLo c 1 k, 0]) (hoD : offD = ![rLo (peer 1 c) 1 k, 0])
    {hsc : (oSl n offD hD : Memref sig (Dev.tc n' : Thread nD τ).2.kind .vmem (Sn n) .f32).view.ref.isScScratch = false}
    {hsrc : (oSl n offS hS).view.WordExact} {hdst : (oSl n offD hD).view.WordExact}
    {hsem : DmaTarget.Typed .vmem (.dma (semOf (recvArr 1) ⟨k, hk⟩)) (.remote (Dev.tc n' : Thread nD τ) (oSl n offD hD) (.dma (semOf (sendArr 1) ⟨k, hk⟩)) hsc)}
    {α : Type} {Q : α → sProp 𝕄} {kt : PUnit → Prog (TpuEff nD τ sig (Elt F) Λ₀ .tc) α} (W : Waits sig Unit) :
    iprop(records m K ∗ (ℓo c ↦[rowsO (rLo c 0 k) (rLen c 0 k)]{fullShare.left} Gout m c)
        ∗ DstF (F := F) c 1 (ge k) ∗ TokF (F := F) c 1 (ge k) ∗ CrS (F := F) c 1 (lt k) ∗ owes (c : Thread nD τ) (owedL c (j + 1)) W)
      ⊢ iprop(((DstF (F := F) c 1 (ge (k + 1)) ∗ TokF (F := F) c 1 (ge (k + 1)) ∗ CrS (F := F) c 1 (lt (k + 1))
              ∗ owes (c : Thread nD τ) (owedL c j + tR c 2 ⟨k, hk⟩) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSl n offS hS) (.remote (Dev.tc n' : Thread nD τ) (oSl n offD hD) (.dma (semOf (sendArr 1) ⟨k, hk⟩)) hsc) (.dma (semOf (recvArr 1) ⟨k, hk⟩)) hsrc hdst hsem) kt) Q) := by
  have hj : j < 16 := by omega
  rw [owedL_succ c j hj, rk_eq j k hjk hj hk, ← sLo_y_eq_rLo_x c k]
  unfold DstF TokF CrS
  rw [peel_ge _ k hk, peel_ge _ k hk, push_lt _ k hk]
  iintro ⟨#HR, Hs, ⟨⟨%fd, Hd⟩, HD⟩, ⟨⟨Ht1, Ht2⟩, HT⟩, HC, HO⟩ Hk
  ihave #H1 := (rec_dma m K c (sendArr 1) ⟨k, hk⟩) $$ HR
  ihave #H2 := (rec_dma m K (peer 1 c) (recvArr 1) ⟨k, hk⟩) $$ HR
  icases H1 with ⟨#HI1, #Hr1⟩
  icases H2 with ⟨#HI2, #Hr2⟩
  iapply (wp_ysend m (K (c, some (some (sendArr 1, ⟨k, hk⟩)))) (K (peer 1 c, some (some (recvArr 1, ⟨k, hk⟩)))) c n' hn' ⟨k, hk⟩ n hn
      offS offD hS hD hoS hoD (hsc := hsc) (hsrc := hsrc) (hdst := hdst) (hsem := hsem) (Q := Q) (kt := kt) fd W (owedL c j + tR c 2 ⟨k, hk⟩)) $$ [Hs Hd HO Ht1 Ht2]
  · iframe # ∗
  iintro ⟨Hcr, HO⟩
  iapply Hk
  iframe # ∗

theorem fstep_zsend (hn' : n' = peer 2 c) (hn : n = len680 k)
    (hS : ∀ a, offS a + (Sn n).size a ≤ S4096x512.size a) (hD : ∀ a, offD a + (Sn n).size a ≤ S4096x512.size a)
    (hoS : offS = ![sLo c 2 k, 0]) (hoD : offD = ![rLo (peer 2 c) 2 k, 0])
    {hsc : (oSl n offD hD : Memref sig (Dev.tc n' : Thread nD τ).2.kind .vmem (Sn n) .f32).view.ref.isScScratch = false}
    {hsrc : (oSl n offS hS).view.WordExact} {hdst : (oSl n offD hD).view.WordExact}
    {hsem : DmaTarget.Typed .vmem (.dma (semOf (recvArr 2) ⟨k, hk⟩)) (.remote (Dev.tc n' : Thread nD τ) (oSl n offD hD) (.dma (semOf (sendArr 2) ⟨k, hk⟩)) hsc)}
    {α : Type} {Q : α → sProp 𝕄} {kt : PUnit → Prog (TpuEff nD τ sig (Elt F) Λ₀ .tc) α} (W : Waits sig Unit) :
    iprop(records m K ∗ (ℓo c ↦[rowsO (sLo c 2 k) (len680 k)]{fullShare.right} Gout m c)
        ∗ DstF (F := F) c 2 (ge k) ∗ TokF (F := F) c 2 (ge k) ∗ CrS (F := F) c 2 (lt k) ∗ owes (c : Thread nD τ) (owedL c j + tR c 2 ⟨k, hk⟩) W)
      ⊢ iprop(((DstF (F := F) c 2 (ge (k + 1)) ∗ TokF (F := F) c 2 (ge (k + 1)) ∗ CrS (F := F) c 2 (lt (k + 1)) ∗ owes (c : Thread nD τ) (owedL c j) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSl n offS hS) (.remote (Dev.tc n' : Thread nD τ) (oSl n offD hD) (.dma (semOf (sendArr 2) ⟨k, hk⟩)) hsc) (.dma (semOf (recvArr 2) ⟨k, hk⟩)) hsrc hdst hsem) kt) Q) := by
  unfold DstF TokF CrS
  rw [peel_ge _ k hk, peel_ge _ k hk, push_lt _ k hk]
  iintro ⟨#HR, Hs, ⟨⟨%fd, Hd⟩, HD⟩, ⟨⟨Ht1, Ht2⟩, HT⟩, HC, HO⟩ Hk
  ihave #H1 := (rec_dma m K c (sendArr 2) ⟨k, hk⟩) $$ HR
  ihave #H2 := (rec_dma m K (peer 2 c) (recvArr 2) ⟨k, hk⟩) $$ HR
  icases H1 with ⟨#HI1, #Hr1⟩
  icases H2 with ⟨#HI2, #Hr2⟩
  iapply (wp_zsend m (K (c, some (some (sendArr 2, ⟨k, hk⟩)))) (K (peer 2 c, some (some (recvArr 2, ⟨k, hk⟩)))) c n' hn' ⟨k, hk⟩ n hn
      offS offD hS hD hoS hoD (hsc := hsc) (hsrc := hsrc) (hdst := hdst) (hsem := hsem) (Q := Q) (kt := kt) fd W (owedL c j)) $$ [Hs Hd HO Ht1 Ht2]
  · iframe # ∗
  iintro ⟨Hcr, HO⟩
  iapply Hk
  iframe # ∗

end Sends

end Cert.Kernel.AG
end
-- ==== Proof.AssembleK.lean ====
import proofs.«900679_g7700000000000680_dist_ag_v7x_xyz2x2x4_x_m2048_n512_f32_1_alg».proof.Proof.FamK
import proofs.«900679_g7700000000000680_dist_ag_v7x_xyz2x2x4_x_m2048_n512_f32_1_alg».proof.Proof.ViewsK
import proofs.«900679_g7700000000000680_dist_ag_v7x_xyz2x2x4_x_m2048_n512_f32_1_alg».proof.Proof.GeomK

noncomputable section

namespace Cert.Kernel.AG

open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem eq_of_bi {P Q : sProp 𝕄} (h : P ⊣⊢ Q) : P = Q := BI.equiv_iff.mp ⟨h.1, h.2⟩

theorem ptsX_add (c : Dev nD) (q : PosShare TreeShare) (f : Buf (Elt F) (ℓx c)) (lo n₁ n₂ : ℕ) :
    (ℓx c ↦[rowsX lo (n₁ + n₂)]{q} f : sProp 𝕄) = iprop((ℓx c ↦[rowsX lo n₁]{q} f) ∗ ℓx c ↦[rowsX (lo + n₁) n₂]{q} f) :=
  Cert.AGRows.pointsTo_rows_add_eq (ℓ := ℓx c) lo n₁ n₂
theorem ptsO_union (c : Dev nD) (q : PosShare TreeShare) (f : Buf (Elt F) (ℓo c)) {I J : Finset S4096x512.Idx}
    (h : Disjoint I J) :
    (ℓo c ↦[I ∪ J]{q} f : sProp 𝕄) = iprop((ℓo c ↦[I]{q} f) ∗ ℓo c ↦[J]{q} f) :=
  eq_of_bi (pointsTo_union (ℓ := ℓo c) h)
theorem ptsO_univ (c : Dev nD) (q : PosShare TreeShare) (f : Buf (Elt F) (ℓo c)) (I : Finset S4096x512.Idx)
    (h : Finset.univ = I) : (ℓo c ↦{q} f : sProp 𝕄) = ℓo c ↦[I]{q} f :=
  congrArg (fun J => (ℓo c ↦[J]{q} f : sProp 𝕄)) h
theorem ptsX_univ (c : Dev nD) (q : PosShare TreeShare) (f : Buf (Elt F) (ℓx c)) (I : Finset S2048x512.Idx)
    (h : Finset.univ = I) : (ℓx c ↦{q} f : sProp 𝕄) = ℓx c ↦[I]{q} f :=
  congrArg (fun J => (ℓx c ↦[J]{q} f : sProp 𝕄)) h

theorem ptsO_halves (c : Dev nD) (q : PosShare TreeShare) (f : Buf (Elt F) (ℓo c)) (I : Finset S4096x512.Idx) :
    (ℓo c ↦[I]{q} f : sProp 𝕄) = iprop((ℓo c ↦[I]{q.left} f) ∗ ℓo c ↦[I]{q.right} f) :=
  eq_of_bi (Cert.AGRows.pointsTo_halves_of (ℓ := ℓo c) I q)
theorem ptsX_halves (c : Dev nD) (q : PosShare TreeShare) (f : Buf (Elt F) (ℓx c)) (I : Finset S2048x512.Idx) :
    (ℓx c ↦[I]{q} f : sProp 𝕄) = iprop((ℓx c ↦[I]{q.left} f) ∗ ℓx c ↦[I]{q.right} f) :=
  eq_of_bi (Cert.AGRows.pointsTo_halves_of (ℓ := ℓx c) I q)

theorem own_slabs_eq (c : Dev nD) (q : PosShare TreeShare) (f : Buf (Elt F) (ℓo c)) :
    (ℓo c ↦{q} f : sProp 𝕄)
      = iprop((ℓo c ↦[rowsO (2048 * xc c) 2048]{q} f) ∗ (ℓo c ↦[rowsO (rLo c 0 0) (sLen c 0)]{q} f)
          ∗ (ℓo c ↦[rowsO (rLo c 1 0) (sLen c 1)]{q} f) ∗ (ℓo c ↦[rowsO (rLo c 2 0) (sLen c 2)]{q} f)) := by
  have h12 : Disjoint (rowsO (rLo c 1 0) (sLen c 1)) (rowsO (rLo c 2 0) (sLen c 2)) :=
    rowsO_slab_slab_disjoint c 1 2 (by decide)
  have h0 : Disjoint (rowsO (rLo c 0 0) (sLen c 0)) (rowsO (rLo c 1 0) (sLen c 1) ∪ rowsO (rLo c 2 0) (sLen c 2)) :=
    Finset.disjoint_union_right.mpr ⟨rowsO_slab_slab_disjoint c 0 1 (by decide), rowsO_slab_slab_disjoint c 0 2 (by decide)⟩
  have hA : Disjoint (rowsO (2048 * xc c) 2048)
      (rowsO (rLo c 0 0) (sLen c 0) ∪ (rowsO (rLo c 1 0) (sLen c 1) ∪ rowsO (rLo c 2 0) (sLen c 2))) :=
    Finset.disjoint_union_right.mpr ⟨rowsO_own_slab_disjoint c 0,
      Finset.disjoint_union_right.mpr ⟨rowsO_own_slab_disjoint c 1, rowsO_own_slab_disjoint c 2⟩⟩
  rw [ptsO_univ c q f _ (rowsO_split c), ptsO_union c q f hA, ptsO_union c q f h0, ptsO_union c q f h12]

theorem slab_chain (c : Dev nD) (d : Fin 3) (q : PosShare TreeShare) (f : Buf (Elt F) (ℓo c)) :
    (ℓo c ↦[rowsO (rLo c d 0) (sLen c d)]{q} f : sProp 𝕄)
      = (bigSep (Finset.univ : Finset (Fin 16)) fun k => ℓo c ↦[rowsO (rLo c d k.val) (rLen c d k.val)]{q} f : sProp 𝕄) := by
  have h := Cert.AGRows.pointsTo_rows_chain_fin (Ix := Unit) (Name := ℕ) (U := UU) (Lvl := ℕ) (ℓ := ℓo c) (q := q) (f := f) (rLo c d 0)
    (fun k => rLo c d k - rLo c d 0) (fun k => rLen c d k) (Nat.sub_self _) 16
    (fun k hk => by
      have h1 := chunk_in_slab c d k hk
      have h2 := rLo_succ c d k
      show rLo c d k - rLo c d 0 + rLen c d k = rLo c d (k + 1) - rLo c d 0
      omega)
  have e16 : rLo c d 16 - rLo c d 0 = sLen c d := by rw [rLo_16]; omega
  rw [← e16]
  refine h.trans (bigSep_congr fun k _ => ?_)
  have h1 := chunk_in_slab c d k.val k.isLt
  show (ℓo c ↦[rowsO (rLo c d 0 + (rLo c d k.val - rLo c d 0)) (rLen c d k.val)]{q} f : sProp 𝕄) = _
  rw [Nat.add_sub_cancel' h1.1]

theorem give_away (c : Dev nD) (f : Buf (Elt F) (ℓo c)) :
    (ℓo c ↦{fullShare} f : sProp 𝕄)
      ⊢ iprop((ℓo c ↦[rowsO (2048 * xc c) 2048]{fullShare} f) ∗ barPay (peer 0 c) 0 ∗ barPay (peer 1 c) 1 ∗ barPay (peer 2 c) 2) := by
  rw [own_slabs_eq c fullShare f]
  have hb : ∀ d : Fin 3, (ℓo c ↦[rowsO (rLo c d 0) (sLen c d)]{fullShare} f : sProp 𝕄) ⊢ barPay (peer d c) d := by
    intro d; unfold barPay; rw [peer_peer]; iintro H; iexists f; iexact H
  iintro ⟨H, H0, H1, H2⟩
  isplitl [H]; · iexact H
  isplitl [H0]; · iapply (hb 0) $$ H0
  isplitl [H1]; · iapply (hb 1) $$ H1
  iapply (hb 2) $$ H2

theorem barPay_chunks (c : Dev nD) (d : Fin 3) : (barPay c d : sProp 𝕄) ⊢ DstF c d Finset.univ := by
  have hm : ∀ f : Buf (Elt F) (ℓo (peer d c)),
      (bigSep (Finset.univ : Finset (Fin 16)) fun k => ℓo (peer d c) ↦[rowsO (rLo (peer d c) d k.val) (rLen (peer d c) d k.val)]{fullShare} f : sProp 𝕄)
        ⊢ DstF c d Finset.univ := by
    intro f; unfold DstF
    exact bigSep_mono fun k _ =>
      (show (ℓo (peer d c) ↦[rowsO (rLo (peer d c) d k.val) (rLen (peer d c) d k.val)]{fullShare} f : sProp 𝕄)
          ⊢ iprop(∃ f, ℓo (peer d c) ↦[rowsO (rLo (peer d c) d k.val) (rLen (peer d c) d k.val)]{fullShare} f) from by
        iintro H; iexists f; iexact H)
  unfold barPay
  iintro ⟨%f, H⟩
  iapply (hm f)
  iapply (Entails.of_eq (slab_chain (peer d c) d fullShare f)) $$ H

def XRest (c : Dev nD) : sProp 𝕄 :=
  iprop((ℓx c ↦[rowsX 0 (slabLo (yc c) (pc c))]{fullShare.right} Xin m c)
    ∗ (ℓx c ↦[rowsX (slabLo (yc c) (pc c) + slabLen (yc c)) (2048 - (slabLo (yc c) (pc c) + slabLen (yc c)))]{fullShare.right} Xin m c))

theorem srcX_chain (c : Dev nD) (q : PosShare TreeShare) (f : Buf (Elt F) (ℓx c)) :
    (ℓx c ↦[rowsX (slabLo (yc c) (pc c)) (slabLen (yc c))]{q} f : sProp 𝕄)
      = (bigSep (Finset.univ : Finset (Fin 16)) fun k => ℓx c ↦[rowsX (sLo c 0 k.val) (rLen c 0 k.val)]{q} f : sProp 𝕄) := by
  have h := Cert.AGRows.pointsTo_rows_chain_fin (Ix := Unit) (Name := ℕ) (U := UU) (Lvl := ℕ) (ℓ := ℓx c) (q := q) (f := f) (slabLo (yc c) (pc c))
    (chOff (yc c)) (chLen (yc c)) (chOff_zero _) 16 (fun k _ => (chOff_succ _ k).symm)
  rw [chOff_16] at h
  exact h

theorem xin_split (c : Dev nD) :
    (ℓx c ↦{fullShare} Xin m c : sProp 𝕄)
      = iprop((ℓx c ↦[rowsX 0 2048]{fullShare.left} Xin m c) ∗ SrcX m c Finset.univ ∗ XRest m c) := by
  have hL := slab_le (yc c) (pc c)
  have hR : slabLo (yc c) (pc c) + (slabLen (yc c) + (2048 - (slabLo (yc c) (pc c) + slabLen (yc c)))) = 2048 := by omega
  have e2 := ptsX_add c fullShare.right (Xin m c) 0 (slabLo (yc c) (pc c)) (slabLen (yc c) + (2048 - (slabLo (yc c) (pc c) + slabLen (yc c))))
  rw [hR, Nat.zero_add, ptsX_add c fullShare.right (Xin m c), srcX_chain c fullShare.right (Xin m c)] at e2
  rw [ptsX_univ c fullShare (Xin m c) _ rowsX_univ.symm, ptsX_halves c fullShare (Xin m c), e2]
  unfold SrcX XRest
  exact congrArg (fun X => iprop((ℓx c ↦[rowsX 0 2048]{fullShare.left} Xin m c) ∗ X)) (eq_of_bi sep_left_comm)

theorem xin_split_bi (c : Dev nD) :
    (ℓx c ↦{fullShare} Xin m c : sProp 𝕄)
      ⊣⊢ iprop((ℓx c ↦[rowsX 0 2048]{fullShare.left} Xin m c) ∗ SrcX m c Finset.univ ∗ XRest m c) :=
  ⟨Entails.of_eq (xin_split m c), Entails.of_eq (xin_split m c).symm⟩

theorem Lnd_univ (c : Dev nD) (d : Fin 3) (q : PosShare TreeShare) :
    Lnd m c d q Finset.univ = (ℓo c ↦[rowsO (rLo c d 0) (sLen c d)]{q} Gout m c : sProp 𝕄) :=
  (slab_chain c d q (Gout m c)).symm

theorem reassemble_eq (c : Dev nD) (q : PosShare TreeShare) :
    (iprop((ℓo c ↦[rowsO (2048 * xc c) 2048]{q} Gout m c) ∗ Lnd m c 0 q Finset.univ ∗ Lnd m c 1 q Finset.univ
        ∗ Lnd m c 2 q Finset.univ) : sProp 𝕄) = (ℓo c ↦{q} Gout m c) := by
  rw [Lnd_univ, Lnd_univ, Lnd_univ]
  exact (own_slabs_eq c q (Gout m c)).symm
theorem reassemble (c : Dev nD) :
    (iprop((ℓo c ↦[rowsO (2048 * xc c) 2048]{fullShare} Gout m c) ∗ Lnd m c 0 fullShare Finset.univ
        ∗ Lnd m c 1 fullShare Finset.univ ∗ Lnd m c 2 fullShare Finset.univ) : sProp 𝕄)
      ⊢ (ℓo c ↦{fullShare} Gout m c) :=
  Entails.of_eq (reassemble_eq m c fullShare)

theorem chunk_halves (c : Dev nD) (lo n : ℕ) (q : PosShare TreeShare) :
    (ℓo c ↦[rowsO lo n]{q} Gout m c : sProp 𝕄)
      = iprop((ℓo c ↦[rowsO lo n]{q.left} Gout m c) ∗ ℓo c ↦[rowsO lo n]{q.right} Gout m c) :=
  ptsO_halves c q (Gout m c) _

theorem Lnd_halves (c : Dev nD) (d : Fin 3) (q : PosShare TreeShare) (S : Finset (Fin 16)) :
    (iprop(Lnd m c d q.left S ∗ Lnd m c d q.right S) : sProp 𝕄) = Lnd m c d q S := by
  unfold Lnd
  rw [← bigSep_sep']
  exact bigSep_congr fun k _ => (chunk_halves m c _ _ q).symm
theorem Lnd_halves_bi (c : Dev nD) (d : Fin 3) (S : Finset (Fin 16)) :
    (iprop(Lnd m c d fullShare.left S ∗ Lnd m c d fullShare.right S) : sProp 𝕄) ⊣⊢ Lnd m c d fullShare S :=
  ⟨Entails.of_eq (Lnd_halves m c d fullShare S), Entails.of_eq (Lnd_halves m c d fullShare S).symm⟩

end Cert.Kernel.AG

end
-- ==== Proof.PrologueK.lean ====
import proofs.«900679_g7700000000000680_dist_ag_v7x_xyz2x2x4_x_m2048_n512_f32_1_alg».proof.Proof.FSendsK
import proofs.«900679_g7700000000000680_dist_ag_v7x_xyz2x2x4_x_m2048_n512_f32_1_alg».proof.Proof.AssembleK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × CIx → ℕ)

theorem expect_single (g : GSem nD τ sig) (h : (Rd (F := F) m).duties g 0 = {0}) :
    (Rd (F := F) m).expect g 0 = (Rd (F := F) m).amount g 0 0 := by
  unfold Schedule.expect Schedule.amountOf; rw [h, Finset.sum_singleton]
theorem expect_loc (c : Dev nD) : (Rd (F := F) m).expect (locCell c) 0 = amt c 98 :=
  (expect_single m (locCell c) (duties_loc m c)).trans (amount_loc m c 0)
theorem dmaPay_loc (c : Dev nD) : dmaPay m c 98
    = iprop((ℓo c ↦[rowsO (2048 * xc c) 2048]{fullShare} Gout m c) ∗ (ℓx c ↦[rowsX 0 2048]{fullShare.left} Xin m c)) := by
  unfold dmaPay; rw [if_pos (rfl : (98 : ℕ) = 98)]
theorem rest_loc (c : Dev nD) :
    bigSep ((Rd (F := F) m).duties (locCell c) 0 \ ∅) (fun d => (Rd (F := F) m).payload (locCell c) 0 d) = dmaPay m c 98 := by
  have h : (Rd (F := F) m).duties (locCell c) 0 \ ∅ = {0} := (Finset.sdiff_empty).trans (duties_loc m c)
  exact ((congrArg (fun s => bigSep s fun d => (Rd (F := F) m).payload (locCell c) 0 d) h).trans bigSep_singleton).trans (payload_loc m c 0)

theorem credit_loc (off : Fin 2 → ℕ) (h : ∀ a, off a + S2048x512.size a ≤ S4096x512.size a) :
    ((oM.slice (Rect.unit (s := S4096x512) off S2048x512.size h) (fun _ => rfl) : Memref sig .tc .vmem S2048x512 .f32)).view.dmaCredit = A2048 := rfl

section Pro
variable (c : Dev nD)

theorem fstep_signal (n' : Dev nD) (d : Fin 3) (hn' : n' = peer d c) (k' : ℕ) (hk' : k' = 1) (O : CellTallies nD τ sig Unit) (W : Waits sig Unit)
    {α : Type} {Q : α → sProp 𝕄} {kt : PUnit → Prog (TpuEff nD τ sig (Elt F) Λ₀ .tc) α} :
    iprop(records m K ∗ barPay (F := F) (peer d c) d ∗ dutyTok ER (barCell (peer d c)) 0 d ∗ owes (c : Thread nD τ) (O + tB c d) W)
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc n' : Thread nD τ) barS k') kt) Q) := by
  subst hn' hk'
  iintro ⟨#HR, Hp, Ht, HO⟩ Hk
  ihave HI := (rec_bar m K (peer d c)) $$ HR
  icases HI with ⟨#HI, #Hr⟩
  iapply (Rounds.wp_signal 𝒱₀ ER (Rd m) (c : Thread nD τ) none (dst := (Dev.tc (peer d c) : Thread nD τ)) (sem := barS) (κ := K (peer d c, none))
      (r := 0) (d := d) (mem_duties_bar m (peer d c) d) (amount_bar m (peer d c) d) () O rfl) $$ [HO Ht Hp]
  · isplitr; · iexact HI
    isplitl [HO]; · iexact HO
    isplitl [Ht]; · iexact Ht
    isplitl [Hp]; · rw [payload_bar]; iexact Hp
    iexact Hr
  iexact Hk

theorem fstep_bar_wait (k' : ℕ) (hk' : k' = 3) (O : CellTallies nD τ sig Unit) (W : Waits sig Unit)
    {α : Type} {Q : α → sProp 𝕄} {kt : PUnit → Prog (TpuEff nD τ sig (Elt F) Λ₀ .tc) α} :
    iprop(records m K ∗ cred (tallyAt (barCell c) () 3) ∗ atPos ER (barCell c) 0 ∅ 0 ∗ owes (c : Thread nD τ) O W
        ∗ MayWait (c : Thread nD τ) (.reg barS) () O)
      ⊢ iprop(((owes (c : Thread nD τ) O (insert (SemLoc.reg barS, ()) W) ∗ DstF (F := F) c 0 Finset.univ ∗ DstF (F := F) c 1 Finset.univ ∗ DstF (F := F) c 2 Finset.univ)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS k') kt) Q) := by
  subst hk'
  iintro ⟨#HR, Hc, Hat, HO, Hmw⟩ Hk
  ihave HI := (rec_bar m K c) $$ HR
  icases HI with ⟨#HI, -⟩
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hmw Hat]
  · iframe # ∗
  iintro ⟨HO, -, -, Hpay⟩
  ihave Hp := (Entails.of_eq (rest_bar m c)) $$ Hpay
  icases Hp with ⟨H0, H1, H2⟩
  iapply Hk
  isplitl [HO]; · iexact HO
  isplitl [H0]; · iapply (barPay_chunks (F := F) c 0); iexact H0
  isplitl [H1]; · iapply (barPay_chunks (F := F) c 1); iexact H1
  iapply (barPay_chunks (F := F) c 2); iexact H2

theorem fstep_loc_start (off : Fin 2 → ℕ) (h : ∀ a, off a + S2048x512.size a ≤ S4096x512.size a) (ho : off = ![2048 * xc c, 0])
    {hsrc : (xM : Memref sig .tc .vmem S2048x512 .f32).view.WordExact}
    {hdst : ((oM.slice (Rect.unit (s := S4096x512) off S2048x512.size h) (fun _ => rfl) : Memref sig .tc .vmem S2048x512 .f32)).view.WordExact}
    {hsem : DmaTarget.Typed (nD := nD) .vmem (.dma locS) (DmaTarget.here (nD := nD) (p := (Proc.tc : Proc τ)) (oM.slice (Rect.unit (s := S4096x512) off S2048x512.size h) (fun _ => rfl) : Memref sig .tc .vmem S2048x512 .f32))}
    (fd : Buf (Elt F) (ℓo c)) {α : Type} {Q : α → sProp 𝕄} {kt : PUnit → Prog (TpuEff nD τ sig (Elt F) Λ₀ .tc) α} :
    iprop(records m K ∗ (ℓx c ↦[rowsX 0 2048]{fullShare.left} Xin m c) ∗ (ℓo c ↦[rowsO (2048 * xc c) 2048]{fullShare} fd) ∗ dutyTok ER (locCell c) 0 0)
      ⊢ iprop((cred (tallyAt (locCell c) () (amt c 98)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma xM (.here (oM.slice (Rect.unit (s := S4096x512) off S2048x512.size h) (fun _ => rfl) : Memref sig .tc .vmem S2048x512 .f32)) (.dma locS) hsrc hdst hsem) kt) Q) := by
  iintro ⟨#HR, Hx, Ho, Ht⟩ Hk
  ihave HI := (rec_loc m K c) $$ HR
  icases HI with ⟨#HI, #Hr⟩
  have hsetD : ((oM.slice (Rect.unit (s := S4096x512) off S2048x512.size h) (fun _ => rfl) : Memref sig .tc .vmem S2048x512 .f32)).view.set = rowsO (2048 * xc c) 2048 :=
    oSl_set 2048 off h _ ho
  iapply (Rounds.wp_copy_pointsTo 𝒱₀ ER (Rd m) (c : Thread nD τ) none (κ := K (c, some none))
      (src := xM) (dst := (oM.slice (Rect.unit (s := S4096x512) off S2048x512.size h) (fun _ => rfl) : Memref sig .tc .vmem S2048x512 .f32))
      (sem := .dma locS) (hsrc := hsrc) (hdst := hdst) (hsem := hsem) (q := fullShare.left) (fs := Xin m c) (fd := fd) (r := 0) (d := 0) (k := kt)
      (mem_duties_loc m c) () (amt c 98) ((credit_loc off h).trans (amt_98 c).symm) (amount_loc m c 0)
      (by rw [payload_loc, dmaPay_loc, land_loc m c off h ho fd, xM_set])) $$ [Hx Ho Ht]
  · isplitr; · iexact HI
    isplitl [Hx]; · rw [xM_set]; iexact Hx
    isplitl [Ho]; · rw [hsetD]; iexact Ho
    iframe # ∗
  iexact Hk

theorem fstep_loc_wait {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt c 98) (W : Waits sig Unit)
    {α : Type} {Q : α → sProp 𝕄} {kt : PUnit → Prog (TpuEff nD τ sig (Elt F) Λ₀ .tc) α} :
    iprop(records m K ∗ cred (tallyAt (locCell c) () (amt c 98)) ∗ atPos ER (locCell c) 0 ∅ 0 ∗ owes (c : Thread nD τ) 0 W)
      ⊢ iprop(((owes (c : Thread nD τ) 0 (insert (SemLoc.dma locS, ()) W) ∗ semVal (locCell c) 0
              ∗ (ℓo c ↦[rowsO (2048 * xc c) 2048]{fullShare} Gout m c) ∗ (ℓx c ↦[rowsX 0 2048]{fullShare.left} Xin m c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 locS src dst hsrc hdst) kt) Q) := by
  iintro ⟨#HR, Hc, Hat, HO⟩ Hk
  ihave HI := (rec_loc m K c) $$ HR
  icases HI with ⟨#HI, -⟩
  iapply (Rounds.wp_wait_rest_token 𝒱₀ ER (Rd m) (c : Thread nD τ) none (κ := K (c, some none))
      (wpE_waitDma2_eq 𝒱₀ (c : Thread nD τ) none Set.univ) (Set.mem_univ _) () (O := 0) (W := W) (R := 0) (m := 0) (T := ∅)
      (by rw [Nat.zero_add, expect_loc, hamt])) $$ [Hc HO Hat]
  · isplitr; · iexact HI
    isplitl [Hc]; · rw [hamt]; iexact Hc
    isplitl [HO]; · iexact HO
    isplitr; · rw [MayWait_zero]; iempintro
    iexact Hat
  iintro ⟨HO, Hat, -, Hpay⟩
  ihave Hp := (Entails.of_eq ((rest_loc m c).trans (dmaPay_loc m c))) $$ Hpay
  icases Hp with ⟨Ho, Hx⟩
  imod (Rounds.cell_close ER (Rd m) (Set.mem_univ (K (c, some none))) (fun h => h) (R := 0 + 1) (duties_later m (locCell c))) $$ [Hat] with Hz
  · iframe # ∗
  iapply Hk
  iframe # ∗
end Pro

end Cert.Kernel.AG
end
-- ==== Proof.FWaitsK.lean ====
import proofs.«900679_g7700000000000680_dist_ag_v7x_xyz2x2x4_x_m2048_n512_f32_1_alg».proof.Proof.FSendsK
import proofs.«900679_g7700000000000680_dist_ag_v7x_xyz2x2x4_x_m2048_n512_f32_1_alg».proof.Proof.AssembleK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × CIx → ℕ)

theorem dmaPay_recv (c : Dev nD) (d : Fin 3) (k : Fin 16) :
    dmaPay m c (semOf (recvArr d) k).val = (ℓo c ↦[rowsO (rLo c d k.val) (rLen c d k.val)]{fullShare} Gout m c) := by
  fin_cases d
  · exact dmaPay_1 m c k
  · exact dmaPay_3 m c k
  · exact dmaPay_5 m c k

section Waits
variable (c : Dev nD) (k : ℕ) (hk : k < 16)
variable {sp sp' : Space} {s s' : Shape} {e e' : EltTy} {src : Memref sig .tc sp' s' e'} {κ' : Kind} {dst : Memref sig κ' sp s e}
variable {hsrc : src.view.WordExact} {hdst : dst.view.WordExact}

theorem fstep_wait_recv (d : Fin 3) (hamt : dst.view.dmaCredit = amt c (semOf (recvArr d) ⟨k, hk⟩).val)
    (O : CellTallies nD τ sig Unit) (W : Waits sig Unit)
    {α : Type} {Q : α → sProp 𝕄} {kt : PUnit → Prog (TpuEff nD τ sig (Elt F) Λ₀ .tc) α} :
    iprop(records m K ∗ CrR (F := F) c d (ge k) ∗ AtF (F := F) c (recvArr d) (ge k) ∗ ClF (F := F) c (recvArr d) (lt k) ∗ owes (c : Thread nD τ) O W
        ∗ MayWait (c : Thread nD τ) (.dma (semOf (recvArr d) ⟨k, hk⟩)) () O)
      ⊢ iprop(((CrR (F := F) c d (ge (k + 1)) ∗ AtF (F := F) c (recvArr d) (ge (k + 1)) ∗ ClF (F := F) c (recvArr d) (lt (k + 1))
              ∗ owes (c : Thread nD τ) O (insert (SemLoc.dma (semOf (recvArr d) ⟨k, hk⟩), ()) W)
              ∗ (ℓo c ↦[rowsO (rLo c d k) (rLen c d k)]{fullShare.left} Gout m c) ∗ (ℓo c ↦[rowsO (rLo c d k) (rLen c d k)]{fullShare.right} Gout m c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (recvArr d) ⟨k, hk⟩) src dst hsrc hdst) kt) Q) := by
  unfold CrR AtF ClF
  rw [peel_ge _ k hk, peel_ge _ k hk, push_lt _ k hk]
  iintro ⟨#HR, ⟨Hc, Hcr⟩, ⟨Ha, Hat⟩, Hcl, HO, Hmw⟩ Hk
  ihave #H1 := (rec_dma m K c (recvArr d) ⟨k, hk⟩) $$ HR
  icases H1 with ⟨#HI, #Hre⟩
  iapply (wp_wait_dma m (K (c, some (some (recvArr d, ⟨k, hk⟩)))) c (recvArr d) ⟨k, hk⟩ (src := src) (dst := dst) (hsrc := hsrc) (hdst := hdst)
      hamt O W (Q := Q) (kt := kt)) $$ [Hc HO Hmw Ha]
  · iframe # ∗
  iintro ⟨HO, Hz, Hp⟩
  ihave Hp' := (Entails.of_eq ((dmaPay_recv m c d ⟨k, hk⟩).trans (chunk_halves m c (rLo c d k) (rLen c d k) fullShare))) $$ Hp
  icases Hp' with ⟨Hl, Hr⟩
  iapply Hk
  iframe # ∗

theorem fstep_wait_send (d : Fin 3) (hamt : dst.view.dmaCredit = amt c (semOf (sendArr d) ⟨k, hk⟩).val) (W : Waits sig Unit)
    {α : Type} {Q : α → sProp 𝕄} {kt : PUnit → Prog (TpuEff nD τ sig (Elt F) Λ₀ .tc) α} :
    iprop(records m K ∗ CrS (F := F) c d (ge k) ∗ AtF (F := F) c (sendArr d) (ge k) ∗ ClF (F := F) c (sendArr d) (lt k) ∗ owes (c : Thread nD τ) 0 W)
      ⊢ iprop(((CrS (F := F) c d (ge (k + 1)) ∗ AtF (F := F) c (sendArr d) (ge (k + 1)) ∗ ClF (F := F) c (sendArr d) (lt (k + 1))
              ∗ owes (c : Thread nD τ) 0 (insert (SemLoc.dma (semOf (sendArr d) ⟨k, hk⟩), ()) W)
              ∗ dmaPay m c (semOf (sendArr d) ⟨k, hk⟩).val)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (sendArr d) ⟨k, hk⟩) src dst hsrc hdst) kt) Q) := by
  unfold CrS AtF ClF
  rw [peel_ge _ k hk, peel_ge _ k hk, push_lt _ k hk]
  iintro ⟨#HR, ⟨Hc, Hcr⟩, ⟨Ha, Hat⟩, Hcl, HO⟩ Hk
  ihave #H1 := (rec_dma m K c (sendArr d) ⟨k, hk⟩) $$ HR
  icases H1 with ⟨#HI, #Hre⟩
  iapply (wp_wait_dma m (K (c, some (some (sendArr d, ⟨k, hk⟩)))) c (sendArr d) ⟨k, hk⟩ (src := src) (dst := dst) (hsrc := hsrc) (hdst := hdst)
      hamt 0 W (Q := Q) (kt := kt)) $$ [Hc HO Ha]
  · isplitr; · iexact HI
    isplitl [Hc]; · iexact Hc
    isplitl [HO]; · iexact HO
    isplitr; · rw [MayWait_zero]; iempintro
    iexact Ha
  iintro ⟨HO, Hz, Hp⟩
  iapply Hk
  iframe # ∗
end Waits

theorem dmaPay_send0 (c : Dev nD) (k : Fin 16) :
    dmaPay m c (semOf (sendArr 0) k).val = (ℓx c ↦[rowsX (sLo c 0 k.val) (rLen c 0 k.val)]{fullShare.right} Xin m c) :=
  dmaPay_0 m c k
theorem dmaPay_send1 (c : Dev nD) (k : Fin 16) :
    dmaPay m c (semOf (sendArr 1) k).val = (ℓo c ↦[rowsO (rLo c 0 k.val) (rLen c 0 k.val)]{fullShare.left} Gout m c) := by
  rw [show semOf (sendArr 1) k = semOf 2 k from rfl, dmaPay_2, sLo_y_eq_rLo_x]
theorem dmaPay_send2 (c : Dev nD) (k : Fin 16) :
    dmaPay m c (semOf (sendArr 2) k).val = (ℓo c ↦[rowsO (sLo c 2 k.val) (len680 k.val)]{fullShare.right} Gout m c) :=
  dmaPay_4 m c k

def ZSrc (c : Dev nD) (S : Finset (Fin 16)) : sProp 𝕄 :=
  bigSep S fun k => (ℓo c ↦[rowsO (sLo c 2 k.val) (len680 k.val)]{fullShare.right} Gout m c)

section WaitsInto
variable (c : Dev nD) (k : ℕ) (hk : k < 16)
variable {sp sp' : Space} {s s' : Shape} {e e' : EltTy} {src : Memref sig .tc sp' s' e'} {κ' : Kind} {dst : Memref sig κ' sp s e}
variable {hsrc : src.view.WordExact} {hdst : dst.view.WordExact}

theorem fstep_wait_send_x (hamt : dst.view.dmaCredit = amt c (semOf (sendArr 0) ⟨k, hk⟩).val) (W : Waits sig Unit)
    {α : Type} {Q : α → sProp 𝕄} {kt : PUnit → Prog (TpuEff nD τ sig (Elt F) Λ₀ .tc) α} :
    iprop(records m K ∗ CrS (F := F) c 0 (ge k) ∗ AtF (F := F) c (sendArr 0) (ge k) ∗ ClF (F := F) c (sendArr 0) (lt k)
        ∗ SrcX m c (lt k) ∗ owes (c : Thread nD τ) 0 W)
      ⊢ iprop(((CrS (F := F) c 0 (ge (k + 1)) ∗ AtF (F := F) c (sendArr 0) (ge (k + 1)) ∗ ClF (F := F) c (sendArr 0) (lt (k + 1))
              ∗ SrcX m c (lt (k + 1)) ∗ owes (c : Thread nD τ) 0 (insert (SemLoc.dma (semOf (sendArr 0) ⟨k, hk⟩), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (sendArr 0) ⟨k, hk⟩) src dst hsrc hdst) kt) Q) := by
  unfold SrcX
  rw [push_lt _ k hk]
  iintro ⟨#HR, HC, HA, HZ, HF, HO⟩ Hk
  iapply (fstep_wait_send m K c k hk (src := src) (dst := dst) (hsrc := hsrc) (hdst := hdst) 0 hamt W (Q := Q) (kt := kt)) $$ [HC HA HZ HO]
  · iframe # ∗
  iintro ⟨HC, HA, HZ, HO, Hp⟩
  ihave Hp' := (Entails.of_eq (dmaPay_send0 m c ⟨k, hk⟩)) $$ Hp
  iapply Hk
  iframe # ∗

theorem fstep_wait_send_y (hamt : dst.view.dmaCredit = amt c (semOf (sendArr 1) ⟨k, hk⟩).val) (W : Waits sig Unit)
    {α : Type} {Q : α → sProp 𝕄} {kt : PUnit → Prog (TpuEff nD τ sig (Elt F) Λ₀ .tc) α} :
    iprop(records m K ∗ CrS (F := F) c 1 (ge k) ∗ AtF (F := F) c (sendArr 1) (ge k) ∗ ClF (F := F) c (sendArr 1) (lt k)
        ∗ Lnd m c 0 fullShare.left (lt k) ∗ owes (c : Thread nD τ) 0 W)
      ⊢ iprop(((CrS (F := F) c 1 (ge (k + 1)) ∗ AtF (F := F) c (sendArr 1) (ge (k + 1)) ∗ ClF (F := F) c (sendArr 1) (lt (k + 1))
              ∗ Lnd m c 0 fullShare.left (lt (k + 1)) ∗ owes (c : Thread nD τ) 0 (insert (SemLoc.dma (semOf (sendArr 1) ⟨k, hk⟩), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (sendArr 1) ⟨k, hk⟩) src dst hsrc hdst) kt) Q) := by
  unfold Lnd
  rw [push_lt _ k hk]
  iintro ⟨#HR, HC, HA, HZ, HF, HO⟩ Hk
  iapply (fstep_wait_send m K c k hk (src := src) (dst := dst) (hsrc := hsrc) (hdst := hdst) 1 hamt W (Q := Q) (kt := kt)) $$ [HC HA HZ HO]
  · iframe # ∗
  iintro ⟨HC, HA, HZ, HO, Hp⟩
  ihave Hp' := (Entails.of_eq (dmaPay_send1 m c ⟨k, hk⟩)) $$ Hp
  iapply Hk
  iframe # ∗

theorem fstep_wait_send_z (hamt : dst.view.dmaCredit = amt c (semOf (sendArr 2) ⟨k, hk⟩).val) (W : Waits sig Unit)
    {α : Type} {Q : α → sProp 𝕄} {kt : PUnit → Prog (TpuEff nD τ sig (Elt F) Λ₀ .tc) α} :
    iprop(records m K ∗ CrS (F := F) c 2 (ge k) ∗ AtF (F := F) c (sendArr 2) (ge k) ∗ ClF (F := F) c (sendArr 2) (lt k)
        ∗ ZSrc m c (lt k) ∗ owes (c : Thread nD τ) 0 W)
      ⊢ iprop(((CrS (F := F) c 2 (ge (k + 1)) ∗ AtF (F := F) c (sendArr 2) (ge (k + 1)) ∗ ClF (F := F) c (sendArr 2) (lt (k + 1))
              ∗ ZSrc m c (lt (k + 1)) ∗ owes (c : Thread nD τ) 0 (insert (SemLoc.dma (semOf (sendArr 2) ⟨k, hk⟩), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (sendArr 2) ⟨k, hk⟩) src dst hsrc hdst) kt) Q) := by
  unfold ZSrc
  rw [push_lt _ k hk]
  iintro ⟨#HR, HC, HA, HZ, HF, HO⟩ Hk
  iapply (fstep_wait_send m K c k hk (src := src) (dst := dst) (hsrc := hsrc) (hdst := hdst) 2 hamt W (Q := Q) (kt := kt)) $$ [HC HA HZ HO]
  · iframe # ∗
  iintro ⟨HC, HA, HZ, HO, Hp⟩
  ihave Hp' := (Entails.of_eq (dmaPay_send2 m c ⟨k, hk⟩)) $$ Hp
  iapply Hk
  iframe # ∗

theorem fstep_wait_recv_end (d : Fin 3) (hamt : dst.view.dmaCredit = amt c (semOf (recvArr d) ⟨k, hk⟩).val) (W : Waits sig Unit)
    {α : Type} {Q : α → sProp 𝕄} {kt : PUnit → Prog (TpuEff nD τ sig (Elt F) Λ₀ .tc) α} :
    iprop(records m K ∗ CrR (F := F) c d (ge k) ∗ AtF (F := F) c (recvArr d) (ge k) ∗ ClF (F := F) c (recvArr d) (lt k)
        ∗ Lnd m c d fullShare (lt k) ∗ owes (c : Thread nD τ) 0 W)
      ⊢ iprop(((CrR (F := F) c d (ge (k + 1)) ∗ AtF (F := F) c (recvArr d) (ge (k + 1)) ∗ ClF (F := F) c (recvArr d) (lt (k + 1))
              ∗ Lnd m c d fullShare (lt (k + 1)) ∗ owes (c : Thread nD τ) 0 (insert (SemLoc.dma (semOf (recvArr d) ⟨k, hk⟩), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (semOf (recvArr d) ⟨k, hk⟩) src dst hsrc hdst) kt) Q) := by
  unfold CrR AtF ClF Lnd
  rw [peel_ge _ k hk, peel_ge _ k hk, push_lt _ k hk, push_lt _ k hk]
  iintro ⟨#HR, ⟨Hc, Hcr⟩, ⟨Ha, Hat⟩, Hcl, HF, HO⟩ Hk
  ihave #H1 := (rec_dma m K c (recvArr d) ⟨k, hk⟩) $$ HR
  icases H1 with ⟨#HI, #Hre⟩
  iapply (wp_wait_dma m (K (c, some (some (recvArr d, ⟨k, hk⟩)))) c (recvArr d) ⟨k, hk⟩ (src := src) (dst := dst) (hsrc := hsrc) (hdst := hdst)
      hamt 0 W (Q := Q) (kt := kt)) $$ [Hc HO Ha]
  · isplitr; · iexact HI
    isplitl [Hc]; · iexact Hc
    isplitl [HO]; · iexact HO
    isplitr; · rw [MayWait_zero]; iempintro
    iexact Ha
  iintro ⟨HO, Hz, Hp⟩
  ihave Hp' := (Entails.of_eq (dmaPay_recv m c d ⟨k, hk⟩)) $$ Hp
  iapply Hk
  iframe # ∗

end WaitsInto

end Cert.Kernel.AG
end
-- ==== Proof.RegroupK.lean ====
import proofs.«900679_g7700000000000680_dist_ag_v7x_xyz2x2x4_x_m2048_n512_f32_1_alg».proof.Proof.PrologueK
import proofs.«900679_g7700000000000680_dist_ag_v7x_xyz2x2x4_x_m2048_n512_f32_1_alg».proof.Proof.FWaitsK
import proofs.«900679_g7700000000000680_dist_ag_v7x_xyz2x2x4_x_m2048_n512_f32_1_alg».proof.Proof.LaunchK
import proofs.«900679_g7700000000000680_dist_ag_v7x_xyz2x2x4_x_m2048_n512_f32_1_alg».proof.Proof.AssembleK
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem CrS_lt_zero (c : Dev nD) (d : Fin 3) : (CrS (F := F) c d (lt 0) : sProp 𝕄) = iprop(emp) := by
  unfold CrS; rw [lt_zero, bigSep_empty]; rfl
omit [FloatOps F] in
theorem ClF_lt_zero (c : Dev nD) (a : Fin 6) : (ClF (F := F) c a (lt 0) : sProp 𝕄) = iprop(emp) := by
  unfold ClF; rw [lt_zero, bigSep_empty]; rfl
theorem Lnd_lt_zero (c : Dev nD) (d : Fin 3) (q : PosShare TreeShare) : (Lnd m c d q (lt 0) : sProp 𝕄) = iprop(emp) := by
  unfold Lnd; rw [lt_zero, bigSep_empty]; rfl
theorem SrcX_lt_zero (c : Dev nD) : (SrcX m c (lt 0) : sProp 𝕄) = iprop(emp) := by
  unfold SrcX; rw [lt_zero, bigSep_empty]; rfl
theorem ZSrc_lt_zero (c : Dev nD) : (ZSrc m c (lt 0) : sProp 𝕄) = iprop(emp) := by
  unfold ZSrc; rw [lt_zero, bigSep_empty]; rfl

theorem ZSrc_eq_y0 (c : Dev nD) (hy : yc c = 0) (S : Finset (Fin 16)) : ZSrc m c S = Lnd m c 0 fullShare.right S := by
  unfold ZSrc Lnd
  refine bigSep_congr fun k _ => ?_
  rw [sLo_z_eq_rLo c k.val, len680_eq_rLen c k.val, if_pos hy, if_pos hy]

theorem ZSrc_eq_y1 (c : Dev nD) (hy : yc c = 1) (S : Finset (Fin 16)) : ZSrc m c S = Lnd m c 1 fullShare.right S := by
  have hy0 : ¬ yc c = 0 := by omega
  unfold ZSrc Lnd
  refine bigSep_congr fun k _ => ?_
  rw [sLo_z_eq_rLo c k.val, len680_eq_rLen c k.val, if_neg hy0, if_neg hy0]

theorem fetch_in (t : Fin cfg0.N) : (cfg0.win (0 : Fin 2)).fetch t = true := by rw [fin_N t]; rfl

theorem pre_unpack (c : Dev nD) :
    bodyPre m ρ c ⊢ iprop(∃ (K : Dev nD × CIx → ℕ) (W : Waits sig Unit) (fo : Buf (Elt F) (ℓo c)),
      records m K ∗ levAts L lv ∗ owes (c : Thread nD τ) (O₀ c) W
        ∗ atPos ER (barCell c) 0 ∅ 0 ∗ atPos ER (locCell c) 0 ∅ 0 ∗ cred (tallyAt (barCell c) () 3)
        ∗ dutyTok ER (barCell (peer 0 c)) 0 0 ∗ dutyTok ER (barCell (peer 1 c)) 0 1 ∗ dutyTok ER (barCell (peer 2 c)) 0 2
        ∗ dutyTok ER (locCell c) 0 0
        ∗ (AtF (F := F) c 0 (ge 0) ∗ AtF (F := F) c 1 (ge 0) ∗ AtF (F := F) c 2 (ge 0) ∗ AtF (F := F) c 3 (ge 0)
            ∗ AtF (F := F) c 4 (ge 0) ∗ AtF (F := F) c 5 (ge 0))
        ∗ (TokF (F := F) c 0 (ge 0) ∗ TokF (F := F) c 1 (ge 0) ∗ TokF (F := F) c 2 (ge 0))
        ∗ (CrR (F := F) c 0 (ge 0) ∗ CrR (F := F) c 1 (ge 0) ∗ CrR (F := F) c 2 (ge 0))
        ∗ (ℓx c ↦{fullShare} Xin m c) ∗ (ℓo c ↦{fullShare} fo)) := by
  unfold bodyPre Φ₀ start ghost linear Dat.owesAt Pipeline.owesWithin
  rw [show (dats m ρ 0 c).owed t₀.castSucc = O₀ c from rfl, ge_zero, bigSep_fin6, bigSep_fin3, bigSep_fin3, bigSep_fin3]
  iintro ⟨⟨⟨%K, HR, Hab, Hal, ⟨A0, A1, A2, A3, A4, A5⟩, ⟨T0, T1, T2⟩, Tl, ⟨F0, F1, F2⟩⟩, Hcb, ⟨C0, C1, C2⟩, Hlev⟩,
    ⟨%W, %hW, HO⟩, ⟨%d0, %g0, %hg0, Hx⟩, ⟨%d1, %g1, %hg1, Hout⟩⟩
  have hx : g0 = Xin m c := by rw [hg0]; unfold Dat.before; rw [if_pos (fetch_in t₀)]; rfl
  subst hx
  iexists K, W, g1
  iframe # ∗

theorem post_pack_y0 (c : Dev nD) (hy : yc c = 0) (K : Dev nD × CIx → ℕ) (W : Waits sig Unit) :
    iprop(records m K ∗ owes (c : Thread nD τ) 0 W ∗ semVal (locCell c) 0
        ∗ (ClF (F := F) c 0 (lt 16) ∗ ClF (F := F) c 1 (lt 16) ∗ ClF (F := F) c 2 (lt 16) ∗ ClF (F := F) c 3 (lt 16)
            ∗ ClF (F := F) c 4 (lt 16) ∗ ClF (F := F) c 5 (lt 16))
        ∗ (ℓx c ↦[rowsX 0 2048]{fullShare.left} Xin m c) ∗ SrcX m c (lt 16) ∗ XRest m c
        ∗ (ℓo c ↦[rowsO (2048 * xc c) 2048]{fullShare} Gout m c) ∗ Lnd m c 0 fullShare.left (lt 16) ∗ ZSrc m c (lt 16)
        ∗ Lnd m c 1 fullShare (lt 16) ∗ Lnd m c 2 fullShare (lt 16))
      ⊢ bodyPost m ρ c := by
  rw [lt_16, ZSrc_eq_y0 m c hy]
  unfold bodyPost Φ₁ Dat.owesAt Pipeline.owesWithin
  rw [show (dats m ρ 0 c).owed t₀.succ = 0 from rfl, bigSep_fin6]
  iintro ⟨#HR, HO, Hz, ⟨Z0, Z1, Z2, Z3, Z4, Z5⟩, Hxl, Hsx, Hxr, Hown, L0l, L0r, L1, L2⟩
  isplitl [Hz Z0 Z1 Z2 Z3 Z4 Z5]
  · iframe # ∗
  isplitl [HO]
  · iexists W
    isplitr; · ipureintro; exact fun _ _ => Or.inl trivial
    iexact HO
  isplitl [Hxl Hsx Hxr]
  · iexists _; isplitr; · (ipureintro; rfl)
    iapply (xin_split_bi m c).2
    iframe # ∗
  iexists _; isplitr; · (ipureintro; rfl)
  iapply (reassemble m c)
  isplitl [Hown]; · iexact Hown
  isplitl [L0l L0r]
  · iapply (Lnd_halves_bi m c 0 Finset.univ).1
    iframe # ∗
  iframe # ∗

theorem post_pack_y1 (c : Dev nD) (hy : yc c = 1) (K : Dev nD × CIx → ℕ) (W : Waits sig Unit) :
    iprop(records m K ∗ owes (c : Thread nD τ) 0 W ∗ semVal (locCell c) 0
        ∗ (ClF (F := F) c 0 (lt 16) ∗ ClF (F := F) c 1 (lt 16) ∗ ClF (F := F) c 2 (lt 16) ∗ ClF (F := F) c 3 (lt 16)
            ∗ ClF (F := F) c 4 (lt 16) ∗ ClF (F := F) c 5 (lt 16))
        ∗ (ℓx c ↦[rowsX 0 2048]{fullShare.left} Xin m c) ∗ SrcX m c (lt 16) ∗ XRest m c
        ∗ (ℓo c ↦[rowsO (2048 * xc c) 2048]{fullShare} Gout m c) ∗ Lnd m c 0 fullShare.left (lt 16) ∗ Lnd m c 0 fullShare.right (lt 16)
        ∗ Lnd m c 1 fullShare.left (lt 16) ∗ ZSrc m c (lt 16) ∗ Lnd m c 2 fullShare (lt 16))
      ⊢ bodyPost m ρ c := by
  rw [lt_16, ZSrc_eq_y1 m c hy]
  unfold bodyPost Φ₁ Dat.owesAt Pipeline.owesWithin
  rw [show (dats m ρ 0 c).owed t₀.succ = 0 from rfl, bigSep_fin6]
  iintro ⟨#HR, HO, Hz, ⟨Z0, Z1, Z2, Z3, Z4, Z5⟩, Hxl, Hsx, Hxr, Hown, L0l, L0r, L1l, L1r, L2⟩
  isplitl [Hz Z0 Z1 Z2 Z3 Z4 Z5]
  · iframe # ∗
  isplitl [HO]
  · iexists W
    isplitr; · ipureintro; exact fun _ _ => Or.inl trivial
    iexact HO
  isplitl [Hxl Hsx Hxr]
  · iexists _; isplitr; · (ipureintro; rfl)
    iapply (xin_split_bi m c).2
    iframe # ∗
  iexists _; isplitr; · (ipureintro; rfl)
  iapply (reassemble m c)
  isplitl [Hown]; · iexact Hown
  isplitl [L0l L0r]
  · iapply (Lnd_halves_bi m c 0 Finset.univ).1
    iframe # ∗
  isplitl [L1l L1r]
  · iapply (Lnd_halves_bi m c 1 Finset.univ).1
    iframe # ∗
  iexact L2

end Cert.Kernel.AG
end
-- ==== Proof.BodyLibK.lean ====
import proofs.«900679_g7700000000000680_dist_ag_v7x_xyz2x2x4_x_m2048_n512_f32_1_alg».proof.Proof.RegroupK
import proofs.«900679_g7700000000000680_dist_ag_v7x_xyz2x2x4_x_m2048_n512_f32_1_alg».proof.Proof.DevEqK

noncomputable section
namespace Cert.Kernel.AG
open Cert.Kernel Cert.Kernel.Gen Cert.AG Cert.Kernel.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

/-- A slice of `n` rows is worth what the cell of a copy of `n` rows expects. -/
theorem hamt_o (c : Dev nD) (a : Fin 6) (k : Fin 16) (n : ℕ) (h48 : n = 48 ∨ n = 40) (off : Fin 2 → ℕ)
    (h : ∀ a, off a + (Sn n).size a ≤ S4096x512.size a) (hl : lenAt c (semOf a k).val = n) :
    (oSl n off h).view.dmaCredit = amt c (semOf a k).val := by
  rw [amt_of_len c a k n hl]; rcases h48 with rfl | rfl <;> rfl
theorem hamt_x (c : Dev nD) (a : Fin 6) (k : Fin 16) (n : ℕ) (h48 : n = 48 ∨ n = 40) (off : Fin 2 → ℕ)
    (h : ∀ a, off a + (Sn n).size a ≤ S2048x512.size a) (hl : lenAt c (semOf a k).val = n) :
    (xSl n off h).view.dmaCredit = amt c (semOf a k).val := by
  rw [amt_of_len c a k n hl]; rcases h48 with rfl | rfl <;> rfl

/-- A chunk in place joins the chunks below it. -/
theorem Lnd_push (c : Dev nD) (d : Fin 3) (q : PosShare TreeShare) (k : ℕ) (hk : k < 16) :
    iprop((ℓo c ↦[rowsO (rLo c d k) (rLen c d k)]{q} Gout m c) ∗ Lnd m c d q (lt k)) ⊢ Lnd m c d q (lt (k + 1)) := by
  unfold Lnd; rw [push_lt _ k hk]
theorem lt16_ge0 : lt 16 = ge 0 := by decide

/-- The rows forwarded to the z neighbour are those received across x when y = 0, across y when y = 1. -/
theorem zsrc0 (c : Dev nD) (hy : yc c = 0) (k : ℕ) (q : PosShare TreeShare) :
    (ℓo c ↦[rowsO (rLo c 0 k) (rLen c 0 k)]{q} Gout m c : sProp 𝕄) ⊢ (ℓo c ↦[rowsO (sLo c 2 k) (len680 k)]{q} Gout m c) := by
  rw [sLo_z_eq_rLo, len680_eq_rLen c k, if_pos hy, if_pos hy]
theorem zsrc1 (c : Dev nD) (hy : yc c = 1) (k : ℕ) (q : PosShare TreeShare) :
    (ℓo c ↦[rowsO (rLo c 1 k) (rLen c 1 k)]{q} Gout m c : sProp 𝕄) ⊢ (ℓo c ↦[rowsO (sLo c 2 k) (len680 k)]{q} Gout m c) := by
  rw [sLo_z_eq_rLo, len680_eq_rLen c k, if_neg (by omega), if_neg (by omega)]

variable (K : Dev nD × CIx → ℕ)

/-- The start of every body: the three partners are told their slabs are free, their word comes back, and the own half is copied in place. -/
theorem prologue (c : Dev nD) (W : Waits sig Unit) (fo : Buf (Elt F) (ℓo c))
    (off : Fin 2 → ℕ) (h : ∀ a, off a + S2048x512.size a ≤ S4096x512.size a) (ho : off = ![2048 * xc c, 0])
    {hsrc : (xM : Memref sig .tc .vmem S2048x512 .f32).view.WordExact}
    {hdst : ((oM.slice (Rect.unit (s := S4096x512) off S2048x512.size h) (fun _ => rfl) : Memref sig .tc .vmem S2048x512 .f32)).view.WordExact}
    {hsem : DmaTarget.Typed (nD := nD) .vmem (.dma locS) (DmaTarget.here (p := (Proc.tc : Proc τ)) (oM.slice (Rect.unit (s := S4096x512) off S2048x512.size h) (fun _ => rfl) : Memref sig .tc .vmem S2048x512 .f32))}
    (k1 k2 k3 k4 : ℕ) (h1 : k1 = 1) (h2 : k2 = 1) (h3' : k3 = 1) (h4 : k4 = 3)
    {α : Type} {Q : α → sProp 𝕄} {kt : PUnit → Prog (TpuEff nD τ sig (Elt F) Λ₀ .tc) α} :
    iprop(records m K ∗ levAts L lv ∗ owes (c : Thread nD τ) (O₀ c) W ∗ atPos ER (barCell c) 0 ∅ 0 ∗ cred (tallyAt (barCell c) () 3)
        ∗ dutyTok ER (barCell (peer 0 c)) 0 0 ∗ dutyTok ER (barCell (peer 1 c)) 0 1 ∗ dutyTok ER (barCell (peer 2 c)) 0 2
        ∗ dutyTok ER (locCell c) 0 0 ∗ (ℓx c ↦{fullShare} Xin m c) ∗ (ℓo c ↦{fullShare} fo))
      ⊢ iprop(((owes (c : Thread nD τ) (owedX c 16) (insert (SemLoc.reg barS, ()) W) ∗ SrcX m c (ge 0) ∗ XRest m c
              ∗ DstF (F := F) c 0 (ge 0) ∗ DstF (F := F) c 1 (ge 0) ∗ DstF (F := F) c 2 (ge 0)
              ∗ cred (tallyAt (locCell c) () (amt c 98))
              ∗ CrS (F := F) c 0 (lt 0) ∗ CrS (F := F) c 1 (lt 0) ∗ CrS (F := F) c 2 (lt 0)
              ∗ ClF (F := F) c 0 (lt 0) ∗ ClF (F := F) c 1 (lt 0) ∗ ClF (F := F) c 2 (lt 0) ∗ ClF (F := F) c 3 (lt 0) ∗ ClF (F := F) c 4 (lt 0) ∗ ClF (F := F) c 5 (lt 0)
              ∗ Lnd m c 2 fullShare (lt 0)
              ∗ SrcX m c (lt 0) ∗ Lnd m c 0 fullShare.left (lt 0) ∗ ZSrc m c (lt 0))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal (Dev.tc (xp c) : Thread nD τ) barS k1) fun _ =>
                .op (.semSignal (Dev.tc (yp c) : Thread nD τ) barS k2) fun _ =>
                .op (.semSignal (Dev.tc (zb c) : Thread nD τ) barS k3) fun _ =>
                .op (.semWait barS k4) fun _ =>
                .op (.enqueueDma xM (DmaTarget.here (p := (Proc.tc : Proc τ)) (oM.slice (Rect.unit (s := S4096x512) off S2048x512.size h) (fun _ => rfl) : Memref sig .tc .vmem S2048x512 .f32)) (.dma locS) hsrc hdst hsem) kt) Q) := by
  rw [CrS_lt_zero, CrS_lt_zero, CrS_lt_zero, ClF_lt_zero, ClF_lt_zero, ClF_lt_zero, ClF_lt_zero, ClF_lt_zero, ClF_lt_zero,
    Lnd_lt_zero, SrcX_lt_zero, Lnd_lt_zero, ZSrc_lt_zero, ge_zero]
  iintro ⟨#HR, #Hlev, HO, Hab, Hcb, T0, T1, T2, Tl, Hx, Hout⟩ Hk
  ihave Hg := (give_away c fo) $$ Hout
  icases Hg with ⟨Hown, HB0, HB1, HB2⟩
  ihave Hxs := (xin_split_bi m c).1 $$ Hx
  icases Hxs with ⟨Hxl, HSrc, HXR⟩
  iapply (fstep_signal m K c (xp c) 0 rfl k1 h1 (owedX c 16 + tB c 2 + tB c 1) W) $$ [HB0 T0 HO]
  · isplitr; · iexact HR
    isplitl [HB0]; · iexact HB0
    isplitl [T0]; · iexact T0
    iexact HO
  iintro HO
  iapply (fstep_signal m K c (yp c) 1 rfl k2 h2 (owedX c 16 + tB c 2) W) $$ [HB1 T1 HO]
  · iframe # ∗
  iintro HO
  iapply (fstep_signal m K c (zb c) 2 rfl k3 h3' (owedX c 16) W) $$ [HB2 T2 HO]
  · iframe # ∗
  iintro HO
  iapply (fstep_bar_wait m K c k4 h4 (owedX c 16) W) $$ [Hcb Hab HO]
  · isplitr; · iexact HR
    isplitl [Hcb]; · iexact Hcb
    isplitl [Hab]; · iexact Hab
    isplitl [HO]; · iexact HO
    iapply (mayWait_bar (F := F) c); iexact Hlev
  iintro ⟨HO, HD0, HD1, HD2⟩
  iapply (fstep_loc_start m K c off h ho fo) $$ [Hxl Hown Tl]
  · iframe # ∗
  iintro Hcl
  iapply Hk
  isplitl [HO]; · iexact HO
  isplitl [HSrc]; · iexact HSrc
  isplitl [HXR]; · iexact HXR
  isplitl [HD0]; · iexact HD0
  isplitl [HD1]; · iexact HD1
  isplitl [HD2]; · iexact HD2
  isplitl [Hcl]; · iexact Hcl
  repeat (isplitr; · iempintro)
  iempintro

open Lean in
set_option hygiene false in
/-- Copy `k` across x on a device of class `i` (classes 1 to 4: y = 0 or 1, z even or odd). -/
macro "xsend " i:num k:num : tactic => do
  let (iv, kv) := (i.getNat, k.getNat)
  let t := 5 + (iv - 1) / 2
  let n : Nat := if kv < t then 48 else 40
  let row : Nat := if kv < t then 48 * kv else 48 * t + 40 * (kv - t)
  let sb : Nat := #[0, 1368, 680, 680][iv - 1]!
  let dev := mkIdent (Name.mkSimple s!"k0_dev{48 * (iv - 1) + 4 + kv}")
  let devlt := mkIdent (Name.mkSimple s!"k0_dev{48 * (iv - 1) + 4 + kv}_lt")
  let offF := mkIdent (Name.mkSimple s!"k0_off{if kv < t then 4 * iv - 2 else 4 * iv - 1}")
  `(tactic| (
    iapply (fstep_xsend m K c ⟨$dev c, $devlt c hc⟩ $(quote (15 - kv)) $(quote kv) rfl (by decide) $(quote n) ![$(quote (sb + row)), 0] ($offF c (BitVec.ofNat 32 $(quote row)))
        (dev_eq $dev xp (by decide +kernel) c _) (by class_decide c hy hp) _ _
        (by class_decide c hy hp) (by class_decide c hy hp) _) $$ [HSrc HD0 HT0 HCs0 HO]
    · iframe # ∗
    iintro ⟨HSrc, HD0, HT0, HCs0, HO⟩))

open Lean in
set_option hygiene false in
/-- Wait for chunk `k` from across x; its rows come back in two half shares. -/
macro "xrecv " i:num k:num : tactic => do
  let kv := k.getNat
  let n : Nat := if kv < 5 + (i.getNat - 1) / 2 then 48 else 40
  `(tactic| (
    iapply (fstep_wait_recv m K c $(quote kv) (by decide) 0
        (hamt_o c 1 ⟨$(quote kv), by decide⟩ $(quote n) (by decide) _ _ (by class_decide c hy hp))
        (owedL c ($(quote (15 - kv)) + 1)) _) $$ [HCr0 HA1 HC1 HO]
    · isplitr; · iexact HR
      isplitl [HCr0]; · iexact HCr0
      isplitl [HA1]; · iexact HA1
      isplitl [HC1]; · iexact HC1
      isplitl [HO]; · iexact HO
      iapply (mayWait_xr (F := F) c $(quote (15 - kv)) (by decide)); iexact Hlev
    iintro ⟨HCr0, HA1, HC1, HO, Hl, Hr⟩))

open Lean in
set_option hygiene false in
/-- Forward chunk `k` across y from the left half share of the rows received across x. -/
macro "ysend " i:num k:num : tactic => do
  let (iv, kv) := (i.getNat, k.getNat)
  let t := 5 + (iv - 1) / 2
  let n : Nat := if kv < t then 48 else 40
  let row : Nat := if kv < t then 48 * kv else 48 * t + 40 * (kv - t)
  let sb : Nat := #[0, 1368, 680, 680][iv - 1]!
  let dev := mkIdent (Name.mkSimple s!"k0_dev{48 * (iv - 1) + 20 + 2 * kv}")
  let devlt := mkIdent (Name.mkSimple s!"k0_dev{48 * (iv - 1) + 20 + 2 * kv}_lt")
  let offF := mkIdent (Name.mkSimple s!"k0_off{if kv < t then 4 * iv else 4 * iv + 1}")
  let tail ← if iv ≤ 2 then `(tactic| skip) else `(tactic| (
    ihave HLXr := (Lnd_push m c 0 fullShare.right $(quote kv) (by decide)) $$ [Hr HLXr]
    · isplitl [Hr] <;> iassumption))
  `(tactic| (
    iapply (fstep_ysend m K c ⟨$dev c, $devlt c hc⟩ $(quote (15 - kv)) $(quote kv) rfl (by decide) $(quote n)
        ($offF c (BitVec.ofNat 32 $(quote sb)) (BitVec.ofNat 32 $(quote row))) ($offF c (BitVec.ofNat 32 $(quote sb)) (BitVec.ofNat 32 $(quote row)))
        (dev_eq $dev yp (by decide +kernel) c _) (by class_decide c hy hp) _ _
        (by class_decide c hy hp) (by class_decide c hy hp) _) $$ [Hl HD1 HT1 HCs1 HO]
    · iframe # ∗
    iintro ⟨HD1, HT1, HCs1, HO⟩
    $tail))

open Lean in
set_option hygiene false in
/-- Forward chunk `k` of the first y block's slab to the z neighbour. -/
macro "zsend " i:num k:num : tactic => do
  let (iv, kv) := (i.getNat, k.getNat)
  let n : Nat := if kv < 5 then 48 else 40
  let row : Nat := if kv < 5 then 48 * kv else 240 + 40 * (kv - 5)
  let sb : Nat := 1368 * ((iv - 1) % 2)
  let dev := mkIdent (Name.mkSimple s!"k0_dev{48 * (iv - 1) + 21 + 2 * kv}")
  let devlt := mkIdent (Name.mkSimple s!"k0_dev{48 * (iv - 1) + 21 + 2 * kv}_lt")
  let offF := mkIdent (Name.mkSimple s!"k0_off{if kv < 5 then 4 * iv else 4 * iv + 1}")
  let zsrc := mkIdent (Name.mkSimple (if iv ≤ 2 then "zsrc0" else "zsrc1"))
  let tail ← if iv ≤ 2 then `(tactic| skip) else `(tactic| (
    ihave HLYl := (Lnd_push m c 1 fullShare.left $(quote kv) (by decide)) $$ [Hl HLYl]
    · isplitl [Hl] <;> iassumption))
  `(tactic| (
    iapply (fstep_zsend m K c ⟨$dev c, $devlt c hc⟩ $(quote (15 - kv)) $(quote kv) rfl (by decide) $(quote n)
        ($offF c (BitVec.ofNat 32 $(quote sb)) (BitVec.ofNat 32 $(quote row))) ($offF c (BitVec.ofNat 32 $(quote sb)) (BitVec.ofNat 32 $(quote row)))
        (dev_eq $dev zb (by decide +kernel) c _) rfl _ _
        (by class_decide c hy hp) (by class_decide c hy hp) _) $$ [Hr HD2 HT2 HCs2 HO]
    · isplitr; · iexact HR
      isplitl [Hr]; · iapply ($zsrc m c hy $(quote kv) _); iexact Hr
      iframe # ∗
    iintro ⟨HD2, HT2, HCs2, HO⟩
    $tail))

open Lean in
set_option hygiene false in
/-- Wait for chunk `k` from across y; when y = 1 its forward to the z neighbour is still owed. -/
macro "yrecv " i:num k:num : tactic => do
  let (iv, kv) := (i.getNat, k.getNat)
  let n : Nat := if kv < 6 - (iv - 1) / 2 then 48 else 40
  if iv ≤ 2 then `(tactic| (
    iapply (fstep_wait_recv_end m K c $(quote kv) (by decide) 1
        (hamt_o c 3 ⟨$(quote kv), by decide⟩ $(quote n) (by decide) _ _ (by class_decide c hy hp)) _) $$ [HCr1 HA3 HC3 HLY HO]
    · isplitr; · iexact HR
      isplitl [HCr1]; · iexact HCr1
      isplitl [HA3]; · iexact HA3
      isplitl [HC3]; · iexact HC3
      isplitl [HLY]; · iexact HLY
      iexact HO
    iintro ⟨HCr1, HA3, HC3, HLY, HO⟩))
  else `(tactic| (
    iapply (fstep_wait_recv m K c $(quote kv) (by decide) 1
        (hamt_o c 3 ⟨$(quote kv), by decide⟩ $(quote n) (by decide) _ _ (by class_decide c hy hp))
        (owedL c $(quote (15 - kv)) + tR c 2 ⟨$(quote kv), by decide⟩) _) $$ [HCr1 HA3 HC3 HO]
    · isplitr; · iexact HR
      isplitl [HCr1]; · iexact HCr1
      isplitl [HA3]; · iexact HA3
      isplitl [HC3]; · iexact HC3
      isplitl [HO]; · iexact HO
      iapply (mayWait_yr (F := F) c $(quote (15 - kv)) (by decide)); iexact Hlev
    iintro ⟨HCr1, HA3, HC3, HO, Hl, Hr⟩))

open Lean in
set_option hygiene false in
/-- Wait for chunk `k` from the z neighbour. -/
macro "zrecv " i:num k:num : tactic => do
  let kv := k.getNat
  let n : Nat := if kv < 5 then 48 else 40
  `(tactic| (
    iapply (fstep_wait_recv_end m K c $(quote kv) (by decide) 2
        (hamt_o c 5 ⟨$(quote kv), by decide⟩ $(quote n) (by decide) _ _ (by class_decide c hy hp)) _) $$ [HCr2 HA5 HC5 HLZ HO]
    · isplitr; · iexact HR
      isplitl [HCr2]; · iexact HCr2
      isplitl [HA5]; · iexact HA5
      isplitl [HC5]; · iexact HC5
      isplitl [HLZ]; · iexact HLZ
      iexact HO
    iintro ⟨HCr2, HA5, HC5, HLZ, HO⟩))

open Lean in
set_option hygiene false in
/-- Wait for the departure of chunk `k` across x: the lent share of the input rows returns. -/
macro "xswait " i:num k:num : tactic => do
  let kv := k.getNat
  let n : Nat := if kv < 5 + (i.getNat - 1) / 2 then 48 else 40
  `(tactic| (
    iapply (fstep_wait_send_x m K c $(quote kv) (by decide)
        (hamt_x c 0 ⟨$(quote kv), by decide⟩ $(quote n) (by decide) _ _ (by class_decide c hy hp)) _) $$ [HCs0 HA0 HC0 HSX HO]
    · isplitr; · iexact HR
      isplitl [HCs0]; · iexact HCs0
      isplitl [HA0]; · iexact HA0
      isplitl [HC0]; · iexact HC0
      isplitl [HSX]; · iexact HSX
      iexact HO
    iintro ⟨HCs0, HA0, HC0, HSX, HO⟩))

open Lean in
set_option hygiene false in
/-- Wait for the departure of chunk `k` across y. -/
macro "yswait " i:num k:num : tactic => do
  let kv := k.getNat
  let n : Nat := if kv < 5 + (i.getNat - 1) / 2 then 48 else 40
  `(tactic| (
    iapply (fstep_wait_send_y m K c $(quote kv) (by decide)
        (hamt_o c 2 ⟨$(quote kv), by decide⟩ $(quote n) (by decide) _ _ (by class_decide c hy hp)) _) $$ [HCs1 HA2 HC2 HLXl HO]
    · isplitr; · iexact HR
      isplitl [HCs1]; · iexact HCs1
      isplitl [HA2]; · iexact HA2
      isplitl [HC2]; · iexact HC2
      isplitl [HLXl]; · iexact HLXl
      iexact HO
    iintro ⟨HCs1, HA2, HC2, HLXl, HO⟩))

open Lean in
set_option hygiene false in
/-- Wait for the departure of chunk `k` to the z neighbour. -/
macro "zswait " i:num k:num : tactic => do
  let kv := k.getNat
  let n : Nat := if kv < 5 then 48 else 40
  `(tactic| (
    iapply (fstep_wait_send_z m K c $(quote kv) (by decide)
        (hamt_o c 4 ⟨$(quote kv), by decide⟩ $(quote n) (by decide) _ _ (by class_decide c hy hp)) _) $$ [HCs2 HA4 HC4 HZS HO]
    · isplitr; · iexact HR
      isplitl [HCs2]; · iexact HCs2
      isplitl [HA4]; · iexact HA4
      isplitl [HC4]; · iexact HC4
      isplitl [HZS]; · iexact HZS
      iexact HO
    iintro ⟨HCs2, HA4, HC4, HZS, HO⟩))

end Cert.Kernel.AG
end
-- ==== Proof.Body1K.lean ====
import proofs.«900679_g7700000000000680_dist_ag_v7x_xyz2x2x4_x_m2048_n512_f32_1_alg».proof.Proof.BodyLibK

noncomputable section
namespace Cert.Kernel.AG
open Cert.Kernel Cert.Kernel.Gen Cert.AG Cert.Kernel.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

set_option maxHeartbeats 12800000 in
set_option maxRecDepth 65536 in
theorem body_c1 (c : Dev nD) (hc : k0_cond1 c = 1#1) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  sl_unfold [cc0_body, k0_part197, k0_part198]
  simp only [semSignalWord, semWaitWord, Prog.lift, Prog.bind_op, Prog.bind_ret, Prog.pure_eq_ret, wp_deviceId]
  simp only [conds_of_cond1 hc, ↓reduceDIte]
  sl_unfold [k0_part49, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48]
  simp only [Prog.lift, Prog.bind_op, Prog.bind_ret, Prog.pure_eq_ret]
  simp only [dev1_eq, dev2_eq, dev3_eq]
  have hy : yc c = 0 := ((cond1_iff c).1 hc).1
  have hp : pc c = 0 := ((cond1_iff c).1 hc).2
  iintro Hpre
  ihave H := (pre_unpack m ρ c) $$ Hpre
  icases H with ⟨%K, %W, %fo, #HR, #Hlev, HO, Hab, Hal, Hcb, T0, T1, T2, Tl, ⟨HA0, HA1, HA2, HA3, HA4, HA5⟩, ⟨HT0, HT1, HT2⟩, ⟨HCr0, HCr1, HCr2⟩, Hx, Hout⟩
  iapply (prologue m K c W fo (k0_off1 c) _ (off1_eq c) _ _ _ _ rfl rfl rfl rfl) $$ [HO Hab Hcb T0 T1 T2 Tl Hx Hout]
  · iframe # ∗
  iintro ⟨HO, HSrc, HXR, HD0, HD1, HD2, Hcl, HCs0, HCs1, HCs2, HC0, HC1, HC2, HC3, HC4, HC5, HLZ, HSX, HLXl, HZS⟩
  ihave HLY : Lnd m c 1 fullShare (lt 0) $$ []
  · rw [Lnd_lt_zero]; iempintro
  xsend 1 0
  xsend 1 1
  xsend 1 2
  xsend 1 3
  xsend 1 4
  xsend 1 5
  xsend 1 6
  xsend 1 7
  xsend 1 8
  xsend 1 9
  xsend 1 10
  xsend 1 11
  xsend 1 12
  xsend 1 13
  xsend 1 14
  xsend 1 15
  xrecv 1 0
  ysend 1 0
  zsend 1 0
  xrecv 1 1
  ysend 1 1
  zsend 1 1
  xrecv 1 2
  ysend 1 2
  zsend 1 2
  xrecv 1 3
  ysend 1 3
  zsend 1 3
  xrecv 1 4
  ysend 1 4
  zsend 1 4
  xrecv 1 5
  ysend 1 5
  zsend 1 5
  xrecv 1 6
  ysend 1 6
  zsend 1 6
  xrecv 1 7
  ysend 1 7
  zsend 1 7
  xrecv 1 8
  ysend 1 8
  zsend 1 8
  xrecv 1 9
  ysend 1 9
  zsend 1 9
  xrecv 1 10
  ysend 1 10
  zsend 1 10
  xrecv 1 11
  ysend 1 11
  zsend 1 11
  xrecv 1 12
  ysend 1 12
  zsend 1 12
  xrecv 1 13
  ysend 1 13
  zsend 1 13
  xrecv 1 14
  ysend 1 14
  zsend 1 14
  xrecv 1 15
  ysend 1 15
  zsend 1 15
  ihave Htmp := (Entails.of_eq (congrArg (CrS (F := F) c 0) lt16_ge0)) $$ HCs0
  irename Htmp => HCs0
  ihave Htmp := (Entails.of_eq (congrArg (CrS (F := F) c 1) lt16_ge0)) $$ HCs1
  irename Htmp => HCs1
  ihave Htmp := (Entails.of_eq (congrArg (CrS (F := F) c 2) lt16_ge0)) $$ HCs2
  irename Htmp => HCs2
  yrecv 1 0
  yrecv 1 1
  yrecv 1 2
  yrecv 1 3
  yrecv 1 4
  yrecv 1 5
  yrecv 1 6
  yrecv 1 7
  yrecv 1 8
  yrecv 1 9
  yrecv 1 10
  yrecv 1 11
  yrecv 1 12
  yrecv 1 13
  yrecv 1 14
  yrecv 1 15
  zrecv 1 0
  zrecv 1 1
  zrecv 1 2
  zrecv 1 3
  zrecv 1 4
  zrecv 1 5
  zrecv 1 6
  zrecv 1 7
  zrecv 1 8
  zrecv 1 9
  zrecv 1 10
  zrecv 1 11
  zrecv 1 12
  zrecv 1 13
  zrecv 1 14
  zrecv 1 15
  xswait 1 0
  xswait 1 1
  xswait 1 2
  xswait 1 3
  xswait 1 4
  xswait 1 5
  xswait 1 6
  xswait 1 7
  xswait 1 8
  xswait 1 9
  xswait 1 10
  xswait 1 11
  xswait 1 12
  xswait 1 13
  xswait 1 14
  xswait 1 15
  yswait 1 0
  yswait 1 1
  yswait 1 2
  yswait 1 3
  yswait 1 4
  yswait 1 5
  yswait 1 6
  yswait 1 7
  yswait 1 8
  yswait 1 9
  yswait 1 10
  yswait 1 11
  yswait 1 12
  yswait 1 13
  yswait 1 14
  yswait 1 15
  zswait 1 0
  zswait 1 1
  zswait 1 2
  zswait 1 3
  zswait 1 4
  zswait 1 5
  zswait 1 6
  zswait 1 7
  zswait 1 8
  zswait 1 9
  zswait 1 10
  zswait 1 11
  zswait 1 12
  zswait 1 13
  zswait 1 14
  zswait 1 15
  iapply (fstep_loc_wait m K c ((credit_loc (k0_off1 c) _).trans (amt_98 c).symm) _) $$ [Hcl Hal HO]
  · iframe # ∗
  iintro ⟨HO, Hz, Hown, HxL⟩
  rw [wp_ret]
  imodintro
  iapply (post_pack_y0 m ρ c hy K _)
  iframe # ∗
  isplitl [HC0]; · iexact HC0
  isplitl [HC1]; · iexact HC1
  isplitl [HC2]; · iexact HC2
  isplitl [HC3]; · iexact HC3
  isplitl [HC4]; · iexact HC4
  iexact HC5
end Cert.Kernel.AG
end
-- ==== Proof.Body2K.lean ====
import proofs.«900679_g7700000000000680_dist_ag_v7x_xyz2x2x4_x_m2048_n512_f32_1_alg».proof.Proof.BodyLibK

noncomputable section
namespace Cert.Kernel.AG
open Cert.Kernel Cert.Kernel.Gen Cert.AG Cert.Kernel.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

set_option maxHeartbeats 12800000 in
set_option maxRecDepth 65536 in
theorem body_c2 (c : Dev nD) (hc : k0_cond2 c = 1#1) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  sl_unfold [cc0_body, k0_part197, k0_part198]
  simp only [semSignalWord, semWaitWord, Prog.lift, Prog.bind_op, Prog.bind_ret, Prog.pure_eq_ret, wp_deviceId]
  simp only [conds_of_cond2 hc, ↓reduceDIte]
  sl_unfold [k0_part98, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, k0_part72, k0_part73, k0_part74, k0_part75, k0_part76, k0_part77, k0_part78, k0_part79, k0_part80, k0_part81, k0_part82, k0_part83, k0_part84, k0_part85, k0_part86, k0_part87, k0_part88, k0_part89, k0_part90, k0_part91, k0_part92, k0_part93, k0_part94, k0_part95, k0_part96, k0_part97]
  simp only [Prog.lift, Prog.bind_op, Prog.bind_ret, Prog.pure_eq_ret]
  simp only [dev1_eq, dev2_eq, dev3_eq]
  have hy : yc c = 0 := ((cond2_iff c).1 hc).1
  have hp : pc c = 1 := ((cond2_iff c).1 hc).2
  iintro Hpre
  ihave H := (pre_unpack m ρ c) $$ Hpre
  icases H with ⟨%K, %W, %fo, #HR, #Hlev, HO, Hab, Hal, Hcb, T0, T1, T2, Tl, ⟨HA0, HA1, HA2, HA3, HA4, HA5⟩, ⟨HT0, HT1, HT2⟩, ⟨HCr0, HCr1, HCr2⟩, Hx, Hout⟩
  iapply (prologue m K c W fo (k0_off1 c) _ (off1_eq c) _ _ _ _ rfl rfl rfl rfl) $$ [HO Hab Hcb T0 T1 T2 Tl Hx Hout]
  · iframe # ∗
  iintro ⟨HO, HSrc, HXR, HD0, HD1, HD2, Hcl, HCs0, HCs1, HCs2, HC0, HC1, HC2, HC3, HC4, HC5, HLZ, HSX, HLXl, HZS⟩
  ihave HLY : Lnd m c 1 fullShare (lt 0) $$ []
  · rw [Lnd_lt_zero]; iempintro
  xsend 2 0
  xsend 2 1
  xsend 2 2
  xsend 2 3
  xsend 2 4
  xsend 2 5
  xsend 2 6
  xsend 2 7
  xsend 2 8
  xsend 2 9
  xsend 2 10
  xsend 2 11
  xsend 2 12
  xsend 2 13
  xsend 2 14
  xsend 2 15
  xrecv 2 0
  ysend 2 0
  zsend 2 0
  xrecv 2 1
  ysend 2 1
  zsend 2 1
  xrecv 2 2
  ysend 2 2
  zsend 2 2
  xrecv 2 3
  ysend 2 3
  zsend 2 3
  xrecv 2 4
  ysend 2 4
  zsend 2 4
  xrecv 2 5
  ysend 2 5
  zsend 2 5
  xrecv 2 6
  ysend 2 6
  zsend 2 6
  xrecv 2 7
  ysend 2 7
  zsend 2 7
  xrecv 2 8
  ysend 2 8
  zsend 2 8
  xrecv 2 9
  ysend 2 9
  zsend 2 9
  xrecv 2 10
  ysend 2 10
  zsend 2 10
  xrecv 2 11
  ysend 2 11
  zsend 2 11
  xrecv 2 12
  ysend 2 12
  zsend 2 12
  xrecv 2 13
  ysend 2 13
  zsend 2 13
  xrecv 2 14
  ysend 2 14
  zsend 2 14
  xrecv 2 15
  ysend 2 15
  zsend 2 15
  ihave Htmp := (Entails.of_eq (congrArg (CrS (F := F) c 0) lt16_ge0)) $$ HCs0
  irename Htmp => HCs0
  ihave Htmp := (Entails.of_eq (congrArg (CrS (F := F) c 1) lt16_ge0)) $$ HCs1
  irename Htmp => HCs1
  ihave Htmp := (Entails.of_eq (congrArg (CrS (F := F) c 2) lt16_ge0)) $$ HCs2
  irename Htmp => HCs2
  yrecv 2 0
  yrecv 2 1
  yrecv 2 2
  yrecv 2 3
  yrecv 2 4
  yrecv 2 5
  yrecv 2 6
  yrecv 2 7
  yrecv 2 8
  yrecv 2 9
  yrecv 2 10
  yrecv 2 11
  yrecv 2 12
  yrecv 2 13
  yrecv 2 14
  yrecv 2 15
  zrecv 2 0
  zrecv 2 1
  zrecv 2 2
  zrecv 2 3
  zrecv 2 4
  zrecv 2 5
  zrecv 2 6
  zrecv 2 7
  zrecv 2 8
  zrecv 2 9
  zrecv 2 10
  zrecv 2 11
  zrecv 2 12
  zrecv 2 13
  zrecv 2 14
  zrecv 2 15
  xswait 2 0
  xswait 2 1
  xswait 2 2
  xswait 2 3
  xswait 2 4
  xswait 2 5
  xswait 2 6
  xswait 2 7
  xswait 2 8
  xswait 2 9
  xswait 2 10
  xswait 2 11
  xswait 2 12
  xswait 2 13
  xswait 2 14
  xswait 2 15
  yswait 2 0
  yswait 2 1
  yswait 2 2
  yswait 2 3
  yswait 2 4
  yswait 2 5
  yswait 2 6
  yswait 2 7
  yswait 2 8
  yswait 2 9
  yswait 2 10
  yswait 2 11
  yswait 2 12
  yswait 2 13
  yswait 2 14
  yswait 2 15
  zswait 2 0
  zswait 2 1
  zswait 2 2
  zswait 2 3
  zswait 2 4
  zswait 2 5
  zswait 2 6
  zswait 2 7
  zswait 2 8
  zswait 2 9
  zswait 2 10
  zswait 2 11
  zswait 2 12
  zswait 2 13
  zswait 2 14
  zswait 2 15
  iapply (fstep_loc_wait m K c ((credit_loc (k0_off1 c) _).trans (amt_98 c).symm) _) $$ [Hcl Hal HO]
  · iframe # ∗
  iintro ⟨HO, Hz, Hown, HxL⟩
  rw [wp_ret]
  imodintro
  iapply (post_pack_y0 m ρ c hy K _)
  iframe # ∗
  isplitl [HC0]; · iexact HC0
  isplitl [HC1]; · iexact HC1
  isplitl [HC2]; · iexact HC2
  isplitl [HC3]; · iexact HC3
  isplitl [HC4]; · iexact HC4
  iexact HC5
end Cert.Kernel.AG
end
-- ==== Proof.Body3K.lean ====
import proofs.«900679_g7700000000000680_dist_ag_v7x_xyz2x2x4_x_m2048_n512_f32_1_alg».proof.Proof.BodyLibK

noncomputable section
namespace Cert.Kernel.AG
open Cert.Kernel Cert.Kernel.Gen Cert.AG Cert.Kernel.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

set_option maxHeartbeats 12800000 in
set_option maxRecDepth 65536 in
theorem body_c3 (c : Dev nD) (hc : k0_cond3 c = 1#1) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  sl_unfold [cc0_body, k0_part197, k0_part198]
  simp only [semSignalWord, semWaitWord, Prog.lift, Prog.bind_op, Prog.bind_ret, Prog.pure_eq_ret, wp_deviceId]
  simp only [conds_of_cond3 hc, ↓reduceDIte]
  sl_unfold [k0_part147, k0_part99, k0_part100, k0_part101, k0_part102, k0_part103, k0_part104, k0_part105, k0_part106, k0_part107, k0_part108, k0_part109, k0_part110, k0_part111, k0_part112, k0_part113, k0_part114, k0_part115, k0_part116, k0_part117, k0_part118, k0_part119, k0_part120, k0_part121, k0_part122, k0_part123, k0_part124, k0_part125, k0_part126, k0_part127, k0_part128, k0_part129, k0_part130, k0_part131, k0_part132, k0_part133, k0_part134, k0_part135, k0_part136, k0_part137, k0_part138, k0_part139, k0_part140, k0_part141, k0_part142, k0_part143, k0_part144, k0_part145, k0_part146]
  simp only [Prog.lift, Prog.bind_op, Prog.bind_ret, Prog.pure_eq_ret]
  simp only [dev1_eq, dev2_eq, dev3_eq]
  have hy : yc c = 1 := ((cond3_iff c).1 hc).1
  have hp : pc c = 0 := ((cond3_iff c).1 hc).2
  iintro Hpre
  ihave H := (pre_unpack m ρ c) $$ Hpre
  icases H with ⟨%K, %W, %fo, #HR, #Hlev, HO, Hab, Hal, Hcb, T0, T1, T2, Tl, ⟨HA0, HA1, HA2, HA3, HA4, HA5⟩, ⟨HT0, HT1, HT2⟩, ⟨HCr0, HCr1, HCr2⟩, Hx, Hout⟩
  iapply (prologue m K c W fo (k0_off1 c) _ (off1_eq c) _ _ _ _ rfl rfl rfl rfl) $$ [HO Hab Hcb T0 T1 T2 Tl Hx Hout]
  · iframe # ∗
  iintro ⟨HO, HSrc, HXR, HD0, HD1, HD2, Hcl, HCs0, HCs1, HCs2, HC0, HC1, HC2, HC3, HC4, HC5, HLZ, HSX, HLXl, HZS⟩
  ihave HLXr : Lnd m c 0 fullShare.right (lt 0) $$ []
  · rw [Lnd_lt_zero]; iempintro
  ihave HLYl : Lnd m c 1 fullShare.left (lt 0) $$ []
  · rw [Lnd_lt_zero]; iempintro
  xsend 3 0
  xsend 3 1
  xsend 3 2
  xsend 3 3
  xsend 3 4
  xsend 3 5
  xsend 3 6
  xsend 3 7
  xsend 3 8
  xsend 3 9
  xsend 3 10
  xsend 3 11
  xsend 3 12
  xsend 3 13
  xsend 3 14
  xsend 3 15
  xrecv 3 0
  ysend 3 0
  yrecv 3 0
  zsend 3 0
  xrecv 3 1
  ysend 3 1
  yrecv 3 1
  zsend 3 1
  xrecv 3 2
  ysend 3 2
  yrecv 3 2
  zsend 3 2
  xrecv 3 3
  ysend 3 3
  yrecv 3 3
  zsend 3 3
  xrecv 3 4
  ysend 3 4
  yrecv 3 4
  zsend 3 4
  xrecv 3 5
  ysend 3 5
  yrecv 3 5
  zsend 3 5
  xrecv 3 6
  ysend 3 6
  yrecv 3 6
  zsend 3 6
  xrecv 3 7
  ysend 3 7
  yrecv 3 7
  zsend 3 7
  xrecv 3 8
  ysend 3 8
  yrecv 3 8
  zsend 3 8
  xrecv 3 9
  ysend 3 9
  yrecv 3 9
  zsend 3 9
  xrecv 3 10
  ysend 3 10
  yrecv 3 10
  zsend 3 10
  xrecv 3 11
  ysend 3 11
  yrecv 3 11
  zsend 3 11
  xrecv 3 12
  ysend 3 12
  yrecv 3 12
  zsend 3 12
  xrecv 3 13
  ysend 3 13
  yrecv 3 13
  zsend 3 13
  xrecv 3 14
  ysend 3 14
  yrecv 3 14
  zsend 3 14
  xrecv 3 15
  ysend 3 15
  yrecv 3 15
  zsend 3 15
  rw [owedL_zero]
  zrecv 3 0
  zrecv 3 1
  zrecv 3 2
  zrecv 3 3
  zrecv 3 4
  zrecv 3 5
  zrecv 3 6
  zrecv 3 7
  zrecv 3 8
  zrecv 3 9
  zrecv 3 10
  zrecv 3 11
  zrecv 3 12
  zrecv 3 13
  zrecv 3 14
  zrecv 3 15
  ihave HCs0 := (Entails.of_eq (congrArg (CrS (F := F) c 0) lt16_ge0)) $$ HCs0
  ihave HCs1 := (Entails.of_eq (congrArg (CrS (F := F) c 1) lt16_ge0)) $$ HCs1
  ihave HCs2 := (Entails.of_eq (congrArg (CrS (F := F) c 2) lt16_ge0)) $$ HCs2
  xswait 3 0
  xswait 3 1
  xswait 3 2
  xswait 3 3
  xswait 3 4
  xswait 3 5
  xswait 3 6
  xswait 3 7
  xswait 3 8
  xswait 3 9
  xswait 3 10
  xswait 3 11
  xswait 3 12
  xswait 3 13
  xswait 3 14
  xswait 3 15
  yswait 3 0
  yswait 3 1
  yswait 3 2
  yswait 3 3
  yswait 3 4
  yswait 3 5
  yswait 3 6
  yswait 3 7
  yswait 3 8
  yswait 3 9
  yswait 3 10
  yswait 3 11
  yswait 3 12
  yswait 3 13
  yswait 3 14
  yswait 3 15
  zswait 3 0
  zswait 3 1
  zswait 3 2
  zswait 3 3
  zswait 3 4
  zswait 3 5
  zswait 3 6
  zswait 3 7
  zswait 3 8
  zswait 3 9
  zswait 3 10
  zswait 3 11
  zswait 3 12
  zswait 3 13
  zswait 3 14
  zswait 3 15
  iapply (fstep_loc_wait m K c ((credit_loc _ _).trans (amt_98 c).symm) _) $$ [Hcl Hal HO]
  · iframe # ∗
  iintro ⟨HO, Hz, Hown, Hxl⟩
  rw [wp_ret]
  imodintro
  iapply (post_pack_y1 m ρ c hy K _)
  iframe # ∗
  isplitl [HC0]; · iexact HC0
  isplitl [HC1]; · iexact HC1
  isplitl [HC2]; · iexact HC2
  isplitl [HC3]; · iexact HC3
  isplitl [HC4]; · iexact HC4
  iexact HC5

end Cert.Kernel.AG
end
-- ==== Proof.Body4K.lean ====
import proofs.«900679_g7700000000000680_dist_ag_v7x_xyz2x2x4_x_m2048_n512_f32_1_alg».proof.Proof.BodyLibK

noncomputable section
namespace Cert.Kernel.AG
open Cert.Kernel Cert.Kernel.Gen Cert.AG Cert.Kernel.AGDev
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

set_option maxHeartbeats 12800000 in
set_option maxRecDepth 65536 in
theorem body_c4 (c : Dev nD) (hc : k0_cond4 c = 1#1) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  sl_unfold [cc0_body, k0_part197, k0_part198]
  simp only [semSignalWord, semWaitWord, Prog.lift, Prog.bind_op, Prog.bind_ret, Prog.pure_eq_ret, wp_deviceId]
  simp only [conds_of_cond4 hc, ↓reduceDIte]
  sl_unfold [k0_part196, k0_part148, k0_part149, k0_part150, k0_part151, k0_part152, k0_part153, k0_part154, k0_part155, k0_part156, k0_part157, k0_part158, k0_part159, k0_part160, k0_part161, k0_part162, k0_part163, k0_part164, k0_part165, k0_part166, k0_part167, k0_part168, k0_part169, k0_part170, k0_part171, k0_part172, k0_part173, k0_part174, k0_part175, k0_part176, k0_part177, k0_part178, k0_part179, k0_part180, k0_part181, k0_part182, k0_part183, k0_part184, k0_part185, k0_part186, k0_part187, k0_part188, k0_part189, k0_part190, k0_part191, k0_part192, k0_part193, k0_part194, k0_part195]
  simp only [Prog.lift, Prog.bind_op, Prog.bind_ret, Prog.pure_eq_ret]
  simp only [dev1_eq, dev2_eq, dev3_eq]
  have hy : yc c = 1 := ((cond4_iff c).1 hc).1
  have hp : pc c = 1 := ((cond4_iff c).1 hc).2
  iintro Hpre
  ihave H := (pre_unpack m ρ c) $$ Hpre
  icases H with ⟨%K, %W, %fo, #HR, #Hlev, HO, Hab, Hal, Hcb, T0, T1, T2, Tl, ⟨HA0, HA1, HA2, HA3, HA4, HA5⟩, ⟨HT0, HT1, HT2⟩, ⟨HCr0, HCr1, HCr2⟩, Hx, Hout⟩
  iapply (prologue m K c W fo (k0_off1 c) _ (off1_eq c) _ _ _ _ rfl rfl rfl rfl) $$ [HO Hab Hcb T0 T1 T2 Tl Hx Hout]
  · iframe # ∗
  iintro ⟨HO, HSrc, HXR, HD0, HD1, HD2, Hcl, HCs0, HCs1, HCs2, HC0, HC1, HC2, HC3, HC4, HC5, HLZ, HSX, HLXl, HZS⟩
  ihave HLXr : Lnd m c 0 fullShare.right (lt 0) $$ []
  · rw [Lnd_lt_zero]; iempintro
  ihave HLYl : Lnd m c 1 fullShare.left (lt 0) $$ []
  · rw [Lnd_lt_zero]; iempintro
  xsend 4 0
  xsend 4 1
  xsend 4 2
  xsend 4 3
  xsend 4 4
  xsend 4 5
  xsend 4 6
  xsend 4 7
  xsend 4 8
  xsend 4 9
  xsend 4 10
  xsend 4 11
  xsend 4 12
  xsend 4 13
  xsend 4 14
  xsend 4 15
  xrecv 4 0
  ysend 4 0
  yrecv 4 0
  zsend 4 0
  xrecv 4 1
  ysend 4 1
  yrecv 4 1
  zsend 4 1
  xrecv 4 2
  ysend 4 2
  yrecv 4 2
  zsend 4 2
  xrecv 4 3
  ysend 4 3
  yrecv 4 3
  zsend 4 3
  xrecv 4 4
  ysend 4 4
  yrecv 4 4
  zsend 4 4
  xrecv 4 5
  ysend 4 5
  yrecv 4 5
  zsend 4 5
  xrecv 4 6
  ysend 4 6
  yrecv 4 6
  zsend 4 6
  xrecv 4 7
  ysend 4 7
  yrecv 4 7
  zsend 4 7
  xrecv 4 8
  ysend 4 8
  yrecv 4 8
  zsend 4 8
  xrecv 4 9
  ysend 4 9
  yrecv 4 9
  zsend 4 9
  xrecv 4 10
  ysend 4 10
  yrecv 4 10
  zsend 4 10
  xrecv 4 11
  ysend 4 11
  yrecv 4 11
  zsend 4 11
  xrecv 4 12
  ysend 4 12
  yrecv 4 12
  zsend 4 12
  xrecv 4 13
  ysend 4 13
  yrecv 4 13
  zsend 4 13
  xrecv 4 14
  ysend 4 14
  yrecv 4 14
  zsend 4 14
  xrecv 4 15
  ysend 4 15
  yrecv 4 15
  zsend 4 15
  rw [owedL_zero]
  zrecv 4 0
  zrecv 4 1
  zrecv 4 2
  zrecv 4 3
  zrecv 4 4
  zrecv 4 5
  zrecv 4 6
  zrecv 4 7
  zrecv 4 8
  zrecv 4 9
  zrecv 4 10
  zrecv 4 11
  zrecv 4 12
  zrecv 4 13
  zrecv 4 14
  zrecv 4 15
  ihave HCs0 := (Entails.of_eq (congrArg (CrS (F := F) c 0) lt16_ge0)) $$ HCs0
  ihave HCs1 := (Entails.of_eq (congrArg (CrS (F := F) c 1) lt16_ge0)) $$ HCs1
  ihave HCs2 := (Entails.of_eq (congrArg (CrS (F := F) c 2) lt16_ge0)) $$ HCs2
  xswait 4 0
  xswait 4 1
  xswait 4 2
  xswait 4 3
  xswait 4 4
  xswait 4 5
  xswait 4 6
  xswait 4 7
  xswait 4 8
  xswait 4 9
  xswait 4 10
  xswait 4 11
  xswait 4 12
  xswait 4 13
  xswait 4 14
  xswait 4 15
  yswait 4 0
  yswait 4 1
  yswait 4 2
  yswait 4 3
  yswait 4 4
  yswait 4 5
  yswait 4 6
  yswait 4 7
  yswait 4 8
  yswait 4 9
  yswait 4 10
  yswait 4 11
  yswait 4 12
  yswait 4 13
  yswait 4 14
  yswait 4 15
  zswait 4 0
  zswait 4 1
  zswait 4 2
  zswait 4 3
  zswait 4 4
  zswait 4 5
  zswait 4 6
  zswait 4 7
  zswait 4 8
  zswait 4 9
  zswait 4 10
  zswait 4 11
  zswait 4 12
  zswait 4 13
  zswait 4 14
  zswait 4 15
  iapply (fstep_loc_wait m K c ((credit_loc _ _).trans (amt_98 c).symm) _) $$ [Hcl Hal HO]
  · iframe # ∗
  iintro ⟨HO, Hz, Hown, Hxl⟩
  rw [wp_ret]
  imodintro
  iapply (post_pack_y1 m ρ c hy K _)
  iframe # ∗
  isplitl [HC0]; · iexact HC0
  isplitl [HC1]; · iexact HC1
  isplitl [HC2]; · iexact HC2
  isplitl [HC3]; · iexact HC3
  isplitl [HC4]; · iexact HC4
  iexact HC5

end Cert.Kernel.AG
end
-- ==== Proof.BodiesK.lean ====
import proofs.«900679_g7700000000000680_dist_ag_v7x_xyz2x2x4_x_m2048_n512_f32_1_alg».proof.Proof.LaunchK
import proofs.«900679_g7700000000000680_dist_ag_v7x_xyz2x2x4_x_m2048_n512_f32_1_alg».proof.Proof.DevEqK
import proofs.«900679_g7700000000000680_dist_ag_v7x_xyz2x2x4_x_m2048_n512_f32_1_alg».proof.Proof.Body1K
import proofs.«900679_g7700000000000680_dist_ag_v7x_xyz2x2x4_x_m2048_n512_f32_1_alg».proof.Proof.Body2K
import proofs.«900679_g7700000000000680_dist_ag_v7x_xyz2x2x4_x_m2048_n512_f32_1_alg».proof.Proof.Body3K
import proofs.«900679_g7700000000000680_dist_ag_v7x_xyz2x2x4_x_m2048_n512_f32_1_alg».proof.Proof.Body4K
noncomputable section
namespace Cert.Kernel.AG
open Cert.Kernel Cert.Kernel.Gen Cert.AG
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

open Cert.Kernel.AGDev

theorem body_all (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6) (fun _ => bodyPost m ρ c) := by
  rcases cond_cases c with h | h | h | h
  · exact body_c1 m ρ c h
  · exact body_c2 m ρ c h
  · exact body_c3 m ρ c h
  · exact body_c4 m ρ c h

theorem body_obligation (c : Dev nD) : BodyObligation (dats (F := F) m ρ 0 c) (defs₀ (F := F)) 𝒱₀ () Set.univ :=
  body_obligation_of m ρ c (body_all m ρ c)

end Cert.Kernel.AG
end
-- ==== Proof.lean ====
import proofs.«900679_g7700000000000680_dist_ag_v7x_xyz2x2x4_x_m2048_n512_f32_1_alg».proof.Defs
import proofs.«900679_g7700000000000680_dist_ag_v7x_xyz2x2x4_x_m2048_n512_f32_1_alg».proof.Proof.Gen.Kernel
import proofs.«900679_g7700000000000680_dist_ag_v7x_xyz2x2x4_x_m2048_n512_f32_1_alg».proof.Proof.Gen.KernelIdeal
import proofs.«900679_g7700000000000680_dist_ag_v7x_xyz2x2x4_x_m2048_n512_f32_1_alg».proof.Proof.Gen.ReferenceIdeal
import proofs.«900679_g7700000000000680_dist_ag_v7x_xyz2x2x4_x_m2048_n512_f32_1_alg».proof.Proof.Gen.Pre_finite_inputs_Kernel
import proofs.«900679_g7700000000000680_dist_ag_v7x_xyz2x2x4_x_m2048_n512_f32_1_alg».proof.Proof.Gen.Pre_finite_inputs_ReferenceIdeal
import proofs.«900679_g7700000000000680_dist_ag_v7x_xyz2x2x4_x_m2048_n512_f32_1_alg».proof.Proof.ClaimsAlg
import proofs.«900679_g7700000000000680_dist_ag_v7x_xyz2x2x4_x_m2048_n512_f32_1_alg».proof.Proof.ClaimsK
import proofs.«900679_g7700000000000680_dist_ag_v7x_xyz2x2x4_x_m2048_n512_f32_1_alg».proof.Proof.Bodies
import proofs.«900679_g7700000000000680_dist_ag_v7x_xyz2x2x4_x_m2048_n512_f32_1_alg».proof.Proof.BodiesK
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Kernel.AG.frame_ki_of (fun F _ m ρ c => Cert.Kernel.AG.body_obligation m ρ c),
    Cert.KernelIdeal.AG.frame_ki_of (fun F _ m ρ c => Cert.KernelIdeal.AG.body_obligation m ρ c),
    Cert.AGRef.frame_ri,
    trivial,
    Cert.KernelIdeal.AG.algebraic_of (fun F _ m ρ c => Cert.KernelIdeal.AG.body_obligation m ρ c)⟩

end Cert.Proof

end
